-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S_ : Shape := ⟨0, ![]⟩
abbrev S1x3200000 : Shape := ⟨2, ![1, 3200000]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  slices_S2x3200000_S1x3200000_0_0 : S2x3200000.Slices ![0, 0] S1x3200000
  bcast_S_S1x3200000 : S_.BroadcastsInDim S1x3200000 (![] : Fin 0 → Fin S1x3200000.rank)
  reducesTo_S1x3200000_S_d0_1 : S1x3200000.ReducesTo [0, 1] S_

variable [Facts]

def fn_part1 {F : FTy → Type} [FloatOps F] (main_arg4 : FVec F S1 .f32) (main_arg5 : IVec S2x3200000 32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : IVec S1x3200000 32 := (extractStridedSlice S1x3200000 ![0, 0] · slices_S2x3200000_S1x3200000_0_0) main_arg5
  let main_c_8 : IVec S_ 32 := constantI S_ 32 0#32
  let main_v25 : IVec S1x3200000 32 := broadcastInDim S1x3200000 ![] bcast_S_S1x3200000 main_c_8
  let main_v26 : IVec S1x3200000 1 := cmpi .sge main_v24 main_v25
  let main_v27 : IVec S1x3200000 32 := (extractStridedSlice S1x3200000 ![0, 0] · slices_S2x3200000_S1x3200000_0_0) main_arg5
  let main_c_9 : IVec S_ 32 := constantI S_ 32 100000#32
  let main_v28 : IVec S1x3200000 32 := broadcastInDim S1x3200000 ![] bcast_S_S1x3200000 main_c_9
  let main_v29 : IVec S1x3200000 1 := cmpi .slt main_v27 main_v28
  let main_v30 : IVec S1x3200000 1 := andi main_v26 main_v29
  let main_c_10 : IVec S_ 1 := constantI S_ 1 1#1
  let main_v31 : IVec S_ 1 := (fun x v => Host.reduce IntOp.andi x v reducesTo_S1x3200000_S_d0_1 h_S_) main_v30 main_c_10
  let main_v32 : IVec S_ 1 := andi main_v23 main_v31
  main_v32

def fn {F : FTy → Type} [FloatOps F] (main_arg0 : FVec F S100000x1 .f32) (main_arg1 : FVec F S1x16 .f32) (main_arg2 : FVec F S16 .f32) (main_arg3 : FVec F S16x1 .f32) (main_arg4 : FVec F S1 .f32) (main_arg5 : IVec S2x3200000 32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_arg5 main_v13 main_v16
-- ==== Kernel.lean ====
abbrev S100000x1 : Shape := ⟨2, ![100000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3301376 : Shape := ⟨1, ![3301376]⟩
abbrev S3300000x1 : Shape := ⟨2, ![3300000, 1]⟩
abbrev S3301376x1 : Shape := ⟨2, ![3301376, 1]⟩
abbrev S4096 : Shape := ⟨1, ![4096]⟩
abbrev S4096x1 : Shape := ⟨2, ![4096, 1]⟩
abbrev S2000x1 : Shape := ⟨2, ![2000, 1]⟩
abbrev S1x4096 : Shape := ⟨2, ![1, 4096]⟩
abbrev S2000x4096 : Shape := ⟨2, ![2000, 4096]⟩
abbrev S1x2000 : Shape := ⟨2, ![1, 2000]⟩
abbrev S4096x2000 : Shape := ⟨2, ![4096, 2000]⟩
abbrev S100000x16 : Shape := ⟨2, ![100000, 16]⟩
abbrev S3301376x16 : Shape := ⟨2, ![3301376, 16]⟩
abbrev S2000x16 : Shape := ⟨2, ![2000, 16]⟩
abbrev S4096x16 : Shape := ⟨2, ![4096, 16]⟩
abbrev S1x1 : Shape := ⟨2, ![1, 1]⟩

abbrev nBuf : Space → Nat
  | .hbm => 57
  | .vmem => 57
  | .smem => 0
  | _ => 0

abbrev bufTy : (tb : Table) → Fin (tcTables nBuf tb) → BufTy
  | .hbm, ⟨0, _⟩ => ⟨S100000x1, .f32⟩
  | .hbm, ⟨1, _⟩ => ⟨S1x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .i32⟩
  | .hbm, ⟨14, _⟩ => ⟨S_, .i32⟩
  | .hbm, ⟨15, _⟩ => ⟨S3301376, .i32⟩
  | .hbm, ⟨16, _⟩ => ⟨S_, .i32⟩
  | .hbm, ⟨17, _⟩ => ⟨S_, .i32⟩
  | .hbm, ⟨18, _⟩ => ⟨S3301376, .i32⟩
  | .hbm, ⟨19, _⟩ => ⟨S_, .f32⟩
  | .hbm, ⟨20, _⟩ => ⟨S3300000x1, .f32⟩
  | .hbm, ⟨21, _⟩ => ⟨S_, .i32⟩
  | .hbm, ⟨22, _⟩ => ⟨S_, .f32⟩
  | .hbm, ⟨23, _⟩ => ⟨S3301376x1, .f32⟩
  | .hbm, ⟨24, _⟩ => ⟨S_, .f32⟩
  | .hbm, ⟨25, _⟩ => ⟨S3301376x1, .f32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .i1⟩
  | .hbm, ⟨30, _⟩ => ⟨S100000x1, .f32⟩
  | .hbm, ⟨31, _⟩ => ⟨S_, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S3301376x1, .f32⟩
  | .hbm, ⟨36, _⟩ => ⟨S3301376x1, .f32⟩
  | .hbm, ⟨37, _⟩ => ⟨S3301376x1, .f32⟩
  | .hbm, ⟨38, _⟩ => ⟨S3301376x1, .f32⟩
  | .hbm, ⟨39, _⟩ => ⟨S100000x16, .f32⟩
  | .hbm, ⟨40, _⟩ => ⟨S_, .i32⟩
  | .hbm, ⟨41, _⟩ => ⟨S_, .f32⟩
  | .hbm, ⟨42, _⟩ => ⟨S100000x16, .f32⟩
  | .hbm, ⟨43, _⟩ => ⟨S3301376x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S100000x1, .f32⟩
  | .hbm, ⟨52, _⟩ => ⟨S3301376x1, .f32⟩
  | .hbm, ⟨53, _⟩ => ⟨S100000x1, .f32⟩
  | .hbm, ⟨54, _⟩ => ⟨S1x1, .f32⟩
  | .hbm, ⟨55, _⟩ => ⟨S100000x1, .f32⟩
  | .hbm, ⟨56, _⟩ => ⟨S100000x1, .f32⟩
  | .local _ .vmem, ⟨0, _⟩ => ⟨S4096, .i32⟩
  | .local _ .vmem, ⟨1, _⟩ => ⟨S4096, .i32⟩
  | .local _ .vmem, ⟨2, _⟩ => ⟨S4096x1, .f32⟩
  | .local _ .vmem, ⟨3, _⟩ => ⟨S4096x1, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S4096, .i32⟩
  | .local _ .vmem, ⟨8, _⟩ => ⟨S4096, .i32⟩
  | .local _ .vmem, ⟨9, _⟩ => ⟨S2000x1, .f32⟩
  | .local _ .vmem, ⟨10, _⟩ => ⟨S2000x1, .f32⟩
  | .local _ .vmem, ⟨11, _⟩ => ⟨S4096x1, .f32⟩
  | .local _ .vmem, ⟨12, _⟩ => ⟨S4096x1, .f32⟩
  | .local _ .vmem, ⟨13, _⟩ => ⟨S4096x1, .f32⟩
  | .local _ .vmem, ⟨14, _⟩ => ⟨S4096x1, .f32⟩
  | .local _ .vmem, ⟨15, _⟩ => ⟨S4096x1, .f32⟩
  | .local _ .vmem, ⟨16, _⟩ => ⟨S4096, .i32⟩
  | .local _ .vmem, ⟨17, _⟩ => ⟨S4096, .i32⟩
  | .local _ .vmem, ⟨18, _⟩ => ⟨S2000x1, .f32⟩
  | .local _ .vmem, ⟨19, _⟩ => ⟨S2000x1, .f32⟩
  | .local _ .vmem, ⟨20, _⟩ => ⟨S4096x1, .f32⟩
  | .local _ .vmem, ⟨21, _⟩ => ⟨S4096x1, .f32⟩
  | .local _ .vmem, ⟨22, _⟩ => ⟨S4096x1, .f32⟩
  | .local _ .vmem, ⟨23, _⟩ => ⟨S4096x1, .f32⟩
  | .local _ .vmem, ⟨24, _⟩ => ⟨S4096x1, .f32⟩
  | .local _ .vmem, ⟨25, _⟩ => ⟨S4096, .i32⟩
  | .local _ .vmem, ⟨26, _⟩ => ⟨S4096, .i32⟩
  | .local _ .vmem, ⟨27, _⟩ => ⟨S2000x16, .f32⟩
  | .local _ .vmem, ⟨28, _⟩ => ⟨S2000x16, .f32⟩
  | .local _ .vmem, ⟨29, _⟩ => ⟨S4096x1, .f32⟩
  | .local _ .vmem, ⟨30, _⟩ => ⟨S4096x1, .f32⟩
  | .local _ .vmem, ⟨31, _⟩ => ⟨S4096x16, .f32⟩
  | .local _ .vmem, ⟨32, _⟩ => ⟨S4096x16, .f32⟩
  | .local _ .vmem, ⟨33, _⟩ => ⟨S4096x16, .f32⟩
  | .local _ .vmem, ⟨34, _⟩ => ⟨S4096, .i32⟩
  | .local _ .vmem, ⟨35, _⟩ => ⟨S4096, .i32⟩
  | .local _ .vmem, ⟨36, _⟩ => ⟨S4096x16, .f32⟩
  | .local _ .vmem, ⟨37, _⟩ => ⟨S4096x16, .f32⟩
  | .local _ .vmem, ⟨38, _⟩ => ⟨S2000x16, .f32⟩
  | .local _ .vmem, ⟨39, _⟩ => ⟨S2000x16, .f32⟩
  | .local _ .vmem, ⟨40, _⟩ => ⟨S2000x16, .f32⟩
  | .local _ .vmem, ⟨41, _⟩ => ⟨S4096, .i32⟩
  | .local _ .vmem, ⟨42, _⟩ => ⟨S4096, .i32⟩
  | .local _ .vmem, ⟨43, _⟩ => ⟨S2000x1, .f32⟩
  | .local _ .vmem, ⟨44, _⟩ => ⟨S2000x1, .f32⟩
  | .local _ .vmem, ⟨45, _⟩ => ⟨S4096x1, .f32⟩
  | .local _ .vmem, ⟨46, _⟩ => ⟨S4096x1, .f32⟩
  | .local _ .vmem, ⟨47, _⟩ => ⟨S4096x1, .f32⟩
  | .local _ .vmem, ⟨48, _⟩ => ⟨S4096x1, .f32⟩
  | .local _ .vmem, ⟨49, _⟩ => ⟨S4096x1, .f32⟩
  | .local _ .vmem, ⟨50, _⟩ => ⟨S4096, .i32⟩
  | .local _ .vmem, ⟨51, _⟩ => ⟨S4096, .i32⟩
  | .local _ .vmem, ⟨52, _⟩ => ⟨S4096x1, .f32⟩
  | .local _ .vmem, ⟨53, _⟩ => ⟨S4096x1, .f32⟩
  | .local _ .vmem, ⟨54, _⟩ => ⟨S2000x1, .f32⟩
  | .local _ .vmem, ⟨55, _⟩ => ⟨S2000x1, .f32⟩
  | .local _ .vmem, ⟨56, _⟩ => ⟨S2000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_call3_v0 : Ref sig .tc := ⟨.hbm, 32, rfl⟩
abbrev main_call3_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_call4_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call5_cst : Ref sig .tc := ⟨.hbm, 48, rfl⟩
abbrev main_call5_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc5_scratch0 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_scratch0 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49

abbrev nD : Nat := 1
abbrev τ : Topo := Topo.v7x

variable {F : FTy → Type} [FloatOps F]

abbrev grid0 : Pipeline.Grid := ⟨2, ![50, 806], ![false, false]⟩

def k0_cond2 (i : grid0.Coords) : BitVec 1 :=
  let arg1 : BitVec 32 := BitVec.ofNat 32 (i 1).val
  let c805_i32 : BitVec 32 := 805#32
  let v25 : BitVec 1 := Scalar.cmpi .eq arg1 c805_i32
  let v26 : BitVec 32 := Scalar.extui v25
  let c0_i32_7 : BitVec 32 := 0#32
  let v27 : BitVec 1 := Scalar.cmpi .ne v26 c0_i32_7
  v27

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![806, 50], ![false, false]⟩

def k1_cond2 (i : grid1.Coords) : BitVec 1 :=
  let arg1 : BitVec 32 := BitVec.ofNat 32 (i 1).val
  let c49_i32 : BitVec 32 := 49#32
  let v25 : BitVec 1 := Scalar.cmpi .eq arg1 c49_i32
  let v26 : BitVec 32 := Scalar.extui v25
  let c0_i32_7 : BitVec 32 := 0#32
  let v27 : BitVec 1 := Scalar.cmpi .ne v26 c0_i32_7
  v27

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![806, 50], ![false, false]⟩

def k2_cond2 (i : grid2.Coords) : BitVec 1 :=
  let arg1 : BitVec 32 := BitVec.ofNat 32 (i 1).val
  let c49_i32 : BitVec 32 := 49#32
  let v25 : BitVec 1 := Scalar.cmpi .eq arg1 c49_i32
  let v26 : BitVec 32 := Scalar.extui v25
  let c0_i32_7 : BitVec 32 := 0#32
  let v27 : BitVec 1 := Scalar.cmpi .ne v26 c0_i32_7
  v27

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4096x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![806, 50], ![false, false]⟩

def k3_cond2 (i : grid3.Coords) : BitVec 1 :=
  let arg1 : BitVec 32 := BitVec.ofNat 32 (i 1).val
  let c49_i32 : BitVec 32 := 49#32
  let v25 : BitVec 1 := Scalar.cmpi .eq arg1 c49_i32
  let v26 : BitVec 32 := Scalar.extui v25
  let c0_i32_7 : BitVec 32 := 0#32
  let v27 : BitVec 1 := Scalar.cmpi .ne v26 c0_i32_7
  v27

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S4096x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![50, 806], ![false, false]⟩

def k4_cond2 (i : grid4.Coords) : BitVec 1 :=
  let arg1 : BitVec 32 := BitVec.ofNat 32 (i 1).val
  let c805_i32 : BitVec 32 := 805#32
  let v25 : BitVec 1 := Scalar.cmpi .eq arg1 c805_i32
  let v26 : BitVec 32 := Scalar.extui v25
  let c0_i32_7 : BitVec 32 := 0#32
  let v27 : BitVec 1 := Scalar.cmpi .ne v26 c0_i32_7
  v27

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4096x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![806, 50], ![false, false]⟩

def k5_cond2 (i : grid5.Coords) : BitVec 1 :=
  let arg1 : BitVec 32 := BitVec.ofNat 32 (i 1).val
  let c49_i32 : BitVec 32 := 49#32
  let v25 : BitVec 1 := Scalar.cmpi .eq arg1 c49_i32
  let v26 : BitVec 32 := Scalar.extui v25
  let c0_i32_7 : BitVec 32 := 0#32
  let v27 : BitVec 1 := Scalar.cmpi .ne v26 c0_i32_7
  v27

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4096x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S4096x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![50, 806], ![false, false]⟩

def k6_cond2 (i : grid6.Coords) : BitVec 1 :=
  let arg1 : BitVec 32 := BitVec.ofNat 32 (i 1).val
  let c805_i32 : BitVec 32 := 805#32
  let v25 : BitVec 1 := Scalar.cmpi .eq arg1 c805_i32
  let v26 : BitVec 32 := Scalar.extui v25
  let c0_i32_7 : BitVec 32 := 0#32
  let v27 : BitVec 1 := Scalar.cmpi .ne v26 c0_i32_7
  v27

def cc6_transform_0 (i : grid6.Coords) : Fin 1 → Nat :=
  let arg0 : BitVec 32 := BitVec.ofNat 32 (i 0).val
  let arg1 : BitVec 32 := BitVec.ofNat 32 (i 1).val
  let c0_i32 : BitVec 32 := 0#32
  ![arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S4096 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S4096x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  pads_S3300000_S3301376_013760 : S3300000.Pads (![0] : Fin 1 → Nat) ![1376] ![0] S3301376
  h_S_ : 0 < S_.numel
  bcast_S_S3300000x1 : S_.BroadcastsInDim S3300000x1 (![] : Fin 0 → Fin S3300000x1.rank)
  pads_S3300000x1_S3301376x1_013760_000 : S3300000x1.Pads (![0, 0] : Fin 2 → Nat) ![1376, 0] ![0, 0] S3301376x1
  bcast_S_S3301376x1 : S_.BroadcastsInDim S3301376x1 (![] : Fin 0 → Fin S3301376x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1_d0_w32 : S2000x1.Iotas .tc 32 [0]
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S2000x1_S2000x4096 : S2000x1.Broadcasts S2000x4096
  broadcasts_S1x4096_S2000x4096 : S1x4096.Broadcasts S2000x4096
  natLt_1_32 : 1 < 32
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  bcast_S_S100000x1 : S_.BroadcastsInDim S100000x1 (![] : Fin 0 → Fin S100000x1.rank)
  iota_S1x2000_d1_w32 : S1x2000.Iotas .tc 32 [1]
  shapeCasts_S4096_S4096x1 : S4096.ShapeCasts S4096x1
  broadcasts_S4096x1_S4096x2000 : S4096x1.Broadcasts S4096x2000
  broadcasts_S1x2000_S4096x2000 : S1x2000.Broadcasts S4096x2000
  pads_S100000x16_S100000x16_000_000 : S100000x16.Pads (![0, 0] : Fin 2 → Nat) ![0, 0] ![0, 0] S100000x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  broadcasts_S4096x1_S4096x16 : S4096x1.Broadcasts S4096x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S2000x4096_S4096x1_S2000x1_1_0_0_1_n_n_wf : DotDims.WF S2000x4096 S4096x1 S2000x1 [1] [0] [0] [1] [] []
  dot_S4096x2000_S2000x1_S4096x1_1_0_0_1_n_n_wf : DotDims.WF S4096x2000 S2000x1 S4096x1 [1] [0] [0] [1] [] []
  dot_S100000x1_S1x16_S100000x16_1_0_0_1_n_n_wf : DotDims.WF S100000x1 S1x16 S100000x16 [1] [0] [0] [1] [] []
  dot_S4096x2000_S2000x16_S4096x16_1_0_0_1_n_n_wf : DotDims.WF S4096x2000 S2000x16 S4096x16 [1] [0] [0] [1] [] []
  dot_S2000x4096_S4096x16_S2000x16_1_0_0_1_n_n_wf : DotDims.WF S2000x4096 S4096x16 S2000x16 [1] [0] [0] [1] [] []
  dot_S100000x16_S16x1_S100000x1_1_0_0_1_n_n_wf : DotDims.WF S100000x16 S16x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S3301376.size a
  hwx0_0 : ∀ i : grid0.Coords, EltTy.bits .i32 = 32 ∨ (Rect.block (s := S3301376) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S3301376x1.size a
  hwx0_1 : ∀ i : grid0.Coords, EltTy.bits .f32 = 32 ∨ (Rect.block (s := S3301376x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S3301376.size a
  hwx1_0 : ∀ i : grid1.Coords, EltTy.bits .i32 = 32 ∨ (Rect.block (s := S3301376) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S3301376x1.size a
  hwx1_2 : ∀ i : grid1.Coords, EltTy.bits .f32 = 32 ∨ (Rect.block (s := S3301376x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S3301376x1.size a
  hwx1_3 : ∀ i : grid1.Coords, EltTy.bits .f32 = 32 ∨ (Rect.block (s := S3301376x1) S4096x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S3301376.size a
  hwx2_0 : ∀ i : grid2.Coords, EltTy.bits .i32 = 32 ∨ (Rect.block (s := S3301376) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S3301376x1.size a
  hwx2_2 : ∀ i : grid2.Coords, EltTy.bits .f32 = 32 ∨ (Rect.block (s := S3301376x1) S4096x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x1.size a ≤ S3301376x1.size a
  hwx2_3 : ∀ i : grid2.Coords, EltTy.bits .f32 = 32 ∨ (Rect.block (s := S3301376x1) S4096x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096.size a ≤ S3301376.size a
  hwx3_0 : ∀ i : grid3.Coords, EltTy.bits .i32 = 32 ∨ (Rect.block (s := S3301376) S4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x16.size a ≤ S100000x16.size a
  hwx3_1 : ∀ i : grid3.Coords, EltTy.bits .f32 = 32 ∨ (Rect.block (s := S100000x16) S2000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x1.size a ≤ S3301376x1.size a
  hwx3_2 : ∀ i : grid3.Coords, EltTy.bits .f32 = 32 ∨ (Rect.block (s := S3301376x1) S4096x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x16.size a ≤ S3301376x16.size a
  hwx3_3 : ∀ i : grid3.Coords, EltTy.bits .f32 = 32 ∨ (Rect.block (s := S3301376x16) S4096x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096.size a ≤ S3301376.size a
  hwx4_0 : ∀ i : grid4.Coords, EltTy.bits .i32 = 32 ∨ (Rect.block (s := S3301376) S4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x16.size a ≤ S3301376x16.size a
  hwx4_1 : ∀ i : grid4.Coords, EltTy.bits .f32 = 32 ∨ (Rect.block (s := S3301376x16) S4096x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x16.size a ≤ S100000x16.size a
  hwx4_2 : ∀ i : grid4.Coords, EltTy.bits .f32 = 32 ∨ (Rect.block (s := S100000x16) S2000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S3301376.size a
  hwx5_0 : ∀ i : grid5.Coords, EltTy.bits .i32 = 32 ∨ (Rect.block (s := S3301376) S4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x1.size a ≤ S3301376x1.size a
  hwx5_2 : ∀ i : grid5.Coords, EltTy.bits .f32 = 32 ∨ (Rect.block (s := S3301376x1) S4096x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x1.size a ≤ S3301376x1.size a
  hwx5_3 : ∀ i : grid5.Coords, EltTy.bits .f32 = 32 ∨ (Rect.block (s := S3301376x1) S4096x1.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096.size a ≤ S3301376.size a
  hwx6_0 : ∀ i : grid6.Coords, EltTy.bits .i32 = 32 ∨ (Rect.block (s := S3301376) S4096.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x1.size a ≤ S3301376x1.size a
  hwx6_1 : ∀ i : grid6.Coords, EltTy.bits .f32 = 32 ∨ (Rect.block (s := S3301376x1) S4096x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)

variable [Facts₀]

def dot_S2000x4096_S4096x1_S2000x1_1_0_0_1_n_n : DotDims S2000x4096 S4096x1 S2000x1 where
  lhsContracting := [1]
  rhsContracting := [0]
  lhsNonContracting := [0]
  rhsNonContracting := [1]
  lhsBatch := []
  rhsBatch := []
  wf := dot_S2000x4096_S4096x1_S2000x1_1_0_0_1_n_n_wf
def dot_S4096x2000_S2000x1_S4096x1_1_0_0_1_n_n : DotDims S4096x2000 S2000x1 S4096x1 where
  lhsContracting := [1]
  rhsContracting := [0]
  lhsNonContracting := [0]
  rhsNonContracting := [1]
  lhsBatch := []
  rhsBatch := []
  wf := dot_S4096x2000_S2000x1_S4096x1_1_0_0_1_n_n_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def dot_S4096x2000_S2000x16_S4096x16_1_0_0_1_n_n : DotDims S4096x2000 S2000x16 S4096x16 where
  lhsContracting := [1]
  rhsContracting := [0]
  lhsNonContracting := [0]
  rhsNonContracting := [1]
  lhsBatch := []
  rhsBatch := []
  wf := dot_S4096x2000_S2000x16_S4096x16_1_0_0_1_n_n_wf
def dot_S2000x4096_S4096x16_S2000x16_1_0_0_1_n_n : DotDims S2000x4096 S4096x16 S2000x16 where
  lhsContracting := [1]
  rhsContracting := [0]
  lhsNonContracting := [0]
  rhsNonContracting := [1]
  lhsBatch := []
  rhsBatch := []
  wf := dot_S2000x4096_S4096x16_S2000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

abbrev win0_0 : Pipeline.Window sig grid0 :=
  Pipeline.Window.ofSpec (Memref.whole main_v8) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v7) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4096x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v8) S4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4096x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S4096x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v7) S4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S2000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S4096x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S4096x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v8) S4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S4096x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S2000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v7) S4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20) S4096x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v30) S4096x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v8) S4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v30) S4096x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v31) S2000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S100000x1 : Shape := ⟨2, ![100000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S1x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x1, .f32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000, .f32⟩
  | .hbm, ⟨102, _⟩ => ⟨S3300000, .f32⟩
  | .hbm, ⟨103, _⟩ => ⟨S3300000x1, .f32⟩
  | .hbm, ⟨104, _⟩ => ⟨S_, .i32⟩
  | .hbm, ⟨105, _⟩ => ⟨S3300000, .i32⟩
  | .hbm, ⟨106, _⟩ => ⟨S3300000, .i1⟩
  | .hbm, ⟨107, _⟩ => ⟨S_, .i32⟩
  | .hbm, ⟨108, _⟩ => ⟨S3300000, .i32⟩
  | .hbm, ⟨109, _⟩ => ⟨S3300000, .i32⟩
  | .hbm, ⟨110, _⟩ => ⟨S3300000, .i32⟩
  | .hbm, ⟨111, _⟩ => ⟨S3300000x1, .i32⟩
  | .hbm, ⟨112, _⟩ => ⟨S3300000x1, .f32⟩
  | .hbm, ⟨113, _⟩ => ⟨S3300000x1, .f32⟩
  | .hbm, ⟨114, _⟩ => ⟨S_, .f32⟩
  | .hbm, ⟨115, _⟩ => ⟨S100000x1, .f32⟩
  | .hbm, ⟨116, _⟩ => ⟨S3300000x1, .i32⟩
  | .hbm, ⟨117, _⟩ => ⟨S100000x1, .f32⟩
  | .hbm, ⟨118, _⟩ => ⟨S1x1, .f32⟩
  | .hbm, ⟨119, _⟩ => ⟨S100000x1, .f32⟩
  | .hbm, ⟨120, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x1_S1x16_S100000x16_1_0_0_1_n_n_wf : DotDims.WF S100000x1 S1x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.RunCondB.lean ====
import proofs.«401816_j90890097918492_1_alg».proof.Proof.Gen.Kernel.Regions

noncomputable section

namespace Cert.Kernel.RunCond

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V14 m outs c) ∗ E 3 c) ⊢ R3.pre c)
    (hpost3 : ∀ c : Dev nD, R3.post c ⊢ iprop(StableHlo.held (c : Thread nD τ) (Pipeline.ucRefs τ sig) (V15 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V19 m outs c) ∗ E 5 c) ⊢ R5.pre c)
    (hpost5 : ∀ c : Dev nD, R5.post c ⊢ iprop(StableHlo.held (c : Thread nD τ) (Pipeline.ucRefs τ sig) (V20 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V20 m outs c) ∗ E 6 c) ⊢ R6.pre c)
    (hpost6 : ∀ c : Dev nD, R6.post c ⊢ iprop(StableHlo.held (c : Thread nD τ) (Pipeline.ucRefs τ sig) (V21 m outs c) ∗ E 7 c)) :
    θ_run defs (onTc (τ := τ) (main (F := F))) ⟨m, fun _ => 0, ρ⟩ (fun r => ∀ c : Dev nD,
      r.2.mem ((c.tc : Thread nD τ).loc main_v34) = V22 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          Prog.lift (.customCall (Pipeline.entry 4) ()),
          StableHlo.seq hostOps5,
          StableHlo.seq hostOps5_1,
          StableHlo.seq hostOps5_2,
          Prog.lift (.customCall (Pipeline.entry 5) ()),
          Prog.lift (.customCall (Pipeline.entry 6) ()),
          StableHlo.seq hostOps7 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, .rfl, .rfl, .rfl, .rfl, .rfl, .rfl, hpre0 c, hpost0 c, .rfl, hpre1 c, (hpost1 c).trans (hpre2 c), hpost2 c, .rfl, hpre3 c, (hpost3 c).trans (hpre4 c), hpost4 c, .rfl, .rfl, hpre5 c, (hpost5 c).trans (hpre6 c), hpost6 c, sep_mono .rfl (hE7 c)⟩)
    (hinit := ?_) (QY := fun c s => s.mem ((c.tc : Thread nD τ).loc main_v34) = V22 m outs c main_v34 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro
      have hh := fun (r : Ref sig .tc) hr => h (Proc.devRef .tc r) (Finset.mem_filter.mpr ⟨StableHlo.devRef_mem_tcRefs r, hr⟩)
      exact ⟨hh main_v34 (by decide), (hh main_arg0 (by decide)).trans (V22_main_arg0 m outs c),
        (hh main_arg1 (by decide)).trans (V22_main_arg1 m outs c), (hh main_arg2 (by decide)).trans (V22_main_arg2 m outs c),
        (hh main_arg3 (by decide)).trans (V22_main_arg3 m outs c), (hh main_arg4 (by decide)).trans (V22_main_arg4 m outs c),
        (hh main_arg5 (by decide)).trans (V22_main_arg5 m outs c)⟩
    · iexact HSI

end Cert.Kernel.RunCond

end
-- ==== Proof.FrameLib.lean ====
import Idealize.ShloMosaic.Lib.Pipeline.Frame
import Idealize.ShloMosaic.Lib.Pipeline.FrameBody
import Idealize.ShloMosaic.Lib.Pipeline.Value
import Idealize.ShloMosaic.Lib.Pipeline.Kit
import Idealize.ShloMosaic.Lib.Tactic

namespace Cert.FrameLib

open Idealize.ShloMosaic Idealize.ShloMosaic.TcCoe

/-- A word compared for equality, widened, compared with zero: the branch is taken exactly when the words are equal. -/
theorem cond_iff (x y : BitVec 32) :
    Scalar.cmpi .ne (Scalar.extui (Scalar.cmpi .eq x y)) 0#32 = 1#1 ↔ x = y := by
  by_cases h : x = y
  · subst h; simp [Scalar.cmpi, Scalar.extui, IntOp.cmpi]
  · simp [Scalar.cmpi, Scalar.extui, IntOp.cmpi, h, beq_eq_false_iff_ne.mpr h]

/-- The same for a grid coordinate against a literal, both below 2^32. -/
theorem cond_iff_nat {j k : ℕ} (hj : j < 2 ^ 32) (hk : k < 2 ^ 32) :
    Scalar.cmpi .ne (Scalar.extui (Scalar.cmpi .eq (BitVec.ofNat 32 j) (BitVec.ofNat 32 k))) 0#32 = 1#1 ↔ j = k :=
  (cond_iff _ _).trans ⟨fun h => by have := congrArg BitVec.toNat h; simp only [BitVec.toNat_ofNat] at this; omega, fun h => h ▸ rfl⟩

theorem hz1 : (![0] : Fin 1 → ℕ) = fun _ => 0 := by decide
theorem hz2 : (![0, 0] : Fin 2 → ℕ) = fun _ => 0 := by decide

variable {F : FTy → Type} [FloatOps F]

/-- After a list of writes whose last covers every index, a read returns that write's payload. -/
theorem read_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- A value carried along a grid of `N` points and restarted from `z` at every `P`-th point. -/
def accum {A : Type} (N P : ℕ) (z : A) (step : (t : ℕ) → t < N → A → A) : (t : ℕ) → t < N → A
  | 0, h => step 0 h z
  | n + 1, h => step (n + 1) h (if (n + 1) % P = 0 then z else accum N P z step n (Nat.lt_of_succ_lt h))

theorem accum_first {A : Type} {N P : ℕ} (z : A) (step : (t : ℕ) → t < N → A → A) (t : Fin N) (h : t.val % P = 0) :
    accum N P z step t.val t.isLt = step t.val t.isLt z := by
  obtain ⟨n, hn⟩ := t
  cases n with
  | zero => rfl
  | succ n => exact congrArg (step _ _) (if_pos h)

theorem accum_next {A : Type} {N P : ℕ} (z : A) (step : (t : ℕ) → t < N → A → A) (t : Fin N) (h : ¬t.val % P = 0) :
    accum N P z step t.val t.isLt
      = step t.val t.isLt (accum N P z step (t.val - 1) (Nat.lt_of_le_of_lt (Nat.sub_le _ _) t.isLt)) := by
  obtain ⟨n, hn⟩ := t
  cases n with
  | zero => exact absurd (Nat.zero_mod _) h
  | succ n => exact congrArg (step _ _) (if_neg h)

end Cert.FrameLib
-- ==== Proof.R0FrameB.lean ====
import proofs.«401816_j90890097918492_1_alg».proof.Proof.Gen.Kernel.Launch
import proofs.«401816_j90890097918492_1_alg».proof.Proof.Gen.Kernel.Skeleton
import proofs.«401816_j90890097918492_1_alg».proof.Proof.FrameLib

set_option maxRecDepth 16384

noncomputable section

namespace Cert.Kernel.R0

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

/-- The body at a point ≡ 0: the accumulator is zeroed, then updated by the two input blocks. -/
theorem run0_A (c : Dev nD) (i : grid0.Coords) (arg2 : Memref sig .tc .vmem S4096 .i32) (harg2 : arg2.IsWhole) (arg3 : Memref sig .tc .vmem S4096x1 .f32) (harg3 : arg3.IsWhole) (arg4 : Memref sig .tc .vmem S2000x1 .f32) (harg4 : arg4.IsWhole) (arg5 : Memref sig .tc .vmem S2000x1 .f32) (harg5 : arg5.IsWhole)
    (hc0 : cond0_0 i) (hc1 : ¬cond0_1 i)
    (x0 : Vec F S4096 .i32) (x1 : Vec F S4096x1 .f32) (P2 : sProp 𝕄) (E : Set ℕ) (K : PUnit → sProp 𝕄) :
    iprop(hold c arg2 x0 ∗ hold c arg3 x1 ∗ P2 ∗ (∃ d, hold c arg5 d)
        ∗ (iprop(hold c arg2 x0 ∗ hold c arg3 x1 ∗ P2 ∗ hold c arg5 (k0_pay2 i x0 x1 (k0_pay1 (F := F)))) -∗ K ⟨⟩))
      ⊢ wp frame (wpE (defs₀ (F := F)) Variants.none c none) E (cc0__scatter_body i arg2 harg2 arg3 harg3 arg4 harg4 arg5 harg5) K := by
  simp only [cc0__scatter_body_eq_skeleton]; unfold cc0__scatter_body_skel
  unfold hold owns
  iintro ⟨⟨%f0, %hf0, H0⟩, ⟨%f1, %hf1, H1⟩, H2, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  sl_unfold_words
  rw [read_whole _ _ hz2]
  simp only [View.readAt_eq_ld, Memref.IsWhole.read_unread, View.ld_unit_zero (S := S2000x1) hz2, View.ld_unit_zero (S := S4096x1) hz2, View.ld_unit_zero (S := S4096) hz1, View.readCov_unit_zero (S := S2000x1) _ hz2]

/-- At a point ≢ 0, 805: the accumulator is updated; whatever else is held (`P2`) is untouched. -/
theorem run0_B (c : Dev nD) (i : grid0.Coords) (arg2 : Memref sig .tc .vmem S4096 .i32) (harg2 : arg2.IsWhole) (arg3 : Memref sig .tc .vmem S4096x1 .f32) (harg3 : arg3.IsWhole) (arg4 : Memref sig .tc .vmem S2000x1 .f32) (harg4 : arg4.IsWhole) (arg5 : Memref sig .tc .vmem S2000x1 .f32) (harg5 : arg5.IsWhole)
    (hc0 : ¬cond0_0 i) (hc1 : ¬cond0_1 i)
    (x0 : Vec F S4096 .i32) (x1 : Vec F S4096x1 .f32) (xs : Vec F S2000x1 .f32) (P2 : sProp 𝕄) (E : Set ℕ) (K : PUnit → sProp 𝕄) :
    iprop(hold c arg2 x0 ∗ hold c arg3 x1 ∗ P2 ∗ hold c arg5 xs
        ∗ (iprop(hold c arg2 x0 ∗ hold c arg3 x1 ∗ P2 ∗ hold c arg5 (k0_pay2 i x0 x1 xs)) -∗ K ⟨⟩))
      ⊢ wp frame (wpE (defs₀ (F := F)) Variants.none c none) E (cc0__scatter_body i arg2 harg2 arg3 harg3 arg4 harg4 arg5 harg5) K := by
  simp only [cc0__scatter_body_eq_skeleton]; unfold cc0__scatter_body_skel
  unfold hold owns
  iintro ⟨⟨%f0, %hf0, H0⟩, ⟨%f1, %hf1, H1⟩, H2, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  rw [read_whole _ _ hz2]
  simp only [View.readAt_eq_ld, Memref.IsWhole.read_unread, View.ld_unit_zero (S := S2000x1) hz2, View.ld_unit_zero (S := S4096x1) hz2, View.ld_unit_zero (S := S4096) hz1, View.readCov_unit_zero (S := S2000x1) _ hz2]

/-- At a point ≡ 805: the accumulator is updated and copied into the output's block. -/
theorem run0_C (c : Dev nD) (i : grid0.Coords) (arg2 : Memref sig .tc .vmem S4096 .i32) (harg2 : arg2.IsWhole) (arg3 : Memref sig .tc .vmem S4096x1 .f32) (harg3 : arg3.IsWhole) (arg4 : Memref sig .tc .vmem S2000x1 .f32) (harg4 : arg4.IsWhole) (arg5 : Memref sig .tc .vmem S2000x1 .f32) (harg5 : arg5.IsWhole)
    (hc0 : ¬cond0_0 i) (hc1 : cond0_1 i)
    (x0 : Vec F S4096 .i32) (x1 : Vec F S4096x1 .f32) (xs : Vec F S2000x1 .f32) (E : Set ℕ) (K : PUnit → sProp 𝕄) :
    iprop(hold c arg2 x0 ∗ hold c arg3 x1 ∗ (∃ d, hold c arg4 d) ∗ hold c arg5 xs
        ∗ (iprop(hold c arg2 x0 ∗ hold c arg3 x1 ∗ hold c arg4 (k0_pay2 i x0 x1 xs) ∗ hold c arg5 (k0_pay2 i x0 x1 xs)) -∗ K ⟨⟩))
      ⊢ wp frame (wpE (defs₀ (F := F)) Variants.none c none) E (cc0__scatter_body i arg2 harg2 arg3 harg3 arg4 harg4 arg5 harg5) K := by
  simp only [cc0__scatter_body_eq_skeleton]; unfold cc0__scatter_body_skel
  unfold hold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_whole _ _ hz2]
    simp only [View.readAt_eq_ld, Memref.IsWhole.read_unread, View.ld_unit_zero (S := S2000x1) hz2, View.ld_unit_zero (S := S4096x1) hz2, View.ld_unit_zero (S := S4096) hz1, View.readCov_unit_zero (S := S2000x1) _ hz2]
  iexists _; isplitr
  swap; · iexact HS
  ipureintro
  sl_unfold_words
  rw [read_whole _ _ hz2]
  simp only [View.readAt_eq_ld, Memref.IsWhole.read_unread, View.ld_unit_zero (S := S2000x1) hz2, View.ld_unit_zero (S := S4096x1) hz2, View.ld_unit_zero (S := S4096) hz1, View.readCov_unit_zero (S := S2000x1) _ hz2]

theorem coord0_1_val (t : Fin cfg0.N) : ((grid0.coords t) 1).val = t.val % 806 := by
  show t.val / grid0.stride 1 % 806 = t.val % 806
  rw [show grid0.stride 1 = 1 from by decide, Nat.div_one]

/-- A branch that compares the inner coordinate with `k` is taken at the points ≡ k (mod 806). -/
theorem hcond0 (t : Fin cfg0.N) (k : ℕ) (hk : k < 2 ^ 32) :
    (Scalar.cmpi .ne (Scalar.extui (Scalar.cmpi .eq (BitVec.ofNat 32 ((grid0.coords t) 1).val) (BitVec.ofNat 32 k))) 0#32) = 1#1
      ↔ t.val % 806 = k :=
  (cond_iff_nat (Nat.lt_trans ((grid0.coords t) 1).isLt (by decide)) hk).trans (by rw [coord0_1_val])
theorem hcond0_0 (t : Fin cfg0.N) : cond0_0 (grid0.coords t) ↔ t.val % 806 = 0 := hcond0 t 0 (by decide)
theorem hcond0_1 (t : Fin cfg0.N) : cond0_1 (grid0.coords t) ↔ t.val % 806 = 805 := hcond0 t 805 (by decide)

theorem liveAt0_0 (i : grid0.Coords) : cfg0.idle 0 i = false := rfl
theorem liveAt0_1 (i : grid0.Coords) : cfg0.idle 1 i = false := rfl
theorem idleAt0_2 (i : grid0.Coords) (h : ¬cond0_1 i) : cfg0.idle 2 i = true := by
  show (!(k0_cond2 i == 1#1)) = true
  rw [Bool.not_eq_true', beq_eq_false_iff_ne]; exact h
theorem liveAt0_2 (i : grid0.Coords) (h : cond0_1 i) : cfg0.idle 2 i = false := by
  show (!(k0_cond2 i == 1#1)) = false
  rw [Bool.not_eq_false', beq_iff_eq]; exact h

theorem coord0_0_val (t : Fin cfg0.N) : ((grid0.coords t) 0).val = t.val / 806 % 50 := by
  show t.val / grid0.stride 0 % 50 = t.val / 806 % 50
  rw [show grid0.stride 0 = 806 from by decide]

theorem index0_2 (t : Fin cfg0.N) : (cfg0.win 2).index t = ![t.val / 806 % 50, 0] := by
  show cc0_transform_2 (grid0.coords t) = _
  unfold cc0_transform_2
  simp only [BitVec.toNat_ofNat, coord0_0_val]
  have h : t.val / 806 % 50 % 2 ^ 32 = t.val / 806 % 50 := by omega
  rw [h]

theorem flushAt0_2 (t : Fin cfg0.N) : (cfg0.win 2).flush t = true ↔ t.val % 806 = 805 := by
  have hN : cfg0.N = 40300 := N_0
  have hN1 : cfg0.grid.N = 40300 := N_0
  have hN2 : grid0.N = 40300 := N_0
  have ht : t.val < cfg0.N := t.isLt
  unfold Pipeline.Window.flush
  rw [show (cfg0.win 2).isOut = true from rfl, Bool.true_and, Bool.or_eq_true, decide_eq_true_eq, decide_eq_true_eq]
  constructor
  · rintro (h | ⟨h, hne⟩)
    · omega
    · rw [index0_2, index0_2] at hne
      by_contra hcon
      apply hne
      have e : (t.val + 1) / 806 = t.val / 806 := by omega
      show ![(t.val + 1) / 806 % 50, 0] = ![t.val / 806 % 50, 0]
      rw [e]
  · intro h
    by_cases hl : t.val + 1 = grid0.N
    · exact .inl hl
    · refine .inr ⟨by omega, ?_⟩
      rw [index0_2, index0_2]
      intro heq
      have h0' : (t.val + 1) / 806 % 50 = t.val / 806 % 50 := congrFun heq 0
      omega

abbrev stM0_0 (t : Fin cfg0.N) := (cfg0.win 0).stage (cfg0.slots t 0)
abbrev stM0_1 (t : Fin cfg0.N) := (cfg0.win 1).stage (cfg0.slots t 1)
abbrev stM0_2 (t : Fin cfg0.N) := (cfg0.win 2).stage (cfg0.slots t 2)

abbrev bodyOf0 (t : Fin cfg0.N) : Prog (TpuEff nD τ sig (Elt F) Λ₀ .tc) PUnit :=
  cc0__scatter_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `t`: updated by the point's two blocks from what the point before left, from zeros at every 806th point. -/
def acc0 (c : Dev nD) : (t : ℕ) → t < cfg0.N → Vec F S2000x1 .f32 :=
  accum cfg0.N 806 (k0_pay1 (F := F)) fun n h => k0_pay2 (grid0.coords ⟨n, h⟩) (iblk0 V c 0 ⟨n, h⟩) (iblk0 V c 1 ⟨n, h⟩)

theorem acc0_first (c : Dev nD) (t : Fin cfg0.N) (h : t.val % 806 = 0) :
    acc0 V c t.val t.isLt = k0_pay2 (grid0.coords t) (iblk0 V c 0 t) (iblk0 V c 1 t) (k0_pay1 (F := F)) :=
  accum_first _ _ t h

theorem acc0_next (c : Dev nD) (t : Fin cfg0.N) (h : ¬t.val % 806 = 0) :
    acc0 V c t.val t.isLt = k0_pay2 (grid0.coords t) (iblk0 V c 0 t) (iblk0 V c 1 t)
      (acc0 V c (t.val - 1) (Nat.lt_of_le_of_lt (Nat.sub_le _ _) t.isLt)) :=
  accum_next _ _ t h

abbrev scr0 : Memref sig .tc .vmem S2000x1 .f32 := Memref.whole cc0_scratch0

abbrev SR (c : Dev nD) : sProp 𝕄 :=
  Pipeline.scopedRest (Ix := Unit) (Name := ℕ) (U := UR sig nD τ) (Lvl := ℕ) (Val := Elt F) spec0 c
abbrev SRB (c : Dev nD) : sProp 𝕄 :=
  Pipeline.scopedRestBut (Ix := Unit) (Name := ℕ) (U := UR sig nD τ) (Lvl := ℕ) (Val := Elt F) spec0 c [cc0_scratch0]

theorem SR_eq (c : Dev nD) : SR (F := F) c = iprop((∃ d, hold c scr0 d) ∗ SRB c) := by
  unfold SR SRB; rw [scopedRest0_split]; simp only [hold, scr0, owns_whole]; try rfl

/-- The accumulator's part of the invariant before position `n`: at anything before the first point, then at what the point before left. -/
def Acc0 (c : Dev nD) : (n : ℕ) → n ≤ cfg0.N → sProp 𝕄
  | 0, _ => iprop(∃ d, hold c scr0 d)
  | n + 1, hn => hold c scr0 (acc0 V c n hn)

theorem Acc0_any (c : Dev nD) (n : ℕ) (h : n ≤ cfg0.N) : Acc0 V c n h ⊢ iprop(∃ d, hold c scr0 d) := by
  cases n with
  | zero => exact .rfl
  | succ n => show hold c scr0 (acc0 V c n h) ⊢ _; iintro H; iexists _; iexact H

theorem Acc0_pos (c : Dev nD) (n : ℕ) (h : n ≤ cfg0.N) (hz : n ≠ 0) :
    Acc0 V c n h = hold c scr0 (acc0 V c (n - 1) (by omega)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := iprop((∃ r, prngReg c r) ∗ Acc0 V c t.val (Nat.le_of_lt_succ t.isLt) ∗ SRB c)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem q_eq0 (c : Dev nD) (w : Fin cfg0.W) : (dat0 V c).q w = fullShare := rfl
theorem owed_eq0 (c : Dev nD) (t : Fin (cfg0.N + 1)) : (dat0 V c).owed t = 0 := rfl

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, hold c (stM0_0 t) ((dat0 V c).before 0 t d))
    ∗ (∃ d, hold c (stM0_1 t) ((dat0 V c).before 1 t d))
    ∗ (∃ d, hold c (stM0_2 t) ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

theorem leaves0_idle (c : Dev nD) (t : Fin cfg0.N) (h : ¬t.val % 806 = 805) :
    (dat0 V c).leavesExact 2 t = iprop(∃ d, hold c (stM0_2 t) ((dat0 V c).before 2 t d)) :=
  Dat.leavesExact_idle (dat0 V c) 2 t (idleAt0_2 _ fun hc => h ((hcond0_1 t).mp hc))
    (Bool.eq_false_iff.mpr fun hf => h ((flushAt0_2 t).mp hf))

set_option maxHeartbeats 4800000 in
/-- The body at any point: its position mod 806 says which run applies; the invariant lends the accumulator and takes it back at the point's contents. -/
theorem sound_body0 (c : Dev nD) (t : Fin cfg0.N) :
    bodyPre0 V c t ⊢ wp frame (wpE (defs₀ (F := F)) Variants.none c none) Set.univ (bodyOf0 t) (fun _ => bodyPost0 V c t) := by
  unfold bodyPre0 bodyPost0 bodyOf0
  simp only [before0_0, before0_1]
  rw [show (dat0 V c).owesAt () t.succ = (dat0 V c).owesAt () t.castSucc from rfl,
    show (dat0 V c).Φ t.succ = iprop((∃ r, prngReg c r) ∗ hold c scr0 (acc0 V c t.val t.isLt) ∗ SRB c) from rfl,
    show (dat0 V c).Φ t.castSucc = iprop((∃ r, prngReg c r) ∗ Acc0 V c t.val (Nat.le_of_lt t.isLt) ∗ SRB c) from rfl,
    show (dat0 V c).leavesExact 0 t = hold c (stM0_0 t) (iblk0 V c 0 t) from by
      unfold Dat.leavesExact; rw [liveAt0_0, after0_0],
    show (dat0 V c).leavesExact 1 t = hold c (stM0_1 t) (iblk0 V c 1 t) from by
      unfold Dat.leavesExact; rw [liveAt0_1, after0_1]]
  by_cases h0 : t.val % 806 = 0
  · have h1 : ¬t.val % 806 = 805 := by omega
    rw [leaves0_idle V c t h1, acc0_first V c t h0]
    iintro ⟨⟨Hg, HS, HR⟩, Ho, ⟨%d0, H0⟩, ⟨%d1, H1⟩, H2⟩
    ihave HS := (Acc0_any V c _ _) $$ HS
    iapply (run0_A c (grid0.coords t) _ _ _ _ _ _ _ _ ((hcond0_0 t).mpr h0) (fun hc => h1 ((hcond0_1 t).mp hc)) (iblk0 V c 0 t) (iblk0 V c 1 t)
      (iprop(∃ d, hold c (stM0_2 t) ((dat0 V c).before 2 t d))) Set.univ _)
    iframe
    iintro ⟨H0, H1, H2, HS⟩
    iframe
  · rw [Acc0_pos V c _ _ fun e => h0 (by rw [e]), acc0_next V c t h0]
    by_cases h1 : t.val % 806 = 805
    · rw [show (dat0 V c).leavesExact 2 t = hold c (stM0_2 t) ((dat0 V c).after 2 t) from by
        unfold Dat.leavesExact; rw [liveAt0_2 _ ((hcond0_1 t).mpr h1)], after0_2, acc0_next V c t h0]
      iintro ⟨⟨Hg, HS, HR⟩, Ho, ⟨%d0, H0⟩, ⟨%d1, H1⟩, ⟨%d2, H2⟩⟩
      iapply (run0_C c (grid0.coords t) _ _ _ _ _ _ _ _ (fun hc => h0 ((hcond0_0 t).mp hc)) ((hcond0_1 t).mpr h1) (iblk0 V c 0 t) (iblk0 V c 1 t)
        (acc0 V c (t.val - 1) (Nat.lt_of_le_of_lt (Nat.sub_le _ _) t.isLt)) Set.univ _)
      iframe
      isplitl [H2]; · iexists _; iexact H2
      iintro ⟨H0, H1, H2, HS⟩
      iframe
    · rw [leaves0_idle V c t h1]
      iintro ⟨⟨Hg, HS, HR⟩, Ho, ⟨%d0, H0⟩, ⟨%d1, H1⟩, H2⟩
      iapply (run0_B c (grid0.coords t) _ _ _ _ _ _ _ _ (fun hc => h0 ((hcond0_0 t).mp hc)) (fun hc => h1 ((hcond0_1 t).mp hc)) (iblk0 V c 0 t) (iblk0 V c 1 t)
        (acc0 V c (t.val - 1) (Nat.lt_of_le_of_lt (Nat.sub_le _ _) t.isLt))
        (iprop(∃ d, hold c (stM0_2 t) ((dat0 V c).before 2 t d))) Set.univ _)
      iframe
      iintro ⟨H0, H1, H2, HS⟩
      iframe

theorem body_obligation0 (c : Dev nD) : BodyObligation (dat0 (F := F) V c) (defs₀ (F := F)) Variants.none () Set.univ := fun t => by
  rw [bigSep_W0, bigSep_W0]
  exact sound_body0 V c t

theorem hin0 (c : Dev nD) : iprop((∃ r, prngReg c r) ∗ SR c) ⊢ (dat0 V c).Φ 0 := by
  rw [SR_eq]
  show _ ⊢ iprop((∃ r, prngReg c r) ∗ iprop(∃ d, hold c scr0 d) ∗ SRB c)
  iintro ⟨Hg, HS, HR⟩
  iframe

theorem hout0 (c : Dev nD) : (dat0 V c).Φ (Fin.last cfg0.N) ⊢ iprop((∃ r, prngReg c r) ∗ SR c) := by
  rw [SR_eq]
  show iprop((∃ r, prngReg c r) ∗ Acc0 V c cfg0.N (Nat.le_refl _) ∗ SRB c) ⊢ _
  iintro ⟨Hg, HS, HR⟩
  ihave HS := (Acc0_any V c _ _) $$ HS
  iframe

end Region

end Cert.Kernel.R0
end
-- ==== Proof.R1FrameB.lean ====
import proofs.«401816_j90890097918492_1_alg».proof.Proof.Gen.Kernel.Launch
import proofs.«401816_j90890097918492_1_alg».proof.Proof.Gen.Kernel.Skeleton
import proofs.«401816_j90890097918492_1_alg».proof.Proof.FrameLib

set_option maxRecDepth 16384

noncomputable section

namespace Cert.Kernel.R1

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scr1 : Memref sig .tc .vmem S4096x1 .f32 := Memref.whole cc1_scratch0

/-- The accumulator after point `t`: the point's product added to what the point before left, from zeros at every 50th point. -/
def acc1 (c : Dev nD) : (t : ℕ) → t < cfg1.N → Vec F S4096x1 .f32 :=
  accum cfg1.N 50 k1_pay1 fun n h => k1_pay2 (grid1.coords ⟨n, h⟩) (iblk1 V c 0 ⟨n, h⟩) (iblk1 V c 1 ⟨n, h⟩)

theorem acc1_first (c : Dev nD) (t : Fin cfg1.N) (h : t.val % 50 = 0) :
    acc1 V c t.val t.isLt = k1_pay2 (grid1.coords t) (iblk1 V c 0 t) (iblk1 V c 1 t) k1_pay1 :=
  accum_first _ _ t h

theorem acc1_next (c : Dev nD) (t : Fin cfg1.N) (h : ¬t.val % 50 = 0) :
    acc1 V c t.val t.isLt = k1_pay2 (grid1.coords t) (iblk1 V c 0 t) (iblk1 V c 1 t)
      (acc1 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec1 c
abbrev SRB (c : Dev nD) : sProp 𝕄 :=
  Pipeline.scopedRestBut (Ix := Unit) (Name := ℕ) (U := UR sig nD τ) (Lvl := ℕ) (Val := Elt F) spec1 c [cc1_scratch0]

theorem SR_eq (c : Dev nD) : SR (F := F) c = iprop(iprop(∃ d, hold c scr1 d) ∗ SRB c) := by
  unfold SR SRB; rw [scopedRest1_split]; simp only [hold, scr1, owns_whole]; try rfl

/-- The accumulator's part of the invariant before position `n`: at anything before the first point, then at what the point before left. -/
def Acc1 (c : Dev nD) : (n : ℕ) → n ≤ cfg1.N → sProp 𝕄
  | 0, _ => iprop(∃ d, hold c scr1 d)
  | n + 1, hn => hold c scr1 (acc1 V c n hn)

theorem Acc1_any (c : Dev nD) (n : ℕ) (h : n ≤ cfg1.N) : Acc1 V c n h ⊢ iprop(∃ d, hold c scr1 d) := by
  cases n with
  | zero => exact .rfl
  | succ n => show hold c scr1 (acc1 V c n h) ⊢ _; iintro H; iexists _; iexact H

theorem Acc1_pos (c : Dev nD) (n : ℕ) (h : n ≤ cfg1.N) (hz : n ≠ 0) :
    Acc1 V c n h = hold c scr1 (acc1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := iprop(Acc1 V c t.val (Nat.le_of_lt_succ t.isLt) ∗ SRB c ∗ (∃ r, prngReg c r))
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

abbrev cond1_0 (i : grid1.Coords) : Prop :=
  (Scalar.cmpi .ne (Scalar.extui (Scalar.cmpi .eq (BitVec.ofNat 32 (i 1).val) 0#32)) 0#32) = 1#1
abbrev cond1_1 (i : grid1.Coords) : Prop := k1_cond2 i = 1#1

theorem coord1_1 (t : Fin cfg1.N) : ((grid1.coords t) 1).val = t.val % 50 := by
  show t.val / grid1.stride 1 % grid1.bound 1 = t.val % 50
  have h : grid1.stride 1 = 1 := by decide
  rw [h, Nat.div_one]; rfl

/-- A branch that compares the inner coordinate with `k` is taken at the points ≡ k (mod 50). -/
theorem hcond1 (t : Fin cfg1.N) (k : ℕ) (hk : k < 2 ^ 32) :
    (Scalar.cmpi .ne (Scalar.extui (Scalar.cmpi .eq (BitVec.ofNat 32 ((grid1.coords t) 1).val) (BitVec.ofNat 32 k))) 0#32) = 1#1
      ↔ t.val % 50 = k :=
  (cond_iff_nat (Nat.lt_trans ((grid1.coords t) 1).isLt (by decide)) hk).trans (by rw [coord1_1])
theorem hcond1_0 (t : Fin cfg1.N) : cond1_0 (grid1.coords t) ↔ t.val % 50 = 0 := hcond1 t 0 (by decide)
theorem hcond1_1 (t : Fin cfg1.N) : cond1_1 (grid1.coords t) ↔ t.val % 50 = 49 := hcond1 t 49 (by decide)

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem idleAt1_3 (t : Fin cfg1.N) (h : ¬cond1_1 (grid1.coords t)) : cfg1.idle 3 (grid1.coords t) = true := by
  show (!(k1_cond2 (grid1.coords t) == 1#1)) = true
  simp only [Bool.not_eq_true', beq_eq_false_iff_ne, ne_eq]; exact h
theorem liveAt1_3 (t : Fin cfg1.N) (h : cond1_1 (grid1.coords t)) : cfg1.idle 3 (grid1.coords t) = false := by
  show (!(k1_cond2 (grid1.coords t) == 1#1)) = false
  simp only [Bool.not_eq_false', beq_iff_eq]; exact h

theorem coord1_0 (n : ℕ) (h : n < cfg1.N) : ((grid1.coords ⟨n, h⟩) 0).val = n / 50 % 806 := by
  show n / grid1.stride 0 % grid1.bound 0 = n / 50 % 806
  have hs : grid1.stride 0 = 50 := by decide
  rw [hs]; rfl

theorem noFlush1_3 (t : Fin cfg1.N) (h : ¬t.val % 50 = 49) : (cfg1.win 3).flush t = false := by
  have ht : t.val < 40300 := lt_of_lt_of_eq t.isLt N_1
  have h1 : ¬(t.val + 1 = grid1.N) := by rw [N_1]; omega
  have h2 : ¬∃ hlt : t.val + 1 < grid1.N, cc1_transform_3 (grid1.coords ⟨t.val + 1, hlt⟩) ≠ cc1_transform_3 (grid1.coords t) := by
    rintro ⟨hlt, hne⟩
    refine hne (hreads1_3 _ _ fun a ha => ?_)
    match a, ha with
    | ⟨0, _⟩, _ =>
      refine Fin.ext ((coord1_0 (t.val + 1) hlt).trans (Eq.trans ?_ (coord1_0 t.val t.isLt).symm))
      omega
    | ⟨1, _⟩, ha => exact absurd (show false = true from ha) Bool.false_ne_true
  rw [Pipeline.Window.flush_eq_flushOf]
  show (true && (decide (t.val + 1 = grid1.N) || decide (∃ hlt : t.val + 1 < grid1.N, cc1_transform_3 (grid1.coords ⟨t.val + 1, hlt⟩) ≠ cc1_transform_3 (grid1.coords t)))) = false
  rw [decide_eq_false h1, decide_eq_false h2]; rfl

/-- The body at a point ≡ 0: the accumulator is zeroed, then the point's product is added. -/
theorem run1_A (c : Dev nD) (E : Set ℕ) (i : grid1.Coords)
    (arg2 : Memref sig .tc .vmem S4096 .i32) (harg2 : arg2.IsWhole) (arg3 : Memref sig .tc .vmem S2000x1 .f32) (harg3 : arg3.IsWhole)
    (arg4 : Memref sig .tc .vmem S4096x1 .f32) (harg4 : arg4.IsWhole) (arg5 : Memref sig .tc .vmem S4096x1 .f32) (harg5 : arg5.IsWhole)
    (arg6 : Memref sig .tc .vmem S4096x1 .f32) (harg6 : arg6.IsWhole) (hc0 : cond1_0 i) (hc1 : ¬cond1_1 i)
    (x0 : Vec F S4096 .i32) (x1 : Vec F S2000x1 .f32) (K : PUnit → sProp 𝕄) :
    iprop(hold c arg2 x0 ∗ hold c arg3 x1 ∗ (∃ d, hold c arg6 d)
        ∗ (iprop(hold c arg2 x0 ∗ hold c arg3 x1
            ∗ hold c arg6 (k1_pay2 i x0 x1 k1_pay1)) -∗ K ⟨⟩))
      ⊢ wp frame (wpE (defs₀ (F := F)) Variants.none c none) E (cc1__gather_body i arg2 harg2 arg3 harg3 arg4 harg4 arg5 harg5 arg6 harg6) K := by
  simp only [cc1__gather_body_eq_skeleton]; unfold cc1__gather_body_skel
  unfold hold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_whole _ _ hz2 _ _ _).trans ?_
  exact congr (congr (congrArg (k1_pay2 i) (View.ld_unit_zero hz1 _ _)) (View.ld_unit_zero hz2 _ _))
    (View.readCov_unit_zero _ hz2 _ _)

/-- At a point ≢ 0, 49: the point's product is added to the accumulator. -/
theorem run1_B (c : Dev nD) (E : Set ℕ) (i : grid1.Coords)
    (arg2 : Memref sig .tc .vmem S4096 .i32) (harg2 : arg2.IsWhole) (arg3 : Memref sig .tc .vmem S2000x1 .f32) (harg3 : arg3.IsWhole)
    (arg4 : Memref sig .tc .vmem S4096x1 .f32) (harg4 : arg4.IsWhole) (arg5 : Memref sig .tc .vmem S4096x1 .f32) (harg5 : arg5.IsWhole)
    (arg6 : Memref sig .tc .vmem S4096x1 .f32) (harg6 : arg6.IsWhole) (hc0 : ¬cond1_0 i) (hc1 : ¬cond1_1 i)
    (x0 : Vec F S4096 .i32) (x1 : Vec F S2000x1 .f32) (xs : Vec F S4096x1 .f32) (K : PUnit → sProp 𝕄) :
    iprop(hold c arg2 x0 ∗ hold c arg3 x1 ∗ hold c arg6 xs
        ∗ (iprop(hold c arg2 x0 ∗ hold c arg3 x1
            ∗ hold c arg6 (k1_pay2 i x0 x1 xs)) -∗ K ⟨⟩))
      ⊢ wp frame (wpE (defs₀ (F := F)) Variants.none c none) E (cc1__gather_body i arg2 harg2 arg3 harg3 arg4 harg4 arg5 harg5 arg6 harg6) K := by
  simp only [cc1__gather_body_eq_skeleton]; unfold cc1__gather_body_skel
  unfold hold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_whole _ _ hz2 _ _ _).trans ?_
  exact congr (congr (congrArg (k1_pay2 i) (View.ld_unit_zero hz1 _ _)) (View.ld_unit_zero hz2 _ _))
    (View.ld_unit_zero hz2 _ _)

/-- At a point ≡ 49: the product is added, then the accumulator scaled is stored into the output's block. -/
theorem run1_C (c : Dev nD) (E : Set ℕ) (i : grid1.Coords)
    (arg2 : Memref sig .tc .vmem S4096 .i32) (harg2 : arg2.IsWhole) (arg3 : Memref sig .tc .vmem S2000x1 .f32) (harg3 : arg3.IsWhole)
    (arg4 : Memref sig .tc .vmem S4096x1 .f32) (harg4 : arg4.IsWhole) (arg5 : Memref sig .tc .vmem S4096x1 .f32) (harg5 : arg5.IsWhole)
    (arg6 : Memref sig .tc .vmem S4096x1 .f32) (harg6 : arg6.IsWhole) (hc0 : ¬cond1_0 i) (hc1 : cond1_1 i)
    (x0 : Vec F S4096 .i32) (x1 : Vec F S2000x1 .f32) (x2 : Vec F S4096x1 .f32) (xs : Vec F S4096x1 .f32) (K : PUnit → sProp 𝕄) :
    iprop(hold c arg2 x0 ∗ hold c arg3 x1 ∗ hold c arg4 x2
        ∗ (∃ d, hold c arg5 d) ∗ hold c arg6 xs
        ∗ (iprop(hold c arg2 x0 ∗ hold c arg3 x1 ∗ hold c arg4 x2
            ∗ hold c arg5 (k1_pay3 (k1_pay2 i x0 x1 xs) x2)
            ∗ hold c arg6 (k1_pay2 i x0 x1 xs)) -∗ K ⟨⟩))
      ⊢ wp frame (wpE (defs₀ (F := F)) Variants.none c none) E (cc1__gather_body i arg2 harg2 arg3 harg3 arg4 harg4 arg5 harg5 arg6 harg6) K := by
  simp only [cc1__gather_body_eq_skeleton]; unfold cc1__gather_body_skel
  unfold hold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_whole _ _ hz2 _ _ _).trans ?_
    exact congr (congrArg k1_pay3 ((View.readCov_unit_zero _ hz2 _ _).trans
      (congr (congr (congrArg (k1_pay2 i) (View.ld_unit_zero hz1 _ _)) (View.ld_unit_zero hz2 _ _)) (View.ld_unit_zero hz2 _ _))))
      (View.ld_unit_zero hz2 _ _)
  iexists _; isplitr
  swap; · iexact HS
  ipureintro
  refine (read_whole _ _ hz2 _ _ _).trans ?_
  exact congr (congr (congrArg (k1_pay2 i) (View.ld_unit_zero hz1 _ _)) (View.ld_unit_zero hz2 _ _))
    (View.ld_unit_zero hz2 _ _)

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

abbrev sg1_0 (t : Fin cfg1.N) := (cfg1.win 0).stage (cfg1.slots t 0)
abbrev sg1_1 (t : Fin cfg1.N) := (cfg1.win 1).stage (cfg1.slots t 1)
abbrev sg1_2 (t : Fin cfg1.N) := (cfg1.win 2).stage (cfg1.slots t 2)
abbrev sg1_3 (t : Fin cfg1.N) := (cfg1.win 3).stage (cfg1.slots t 3)

abbrev body1At (t : Fin cfg1.N) : Prog (TpuEff nD τ sig (Elt F) Λ₀ .tc) PUnit :=
  cc1__gather_body (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scr1 (Memref.isWhole_whole _)

def bodyPre1 (c : Dev nD) (t : Fin cfg1.N) : sProp 𝕄 :=
  iprop((dat1 V c).Φ t.castSucc ∗ (dat1 V c).owesAt () t.castSucc
    ∗ (∃ d, hold c (sg1_0 t) ((dat1 V c).before 0 t d))
    ∗ (∃ d, hold c (sg1_1 t) ((dat1 V c).before 1 t d))
    ∗ (∃ d, hold c (sg1_2 t) ((dat1 V c).before 2 t d))
    ∗ (∃ d, hold c (sg1_3 t) ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) :
    (dat1 V c).leavesExact 0 t = hold c (sg1_0 t) (iblk1 V c 0 t) := by
  unfold Dat.leavesExact; rw [liveAt1_0 t, after1_0]
theorem leaves1_1 (c : Dev nD) (t : Fin cfg1.N) :
    (dat1 V c).leavesExact 1 t = hold c (sg1_1 t) (iblk1 V c 1 t) := by
  unfold Dat.leavesExact; rw [liveAt1_1 t, after1_1]
theorem leaves1_2 (c : Dev nD) (t : Fin cfg1.N) :
    (dat1 V c).leavesExact 2 t = hold c (sg1_2 t) (iblk1 V c 2 t) := by
  unfold Dat.leavesExact; rw [liveAt1_2 t, after1_2]
theorem leaves1_3_idle (c : Dev nD) (t : Fin cfg1.N) (h : ¬t.val % 50 = 49) :
    (dat1 V c).leavesExact 3 t = iprop(∃ d, hold c (sg1_3 t) ((dat1 V c).before 3 t d)) :=
  Dat.leavesExact_idle (dat1 V c) 3 t (idleAt1_3 t fun hc => h ((hcond1_1 t).mp hc)) (noFlush1_3 t h)
theorem leaves1_3_live (c : Dev nD) (t : Fin cfg1.N) (h : t.val % 50 = 49) :
    (dat1 V c).leavesExact 3 t = hold c (sg1_3 t) (k1_pay3 (acc1 V c t.val t.isLt) (iblk1 V c 2 t)) := by
  unfold Dat.leavesExact; rw [liveAt1_3 t ((hcond1_1 t).mpr h), after1_3]

set_option maxHeartbeats 2000000 in
/-- The body at any point: its position mod 50 says which run applies; the invariant lends the accumulator and takes it back at the point's contents. -/
theorem sound_body1 (c : Dev nD) (t : Fin cfg1.N) :
    bodyPre1 V c t ⊢ wp frame (wpE (defs₀ (F := F)) Variants.none c none) Set.univ (body1At t) (fun _ => bodyPost1 V c t) := by
  unfold bodyPre1 bodyPost1 body1At
  simp only [before1_0, before1_1, before1_2]
  rw [show (dat1 V c).owesAt () t.succ = (dat1 V c).owesAt () t.castSucc from rfl,
    show (dat1 V c).Φ t.succ = iprop(hold c scr1 (acc1 V c t.val t.isLt) ∗ SRB c ∗ (∃ r, prngReg c r)) from rfl,
    show (dat1 V c).Φ t.castSucc = iprop(Acc1 V c t.val (Nat.le_of_lt t.isLt) ∗ SRB c ∗ (∃ r, prngReg c r)) from rfl,
    leaves1_0, leaves1_1, leaves1_2]
  by_cases h0 : t.val % 50 = 0
  · have h1 : ¬t.val % 50 = 49 := by omega
    rw [leaves1_3_idle V c t h1, acc1_first V c t h0]
    iintro ⟨⟨HS, HR, Hg⟩, Ho, ⟨%d0, H0⟩, ⟨%d1, H1⟩, ⟨%d2, H2⟩, H3⟩
    ihave HS := (Acc1_any V c _ _) $$ HS
    iapply (run1_A c Set.univ (grid1.coords t) _ _ _ _ _ _ _ _ _ _ ((hcond1_0 t).mpr h0) (fun hc => h1 ((hcond1_1 t).mp hc)) (iblk1 V c 0 t) (iblk1 V c 1 t) _)
    iframe
    iintro ⟨H0, H1, HS⟩
    iframe
  · rw [Acc1_pos V c _ _ fun e => h0 (by rw [e]), acc1_next V c t h0]
    by_cases h1 : t.val % 50 = 49
    · rw [leaves1_3_live V c t h1, acc1_next V c t h0]
      iintro ⟨⟨HS, HR, Hg⟩, Ho, ⟨%d0, H0⟩, ⟨%d1, H1⟩, ⟨%d2, H2⟩, ⟨%d3, H3⟩⟩
      iapply (run1_C c Set.univ (grid1.coords t) _ _ _ _ _ _ _ _ _ _ (fun hc => h0 ((hcond1_0 t).mp hc)) ((hcond1_1 t).mpr h1) (iblk1 V c 0 t) (iblk1 V c 1 t) (iblk1 V c 2 t) _ _)
      iframe
      isplitl [H3]; · iexists _; iexact H3
      iintro ⟨H0, H1, H2, H3, HS⟩
      iframe
    · rw [leaves1_3_idle V c t h1]
      iintro ⟨⟨HS, HR, Hg⟩, Ho, ⟨%d0, H0⟩, ⟨%d1, H1⟩, ⟨%d2, H2⟩, H3⟩
      iapply (run1_B c Set.univ (grid1.coords t) _ _ _ _ _ _ _ _ _ _ (fun hc => h0 ((hcond1_0 t).mp hc)) (fun hc => h1 ((hcond1_1 t).mp hc)) (iblk1 V c 0 t) (iblk1 V c 1 t) _ _)
      iframe
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ SR c) ⊢ (dat1 V c).Φ 0 := by
  rw [SR_eq]
  show _ ⊢ iprop(iprop(∃ d, hold c scr1 d) ∗ SRB c ∗ (∃ r, prngReg c r))
  iintro ⟨Hg, HS, HR⟩
  iframe

theorem hout1 (c : Dev nD) : (dat1 V c).Φ (Fin.last cfg1.N) ⊢ iprop((∃ r, prngReg c r) ∗ SR c) := by
  rw [SR_eq]
  show iprop(Acc1 V c cfg1.N (Nat.le_refl _) ∗ SRB c ∗ (∃ r, prngReg c r)) ⊢ _
  iintro ⟨HS, HR, Hg⟩
  ihave HS := (Acc1_any V c _ _) $$ HS
  iframe

end Cert.Kernel.R1

end
-- ==== Proof.R2FrameB.lean ====
import proofs.«401816_j90890097918492_1_alg».proof.Proof.Gen.Kernel.Launch
import proofs.«401816_j90890097918492_1_alg».proof.Proof.Gen.Kernel.Skeleton
import proofs.«401816_j90890097918492_1_alg».proof.Proof.FrameLib
import proofs.«401816_j90890097918492_1_alg».proof.Proof.R1FrameB

set_option maxRecDepth 16384

noncomputable section

namespace Cert.Kernel.R2

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2 : Memref sig .tc .vmem S4096x1 .f32 := Memref.whole cc2_scratch0

/-- The accumulator after point `t`: the point's product added to what the point before left, from zeros at every 50th point. -/
def acc2 (c : Dev nD) : (t : ℕ) → t < cfg2.N → Vec F S4096x1 .f32 :=
  accum cfg2.N 50 k2_pay1 fun n h => k2_pay2 (grid2.coords ⟨n, h⟩) (iblk2 V c 0 ⟨n, h⟩) (iblk2 V c 1 ⟨n, h⟩)

theorem acc2_first (c : Dev nD) (t : Fin cfg2.N) (h : t.val % 50 = 0) :
    acc2 V c t.val t.isLt = k2_pay2 (grid2.coords t) (iblk2 V c 0 t) (iblk2 V c 1 t) k2_pay1 :=
  accum_first _ _ t h

theorem acc2_next (c : Dev nD) (t : Fin cfg2.N) (h : ¬t.val % 50 = 0) :
    acc2 V c t.val t.isLt = k2_pay2 (grid2.coords t) (iblk2 V c 0 t) (iblk2 V c 1 t)
      (acc2 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec2 c
abbrev SRB (c : Dev nD) : sProp 𝕄 :=
  Pipeline.scopedRestBut (Ix := Unit) (Name := ℕ) (U := UR sig nD τ) (Lvl := ℕ) (Val := Elt F) spec2 c [cc2_scratch0]

theorem SR_eq (c : Dev nD) : SR (F := F) c = iprop(iprop(∃ d, hold c scr2 d) ∗ SRB c) := by
  unfold SR SRB; rw [scopedRest2_split]; simp only [hold, scr2, owns_whole]; try rfl

/-- The accumulator's part of the invariant before position `n`: at anything before the first point, then at what the point before left. -/
def Acc2 (c : Dev nD) : (n : ℕ) → n ≤ cfg2.N → sProp 𝕄
  | 0, _ => iprop(∃ d, hold c scr2 d)
  | n + 1, hn => hold c scr2 (acc2 V c n hn)

theorem Acc2_any (c : Dev nD) (n : ℕ) (h : n ≤ cfg2.N) : Acc2 V c n h ⊢ iprop(∃ d, hold c scr2 d) := by
  cases n with
  | zero => exact .rfl
  | succ n => show hold c scr2 (acc2 V c n h) ⊢ _; iintro H; iexists _; iexact H

theorem Acc2_pos (c : Dev nD) (n : ℕ) (h : n ≤ cfg2.N) (hz : n ≠ 0) :
    Acc2 V c n h = hold c scr2 (acc2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := iprop(Acc2 V c t.val (Nat.le_of_lt_succ t.isLt) ∗ SRB c ∗ (∃ r, prngReg c r))
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

abbrev cond2_0 (i : grid2.Coords) : Prop :=
  (Scalar.cmpi .ne (Scalar.extui (Scalar.cmpi .eq (BitVec.ofNat 32 (i 1).val) 0#32)) 0#32) = 1#1
abbrev cond2_1 (i : grid2.Coords) : Prop := k2_cond2 i = 1#1

theorem coord2_1 (t : Fin cfg2.N) : ((grid2.coords t) 1).val = t.val % 50 := by
  show t.val / grid2.stride 1 % grid2.bound 1 = t.val % 50
  have h : grid2.stride 1 = 1 := by decide
  rw [h, Nat.div_one]; rfl

/-- A branch that compares the inner coordinate with `k` is taken at the points ≡ k (mod 50). -/
theorem hcond2 (t : Fin cfg2.N) (k : ℕ) (hk : k < 2 ^ 32) :
    (Scalar.cmpi .ne (Scalar.extui (Scalar.cmpi .eq (BitVec.ofNat 32 ((grid2.coords t) 1).val) (BitVec.ofNat 32 k))) 0#32) = 1#1
      ↔ t.val % 50 = k :=
  (cond_iff_nat (Nat.lt_trans ((grid2.coords t) 1).isLt (by decide)) hk).trans (by rw [coord2_1])
theorem hcond2_0 (t : Fin cfg2.N) : cond2_0 (grid2.coords t) ↔ t.val % 50 = 0 := hcond2 t 0 (by decide)
theorem hcond2_1 (t : Fin cfg2.N) : cond2_1 (grid2.coords t) ↔ t.val % 50 = 49 := hcond2 t 49 (by decide)

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem idleAt2_3 (t : Fin cfg2.N) (h : ¬cond2_1 (grid2.coords t)) : cfg2.idle 3 (grid2.coords t) = true := by
  show (!(k2_cond2 (grid2.coords t) == 1#1)) = true
  simp only [Bool.not_eq_true', beq_eq_false_iff_ne, ne_eq]; exact h
theorem liveAt2_3 (t : Fin cfg2.N) (h : cond2_1 (grid2.coords t)) : cfg2.idle 3 (grid2.coords t) = false := by
  show (!(k2_cond2 (grid2.coords t) == 1#1)) = false
  simp only [Bool.not_eq_false', beq_iff_eq]; exact h

theorem coord2_0 (n : ℕ) (h : n < cfg2.N) : ((grid2.coords ⟨n, h⟩) 0).val = n / 50 % 806 := by
  show n / grid2.stride 0 % grid2.bound 0 = n / 50 % 806
  have hs : grid2.stride 0 = 50 := by decide
  rw [hs]; rfl

theorem noFlush2_3 (t : Fin cfg2.N) (h : ¬t.val % 50 = 49) : (cfg2.win 3).flush t = false := by
  have ht : t.val < 40300 := lt_of_lt_of_eq t.isLt N_2
  have h1 : ¬(t.val + 1 = grid2.N) := by rw [N_2]; omega
  have h2 : ¬∃ hlt : t.val + 1 < grid2.N, cc2_transform_3 (grid2.coords ⟨t.val + 1, hlt⟩) ≠ cc2_transform_3 (grid2.coords t) := by
    rintro ⟨hlt, hne⟩
    refine hne (hreads2_3 _ _ fun a ha => ?_)
    match a, ha with
    | ⟨0, _⟩, _ =>
      refine Fin.ext ((coord2_0 (t.val + 1) hlt).trans (Eq.trans ?_ (coord2_0 t.val t.isLt).symm))
      omega
    | ⟨1, _⟩, ha => exact absurd (show false = true from ha) Bool.false_ne_true
  rw [Pipeline.Window.flush_eq_flushOf]
  show (true && (decide (t.val + 1 = grid2.N) || decide (∃ hlt : t.val + 1 < grid2.N, cc2_transform_3 (grid2.coords ⟨t.val + 1, hlt⟩) ≠ cc2_transform_3 (grid2.coords t)))) = false
  rw [decide_eq_false h1, decide_eq_false h2]; rfl

/-- Regions 1 and 2 launch one and the same body, with the same payloads. -/
theorem body2_eq : cc2__gather_body (F := F) = cc1__gather_body := rfl
theorem pay2_eq1 : k2_pay1 (F := F) = k1_pay1 := rfl
theorem pay2_eq2 : k2_pay2 (F := F) = k1_pay2 := rfl
theorem pay2_eq3 : k2_pay3 (F := F) = k1_pay3 := rfl

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

abbrev sg2_0 (t : Fin cfg2.N) := (cfg2.win 0).stage (cfg2.slots t 0)
abbrev sg2_1 (t : Fin cfg2.N) := (cfg2.win 1).stage (cfg2.slots t 1)
abbrev sg2_2 (t : Fin cfg2.N) := (cfg2.win 2).stage (cfg2.slots t 2)
abbrev sg2_3 (t : Fin cfg2.N) := (cfg2.win 3).stage (cfg2.slots t 3)

abbrev body2At (t : Fin cfg2.N) : Prog (TpuEff nD τ sig (Elt F) Λ₀ .tc) PUnit :=
  cc2__gather_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) scr2 (Memref.isWhole_whole _)

def bodyPre2 (c : Dev nD) (t : Fin cfg2.N) : sProp 𝕄 :=
  iprop((dat2 V c).Φ t.castSucc ∗ (dat2 V c).owesAt () t.castSucc
    ∗ (∃ d, hold c (sg2_0 t) ((dat2 V c).before 0 t d))
    ∗ (∃ d, hold c (sg2_1 t) ((dat2 V c).before 1 t d))
    ∗ (∃ d, hold c (sg2_2 t) ((dat2 V c).before 2 t d))
    ∗ (∃ d, hold c (sg2_3 t) ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) :
    (dat2 V c).leavesExact 0 t = hold c (sg2_0 t) (iblk2 V c 0 t) := by
  unfold Dat.leavesExact; rw [liveAt2_0 t, after2_0]
theorem leaves2_1 (c : Dev nD) (t : Fin cfg2.N) :
    (dat2 V c).leavesExact 1 t = hold c (sg2_1 t) (iblk2 V c 1 t) := by
  unfold Dat.leavesExact; rw [liveAt2_1 t, after2_1]
theorem leaves2_2 (c : Dev nD) (t : Fin cfg2.N) :
    (dat2 V c).leavesExact 2 t = hold c (sg2_2 t) (iblk2 V c 2 t) := by
  unfold Dat.leavesExact; rw [liveAt2_2 t, after2_2]
theorem leaves2_3_idle (c : Dev nD) (t : Fin cfg2.N) (h : ¬t.val % 50 = 49) :
    (dat2 V c).leavesExact 3 t = iprop(∃ d, hold c (sg2_3 t) ((dat2 V c).before 3 t d)) :=
  Dat.leavesExact_idle (dat2 V c) 3 t (idleAt2_3 t fun hc => h ((hcond2_1 t).mp hc)) (noFlush2_3 t h)
theorem leaves2_3_live (c : Dev nD) (t : Fin cfg2.N) (h : t.val % 50 = 49) :
    (dat2 V c).leavesExact 3 t = hold c (sg2_3 t) (k2_pay3 (acc2 V c t.val t.isLt) (iblk2 V c 2 t)) := by
  unfold Dat.leavesExact; rw [liveAt2_3 t ((hcond2_1 t).mpr h), after2_3]

set_option maxHeartbeats 2000000 in
/-- The body at any point: its position mod 50 says which run applies; the invariant lends the accumulator and takes it back at the point's contents. -/
theorem sound_body2 (c : Dev nD) (t : Fin cfg2.N) :
    bodyPre2 V c t ⊢ wp frame (wpE (defs₀ (F := F)) Variants.none c none) Set.univ (body2At t) (fun _ => bodyPost2 V c t) := by
  unfold bodyPre2 bodyPost2 body2At
  rw [body2_eq]
  simp only [before2_0, before2_1, before2_2]
  rw [show (dat2 V c).owesAt () t.succ = (dat2 V c).owesAt () t.castSucc from rfl,
    show (dat2 V c).Φ t.succ = iprop(hold c scr2 (acc2 V c t.val t.isLt) ∗ SRB c ∗ (∃ r, prngReg c r)) from rfl,
    show (dat2 V c).Φ t.castSucc = iprop(Acc2 V c t.val (Nat.le_of_lt t.isLt) ∗ SRB c ∗ (∃ r, prngReg c r)) from rfl,
    leaves2_0, leaves2_1, leaves2_2]
  by_cases h0 : t.val % 50 = 0
  · have h1 : ¬t.val % 50 = 49 := by omega
    rw [leaves2_3_idle V c t h1, acc2_first V c t h0, pay2_eq2, pay2_eq1]
    iintro ⟨⟨HS, HR, Hg⟩, Ho, ⟨%d0, H0⟩, ⟨%d1, H1⟩, ⟨%d2, H2⟩, H3⟩
    ihave HS := (Acc2_any V c _ _) $$ HS
    iapply (R1.run1_A c Set.univ (grid2.coords t) _ _ _ _ _ _ _ _ _ _ ((hcond2_0 t).mpr h0) (fun hc => h1 ((hcond2_1 t).mp hc)) (iblk2 V c 0 t) (iblk2 V c 1 t) _)
    iframe
    iintro ⟨H0, H1, HS⟩
    iframe
  · rw [Acc2_pos V c _ _ fun e => h0 (by rw [e]), acc2_next V c t h0, pay2_eq2]
    by_cases h1 : t.val % 50 = 49
    · rw [leaves2_3_live V c t h1, acc2_next V c t h0, pay2_eq2, pay2_eq3]
      iintro ⟨⟨HS, HR, Hg⟩, Ho, ⟨%d0, H0⟩, ⟨%d1, H1⟩, ⟨%d2, H2⟩, ⟨%d3, H3⟩⟩
      iapply (R1.run1_C c Set.univ (grid2.coords t) _ _ _ _ _ _ _ _ _ _ (fun hc => h0 ((hcond2_0 t).mp hc)) ((hcond2_1 t).mpr h1) (iblk2 V c 0 t) (iblk2 V c 1 t) (iblk2 V c 2 t) _ _)
      iframe
      isplitl [H3]; · iexists _; iexact H3
      iintro ⟨H0, H1, H2, H3, HS⟩
      iframe
    · rw [leaves2_3_idle V c t h1]
      iintro ⟨⟨HS, HR, Hg⟩, Ho, ⟨%d0, H0⟩, ⟨%d1, H1⟩, ⟨%d2, H2⟩, H3⟩
      iapply (R1.run1_B c Set.univ (grid2.coords t) _ _ _ _ _ _ _ _ _ _ (fun hc => h0 ((hcond2_0 t).mp hc)) (fun hc => h1 ((hcond2_1 t).mp hc)) (iblk2 V c 0 t) (iblk2 V c 1 t) _ _)
      iframe
      iintro ⟨H0, H1, HS⟩
      iframe

theorem body_obligation2 (c : Dev nD) : BodyObligation (dat2 (F := F) V c) (defs₀ (F := F)) Variants.none () Set.univ := fun t => by
  rw [bigSep_W2, bigSep_W2]
  exact sound_body2 V c t

theorem hin2 (c : Dev nD) : iprop((∃ r, prngReg c r) ∗ SR c) ⊢ (dat2 V c).Φ 0 := by
  rw [SR_eq]
  show _ ⊢ iprop(iprop(∃ d, hold c scr2 d) ∗ SRB c ∗ (∃ r, prngReg c r))
  iintro ⟨Hg, HS, HR⟩
  iframe

theorem hout2 (c : Dev nD) : (dat2 V c).Φ (Fin.last cfg2.N) ⊢ iprop((∃ r, prngReg c r) ∗ SR c) := by
  rw [SR_eq]
  show iprop(Acc2 V c cfg2.N (Nat.le_refl _) ∗ SRB c ∗ (∃ r, prngReg c r)) ⊢ _
  iintro ⟨HS, HR, Hg⟩
  ihave HS := (Acc2_any V c _ _) $$ HS
  iframe

end Cert.Kernel.R2

end
-- ==== Proof.R3FrameB.lean ====
import proofs.«401816_j90890097918492_1_alg».proof.Proof.Gen.Kernel.Launch
import proofs.«401816_j90890097918492_1_alg».proof.Proof.Gen.Kernel.Skeleton
import proofs.«401816_j90890097918492_1_alg».proof.Proof.FrameLib

set_option maxRecDepth 16384

noncomputable section

namespace Cert.Kernel.R3

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scr3 : Memref sig .tc .vmem S4096x16 .f32 := Memref.whole cc3_scratch0

/-- The accumulator after point `t`: the point's product added to what the point before left, from zeros at every 50th point. -/
def acc3 (c : Dev nD) : (t : ℕ) → t < cfg3.N → Vec F S4096x16 .f32 :=
  accum cfg3.N 50 k3_pay1 fun n h => k3_pay2 (grid3.coords ⟨n, h⟩) (iblk3 V c 0 ⟨n, h⟩) (iblk3 V c 1 ⟨n, h⟩)

theorem acc3_first (c : Dev nD) (t : Fin cfg3.N) (h : t.val % 50 = 0) :
    acc3 V c t.val t.isLt = k3_pay2 (grid3.coords t) (iblk3 V c 0 t) (iblk3 V c 1 t) k3_pay1 :=
  accum_first _ _ t h

theorem acc3_next (c : Dev nD) (t : Fin cfg3.N) (h : ¬t.val % 50 = 0) :
    acc3 V c t.val t.isLt = k3_pay2 (grid3.coords t) (iblk3 V c 0 t) (iblk3 V c 1 t)
      (acc3 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec3 c
abbrev SRB (c : Dev nD) : sProp 𝕄 :=
  Pipeline.scopedRestBut (Ix := Unit) (Name := ℕ) (U := UR sig nD τ) (Lvl := ℕ) (Val := Elt F) spec3 c [cc3_scratch0]

theorem SR_eq (c : Dev nD) : SR (F := F) c = iprop(iprop(∃ d, hold c scr3 d) ∗ SRB c) := by
  unfold SR SRB; rw [scopedRest3_split]; simp only [hold, scr3, owns_whole]; try rfl

/-- The accumulator's part of the invariant before position `n`: at anything before the first point, then at what the point before left. -/
def Acc3 (c : Dev nD) : (n : ℕ) → n ≤ cfg3.N → sProp 𝕄
  | 0, _ => iprop(∃ d, hold c scr3 d)
  | n + 1, hn => hold c scr3 (acc3 V c n hn)

theorem Acc3_any (c : Dev nD) (n : ℕ) (h : n ≤ cfg3.N) : Acc3 V c n h ⊢ iprop(∃ d, hold c scr3 d) := by
  cases n with
  | zero => exact .rfl
  | succ n => show hold c scr3 (acc3 V c n h) ⊢ _; iintro H; iexists _; iexact H

theorem Acc3_pos (c : Dev nD) (n : ℕ) (h : n ≤ cfg3.N) (hz : n ≠ 0) :
    Acc3 V c n h = hold c scr3 (acc3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := iprop(Acc3 V c t.val (Nat.le_of_lt_succ t.isLt) ∗ SRB c ∗ (∃ r, prngReg c r))
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

abbrev cond3_0 (i : grid3.Coords) : Prop :=
  (Scalar.cmpi .ne (Scalar.extui (Scalar.cmpi .eq (BitVec.ofNat 32 (i 1).val) 0#32)) 0#32) = 1#1
abbrev cond3_1 (i : grid3.Coords) : Prop := k3_cond2 i = 1#1

theorem coord3_1 (t : Fin cfg3.N) : ((grid3.coords t) 1).val = t.val % 50 := by
  show t.val / grid3.stride 1 % grid3.bound 1 = t.val % 50
  have h : grid3.stride 1 = 1 := by decide
  rw [h, Nat.div_one]; rfl

/-- A branch that compares the inner coordinate with `k` is taken at the points ≡ k (mod 50). -/
theorem hcond3 (t : Fin cfg3.N) (k : ℕ) (hk : k < 2 ^ 32) :
    (Scalar.cmpi .ne (Scalar.extui (Scalar.cmpi .eq (BitVec.ofNat 32 ((grid3.coords t) 1).val) (BitVec.ofNat 32 k))) 0#32) = 1#1
      ↔ t.val % 50 = k :=
  (cond_iff_nat (Nat.lt_trans ((grid3.coords t) 1).isLt (by decide)) hk).trans (by rw [coord3_1])
theorem hcond3_0 (t : Fin cfg3.N) : cond3_0 (grid3.coords t) ↔ t.val % 50 = 0 := hcond3 t 0 (by decide)
theorem hcond3_1 (t : Fin cfg3.N) : cond3_1 (grid3.coords t) ↔ t.val % 50 = 49 := hcond3 t 49 (by decide)

theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem idleAt3_3 (t : Fin cfg3.N) (h : ¬cond3_1 (grid3.coords t)) : cfg3.idle 3 (grid3.coords t) = true := by
  show (!(k3_cond2 (grid3.coords t) == 1#1)) = true
  simp only [Bool.not_eq_true', beq_eq_false_iff_ne, ne_eq]; exact h
theorem liveAt3_3 (t : Fin cfg3.N) (h : cond3_1 (grid3.coords t)) : cfg3.idle 3 (grid3.coords t) = false := by
  show (!(k3_cond2 (grid3.coords t) == 1#1)) = false
  simp only [Bool.not_eq_false', beq_iff_eq]; exact h

theorem coord3_0 (n : ℕ) (h : n < cfg3.N) : ((grid3.coords ⟨n, h⟩) 0).val = n / 50 % 806 := by
  show n / grid3.stride 0 % grid3.bound 0 = n / 50 % 806
  have hs : grid3.stride 0 = 50 := by decide
  rw [hs]; rfl

theorem noFlush3_3 (t : Fin cfg3.N) (h : ¬t.val % 50 = 49) : (cfg3.win 3).flush t = false := by
  have ht : t.val < 40300 := lt_of_lt_of_eq t.isLt N_3
  have h1 : ¬(t.val + 1 = grid3.N) := by rw [N_3]; omega
  have h2 : ¬∃ hlt : t.val + 1 < grid3.N, cc3_transform_3 (grid3.coords ⟨t.val + 1, hlt⟩) ≠ cc3_transform_3 (grid3.coords t) := by
    rintro ⟨hlt, hne⟩
    refine hne (hreads3_3 _ _ fun a ha => ?_)
    match a, ha with
    | ⟨0, _⟩, _ =>
      refine Fin.ext ((coord3_0 (t.val + 1) hlt).trans (Eq.trans ?_ (coord3_0 t.val t.isLt).symm))
      omega
    | ⟨1, _⟩, ha => exact absurd (show false = true from ha) Bool.false_ne_true
  rw [Pipeline.Window.flush_eq_flushOf]
  show (true && (decide (t.val + 1 = grid3.N) || decide (∃ hlt : t.val + 1 < grid3.N, cc3_transform_3 (grid3.coords ⟨t.val + 1, hlt⟩) ≠ cc3_transform_3 (grid3.coords t)))) = false
  rw [decide_eq_false h1, decide_eq_false h2]; rfl

/-- The body at a point ≡ 0: the accumulator is zeroed, then the point's product is added. -/
theorem run3_A (c : Dev nD) (E : Set ℕ) (i : grid3.Coords)
    (arg2 : Memref sig .tc .vmem S4096 .i32) (harg2 : arg2.IsWhole) (arg3 : Memref sig .tc .vmem S2000x16 .f32) (harg3 : arg3.IsWhole)
    (arg4 : Memref sig .tc .vmem S4096x1 .f32) (harg4 : arg4.IsWhole) (arg5 : Memref sig .tc .vmem S4096x16 .f32) (harg5 : arg5.IsWhole)
    (arg6 : Memref sig .tc .vmem S4096x16 .f32) (harg6 : arg6.IsWhole) (hc0 : cond3_0 i) (hc1 : ¬cond3_1 i)
    (x0 : Vec F S4096 .i32) (x1 : Vec F S2000x16 .f32) (K : PUnit → sProp 𝕄) :
    iprop(hold c arg2 x0 ∗ hold c arg3 x1 ∗ (∃ d, hold c arg6 d)
        ∗ (iprop(hold c arg2 x0 ∗ hold c arg3 x1
            ∗ hold c arg6 (k3_pay2 i x0 x1 k3_pay1)) -∗ K ⟨⟩))
      ⊢ wp frame (wpE (defs₀ (F := F)) Variants.none c none) E (cc3__gather_body i arg2 harg2 arg3 harg3 arg4 harg4 arg5 harg5 arg6 harg6) K := by
  simp only [cc3__gather_body_eq_skeleton]; unfold cc3__gather_body_skel
  unfold hold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_whole _ _ hz2 _ _ _).trans ?_
  exact congr (congr (congrArg (k3_pay2 i) (View.ld_unit_zero hz1 _ _)) (View.ld_unit_zero hz2 _ _))
    (View.readCov_unit_zero _ hz2 _ _)

/-- At a point ≢ 0, 49: the point's product is added to the accumulator. -/
theorem run3_B (c : Dev nD) (E : Set ℕ) (i : grid3.Coords)
    (arg2 : Memref sig .tc .vmem S4096 .i32) (harg2 : arg2.IsWhole) (arg3 : Memref sig .tc .vmem S2000x16 .f32) (harg3 : arg3.IsWhole)
    (arg4 : Memref sig .tc .vmem S4096x1 .f32) (harg4 : arg4.IsWhole) (arg5 : Memref sig .tc .vmem S4096x16 .f32) (harg5 : arg5.IsWhole)
    (arg6 : Memref sig .tc .vmem S4096x16 .f32) (harg6 : arg6.IsWhole) (hc0 : ¬cond3_0 i) (hc1 : ¬cond3_1 i)
    (x0 : Vec F S4096 .i32) (x1 : Vec F S2000x16 .f32) (xs : Vec F S4096x16 .f32) (K : PUnit → sProp 𝕄) :
    iprop(hold c arg2 x0 ∗ hold c arg3 x1 ∗ hold c arg6 xs
        ∗ (iprop(hold c arg2 x0 ∗ hold c arg3 x1
            ∗ hold c arg6 (k3_pay2 i x0 x1 xs)) -∗ K ⟨⟩))
      ⊢ wp frame (wpE (defs₀ (F := F)) Variants.none c none) E (cc3__gather_body i arg2 harg2 arg3 harg3 arg4 harg4 arg5 harg5 arg6 harg6) K := by
  simp only [cc3__gather_body_eq_skeleton]; unfold cc3__gather_body_skel
  unfold hold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_whole _ _ hz2 _ _ _).trans ?_
  exact congr (congr (congrArg (k3_pay2 i) (View.ld_unit_zero hz1 _ _)) (View.ld_unit_zero hz2 _ _))
    (View.ld_unit_zero hz2 _ _)

/-- At a point ≡ 49: the product is added, then the accumulator scaled is stored into the output's block. -/
theorem run3_C (c : Dev nD) (E : Set ℕ) (i : grid3.Coords)
    (arg2 : Memref sig .tc .vmem S4096 .i32) (harg2 : arg2.IsWhole) (arg3 : Memref sig .tc .vmem S2000x16 .f32) (harg3 : arg3.IsWhole)
    (arg4 : Memref sig .tc .vmem S4096x1 .f32) (harg4 : arg4.IsWhole) (arg5 : Memref sig .tc .vmem S4096x16 .f32) (harg5 : arg5.IsWhole)
    (arg6 : Memref sig .tc .vmem S4096x16 .f32) (harg6 : arg6.IsWhole) (hc0 : ¬cond3_0 i) (hc1 : cond3_1 i)
    (x0 : Vec F S4096 .i32) (x1 : Vec F S2000x16 .f32) (x2 : Vec F S4096x1 .f32) (xs : Vec F S4096x16 .f32) (K : PUnit → sProp 𝕄) :
    iprop(hold c arg2 x0 ∗ hold c arg3 x1 ∗ hold c arg4 x2
        ∗ (∃ d, hold c arg5 d) ∗ hold c arg6 xs
        ∗ (iprop(hold c arg2 x0 ∗ hold c arg3 x1 ∗ hold c arg4 x2
            ∗ hold c arg5 (k3_pay3 (k3_pay2 i x0 x1 xs) x2)
            ∗ hold c arg6 (k3_pay2 i x0 x1 xs)) -∗ K ⟨⟩))
      ⊢ wp frame (wpE (defs₀ (F := F)) Variants.none c none) E (cc3__gather_body i arg2 harg2 arg3 harg3 arg4 harg4 arg5 harg5 arg6 harg6) K := by
  simp only [cc3__gather_body_eq_skeleton]; unfold cc3__gather_body_skel
  unfold hold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_whole _ _ hz2 _ _ _).trans ?_
    exact congr (congrArg k3_pay3 ((View.readCov_unit_zero _ hz2 _ _).trans
      (congr (congr (congrArg (k3_pay2 i) (View.ld_unit_zero hz1 _ _)) (View.ld_unit_zero hz2 _ _)) (View.ld_unit_zero hz2 _ _))))
      (View.ld_unit_zero hz2 _ _)
  iexists _; isplitr
  swap; · iexact HS
  ipureintro
  refine (read_whole _ _ hz2 _ _ _).trans ?_
  exact congr (congr (congrArg (k3_pay2 i) (View.ld_unit_zero hz1 _ _)) (View.ld_unit_zero hz2 _ _))
    (View.ld_unit_zero hz2 _ _)

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

abbrev sg3_0 (t : Fin cfg3.N) := (cfg3.win 0).stage (cfg3.slots t 0)
abbrev sg3_1 (t : Fin cfg3.N) := (cfg3.win 1).stage (cfg3.slots t 1)
abbrev sg3_2 (t : Fin cfg3.N) := (cfg3.win 2).stage (cfg3.slots t 2)
abbrev sg3_3 (t : Fin cfg3.N) := (cfg3.win 3).stage (cfg3.slots t 3)

abbrev body3At (t : Fin cfg3.N) : Prog (TpuEff nD τ sig (Elt F) Λ₀ .tc) PUnit :=
  cc3__gather_body (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) scr3 (Memref.isWhole_whole _)

def bodyPre3 (c : Dev nD) (t : Fin cfg3.N) : sProp 𝕄 :=
  iprop((dat3 V c).Φ t.castSucc ∗ (dat3 V c).owesAt () t.castSucc
    ∗ (∃ d, hold c (sg3_0 t) ((dat3 V c).before 0 t d))
    ∗ (∃ d, hold c (sg3_1 t) ((dat3 V c).before 1 t d))
    ∗ (∃ d, hold c (sg3_2 t) ((dat3 V c).before 2 t d))
    ∗ (∃ d, hold c (sg3_3 t) ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3_0 (c : Dev nD) (t : Fin cfg3.N) :
    (dat3 V c).leavesExact 0 t = hold c (sg3_0 t) (iblk3 V c 0 t) := by
  unfold Dat.leavesExact; rw [liveAt3_0 t, after3_0]
theorem leaves3_1 (c : Dev nD) (t : Fin cfg3.N) :
    (dat3 V c).leavesExact 1 t = hold c (sg3_1 t) (iblk3 V c 1 t) := by
  unfold Dat.leavesExact; rw [liveAt3_1 t, after3_1]
theorem leaves3_2 (c : Dev nD) (t : Fin cfg3.N) :
    (dat3 V c).leavesExact 2 t = hold c (sg3_2 t) (iblk3 V c 2 t) := by
  unfold Dat.leavesExact; rw [liveAt3_2 t, after3_2]
theorem leaves3_3_idle (c : Dev nD) (t : Fin cfg3.N) (h : ¬t.val % 50 = 49) :
    (dat3 V c).leavesExact 3 t = iprop(∃ d, hold c (sg3_3 t) ((dat3 V c).before 3 t d)) :=
  Dat.leavesExact_idle (dat3 V c) 3 t (idleAt3_3 t fun hc => h ((hcond3_1 t).mp hc)) (noFlush3_3 t h)
theorem leaves3_3_live (c : Dev nD) (t : Fin cfg3.N) (h : t.val % 50 = 49) :
    (dat3 V c).leavesExact 3 t = hold c (sg3_3 t) (k3_pay3 (acc3 V c t.val t.isLt) (iblk3 V c 2 t)) := by
  unfold Dat.leavesExact; rw [liveAt3_3 t ((hcond3_1 t).mpr h), after3_3]

set_option maxHeartbeats 2000000 in
/-- The body at any point: its position mod 50 says which run applies; the invariant lends the accumulator and takes it back at the point's contents. -/
theorem sound_body3 (c : Dev nD) (t : Fin cfg3.N) :
    bodyPre3 V c t ⊢ wp frame (wpE (defs₀ (F := F)) Variants.none c none) Set.univ (body3At t) (fun _ => bodyPost3 V c t) := by
  unfold bodyPre3 bodyPost3 body3At
  simp only [before3_0, before3_1, before3_2]
  rw [show (dat3 V c).owesAt () t.succ = (dat3 V c).owesAt () t.castSucc from rfl,
    show (dat3 V c).Φ t.succ = iprop(hold c scr3 (acc3 V c t.val t.isLt) ∗ SRB c ∗ (∃ r, prngReg c r)) from rfl,
    show (dat3 V c).Φ t.castSucc = iprop(Acc3 V c t.val (Nat.le_of_lt t.isLt) ∗ SRB c ∗ (∃ r, prngReg c r)) from rfl,
    leaves3_0, leaves3_1, leaves3_2]
  by_cases h0 : t.val % 50 = 0
  · have h1 : ¬t.val % 50 = 49 := by omega
    rw [leaves3_3_idle V c t h1, acc3_first V c t h0]
    iintro ⟨⟨HS, HR, Hg⟩, Ho, ⟨%d0, H0⟩, ⟨%d1, H1⟩, ⟨%d2, H2⟩, H3⟩
    ihave HS := (Acc3_any V c _ _) $$ HS
    iapply (run3_A c Set.univ (grid3.coords t) _ _ _ _ _ _ _ _ _ _ ((hcond3_0 t).mpr h0) (fun hc => h1 ((hcond3_1 t).mp hc)) (iblk3 V c 0 t) (iblk3 V c 1 t) _)
    iframe
    iintro ⟨H0, H1, HS⟩
    iframe
  · rw [Acc3_pos V c _ _ fun e => h0 (by rw [e]), acc3_next V c t h0]
    by_cases h1 : t.val % 50 = 49
    · rw [leaves3_3_live V c t h1, acc3_next V c t h0]
      iintro ⟨⟨HS, HR, Hg⟩, Ho, ⟨%d0, H0⟩, ⟨%d1, H1⟩, ⟨%d2, H2⟩, ⟨%d3, H3⟩⟩
      iapply (run3_C c Set.univ (grid3.coords t) _ _ _ _ _ _ _ _ _ _ (fun hc => h0 ((hcond3_0 t).mp hc)) ((hcond3_1 t).mpr h1) (iblk3 V c 0 t) (iblk3 V c 1 t) (iblk3 V c 2 t) _ _)
      iframe
      isplitl [H3]; · iexists _; iexact H3
      iintro ⟨H0, H1, H2, H3, HS⟩
      iframe
    · rw [leaves3_3_idle V c t h1]
      iintro ⟨⟨HS, HR, Hg⟩, Ho, ⟨%d0, H0⟩, ⟨%d1, H1⟩, ⟨%d2, H2⟩, H3⟩
      iapply (run3_B c Set.univ (grid3.coords t) _ _ _ _ _ _ _ _ _ _ (fun hc => h0 ((hcond3_0 t).mp hc)) (fun hc => h1 ((hcond3_1 t).mp hc)) (iblk3 V c 0 t) (iblk3 V c 1 t) _ _)
      iframe
      iintro ⟨H0, H1, HS⟩
      iframe

theorem body_obligation3 (c : Dev nD) : BodyObligation (dat3 (F := F) V c) (defs₀ (F := F)) Variants.none () Set.univ := fun t => by
  rw [bigSep_W3, bigSep_W3]
  exact sound_body3 V c t

theorem hin3 (c : Dev nD) : iprop((∃ r, prngReg c r) ∗ SR c) ⊢ (dat3 V c).Φ 0 := by
  rw [SR_eq]
  show _ ⊢ iprop(iprop(∃ d, hold c scr3 d) ∗ SRB c ∗ (∃ r, prngReg c r))
  iintro ⟨Hg, HS, HR⟩
  iframe

theorem hout3 (c : Dev nD) : (dat3 V c).Φ (Fin.last cfg3.N) ⊢ iprop((∃ r, prngReg c r) ∗ SR c) := by
  rw [SR_eq]
  show iprop(Acc3 V c cfg3.N (Nat.le_refl _) ∗ SRB c ∗ (∃ r, prngReg c r)) ⊢ _
  iintro ⟨HS, HR, Hg⟩
  ihave HS := (Acc3_any V c _ _) $$ HS
  iframe

end Cert.Kernel.R3

end
-- ==== Proof.R4FrameB.lean ====
import proofs.«401816_j90890097918492_1_alg».proof.Proof.Gen.Kernel.Launch
import proofs.«401816_j90890097918492_1_alg».proof.Proof.Gen.Kernel.Skeleton
import proofs.«401816_j90890097918492_1_alg».proof.Proof.FrameLib

set_option maxRecDepth 16384

noncomputable section

namespace Cert.Kernel.R4

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1

/-- The body at a point ≡ 0: the accumulator is zeroed, then updated by the two input blocks. -/
theorem run4_A (c : Dev nD) (i : grid4.Coords) (arg2 : Memref sig .tc .vmem S4096 .i32) (harg2 : arg2.IsWhole) (arg3 : Memref sig .tc .vmem S4096x16 .f32) (harg3 : arg3.IsWhole) (arg4 : Memref sig .tc .vmem S2000x16 .f32) (harg4 : arg4.IsWhole) (arg5 : Memref sig .tc .vmem S2000x16 .f32) (harg5 : arg5.IsWhole)
    (hc0 : cond4_0 i) (hc1 : ¬cond4_1 i)
    (x0 : Vec F S4096 .i32) (x1 : Vec F S4096x16 .f32) (P2 : sProp 𝕄) (E : Set ℕ) (K : PUnit → sProp 𝕄) :
    iprop(hold c arg2 x0 ∗ hold c arg3 x1 ∗ P2 ∗ (∃ d, hold c arg5 d)
        ∗ (iprop(hold c arg2 x0 ∗ hold c arg3 x1 ∗ P2 ∗ hold c arg5 (k4_pay2 i x0 x1 (k4_pay1 (F := F)))) -∗ K ⟨⟩))
      ⊢ wp frame (wpE (defs₀ (F := F)) Variants.none c none) E (cc4__scatter_body i arg2 harg2 arg3 harg3 arg4 harg4 arg5 harg5) K := by
  simp only [cc4__scatter_body_eq_skeleton]; unfold cc4__scatter_body_skel
  unfold hold owns
  iintro ⟨⟨%f0, %hf0, H0⟩, ⟨%f1, %hf1, H1⟩, H2, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  sl_unfold_words
  rw [read_whole _ _ hz2]
  simp only [View.readAt_eq_ld, Memref.IsWhole.read_unread, View.ld_unit_zero (S := S2000x16) hz2, View.ld_unit_zero (S := S4096x16) hz2, View.ld_unit_zero (S := S4096) hz1, View.readCov_unit_zero (S := S2000x16) _ hz2]

/-- At a point ≢ 0, 805: the accumulator is updated; whatever else is held (`P2`) is untouched. -/
theorem run4_B (c : Dev nD) (i : grid4.Coords) (arg2 : Memref sig .tc .vmem S4096 .i32) (harg2 : arg2.IsWhole) (arg3 : Memref sig .tc .vmem S4096x16 .f32) (harg3 : arg3.IsWhole) (arg4 : Memref sig .tc .vmem S2000x16 .f32) (harg4 : arg4.IsWhole) (arg5 : Memref sig .tc .vmem S2000x16 .f32) (harg5 : arg5.IsWhole)
    (hc0 : ¬cond4_0 i) (hc1 : ¬cond4_1 i)
    (x0 : Vec F S4096 .i32) (x1 : Vec F S4096x16 .f32) (xs : Vec F S2000x16 .f32) (P2 : sProp 𝕄) (E : Set ℕ) (K : PUnit → sProp 𝕄) :
    iprop(hold c arg2 x0 ∗ hold c arg3 x1 ∗ P2 ∗ hold c arg5 xs
        ∗ (iprop(hold c arg2 x0 ∗ hold c arg3 x1 ∗ P2 ∗ hold c arg5 (k4_pay2 i x0 x1 xs)) -∗ K ⟨⟩))
      ⊢ wp frame (wpE (defs₀ (F := F)) Variants.none c none) E (cc4__scatter_body i arg2 harg2 arg3 harg3 arg4 harg4 arg5 harg5) K := by
  simp only [cc4__scatter_body_eq_skeleton]; unfold cc4__scatter_body_skel
  unfold hold owns
  iintro ⟨⟨%f0, %hf0, H0⟩, ⟨%f1, %hf1, H1⟩, H2, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  rw [read_whole _ _ hz2]
  simp only [View.readAt_eq_ld, Memref.IsWhole.read_unread, View.ld_unit_zero (S := S2000x16) hz2, View.ld_unit_zero (S := S4096x16) hz2, View.ld_unit_zero (S := S4096) hz1, View.readCov_unit_zero (S := S2000x16) _ hz2]

/-- At a point ≡ 805: the accumulator is updated and copied into the output's block. -/
theorem run4_C (c : Dev nD) (i : grid4.Coords) (arg2 : Memref sig .tc .vmem S4096 .i32) (harg2 : arg2.IsWhole) (arg3 : Memref sig .tc .vmem S4096x16 .f32) (harg3 : arg3.IsWhole) (arg4 : Memref sig .tc .vmem S2000x16 .f32) (harg4 : arg4.IsWhole) (arg5 : Memref sig .tc .vmem S2000x16 .f32) (harg5 : arg5.IsWhole)
    (hc0 : ¬cond4_0 i) (hc1 : cond4_1 i)
    (x0 : Vec F S4096 .i32) (x1 : Vec F S4096x16 .f32) (xs : Vec F S2000x16 .f32) (E : Set ℕ) (K : PUnit → sProp 𝕄) :
    iprop(hold c arg2 x0 ∗ hold c arg3 x1 ∗ (∃ d, hold c arg4 d) ∗ hold c arg5 xs
        ∗ (iprop(hold c arg2 x0 ∗ hold c arg3 x1 ∗ hold c arg4 (k4_pay2 i x0 x1 xs) ∗ hold c arg5 (k4_pay2 i x0 x1 xs)) -∗ K ⟨⟩))
      ⊢ wp frame (wpE (defs₀ (F := F)) Variants.none c none) E (cc4__scatter_body i arg2 harg2 arg3 harg3 arg4 harg4 arg5 harg5) K := by
  simp only [cc4__scatter_body_eq_skeleton]; unfold cc4__scatter_body_skel
  unfold hold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_whole _ _ hz2]
    simp only [View.readAt_eq_ld, Memref.IsWhole.read_unread, View.ld_unit_zero (S := S2000x16) hz2, View.ld_unit_zero (S := S4096x16) hz2, View.ld_unit_zero (S := S4096) hz1, View.readCov_unit_zero (S := S2000x16) _ hz2]
  iexists _; isplitr
  swap; · iexact HS
  ipureintro
  sl_unfold_words
  rw [read_whole _ _ hz2]
  simp only [View.readAt_eq_ld, Memref.IsWhole.read_unread, View.ld_unit_zero (S := S2000x16) hz2, View.ld_unit_zero (S := S4096x16) hz2, View.ld_unit_zero (S := S4096) hz1, View.readCov_unit_zero (S := S2000x16) _ hz2]

theorem coord4_1_val (t : Fin cfg4.N) : ((grid4.coords t) 1).val = t.val % 806 := by
  show t.val / grid4.stride 1 % 806 = t.val % 806
  rw [show grid4.stride 1 = 1 from by decide, Nat.div_one]

/-- A branch that compares the inner coordinate with `k` is taken at the points ≡ k (mod 806). -/
theorem hcond4 (t : Fin cfg4.N) (k : ℕ) (hk : k < 2 ^ 32) :
    (Scalar.cmpi .ne (Scalar.extui (Scalar.cmpi .eq (BitVec.ofNat 32 ((grid4.coords t) 1).val) (BitVec.ofNat 32 k))) 0#32) = 1#1
      ↔ t.val % 806 = k :=
  (cond_iff_nat (Nat.lt_trans ((grid4.coords t) 1).isLt (by decide)) hk).trans (by rw [coord4_1_val])
theorem hcond4_0 (t : Fin cfg4.N) : cond4_0 (grid4.coords t) ↔ t.val % 806 = 0 := hcond4 t 0 (by decide)
theorem hcond4_1 (t : Fin cfg4.N) : cond4_1 (grid4.coords t) ↔ t.val % 806 = 805 := hcond4 t 805 (by decide)

theorem liveAt4_0 (i : grid4.Coords) : cfg4.idle 0 i = false := rfl
theorem liveAt4_1 (i : grid4.Coords) : cfg4.idle 1 i = false := rfl
theorem idleAt4_2 (i : grid4.Coords) (h : ¬cond4_1 i) : cfg4.idle 2 i = true := by
  show (!(k4_cond2 i == 1#1)) = true
  rw [Bool.not_eq_true', beq_eq_false_iff_ne]; exact h
theorem liveAt4_2 (i : grid4.Coords) (h : cond4_1 i) : cfg4.idle 2 i = false := by
  show (!(k4_cond2 i == 1#1)) = false
  rw [Bool.not_eq_false', beq_iff_eq]; exact h

theorem coord4_0_val (t : Fin cfg4.N) : ((grid4.coords t) 0).val = t.val / 806 % 50 := by
  show t.val / grid4.stride 0 % 50 = t.val / 806 % 50
  rw [show grid4.stride 0 = 806 from by decide]

theorem index4_2 (t : Fin cfg4.N) : (cfg4.win 2).index t = ![t.val / 806 % 50, 0] := by
  show cc4_transform_2 (grid4.coords t) = _
  unfold cc4_transform_2
  simp only [BitVec.toNat_ofNat, coord4_0_val]
  have h : t.val / 806 % 50 % 2 ^ 32 = t.val / 806 % 50 := by omega
  rw [h]

theorem flushAt4_2 (t : Fin cfg4.N) : (cfg4.win 2).flush t = true ↔ t.val % 806 = 805 := by
  have hN : cfg4.N = 40300 := N_4
  have hN1 : cfg4.grid.N = 40300 := N_4
  have hN2 : grid4.N = 40300 := N_4
  have ht : t.val < cfg4.N := t.isLt
  unfold Pipeline.Window.flush
  rw [show (cfg4.win 2).isOut = true from rfl, Bool.true_and, Bool.or_eq_true, decide_eq_true_eq, decide_eq_true_eq]
  constructor
  · rintro (h | ⟨h, hne⟩)
    · omega
    · rw [index4_2, index4_2] at hne
      by_contra hcon
      apply hne
      have e : (t.val + 1) / 806 = t.val / 806 := by omega
      show ![(t.val + 1) / 806 % 50, 0] = ![t.val / 806 % 50, 0]
      rw [e]
  · intro h
    by_cases hl : t.val + 1 = grid4.N
    · exact .inl hl
    · refine .inr ⟨by omega, ?_⟩
      rw [index4_2, index4_2]
      intro heq
      have h0' : (t.val + 1) / 806 % 50 = t.val / 806 % 50 := congrFun heq 0
      omega

abbrev stM4_0 (t : Fin cfg4.N) := (cfg4.win 0).stage (cfg4.slots t 0)
abbrev stM4_1 (t : Fin cfg4.N) := (cfg4.win 1).stage (cfg4.slots t 1)
abbrev stM4_2 (t : Fin cfg4.N) := (cfg4.win 2).stage (cfg4.slots t 2)

abbrev bodyOf4 (t : Fin cfg4.N) : Prog (TpuEff nD τ sig (Elt F) Λ₀ .tc) PUnit :=
  cc4__scatter_body (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after point `t`: updated by the point's two blocks from what the point before left, from zeros at every 806th point. -/
def acc4 (c : Dev nD) : (t : ℕ) → t < cfg4.N → Vec F S2000x16 .f32 :=
  accum cfg4.N 806 (k4_pay1 (F := F)) fun n h => k4_pay2 (grid4.coords ⟨n, h⟩) (iblk4 V c 0 ⟨n, h⟩) (iblk4 V c 1 ⟨n, h⟩)

theorem acc4_first (c : Dev nD) (t : Fin cfg4.N) (h : t.val % 806 = 0) :
    acc4 V c t.val t.isLt = k4_pay2 (grid4.coords t) (iblk4 V c 0 t) (iblk4 V c 1 t) (k4_pay1 (F := F)) :=
  accum_first _ _ t h

theorem acc4_next (c : Dev nD) (t : Fin cfg4.N) (h : ¬t.val % 806 = 0) :
    acc4 V c t.val t.isLt = k4_pay2 (grid4.coords t) (iblk4 V c 0 t) (iblk4 V c 1 t)
      (acc4 V c (t.val - 1) (Nat.lt_of_le_of_lt (Nat.sub_le _ _) t.isLt)) :=
  accum_next _ _ t h

abbrev scr4 : Memref sig .tc .vmem S2000x16 .f32 := Memref.whole cc4_scratch0

abbrev SR (c : Dev nD) : sProp 𝕄 :=
  Pipeline.scopedRest (Ix := Unit) (Name := ℕ) (U := UR sig nD τ) (Lvl := ℕ) (Val := Elt F) spec4 c
abbrev SRB (c : Dev nD) : sProp 𝕄 :=
  Pipeline.scopedRestBut (Ix := Unit) (Name := ℕ) (U := UR sig nD τ) (Lvl := ℕ) (Val := Elt F) spec4 c [cc4_scratch0]

theorem SR_eq (c : Dev nD) : SR (F := F) c = iprop((∃ d, hold c scr4 d) ∗ SRB c) := by
  unfold SR SRB; rw [scopedRest4_split]; simp only [hold, scr4, owns_whole]; try rfl

/-- The accumulator's part of the invariant before position `n`: at anything before the first point, then at what the point before left. -/
def Acc4 (c : Dev nD) : (n : ℕ) → n ≤ cfg4.N → sProp 𝕄
  | 0, _ => iprop(∃ d, hold c scr4 d)
  | n + 1, hn => hold c scr4 (acc4 V c n hn)

theorem Acc4_any (c : Dev nD) (n : ℕ) (h : n ≤ cfg4.N) : Acc4 V c n h ⊢ iprop(∃ d, hold c scr4 d) := by
  cases n with
  | zero => exact .rfl
  | succ n => show hold c scr4 (acc4 V c n h) ⊢ _; iintro H; iexists _; iexact H

theorem Acc4_pos (c : Dev nD) (n : ℕ) (h : n ≤ cfg4.N) (hz : n ≠ 0) :
    Acc4 V c n h = hold c scr4 (acc4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := iprop((∃ r, prngReg c r) ∗ Acc4 V c t.val (Nat.le_of_lt_succ t.isLt) ∗ SRB c)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]
theorem q_eq4 (c : Dev nD) (w : Fin cfg4.W) : (dat4 V c).q w = fullShare := rfl
theorem owed_eq4 (c : Dev nD) (t : Fin (cfg4.N + 1)) : (dat4 V c).owed t = 0 := rfl

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, hold c (stM4_0 t) ((dat4 V c).before 0 t d))
    ∗ (∃ d, hold c (stM4_1 t) ((dat4 V c).before 1 t d))
    ∗ (∃ d, hold c (stM4_2 t) ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

theorem leaves4_idle (c : Dev nD) (t : Fin cfg4.N) (h : ¬t.val % 806 = 805) :
    (dat4 V c).leavesExact 2 t = iprop(∃ d, hold c (stM4_2 t) ((dat4 V c).before 2 t d)) :=
  Dat.leavesExact_idle (dat4 V c) 2 t (idleAt4_2 _ fun hc => h ((hcond4_1 t).mp hc))
    (Bool.eq_false_iff.mpr fun hf => h ((flushAt4_2 t).mp hf))

set_option maxHeartbeats 4800000 in
/-- The body at any point: its position mod 806 says which run applies; the invariant lends the accumulator and takes it back at the point's contents. -/
theorem sound_body4 (c : Dev nD) (t : Fin cfg4.N) :
    bodyPre4 V c t ⊢ wp frame (wpE (defs₀ (F := F)) Variants.none c none) Set.univ (bodyOf4 t) (fun _ => bodyPost4 V c t) := by
  unfold bodyPre4 bodyPost4 bodyOf4
  simp only [before4_0, before4_1]
  rw [show (dat4 V c).owesAt () t.succ = (dat4 V c).owesAt () t.castSucc from rfl,
    show (dat4 V c).Φ t.succ = iprop((∃ r, prngReg c r) ∗ hold c scr4 (acc4 V c t.val t.isLt) ∗ SRB c) from rfl,
    show (dat4 V c).Φ t.castSucc = iprop((∃ r, prngReg c r) ∗ Acc4 V c t.val (Nat.le_of_lt t.isLt) ∗ SRB c) from rfl,
    show (dat4 V c).leavesExact 0 t = hold c (stM4_0 t) (iblk4 V c 0 t) from by
      unfold Dat.leavesExact; rw [liveAt4_0, after4_0],
    show (dat4 V c).leavesExact 1 t = hold c (stM4_1 t) (iblk4 V c 1 t) from by
      unfold Dat.leavesExact; rw [liveAt4_1, after4_1]]
  by_cases h0 : t.val % 806 = 0
  · have h1 : ¬t.val % 806 = 805 := by omega
    rw [leaves4_idle V c t h1, acc4_first V c t h0]
    iintro ⟨⟨Hg, HS, HR⟩, Ho, ⟨%d0, H0⟩, ⟨%d1, H1⟩, H2⟩
    ihave HS := (Acc4_any V c _ _) $$ HS
    iapply (run4_A c (grid4.coords t) _ _ _ _ _ _ _ _ ((hcond4_0 t).mpr h0) (fun hc => h1 ((hcond4_1 t).mp hc)) (iblk4 V c 0 t) (iblk4 V c 1 t)
      (iprop(∃ d, hold c (stM4_2 t) ((dat4 V c).before 2 t d))) Set.univ _)
    iframe
    iintro ⟨H0, H1, H2, HS⟩
    iframe
  · rw [Acc4_pos V c _ _ fun e => h0 (by rw [e]), acc4_next V c t h0]
    by_cases h1 : t.val % 806 = 805
    · rw [show (dat4 V c).leavesExact 2 t = hold c (stM4_2 t) ((dat4 V c).after 2 t) from by
        unfold Dat.leavesExact; rw [liveAt4_2 _ ((hcond4_1 t).mpr h1)], after4_2, acc4_next V c t h0]
      iintro ⟨⟨Hg, HS, HR⟩, Ho, ⟨%d0, H0⟩, ⟨%d1, H1⟩, ⟨%d2, H2⟩⟩
      iapply (run4_C c (grid4.coords t) _ _ _ _ _ _ _ _ (fun hc => h0 ((hcond4_0 t).mp hc)) ((hcond4_1 t).mpr h1) (iblk4 V c 0 t) (iblk4 V c 1 t)
        (acc4 V c (t.val - 1) (Nat.lt_of_le_of_lt (Nat.sub_le _ _) t.isLt)) Set.univ _)
      iframe
      isplitl [H2]; · iexists _; iexact H2
      iintro ⟨H0, H1, H2, HS⟩
      iframe
    · rw [leaves4_idle V c t h1]
      iintro ⟨⟨Hg, HS, HR⟩, Ho, ⟨%d0, H0⟩, ⟨%d1, H1⟩, H2⟩
      iapply (run4_B c (grid4.coords t) _ _ _ _ _ _ _ _ (fun hc => h0 ((hcond4_0 t).mp hc)) (fun hc => h1 ((hcond4_1 t).mp hc)) (iblk4 V c 0 t) (iblk4 V c 1 t)
        (acc4 V c (t.val - 1) (Nat.lt_of_le_of_lt (Nat.sub_le _ _) t.isLt))
        (iprop(∃ d, hold c (stM4_2 t) ((dat4 V c).before 2 t d))) Set.univ _)
      iframe
      iintro ⟨H0, H1, H2, HS⟩
      iframe

theorem body_obligation4 (c : Dev nD) : BodyObligation (dat4 (F := F) V c) (defs₀ (F := F)) Variants.none () Set.univ := fun t => by
  rw [bigSep_W4, bigSep_W4]
  exact sound_body4 V c t

theorem hin4 (c : Dev nD) : iprop((∃ r, prngReg c r) ∗ SR c) ⊢ (dat4 V c).Φ 0 := by
  rw [SR_eq]
  show _ ⊢ iprop((∃ r, prngReg c r) ∗ iprop(∃ d, hold c scr4 d) ∗ SRB c)
  iintro ⟨Hg, HS, HR⟩
  iframe

theorem hout4 (c : Dev nD) : (dat4 V c).Φ (Fin.last cfg4.N) ⊢ iprop((∃ r, prngReg c r) ∗ SR c) := by
  rw [SR_eq]
  show iprop((∃ r, prngReg c r) ∗ Acc4 V c cfg4.N (Nat.le_refl _) ∗ SRB c) ⊢ _
  iintro ⟨Hg, HS, HR⟩
  ihave HS := (Acc4_any V c _ _) $$ HS
  iframe

end Region

end Cert.Kernel.R4
end
-- ==== Proof.R5FrameB.lean ====
import proofs.«401816_j90890097918492_1_alg».proof.Proof.Gen.Kernel.Launch
import proofs.«401816_j90890097918492_1_alg».proof.Proof.Gen.Kernel.Skeleton
import proofs.«401816_j90890097918492_1_alg».proof.Proof.FrameLib
import proofs.«401816_j90890097918492_1_alg».proof.Proof.R1FrameB

set_option maxRecDepth 16384

noncomputable section

namespace Cert.Kernel.R5

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scr5 : Memref sig .tc .vmem S4096x1 .f32 := Memref.whole cc5_scratch0

/-- The accumulator after point `t`: the point's product added to what the point before left, from zeros at every 50th point. -/
def acc5 (c : Dev nD) : (t : ℕ) → t < cfg5.N → Vec F S4096x1 .f32 :=
  accum cfg5.N 50 k5_pay1 fun n h => k5_pay2 (grid5.coords ⟨n, h⟩) (iblk5 V c 0 ⟨n, h⟩) (iblk5 V c 1 ⟨n, h⟩)

theorem acc5_first (c : Dev nD) (t : Fin cfg5.N) (h : t.val % 50 = 0) :
    acc5 V c t.val t.isLt = k5_pay2 (grid5.coords t) (iblk5 V c 0 t) (iblk5 V c 1 t) k5_pay1 :=
  accum_first _ _ t h

theorem acc5_next (c : Dev nD) (t : Fin cfg5.N) (h : ¬t.val % 50 = 0) :
    acc5 V c t.val t.isLt = k5_pay2 (grid5.coords t) (iblk5 V c 0 t) (iblk5 V c 1 t)
      (acc5 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec5 c
abbrev SRB (c : Dev nD) : sProp 𝕄 :=
  Pipeline.scopedRestBut (Ix := Unit) (Name := ℕ) (U := UR sig nD τ) (Lvl := ℕ) (Val := Elt F) spec5 c [cc5_scratch0]

theorem SR_eq (c : Dev nD) : SR (F := F) c = iprop(iprop(∃ d, hold c scr5 d) ∗ SRB c) := by
  unfold SR SRB; rw [scopedRest5_split]; simp only [hold, scr5, owns_whole]; try rfl

/-- The accumulator's part of the invariant before position `n`: at anything before the first point, then at what the point before left. -/
def Acc5 (c : Dev nD) : (n : ℕ) → n ≤ cfg5.N → sProp 𝕄
  | 0, _ => iprop(∃ d, hold c scr5 d)
  | n + 1, hn => hold c scr5 (acc5 V c n hn)

theorem Acc5_any (c : Dev nD) (n : ℕ) (h : n ≤ cfg5.N) : Acc5 V c n h ⊢ iprop(∃ d, hold c scr5 d) := by
  cases n with
  | zero => exact .rfl
  | succ n => show hold c scr5 (acc5 V c n h) ⊢ _; iintro H; iexists _; iexact H

theorem Acc5_pos (c : Dev nD) (n : ℕ) (h : n ≤ cfg5.N) (hz : n ≠ 0) :
    Acc5 V c n h = hold c scr5 (acc5 V c (n - 1) (by omega)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := iprop(Acc5 V c t.val (Nat.le_of_lt_succ t.isLt) ∗ SRB c ∗ (∃ r, prngReg c r))
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := rfl
theorem owed_eq5 (c : Dev nD) (t : Fin (cfg5.N + 1)) : (dat5 V c).owed t = 0 := rfl
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay3 (acc5 V c t.val t.isLt) (iblk5 V c 2 t) := by dsimp only [dat5]

abbrev cond5_0 (i : grid5.Coords) : Prop :=
  (Scalar.cmpi .ne (Scalar.extui (Scalar.cmpi .eq (BitVec.ofNat 32 (i 1).val) 0#32)) 0#32) = 1#1
abbrev cond5_1 (i : grid5.Coords) : Prop := k5_cond2 i = 1#1

theorem coord5_1 (t : Fin cfg5.N) : ((grid5.coords t) 1).val = t.val % 50 := by
  show t.val / grid5.stride 1 % grid5.bound 1 = t.val % 50
  have h : grid5.stride 1 = 1 := by decide
  rw [h, Nat.div_one]; rfl

/-- A branch that compares the inner coordinate with `k` is taken at the points ≡ k (mod 50). -/
theorem hcond5 (t : Fin cfg5.N) (k : ℕ) (hk : k < 2 ^ 32) :
    (Scalar.cmpi .ne (Scalar.extui (Scalar.cmpi .eq (BitVec.ofNat 32 ((grid5.coords t) 1).val) (BitVec.ofNat 32 k))) 0#32) = 1#1
      ↔ t.val % 50 = k :=
  (cond_iff_nat (Nat.lt_trans ((grid5.coords t) 1).isLt (by decide)) hk).trans (by rw [coord5_1])
theorem hcond5_0 (t : Fin cfg5.N) : cond5_0 (grid5.coords t) ↔ t.val % 50 = 0 := hcond5 t 0 (by decide)
theorem hcond5_1 (t : Fin cfg5.N) : cond5_1 (grid5.coords t) ↔ t.val % 50 = 49 := hcond5 t 49 (by decide)

theorem liveAt5_0 (t : Fin cfg5.N) : cfg5.idle 0 (grid5.coords t) = false := rfl
theorem liveAt5_1 (t : Fin cfg5.N) : cfg5.idle 1 (grid5.coords t) = false := rfl
theorem liveAt5_2 (t : Fin cfg5.N) : cfg5.idle 2 (grid5.coords t) = false := rfl
theorem idleAt5_3 (t : Fin cfg5.N) (h : ¬cond5_1 (grid5.coords t)) : cfg5.idle 3 (grid5.coords t) = true := by
  show (!(k5_cond2 (grid5.coords t) == 1#1)) = true
  simp only [Bool.not_eq_true', beq_eq_false_iff_ne, ne_eq]; exact h
theorem liveAt5_3 (t : Fin cfg5.N) (h : cond5_1 (grid5.coords t)) : cfg5.idle 3 (grid5.coords t) = false := by
  show (!(k5_cond2 (grid5.coords t) == 1#1)) = false
  simp only [Bool.not_eq_false', beq_iff_eq]; exact h

theorem coord5_0 (n : ℕ) (h : n < cfg5.N) : ((grid5.coords ⟨n, h⟩) 0).val = n / 50 % 806 := by
  show n / grid5.stride 0 % grid5.bound 0 = n / 50 % 806
  have hs : grid5.stride 0 = 50 := by decide
  rw [hs]; rfl

theorem noFlush5_3 (t : Fin cfg5.N) (h : ¬t.val % 50 = 49) : (cfg5.win 3).flush t = false := by
  have ht : t.val < 40300 := lt_of_lt_of_eq t.isLt N_5
  have h1 : ¬(t.val + 1 = grid5.N) := by rw [N_5]; omega
  have h2 : ¬∃ hlt : t.val + 1 < grid5.N, cc5_transform_3 (grid5.coords ⟨t.val + 1, hlt⟩) ≠ cc5_transform_3 (grid5.coords t) := by
    rintro ⟨hlt, hne⟩
    refine hne (hreads5_3 _ _ fun a ha => ?_)
    match a, ha with
    | ⟨0, _⟩, _ =>
      refine Fin.ext ((coord5_0 (t.val + 1) hlt).trans (Eq.trans ?_ (coord5_0 t.val t.isLt).symm))
      omega
    | ⟨1, _⟩, ha => exact absurd (show false = true from ha) Bool.false_ne_true
  rw [Pipeline.Window.flush_eq_flushOf]
  show (true && (decide (t.val + 1 = grid5.N) || decide (∃ hlt : t.val + 1 < grid5.N, cc5_transform_3 (grid5.coords ⟨t.val + 1, hlt⟩) ≠ cc5_transform_3 (grid5.coords t)))) = false
  rw [decide_eq_false h1, decide_eq_false h2]; rfl

/-- Regions 1 and 5 launch one and the same body, with the same payloads. -/
theorem body5_eq : cc5__gather_body (F := F) = cc1__gather_body := rfl
theorem pay5_eq1 : k5_pay1 (F := F) = k1_pay1 := rfl
theorem pay5_eq2 : k5_pay2 (F := F) = k1_pay2 := rfl
theorem pay5_eq3 : k5_pay3 (F := F) = k1_pay3 := rfl

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

abbrev sg5_0 (t : Fin cfg5.N) := (cfg5.win 0).stage (cfg5.slots t 0)
abbrev sg5_1 (t : Fin cfg5.N) := (cfg5.win 1).stage (cfg5.slots t 1)
abbrev sg5_2 (t : Fin cfg5.N) := (cfg5.win 2).stage (cfg5.slots t 2)
abbrev sg5_3 (t : Fin cfg5.N) := (cfg5.win 3).stage (cfg5.slots t 3)

abbrev body5At (t : Fin cfg5.N) : Prog (TpuEff nD τ sig (Elt F) Λ₀ .tc) PUnit :=
  cc5__gather_body (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) scr5 (Memref.isWhole_whole _)

def bodyPre5 (c : Dev nD) (t : Fin cfg5.N) : sProp 𝕄 :=
  iprop((dat5 V c).Φ t.castSucc ∗ (dat5 V c).owesAt () t.castSucc
    ∗ (∃ d, hold c (sg5_0 t) ((dat5 V c).before 0 t d))
    ∗ (∃ d, hold c (sg5_1 t) ((dat5 V c).before 1 t d))
    ∗ (∃ d, hold c (sg5_2 t) ((dat5 V c).before 2 t d))
    ∗ (∃ d, hold c (sg5_3 t) ((dat5 V c).before 3 t d)))

def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

theorem leaves5_0 (c : Dev nD) (t : Fin cfg5.N) :
    (dat5 V c).leavesExact 0 t = hold c (sg5_0 t) (iblk5 V c 0 t) := by
  unfold Dat.leavesExact; rw [liveAt5_0 t, after5_0]
theorem leaves5_1 (c : Dev nD) (t : Fin cfg5.N) :
    (dat5 V c).leavesExact 1 t = hold c (sg5_1 t) (iblk5 V c 1 t) := by
  unfold Dat.leavesExact; rw [liveAt5_1 t, after5_1]
theorem leaves5_2 (c : Dev nD) (t : Fin cfg5.N) :
    (dat5 V c).leavesExact 2 t = hold c (sg5_2 t) (iblk5 V c 2 t) := by
  unfold Dat.leavesExact; rw [liveAt5_2 t, after5_2]
theorem leaves5_3_idle (c : Dev nD) (t : Fin cfg5.N) (h : ¬t.val % 50 = 49) :
    (dat5 V c).leavesExact 3 t = iprop(∃ d, hold c (sg5_3 t) ((dat5 V c).before 3 t d)) :=
  Dat.leavesExact_idle (dat5 V c) 3 t (idleAt5_3 t fun hc => h ((hcond5_1 t).mp hc)) (noFlush5_3 t h)
theorem leaves5_3_live (c : Dev nD) (t : Fin cfg5.N) (h : t.val % 50 = 49) :
    (dat5 V c).leavesExact 3 t = hold c (sg5_3 t) (k5_pay3 (acc5 V c t.val t.isLt) (iblk5 V c 2 t)) := by
  unfold Dat.leavesExact; rw [liveAt5_3 t ((hcond5_1 t).mpr h), after5_3]

set_option maxHeartbeats 2000000 in
/-- The body at any point: its position mod 50 says which run applies; the invariant lends the accumulator and takes it back at the point's contents. -/
theorem sound_body5 (c : Dev nD) (t : Fin cfg5.N) :
    bodyPre5 V c t ⊢ wp frame (wpE (defs₀ (F := F)) Variants.none c none) Set.univ (body5At t) (fun _ => bodyPost5 V c t) := by
  unfold bodyPre5 bodyPost5 body5At
  rw [body5_eq]
  simp only [before5_0, before5_1, before5_2]
  rw [show (dat5 V c).owesAt () t.succ = (dat5 V c).owesAt () t.castSucc from rfl,
    show (dat5 V c).Φ t.succ = iprop(hold c scr5 (acc5 V c t.val t.isLt) ∗ SRB c ∗ (∃ r, prngReg c r)) from rfl,
    show (dat5 V c).Φ t.castSucc = iprop(Acc5 V c t.val (Nat.le_of_lt t.isLt) ∗ SRB c ∗ (∃ r, prngReg c r)) from rfl,
    leaves5_0, leaves5_1, leaves5_2]
  by_cases h0 : t.val % 50 = 0
  · have h1 : ¬t.val % 50 = 49 := by omega
    rw [leaves5_3_idle V c t h1, acc5_first V c t h0, pay5_eq2, pay5_eq1]
    iintro ⟨⟨HS, HR, Hg⟩, Ho, ⟨%d0, H0⟩, ⟨%d1, H1⟩, ⟨%d2, H2⟩, H3⟩
    ihave HS := (Acc5_any V c _ _) $$ HS
    iapply (R1.run1_A c Set.univ (grid5.coords t) _ _ _ _ _ _ _ _ _ _ ((hcond5_0 t).mpr h0) (fun hc => h1 ((hcond5_1 t).mp hc)) (iblk5 V c 0 t) (iblk5 V c 1 t) _)
    iframe
    iintro ⟨H0, H1, HS⟩
    iframe
  · rw [Acc5_pos V c _ _ fun e => h0 (by rw [e]), acc5_next V c t h0, pay5_eq2]
    by_cases h1 : t.val % 50 = 49
    · rw [leaves5_3_live V c t h1, acc5_next V c t h0, pay5_eq2, pay5_eq3]
      iintro ⟨⟨HS, HR, Hg⟩, Ho, ⟨%d0, H0⟩, ⟨%d1, H1⟩, ⟨%d2, H2⟩, ⟨%d3, H3⟩⟩
      iapply (R1.run1_C c Set.univ (grid5.coords t) _ _ _ _ _ _ _ _ _ _ (fun hc => h0 ((hcond5_0 t).mp hc)) ((hcond5_1 t).mpr h1) (iblk5 V c 0 t) (iblk5 V c 1 t) (iblk5 V c 2 t) _ _)
      iframe
      isplitl [H3]; · iexists _; iexact H3
      iintro ⟨H0, H1, H2, H3, HS⟩
      iframe
    · rw [leaves5_3_idle V c t h1]
      iintro ⟨⟨HS, HR, Hg⟩, Ho, ⟨%d0, H0⟩, ⟨%d1, H1⟩, ⟨%d2, H2⟩, H3⟩
      iapply (R1.run1_B c Set.univ (grid5.coords t) _ _ _ _ _ _ _ _ _ _ (fun hc => h0 ((hcond5_0 t).mp hc)) (fun hc => h1 ((hcond5_1 t).mp hc)) (iblk5 V c 0 t) (iblk5 V c 1 t) _ _)
      iframe
      iintro ⟨H0, H1, HS⟩
      iframe

theorem body_obligation5 (c : Dev nD) : BodyObligation (dat5 (F := F) V c) (defs₀ (F := F)) Variants.none () Set.univ := fun t => by
  rw [bigSep_W5, bigSep_W5]
  exact sound_body5 V c t

theorem hin5 (c : Dev nD) : iprop((∃ r, prngReg c r) ∗ SR c) ⊢ (dat5 V c).Φ 0 := by
  rw [SR_eq]
  show _ ⊢ iprop(iprop(∃ d, hold c scr5 d) ∗ SRB c ∗ (∃ r, prngReg c r))
  iintro ⟨Hg, HS, HR⟩
  iframe

theorem hout5 (c : Dev nD) : (dat5 V c).Φ (Fin.last cfg5.N) ⊢ iprop((∃ r, prngReg c r) ∗ SR c) := by
  rw [SR_eq]
  show iprop(Acc5 V c cfg5.N (Nat.le_refl _) ∗ SRB c ∗ (∃ r, prngReg c r)) ⊢ _
  iintro ⟨HS, HR, Hg⟩
  ihave HS := (Acc5_any V c _ _) $$ HS
  iframe

end Cert.Kernel.R5

end
-- ==== Proof.R6FrameB.lean ====
import proofs.«401816_j90890097918492_1_alg».proof.Proof.Gen.Kernel.Launch
import proofs.«401816_j90890097918492_1_alg».proof.Proof.Gen.Kernel.Skeleton
import proofs.«401816_j90890097918492_1_alg».proof.Proof.FrameLib
import proofs.«401816_j90890097918492_1_alg».proof.Proof.R0FrameB

set_option maxRecDepth 16384

noncomputable section

namespace Cert.Kernel.R6

open Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

abbrev cond6_0 (i : grid6.Coords) : Prop := (Scalar.cmpi .ne (Scalar.extui (Scalar.cmpi .eq (BitVec.ofNat 32 (i 1).val) 0#32)) 0#32) = 1#1
abbrev cond6_1 (i : grid6.Coords) : Prop := k6_cond2 i = 1#1

/-- Regions 0 and 6 launch one and the same body, with the same payloads. -/
theorem body6_eq : cc6__scatter_body (F := F) = cc0__scatter_body := rfl
theorem pay6_eq1 : k6_pay1 (F := F) = k0_pay1 := rfl
theorem pay6_eq2 : k6_pay2 (F := F) = k0_pay2 := rfl

theorem coord6_1_val (t : Fin cfg6.N) : ((grid6.coords t) 1).val = t.val % 806 := by
  show t.val / grid6.stride 1 % 806 = t.val % 806
  rw [show grid6.stride 1 = 1 from by decide, Nat.div_one]

/-- A branch that compares the inner coordinate with `k` is taken at the points ≡ k (mod 806). -/
theorem hcond6 (t : Fin cfg6.N) (k : ℕ) (hk : k < 2 ^ 32) :
    (Scalar.cmpi .ne (Scalar.extui (Scalar.cmpi .eq (BitVec.ofNat 32 ((grid6.coords t) 1).val) (BitVec.ofNat 32 k))) 0#32) = 1#1
      ↔ t.val % 806 = k :=
  (cond_iff_nat (Nat.lt_trans ((grid6.coords t) 1).isLt (by decide)) hk).trans (by rw [coord6_1_val])
theorem hcond6_0 (t : Fin cfg6.N) : cond6_0 (grid6.coords t) ↔ t.val % 806 = 0 := hcond6 t 0 (by decide)
theorem hcond6_1 (t : Fin cfg6.N) : cond6_1 (grid6.coords t) ↔ t.val % 806 = 805 := hcond6 t 805 (by decide)

theorem liveAt6_0 (i : grid6.Coords) : cfg6.idle 0 i = false := rfl
theorem liveAt6_1 (i : grid6.Coords) : cfg6.idle 1 i = false := rfl
theorem idleAt6_2 (i : grid6.Coords) (h : ¬cond6_1 i) : cfg6.idle 2 i = true := by
  show (!(k6_cond2 i == 1#1)) = true
  rw [Bool.not_eq_true', beq_eq_false_iff_ne]; exact h
theorem liveAt6_2 (i : grid6.Coords) (h : cond6_1 i) : cfg6.idle 2 i = false := by
  show (!(k6_cond2 i == 1#1)) = false
  rw [Bool.not_eq_false', beq_iff_eq]; exact h

theorem coord6_0_val (t : Fin cfg6.N) : ((grid6.coords t) 0).val = t.val / 806 % 50 := by
  show t.val / grid6.stride 0 % 50 = t.val / 806 % 50
  rw [show grid6.stride 0 = 806 from by decide]

theorem index6_2 (t : Fin cfg6.N) : (cfg6.win 2).index t = ![t.val / 806 % 50, 0] := by
  show cc6_transform_2 (grid6.coords t) = _
  unfold cc6_transform_2
  simp only [BitVec.toNat_ofNat, coord6_0_val]
  have h : t.val / 806 % 50 % 2 ^ 32 = t.val / 806 % 50 := by omega
  rw [h]

theorem flushAt6_2 (t : Fin cfg6.N) : (cfg6.win 2).flush t = true ↔ t.val % 806 = 805 := by
  have hN : cfg6.N = 40300 := N_6
  have hN1 : cfg6.grid.N = 40300 := N_6
  have hN2 : grid6.N = 40300 := N_6
  have ht : t.val < cfg6.N := t.isLt
  unfold Pipeline.Window.flush
  rw [show (cfg6.win 2).isOut = true from rfl, Bool.true_and, Bool.or_eq_true, decide_eq_true_eq, decide_eq_true_eq]
  constructor
  · rintro (h | ⟨h, hne⟩)
    · omega
    · rw [index6_2, index6_2] at hne
      by_contra hcon
      apply hne
      have e : (t.val + 1) / 806 = t.val / 806 := by omega
      show ![(t.val + 1) / 806 % 50, 0] = ![t.val / 806 % 50, 0]
      rw [e]
  · intro h
    by_cases hl : t.val + 1 = grid6.N
    · exact .inl hl
    · refine .inr ⟨by omega, ?_⟩
      rw [index6_2, index6_2]
      intro heq
      have h0' : (t.val + 1) / 806 % 50 = t.val / 806 % 50 := congrFun heq 0
      omega

abbrev stM6_0 (t : Fin cfg6.N) := (cfg6.win 0).stage (cfg6.slots t 0)
abbrev stM6_1 (t : Fin cfg6.N) := (cfg6.win 1).stage (cfg6.slots t 1)
abbrev stM6_2 (t : Fin cfg6.N) := (cfg6.win 2).stage (cfg6.slots t 2)

abbrev bodyOf6 (t : Fin cfg6.N) : Prog (TpuEff nD τ sig (Elt F) Λ₀ .tc) PUnit :=
  cc6__scatter_body (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (Memref.whole cc6_scratch0) (Memref.isWhole_whole _)

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after point `t`: updated by the point's two blocks from what the point before left, from zeros at every 806th point. -/
def acc6 (c : Dev nD) : (t : ℕ) → t < cfg6.N → Vec F S2000x1 .f32 :=
  accum cfg6.N 806 (k6_pay1 (F := F)) fun n h => k6_pay2 (grid6.coords ⟨n, h⟩) (iblk6 V c 0 ⟨n, h⟩) (iblk6 V c 1 ⟨n, h⟩)

theorem acc6_first (c : Dev nD) (t : Fin cfg6.N) (h : t.val % 806 = 0) :
    acc6 V c t.val t.isLt = k6_pay2 (grid6.coords t) (iblk6 V c 0 t) (iblk6 V c 1 t) (k6_pay1 (F := F)) :=
  accum_first _ _ t h

theorem acc6_next (c : Dev nD) (t : Fin cfg6.N) (h : ¬t.val % 806 = 0) :
    acc6 V c t.val t.isLt = k6_pay2 (grid6.coords t) (iblk6 V c 0 t) (iblk6 V c 1 t)
      (acc6 V c (t.val - 1) (Nat.lt_of_le_of_lt (Nat.sub_le _ _) t.isLt)) :=
  accum_next _ _ t h

abbrev scr6 : Memref sig .tc .vmem S2000x1 .f32 := Memref.whole cc6_scratch0

abbrev SR (c : Dev nD) : sProp 𝕄 :=
  Pipeline.scopedRest (Ix := Unit) (Name := ℕ) (U := UR sig nD τ) (Lvl := ℕ) (Val := Elt F) spec6 c
abbrev SRB (c : Dev nD) : sProp 𝕄 :=
  Pipeline.scopedRestBut (Ix := Unit) (Name := ℕ) (U := UR sig nD τ) (Lvl := ℕ) (Val := Elt F) spec6 c [cc6_scratch0]

theorem SR_eq (c : Dev nD) : SR (F := F) c = iprop((∃ d, hold c scr6 d) ∗ SRB c) := by
  unfold SR SRB; rw [scopedRest6_split]; simp only [hold, scr6, owns_whole]; try rfl

/-- The accumulator's part of the invariant before position `n`: at anything before the first point, then at what the point before left. -/
def Acc6 (c : Dev nD) : (n : ℕ) → n ≤ cfg6.N → sProp 𝕄
  | 0, _ => iprop(∃ d, hold c scr6 d)
  | n + 1, hn => hold c scr6 (acc6 V c n hn)

theorem Acc6_any (c : Dev nD) (n : ℕ) (h : n ≤ cfg6.N) : Acc6 V c n h ⊢ iprop(∃ d, hold c scr6 d) := by
  cases n with
  | zero => exact .rfl
  | succ n => show hold c scr6 (acc6 V c n h) ⊢ _; iintro H; iexists _; iexact H

theorem Acc6_pos (c : Dev nD) (n : ℕ) (h : n ≤ cfg6.N) (hz : n ≠ 0) :
    Acc6 V c n h = hold c scr6 (acc6 V c (n - 1) (by omega)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := iprop((∃ r, prngReg c r) ∗ Acc6 V c t.val (Nat.le_of_lt_succ t.isLt) ∗ SRB c)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]
theorem q_eq6 (c : Dev nD) (w : Fin cfg6.W) : (dat6 V c).q w = fullShare := rfl
theorem owed_eq6 (c : Dev nD) (t : Fin (cfg6.N + 1)) : (dat6 V c).owed t = 0 := rfl

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, hold c (stM6_0 t) ((dat6 V c).before 0 t d))
    ∗ (∃ d, hold c (stM6_1 t) ((dat6 V c).before 1 t d))
    ∗ (∃ d, hold c (stM6_2 t) ((dat6 V c).before 2 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

theorem leaves6_idle (c : Dev nD) (t : Fin cfg6.N) (h : ¬t.val % 806 = 805) :
    (dat6 V c).leavesExact 2 t = iprop(∃ d, hold c (stM6_2 t) ((dat6 V c).before 2 t d)) :=
  Dat.leavesExact_idle (dat6 V c) 2 t (idleAt6_2 _ fun hc => h ((hcond6_1 t).mp hc))
    (Bool.eq_false_iff.mpr fun hf => h ((flushAt6_2 t).mp hf))

set_option maxHeartbeats 4800000 in
/-- The body at any point: its position mod 806 says which run applies; the invariant lends the accumulator and takes it back at the point's contents. -/
theorem sound_body6 (c : Dev nD) (t : Fin cfg6.N) :
    bodyPre6 V c t ⊢ wp frame (wpE (defs₀ (F := F)) Variants.none c none) Set.univ (bodyOf6 t) (fun _ => bodyPost6 V c t) := by
  unfold bodyPre6 bodyPost6 bodyOf6
  rw [body6_eq]
  simp only [before6_0, before6_1]
  rw [show (dat6 V c).owesAt () t.succ = (dat6 V c).owesAt () t.castSucc from rfl,
    show (dat6 V c).Φ t.succ = iprop((∃ r, prngReg c r) ∗ hold c scr6 (acc6 V c t.val t.isLt) ∗ SRB c) from rfl,
    show (dat6 V c).Φ t.castSucc = iprop((∃ r, prngReg c r) ∗ Acc6 V c t.val (Nat.le_of_lt t.isLt) ∗ SRB c) from rfl,
    show (dat6 V c).leavesExact 0 t = hold c (stM6_0 t) (iblk6 V c 0 t) from by
      unfold Dat.leavesExact; rw [liveAt6_0, after6_0],
    show (dat6 V c).leavesExact 1 t = hold c (stM6_1 t) (iblk6 V c 1 t) from by
      unfold Dat.leavesExact; rw [liveAt6_1, after6_1]]
  by_cases h0 : t.val % 806 = 0
  · have h1 : ¬t.val % 806 = 805 := by omega
    rw [leaves6_idle V c t h1, acc6_first V c t h0, pay6_eq2, pay6_eq1]
    iintro ⟨⟨Hg, HS, HR⟩, Ho, ⟨%d0, H0⟩, ⟨%d1, H1⟩, H2⟩
    ihave HS := (Acc6_any V c _ _) $$ HS
    iapply (R0.run0_A c (grid6.coords t) _ _ _ _ _ _ _ _ ((hcond6_0 t).mpr h0) (fun hc => h1 ((hcond6_1 t).mp hc)) (iblk6 V c 0 t) (iblk6 V c 1 t)
      (iprop(∃ d, hold c (stM6_2 t) ((dat6 V c).before 2 t d))) Set.univ _)
    iframe
    iintro ⟨H0, H1, H2, HS⟩
    iframe
  · rw [Acc6_pos V c _ _ fun e => h0 (by rw [e]), acc6_next V c t h0, pay6_eq2]
    by_cases h1 : t.val % 806 = 805
    · rw [show (dat6 V c).leavesExact 2 t = hold c (stM6_2 t) ((dat6 V c).after 2 t) from by
        unfold Dat.leavesExact; rw [liveAt6_2 _ ((hcond6_1 t).mpr h1)], after6_2, acc6_next V c t h0, pay6_eq2]
      iintro ⟨⟨Hg, HS, HR⟩, Ho, ⟨%d0, H0⟩, ⟨%d1, H1⟩, ⟨%d2, H2⟩⟩
      iapply (R0.run0_C c (grid6.coords t) _ _ _ _ _ _ _ _ (fun hc => h0 ((hcond6_0 t).mp hc)) ((hcond6_1 t).mpr h1) (iblk6 V c 0 t) (iblk6 V c 1 t)
        (acc6 V c (t.val - 1) (Nat.lt_of_le_of_lt (Nat.sub_le _ _) t.isLt)) Set.univ _)
      iframe
      isplitl [H2]; · iexists _; iexact H2
      iintro ⟨H0, H1, H2, HS⟩
      iframe
    · rw [leaves6_idle V c t h1]
      iintro ⟨⟨Hg, HS, HR⟩, Ho, ⟨%d0, H0⟩, ⟨%d1, H1⟩, H2⟩
      iapply (R0.run0_B c (grid6.coords t) _ _ _ _ _ _ _ _ (fun hc => h0 ((hcond6_0 t).mp hc)) (fun hc => h1 ((hcond6_1 t).mp hc)) (iblk6 V c 0 t) (iblk6 V c 1 t)
        (acc6 V c (t.val - 1) (Nat.lt_of_le_of_lt (Nat.sub_le _ _) t.isLt))
        (iprop(∃ d, hold c (stM6_2 t) ((dat6 V c).before 2 t d))) Set.univ _)
      iframe
      iintro ⟨H0, H1, H2, HS⟩
      iframe

theorem body_obligation6 (c : Dev nD) : BodyObligation (dat6 (F := F) V c) (defs₀ (F := F)) Variants.none () Set.univ := fun t => by
  rw [bigSep_W6, bigSep_W6]
  exact sound_body6 V c t

theorem hin6 (c : Dev nD) : iprop((∃ r, prngReg c r) ∗ SR c) ⊢ (dat6 V c).Φ 0 := by
  rw [SR_eq]
  show _ ⊢ iprop((∃ r, prngReg c r) ∗ iprop(∃ d, hold c scr6 d) ∗ SRB c)
  iintro ⟨Hg, HS, HR⟩
  iframe

theorem hout6 (c : Dev nD) : (dat6 V c).Φ (Fin.last cfg6.N) ⊢ iprop((∃ r, prngReg c r) ∗ SR c) := by
  rw [SR_eq]
  show iprop((∃ r, prngReg c r) ∗ Acc6 V c cfg6.N (Nat.le_refl _) ∗ SRB c) ⊢ _
  iintro ⟨Hg, HS, HR⟩
  ihave HS := (Acc6_any V c _ _) $$ HS
  iframe

end Region

end Cert.Kernel.R6
end
-- ==== Proof.KChainB.lean ====
import proofs.«401816_j90890097918492_1_alg».proof.Proof.RunCondB
import proofs.«401816_j90890097918492_1_alg».proof.Proof.R0FrameB
import proofs.«401816_j90890097918492_1_alg».proof.Proof.R1FrameB
import proofs.«401816_j90890097918492_1_alg».proof.Proof.R2FrameB
import proofs.«401816_j90890097918492_1_alg».proof.Proof.R3FrameB
import proofs.«401816_j90890097918492_1_alg».proof.Proof.R4FrameB
import proofs.«401816_j90890097918492_1_alg».proof.Proof.R5FrameB
import proofs.«401816_j90890097918492_1_alg».proof.Proof.R6FrameB

noncomputable section

namespace Cert.Kernel.KChain

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev asV (W : Dev nD → Valuation τ sig (Elt F)) : (c : Dev nD) → (b : Ref sig .tc) → Buf (Elt F) ((c : Thread nD τ).loc b) :=
  fun c b => W c b

def o0 (c : Dev nD) : (r : Ref sig .tc) → Buf (Elt F) ((c : Thread nD τ).loc r) := fun r => m ((c : Thread nD τ).loc r)

def O8 (c : Dev nD) : Buf (Elt F) ((c : Thread nD τ).loc main_v12) := (R0.dat0 (asV (V7 m)) c).arrAt 2 cfg0.N
def o1 (c : Dev nD) : (r : Ref sig .tc) → Buf (Elt F) ((c : Thread nD τ).loc r) := Function.update (o0 m c) main_v12 (O8 m c)
def outs1 : Outs (F := F) := fun _ r c => o1 m c r

def O11 (c : Dev nD) : Buf (Elt F) ((c : Thread nD τ).loc main_v17) := (R1.dat1 (asV (V10 m (outs1 m))) c).arrAt 3 cfg1.N
def o2 (c : Dev nD) : (r : Ref sig .tc) → Buf (Elt F) ((c : Thread nD τ).loc r) := Function.update (o1 m c) main_v17 (O11 m c)
def outs2 : Outs (F := F) := fun _ r c => o2 m c r

def O12 (c : Dev nD) : Buf (Elt F) ((c : Thread nD τ).loc main_v18) := (R2.dat2 (asV (V11 m (outs2 m))) c).arrAt 3 cfg2.N
def o3 (c : Dev nD) : (r : Ref sig .tc) → Buf (Elt F) ((c : Thread nD τ).loc r) := Function.update (o2 m c) main_v18 (O12 m c)
def outs3 : Outs (F := F) := fun _ r c => o3 m c r

def O15 (c : Dev nD) : Buf (Elt F) ((c : Thread nD τ).loc main_v23) := (R3.dat3 (asV (V14 m (outs3 m))) c).arrAt 3 cfg3.N
def o4 (c : Dev nD) : (r : Ref sig .tc) → Buf (Elt F) ((c : Thread nD τ).loc r) := Function.update (o3 m c) main_v23 (O15 m c)
def outs4 : Outs (F := F) := fun _ r c => o4 m c r

def O16 (c : Dev nD) : Buf (Elt F) ((c : Thread nD τ).loc main_v24) := (R4.dat4 (asV (V15 m (outs4 m))) c).arrAt 2 cfg4.N
def o5 (c : Dev nD) : (r : Ref sig .tc) → Buf (Elt F) ((c : Thread nD τ).loc r) := Function.update (o4 m c) main_v24 (O16 m c)
def outs5 : Outs (F := F) := fun _ r c => o5 m c r

def O20 (c : Dev nD) : Buf (Elt F) ((c : Thread nD τ).loc main_v30) := (R5.dat5 (asV (V19 m (outs5 m))) c).arrAt 3 cfg5.N
def o6 (c : Dev nD) : (r : Ref sig .tc) → Buf (Elt F) ((c : Thread nD τ).loc r) := Function.update (o5 m c) main_v30 (O20 m c)
def outs6 : Outs (F := F) := fun _ r c => o6 m c r

def O21 (c : Dev nD) : Buf (Elt F) ((c : Thread nD τ).loc main_v31) := (R6.dat6 (asV (V20 m (outs6 m))) c).arrAt 2 cfg6.N
def o7 (c : Dev nD) : (r : Ref sig .tc) → Buf (Elt F) ((c : Thread nD τ).loc r) := Function.update (o6 m c) main_v31 (O21 m c)
def outs : Outs (F := F) := fun _ r c => o7 m c r

section Agree
variable (c : Dev nD) (r : Ref sig .tc) (J : ℕ)

/-- Each later choice updates one other reference, so off those references the final choice is the earlier one. -/
theorem agree6 (h : r ∉ [main_v31]) : outs m J r c = outs6 m J r c :=
  Function.update_of_ne (List.ne_of_not_mem_cons h) _ _
theorem agree5 (h : r ∉ [main_v30, main_v31]) : outs m J r c = outs5 m J r c :=
  (agree6 m c r J (List.not_mem_of_not_mem_cons h)).trans (Function.update_of_ne (List.ne_of_not_mem_cons h) _ _)
theorem agree4 (h : r ∉ [main_v24, main_v30, main_v31]) : outs m J r c = outs4 m J r c :=
  (agree5 m c r J (List.not_mem_of_not_mem_cons h)).trans (Function.update_of_ne (List.ne_of_not_mem_cons h) _ _)
theorem agree3 (h : r ∉ [main_v23, main_v24, main_v30, main_v31]) : outs m J r c = outs3 m J r c :=
  (agree4 m c r J (List.not_mem_of_not_mem_cons h)).trans (Function.update_of_ne (List.ne_of_not_mem_cons h) _ _)
theorem agree2 (h : r ∉ [main_v18, main_v23, main_v24, main_v30, main_v31]) : outs m J r c = outs2 m J r c :=
  (agree3 m c r J (List.not_mem_of_not_mem_cons h)).trans (Function.update_of_ne (List.ne_of_not_mem_cons h) _ _)
theorem agree1 (h : r ∉ [main_v17, main_v18, main_v23, main_v24, main_v30, main_v31]) : outs m J r c = outs1 m J r c :=
  (agree2 m c r J (List.not_mem_of_not_mem_cons h)).trans (Function.update_of_ne (List.ne_of_not_mem_cons h) _ _)

end Agree

theorem outs_v12 (J : ℕ) (c : Dev nD) : outs m J main_v12 c = O8 m c :=
  (agree1 m c _ J (by decide)).trans (by unfold outs1 o1; exact Function.update_self ..)
theorem outs_v17 (J : ℕ) (c : Dev nD) : outs m J main_v17 c = O11 m c :=
  (agree2 m c _ J (by decide)).trans (by unfold outs2 o2; exact Function.update_self ..)
theorem outs_v18 (J : ℕ) (c : Dev nD) : outs m J main_v18 c = O12 m c :=
  (agree3 m c _ J (by decide)).trans (by unfold outs3 o3; exact Function.update_self ..)
theorem outs_v23 (J : ℕ) (c : Dev nD) : outs m J main_v23 c = O15 m c :=
  (agree4 m c _ J (by decide)).trans (by unfold outs4 o4; exact Function.update_self ..)
theorem outs_v24 (J : ℕ) (c : Dev nD) : outs m J main_v24 c = O16 m c :=
  (agree5 m c _ J (by decide)).trans (by unfold outs5 o5; exact Function.update_self ..)
theorem outs_v30 (J : ℕ) (c : Dev nD) : outs m J main_v30 c = O20 m c :=
  (agree6 m c _ J (by decide)).trans (by unfold outs6 o6; exact Function.update_self ..)
theorem outs_v31 (J : ℕ) (c : Dev nD) : outs m J main_v31 c = O21 m c := by
  unfold outs o7; exact Function.update_self ..

section Congr
variable (o o' : Outs (F := F)) (c : Dev nD) (L : List (Ref sig .tc)) (h : ∀ r J, r ∉ L → o J r c = o' J r c)
include h

/-- A valuation reads the choice only at the result arrays of the regions before it. -/
theorem V10_congr (hL : ∀ r ∈ [main_v12], r ∉ L) : V10 m o c = V10 m o' c := by
  unfold V10 V9 V8
  rw [h _ 8 (hL _ (.head _))]
theorem V11_congr (hL : ∀ r ∈ [main_v17, main_v12], r ∉ L) : V11 m o c = V11 m o' c := by
  unfold V11
  rw [V10_congr m o o' c L h fun r hr => hL r (.tail _ hr), h _ 11 (hL _ (.head _))]
theorem V14_congr (hL : ∀ r ∈ [main_v18, main_v17, main_v12], r ∉ L) : V14 m o c = V14 m o' c := by
  unfold V14 V13 V12
  rw [V11_congr m o o' c L h fun r hr => hL r (.tail _ hr), h _ 12 (hL _ (.head _))]
theorem V15_congr (hL : ∀ r ∈ [main_v23, main_v18, main_v17, main_v12], r ∉ L) : V15 m o c = V15 m o' c := by
  unfold V15
  rw [V14_congr m o o' c L h fun r hr => hL r (.tail _ hr), h _ 15 (hL _ (.head _))]
theorem V19_congr (hL : ∀ r ∈ [main_v24, main_v23, main_v18, main_v17, main_v12], r ∉ L) : V19 m o c = V19 m o' c := by
  unfold V19 V18 V17 V16
  rw [V15_congr m o o' c L h fun r hr => hL r (.tail _ hr), h _ 16 (hL _ (.head _))]
theorem V20_congr (hL : ∀ r ∈ [main_v30, main_v24, main_v23, main_v18, main_v17, main_v12], r ∉ L) : V20 m o c = V20 m o' c := by
  unfold V20
  rw [V19_congr m o o' c L h fun r hr => hL r (.tail _ hr), h _ 20 (hL _ (.head _))]

end Congr

theorem V10_outs (c : Dev nD) : V10 m (outs m) c = V10 m (outs1 m) c :=
  V10_congr m _ _ c _ (fun r J => agree1 m c r J) (by decide)
theorem V11_outs (c : Dev nD) : V11 m (outs m) c = V11 m (outs2 m) c :=
  V11_congr m _ _ c _ (fun r J => agree2 m c r J) (by decide)
theorem V14_outs (c : Dev nD) : V14 m (outs m) c = V14 m (outs3 m) c :=
  V14_congr m _ _ c _ (fun r J => agree3 m c r J) (by decide)
theorem V15_outs (c : Dev nD) : V15 m (outs m) c = V15 m (outs4 m) c :=
  V15_congr m _ _ c _ (fun r J => agree4 m c r J) (by decide)
theorem V19_outs (c : Dev nD) : V19 m (outs m) c = V19 m (outs5 m) c :=
  V19_congr m _ _ c _ (fun r J => agree5 m c r J) (by decide)
theorem V20_outs (c : Dev nD) : V20 m (outs m) c = V20 m (outs6 m) c :=
  V20_congr m _ _ c _ (fun r J => agree6 m c r J) (by decide)

end Cert.Kernel.KChain

end
-- ==== Proof.PDatsB.lean ====
import proofs.«401816_j90890097918492_1_alg».proof.Proof.KChainB
import Idealize.ShloMosaic.Lib.Pipeline.RegionsLoop

noncomputable section

namespace Cert.Kernel.KChain

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (cfgs p) c
  | ⟨0, _⟩ => fun c => R0.dat0 (asV (V7 m)) c
  | ⟨1, _⟩ => fun c => R1.dat1 (asV (V10 m (outs1 m))) c
  | ⟨2, _⟩ => fun c => R2.dat2 (asV (V11 m (outs2 m))) c
  | ⟨3, _⟩ => fun c => R3.dat3 (asV (V14 m (outs3 m))) c
  | ⟨4, _⟩ => fun c => R4.dat4 (asV (V15 m (outs4 m))) c
  | ⟨5, _⟩ => fun c => R5.dat5 (asV (V19 m (outs5 m))) c
  | ⟨6, _⟩ => fun c => R6.dat6 (asV (V20 m (outs6 m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.KChain

end
-- ==== Proof.RegLib.lean ====
import Idealize.ShloMosaic.Lib.Pipeline.RegionsLoop
import Idealize.ShloMosaic.Lib.Pipeline.Frame

noncomputable section

namespace Idealize.ShloMosaic.Pipeline

open Idealize.SL Idealize.SL.RA TcCoe Idealize.ShloMosaic.Rounds
open Idealize.SL.BI (sProp bigSep)
open scoped Idealize.SL.BI
open Idealize.SL.BI.BIBase Idealize.SL.BI.Laws Idealize.SL.Sem Idealize.SL.ProofMode

variable {nD : Nat} {τ : Topo} {sig : RefSig} {Val : EltTy → Type}
variable {Ix : Type} [DecidableEq Ix] {Name : Type} [DecidableEq Name] {U : Type} [URA U] {Lvl : Type} [Preorder Lvl]
variable {Λ₀ : SL.Sem.Labels} {P : Type} [Fintype P]

local notation "𝕄" => MT nD τ sig Ix Val Name U Lvl

variable {cfgs : P → Cfg sig Λ₀} {p : P} (lf : LaunchFacts (nD := nD) (τ := τ) cfgs p)
  {pd : (p : P) → (c : Dev nD) → Dat τ Val Ix Name U Lvl (cfgs p) c} {ι : Ix}
  {defs₀ : Defs nD τ sig Val Λ₀} {𝒱₀ : Variants} {L : GSem nD τ sig → Finset Ix} {lv : GSem nD τ sig → Ix → Lvl}
  (X : Dev nD → sProp (MT nD τ sig Ix Val Name U Lvl)) (Ve Vd Vx : Dev nD → Valuation τ sig Val) (hVd : ∀ c, Ve c = Vd c)
  (wo : Fin (cfgs p).W) (hio : ∀ w, w ≠ wo → ((cfgs p).win w).isOut = false)
  (hq : ∀ c w, (pd p c).q w = fullShare) (howed : ∀ c t, (pd p c).owed t = 0)
  (hrec : ∀ c x, x ∈ (pd p c).bound ι 0)
  (hbody : ∀ c, BodyObligation (pd p c) defs₀ 𝒱₀ ι Set.univ)
  (hΦ0 : ∀ c, iprop(X c ∗ scopedRest (cfgs p).spec c) ⊢ (pd p c).Φ 0)
  (hΦN : ∀ c, (pd p c).Φ (Fin.last (cfgs p).N) ⊢ iprop(X c ∗ scopedRest (cfgs p).spec c))
  (hA : ∀ c w, (pd p c).A w = Vd c (arrRef (cfgs p).spec w))
  (hVx : ∀ c, Vx c = Function.update (Ve c) (arrRef (cfgs p).spec wo) ((pd p c).arrAt wo (cfgs p).N))

/-- A region that changes the contents only at its one result array, as a segment of the program. -/
def RegionSeg.ofHeld : RegionSeg (fun p => (cfgs p).toPCfg) (fun p => (cfgs p).toPCfg_adm) pd ι defs₀ 𝒱₀ L lv p where
  win := lf.win.to₀
  block_pos := lf.block_pos
  stage_whole := lf.stage_whole
  K := PEmpty
  osem k := k.elim
  ho := OwnSemFacts.none _
  hbody c := (hbody c).loose
  hwaits := hwaits_of_owed_zero _ _ _ _ L lv p howed
  pre c := iprop(StableHlo.held (c : Thread nD τ) (ucRefs τ sig) (Ve c) ∗ X c ∗ ∃ W, owes (c : Thread nD τ) (0 : CellTallies nD τ sig Ix) W)
  post c := iprop(StableHlo.held (c : Thread nD τ) (ucRefs τ sig) (Vx c) ∗ X c ∗ ∃ W, owes (c : Thread nD τ) (0 : CellTallies nD τ sig Ix) W)
  X := X
  Y := X
  Z c := unscopedRest (cfgs p).spec c fun b => Ve c b
  hentry c := by
    rw [ownSems0_none]
    have hsplit := arrays_of_unscopedBufs (p := p) (fun p => (cfgs p).toPCfg) (fun p => (cfgs p).toPCfg_adm) pd lf.win lf.arr_whole c
      ((pd p c).share_full (hq c)) (fun b => Ve c b) fun w => (hA c w).trans (congrFun (hVd c).symm _)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      rw [howed c]
      icases HO with ⟨%W, HO⟩; iexists W; isplitr; · ipureintro; exact fun x _ => hrec c x
      iexact HO
    isplitl [Hp]; · iexact Hp
    iexact Hrest
  hin c := by
    iintro ⟨Hp, -, Hr⟩
    iapply hΦ0 c
    isplitl [Hp] <;> iassumption
  hout c := by
    rw [ownSems0_none]
    iintro H
    ihave H' := hΦN c $$ H
    icases H' with ⟨Hp, Hr⟩
    isplitl [Hp]; · iexact Hp
    isplitr; · iempintro
    iexact Hr
  hexit c := by
    have hoff : ∀ r : Ref sig .tc, r ≠ arrRef (cfgs p).spec wo → Vx c r = Ve c r := fun r h =>
      (congrFun (hVx c) _).trans (Function.update_of_ne (fun h' => h (Proc.devRef_injective _ h')) _ _)
    have hVo : (pd p c).arrAt wo (cfgs p).N = Vx c (arrRef (cfgs p).spec wo) :=
      ((congrFun (hVx c) _).trans (Function.update_self ..)).symm
    have hjoin := unscopedBufs_of_arrays (p := p) (fun p => (cfgs p).toPCfg) (fun p => (cfgs p).toPCfg_adm)
      lf.win lf.arr_whole c pd ((pd p c).share_full (hq c)) (fun b => Ve c b) (fun b => Vx c b) ((pd p c).arrAt · (cfgs p).N)
      (fun w => if h : w = wo then h ▸ hVo else
        (((pd p c).arrAt_in w (hio w h) _).trans ((hA c w).trans (congrFun (hVd c).symm _))).trans
          (hoff _ fun h' => h (lf.win.arr_inj h')).symm)
      (fun b hb => hoff b fun h => hb (Finset.mem_image.mpr ⟨wo, Finset.mem_univ _, h.symm⟩))
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c]
    icases HO with ⟨%W, -, HO⟩; iexists W
    iexact HO

end Idealize.ShloMosaic.Pipeline

end
-- ==== Proof.RegsB.lean ====
import proofs.«401816_j90890097918492_1_alg».proof.Proof.PDatsB
import proofs.«401816_j90890097918492_1_alg».proof.Proof.RegLib

noncomputable section

namespace Cert.Kernel.KChain

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

def reg0 : Pipeline.RegionSeg (pcfgs (F := F)) adm (pdats m) () defs₀ 𝒱₀ L lv 0 :=
  .ofHeld launch0 (fun c => iprop(∃ r, prngReg c r)) (V7 m) (V7 m) (V8 m (outs m)) (fun _ => rfl) 2 (by decide)
    (R0.q_eq0 _) (R0.owed_eq0 _) (fun _ _ => .inl trivial) (R0.body_obligation0 _)
    (R0.hin0 _) (R0.hout0 _) (R0.A_eq0 _)
    fun c => congrArg (Function.update (V7 m c) main_v12) (outs_v12 m _ c)

def reg1 : Pipeline.RegionSeg (pcfgs (F := F)) adm (pdats m) () defs₀ 𝒱₀ L lv 1 :=
  .ofHeld launch1 (fun c => iprop(∃ r, prngReg c r)) (V10 m (outs m)) (V10 m (outs1 m)) (V11 m (outs m)) (V10_outs m) 3 (by decide)
    (R1.q_eq1 _) (R1.owed_eq1 _) (fun _ _ => .inl trivial) (R1.body_obligation1 _)
    (R1.hin1 _) (R1.hout1 _) (R1.A_eq1 _)
    fun c => congrArg (Function.update (V10 m (outs m) c) main_v17) (outs_v17 m _ c)

def reg2 : Pipeline.RegionSeg (pcfgs (F := F)) adm (pdats m) () defs₀ 𝒱₀ L lv 2 :=
  .ofHeld launch2 (fun c => iprop(∃ r, prngReg c r)) (V11 m (outs m)) (V11 m (outs2 m)) (V12 m (outs m)) (V11_outs m) 3 (by decide)
    (R2.q_eq2 _) (R2.owed_eq2 _) (fun _ _ => .inl trivial) (R2.body_obligation2 _)
    (R2.hin2 _) (R2.hout2 _) (R2.A_eq2 _)
    fun c => congrArg (Function.update (V11 m (outs m) c) main_v18) (outs_v18 m _ c)

def reg3 : Pipeline.RegionSeg (pcfgs (F := F)) adm (pdats m) () defs₀ 𝒱₀ L lv 3 :=
  .ofHeld launch3 (fun c => iprop(∃ r, prngReg c r)) (V14 m (outs m)) (V14 m (outs3 m)) (V15 m (outs m)) (V14_outs m) 3 (by decide)
    (R3.q_eq3 _) (R3.owed_eq3 _) (fun _ _ => .inl trivial) (R3.body_obligation3 _)
    (R3.hin3 _) (R3.hout3 _) (R3.A_eq3 _)
    fun c => congrArg (Function.update (V14 m (outs m) c) main_v23) (outs_v23 m _ c)

def reg4 : Pipeline.RegionSeg (pcfgs (F := F)) adm (pdats m) () defs₀ 𝒱₀ L lv 4 :=
  .ofHeld launch4 (fun c => iprop(∃ r, prngReg c r)) (V15 m (outs m)) (V15 m (outs4 m)) (V16 m (outs m)) (V15_outs m) 2 (by decide)
    (R4.q_eq4 _) (R4.owed_eq4 _) (fun _ _ => .inl trivial) (R4.body_obligation4 _)
    (R4.hin4 _) (R4.hout4 _) (R4.A_eq4 _)
    fun c => congrArg (Function.update (V15 m (outs m) c) main_v24) (outs_v24 m _ c)

def reg5 : Pipeline.RegionSeg (pcfgs (F := F)) adm (pdats m) () defs₀ 𝒱₀ L lv 5 :=
  .ofHeld launch5 (fun c => iprop(∃ r, prngReg c r)) (V19 m (outs m)) (V19 m (outs5 m)) (V20 m (outs m)) (V19_outs m) 3 (by decide)
    (R5.q_eq5 _) (R5.owed_eq5 _) (fun _ _ => .inl trivial) (R5.body_obligation5 _)
    (R5.hin5 _) (R5.hout5 _) (R5.A_eq5 _)
    fun c => congrArg (Function.update (V19 m (outs m) c) main_v30) (outs_v30 m _ c)

def reg6 : Pipeline.RegionSeg (pcfgs (F := F)) adm (pdats m) () defs₀ 𝒱₀ L lv 6 :=
  .ofHeld launch6 (fun c => iprop(∃ r, prngReg c r)) (V20 m (outs m)) (V20 m (outs6 m)) (V21 m (outs m)) (V20_outs m) 2 (by decide)
    (R6.q_eq6 _) (R6.owed_eq6 _) (fun _ _ => .inl trivial) (R6.body_obligation6 _)
    (R6.hin6 _) (R6.hout6 _) (R6.A_eq6 _)
    fun c => congrArg (Function.update (V20 m (outs m) c) main_v31) (outs_v31 m _ c)

end Cert.Kernel.KChain

end
-- ==== Proof.KRunB.lean ====
import proofs.«401816_j90890097918492_1_alg».proof.Proof.RegsB

noncomputable section

namespace Cert.Kernel.KChain

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v34) = V22 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  RunCond.run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)

end Cert.Kernel.KChain

end
-- ==== Proof.Spec.lean ====
/-
  The two-layer graph convolution as plain functions of the inputs, in the two arrangements the programs compute it.

  Nodes are 0 … N-1 (N = 100000). The edge list is the given 3200000 edges followed by one self loop per node; an edge
  is a pair of 32-bit words (source, target). A SCATTER sums, for node n, the terms of the edges whose target word, read
  as a signed integer, is n. A GATHER reads a node table at an edge's word.

  Arrangement K (one-hot products over a padded edge list): the edge list is padded with zero words up to 806 tiles of
  4096; a mask is one on the true edges and zero on the padding; a gather is the sum over all nodes of the table entry
  times the indicator "the word is this node", that is the entry at the word's value when the word names a node and
  zero otherwise; every message carries the mask as a factor.
  Arrangement R (index reads): a gather reads the table at the word clamped into range by a map cl that fixes every
  word below N.
  Their equality, when every source word names a node, is the module's theorem; no finiteness is used: a factor zero
  annihilates and a factor one is neutral at the infinities too.
-/
import Idealize.ShloMosaic.PureOps.Ideal
import Idealize.ShloMosaic.PureOps.Ideal.Laws

noncomputable section

open scoped BigOperators

namespace Cert.Spec

open Idealize.ShloMosaic

/-- nodes -/
abbrev nN : Nat := 100000
/-- given edges -/
abbrev nE0 : Nat := 3200000
/-- edges with the self loops -/
abbrev nE : Nat := 3300000
/-- edges padded to 806 tiles of 4096 -/
abbrev nP : Nat := 3301376

/-- the float zero -/
abbrev z32 : Ideal .f32 := FloatOps.ofBits (F := Ideal) .f32 0x00000000#32

/-- the inverse square root of a positive degree, zero otherwise -/
def dinvOf (d : Ideal .f32) : Ideal .f32 :=
  Scalar.select (FloatOps.cmpf (F := Ideal) .ogt d z32) (FloatOps.hostUnary (F := Ideal) .rsqrt d) z32

/-- the positive part -/
def reluOf (a : Ideal .f32) : Ideal .f32 := FloatOps.maximumf (F := Ideal) a z32

/-- Row r of the index array followed by the self loops 0 … N-1. -/
def edgeW (ei : Fin 2 → Fin nE0 → BitVec 32) (r : Fin 2) (e : Fin nE) : BitVec 32 :=
  if h : e.val < nE0 then ei r ⟨e.val, h⟩ else BitVec.ofNat 32 (e.val - nE0)

/-- A word list padded with zero words. -/
def padW (w : Fin nE → BitVec 32) (e : Fin nP) : BitVec 32 :=
  if h : e.val < nE then w ⟨e.val, h⟩ else 0#32

/-- The mask of the true edges. -/
def valid (e : Fin nP) : EReal := if e.val < nE then 1 else 0

/-- Scatter: the sum of the terms whose index word, read signed, is n. -/
def ssum {M : Nat} (idx : Fin M → BitVec 32) (u : Fin M → EReal) (n : Fin nN) : EReal :=
  ∑ e ∈ Finset.univ.filter (fun e : Fin M => (idx e).toInt = (n.val : Int)), u e

/-- One-hot gather: the entry at the word's value when the word names a node, zero otherwise. -/
def gsel (tbl : Fin nN → EReal) (w : BitVec 32) : EReal :=
  if h : w.toNat < nN then tbl ⟨w.toNat, h⟩ else 0

section K

variable (x : Fin nN → Fin 1 → EReal) (W1 : Fin 1 → Fin 16 → EReal) (b1 : Fin 16 → EReal)
  (W2 : Fin 16 → Fin 1 → EReal) (b2 : Fin 1 → EReal) (ei : Fin 2 → Fin nE0 → BitVec 32)

/-- first linear layer -/
def h1 (n : Fin nN) (f : Fin 16) : EReal := ∑ k : Fin 1, x n k * W1 k f

def srcP : Fin nP → BitVec 32 := padW (edgeW ei 0)
def dstP : Fin nP → BitVec 32 := padW (edgeW ei 1)

def degK (n : Fin nN) : EReal := ssum (dstP ei) valid n
def dinvK (n : Fin nN) : EReal := dinvOf (degK ei n)
def normK (e : Fin nP) : EReal := ((gsel (dinvK ei) (srcP ei e) * 1) * (gsel (dinvK ei) (dstP ei e) * 1)) * valid e
def msg1K (e : Fin nP) (f : Fin 16) : EReal := gsel (fun n => h1 x W1 n f) (srcP ei e) * normK ei e
def agg1K (n : Fin nN) (f : Fin 16) : EReal := ssum (dstP ei) (fun e => msg1K x W1 ei e f) n
def hidK (n : Fin nN) (f : Fin 16) : EReal := reluOf (agg1K x W1 ei n f + b1 f)
def h2K (n : Fin nN) : EReal := ∑ f : Fin 16, hidK x W1 b1 ei n f * W2 f 0
def msg2K (e : Fin nP) : EReal := gsel (h2K x W1 b1 W2 ei) (srcP ei e) * normK ei e
def agg2K (n : Fin nN) : EReal := ssum (dstP ei) (msg2K x W1 b1 W2 ei) n
/-- arrangement K's result -/
def outK (n : Fin nN) : EReal := agg2K x W1 b1 W2 ei n + b2 0

variable (cl : BitVec 32 → Fin nN)

def srcR : Fin nE → BitVec 32 := edgeW ei 0
def dstR : Fin nE → BitVec 32 := edgeW ei 1

def degR (n : Fin nN) : EReal := 0 + ssum (dstR ei) (fun _ => 1) n
def dinvR (n : Fin nN) : EReal := dinvOf (degR ei n)
def normR (e : Fin nE) : EReal := dinvR ei (cl (srcR ei e)) * dinvR ei (cl (dstR ei e))
def msg1R (e : Fin nE) (f : Fin 16) : EReal := normR ei cl e * h1 x W1 (cl (srcR ei e)) f
def agg1R (n : Fin nN) (f : Fin 16) : EReal := 0 + ssum (dstR ei) (fun e => msg1R x W1 ei cl e f) n
def hidR (n : Fin nN) (f : Fin 16) : EReal := reluOf (agg1R x W1 ei cl n f + b1 f)
def h2R (n : Fin nN) : EReal := ∑ f : Fin 16, hidR x W1 b1 ei cl n f * W2 f 0
def msg2R (e : Fin nE) : EReal := normR ei cl e * h2R x W1 b1 W2 ei cl (cl (srcR ei e))
def agg2R (n : Fin nN) : EReal := 0 + ssum (dstR ei) (msg2R x W1 b1 W2 ei cl) n
/-- arrangement R's result -/
def outR (n : Fin nN) : EReal := agg2R x W1 b1 W2 ei cl n + b2 0

/-! ### Auxiliary facts for the bridge -/

/-- A position of the true edge list is a position of the padded one. -/
theorem lt_nP_of_lt_nE {a : Nat} (h : a < nE) : a < nP := Nat.lt_of_lt_of_le h (by decide)

/-- A word whose signed reading is a node number has that number as its unsigned value. -/
theorem toNat_lt_of_toInt_eq (w : BitVec 32) (n : Fin nN) (h : w.toInt = (n.val : Int)) : w.toNat < nN := by
  have hw := w.isLt
  have hn := n.isLt
  rw [BitVec.toInt_eq_toNat_cond] at h
  split at h <;> omega

/-- The one-hot gather is the clamped read at a word that names a node. -/
theorem gsel_eq_of_lt (hcl : ∀ w : BitVec 32, ∀ h : w.toNat < nN, cl w = ⟨w.toNat, h⟩)
    (tbl : Fin nN → EReal) (w : BitVec 32) (h : w.toNat < nN) : gsel tbl w = tbl (cl w) := by
  unfold gsel
  rw [dif_pos h, hcl w h]

/-- Every source word of the extended edge list names a node. -/
theorem srcR_lt (hsrc : ∀ e : Fin nE0, (ei 0 e).toNat < nN) (e : Fin nE) : (srcR ei e).toNat < nN := by
  unfold srcR edgeW
  split
  · exact hsrc _
  · have he : e.val < 3300000 := e.isLt
    have h0 : nE0 = 3200000 := rfl
    have hN : nN = 100000 := rfl
    rw [BitVec.toNat_ofNat]
    omega

/-- A scatter over the padded list whose terms vanish on the padding is the scatter over the true list. -/
theorem ssum_padW (idx : Fin nE → BitVec 32) (g : Fin nP → EReal) (u : Fin nE → EReal) (n : Fin nN)
    (hz : ∀ e : Fin nP, ¬ e.val < nE → g e = 0)
    (hu : ∀ e : Fin nE, (idx e).toInt = (n.val : Int) → g ⟨e.val, lt_nP_of_lt_nE e.isLt⟩ = u e) :
    ssum (padW idx) g n = ssum idx u n := by
  unfold ssum
  symm
  refine Finset.sum_bij_ne_zero (fun e _ _ => (⟨e.val, lt_nP_of_lt_nE e.isLt⟩ : Fin nP)) ?_ ?_ ?_ ?_
  · intro e he _
    rw [Finset.mem_filter] at he ⊢
    refine ⟨Finset.mem_univ _, ?_⟩
    have : padW idx ⟨e.val, lt_nP_of_lt_nE e.isLt⟩ = idx e := by
      unfold padW
      rw [dif_pos e.isLt]
    rw [this]; exact he.2
  · intro a _ _ b _ _ hab
    exact Fin.ext (by simpa using congrArg Fin.val hab)
  · intro b hb hb0
    have hlt : b.val < nE := by
      by_contra hc
      exact hb0 (hz b hc)
    rw [Finset.mem_filter] at hb
    have hpad : padW idx b = idx ⟨b.val, hlt⟩ := by
      unfold padW
      rw [dif_pos hlt]
    have hmem : (⟨b.val, hlt⟩ : Fin nE) ∈ Finset.univ.filter (fun e : Fin nE => (idx e).toInt = (n.val : Int)) := by
      rw [Finset.mem_filter]
      exact ⟨Finset.mem_univ _, by rw [← hpad]; exact hb.2⟩
    refine ⟨⟨b.val, hlt⟩, hmem, ?_, rfl⟩
    rw [← hu ⟨b.val, hlt⟩ (by rw [← hpad]; exact hb.2)]
    exact hb0
  · intro e he _
    rw [Finset.mem_filter] at he
    exact (hu e he.2).symm

/-- On a true edge the padded source list reads the true source word. -/
theorem srcP_cast (e : Fin nE) : srcP ei ⟨e.val, lt_nP_of_lt_nE e.isLt⟩ = srcR ei e := by
  unfold srcP srcR padW
  rw [dif_pos e.isLt]

/-- On a true edge the padded target list reads the true target word. -/
theorem dstP_cast (e : Fin nE) : dstP ei ⟨e.val, lt_nP_of_lt_nE e.isLt⟩ = dstR ei e := by
  unfold dstP dstR padW
  rw [dif_pos e.isLt]

/-- The degrees agree: the mask counts exactly the true edges. -/
theorem degK_eq_degR (n : Fin nN) : degK ei n = degR ei n := by
  unfold degK degR dstP dstR
  rw [zero_add]
  refine ssum_padW _ _ _ n ?_ ?_
  · intro e he
    unfold valid
    rw [if_neg he]
  · intro e _
    unfold valid
    rw [if_pos e.isLt]

/-- The inverse square roots of the degrees agree. -/
theorem dinvK_eq_dinvR : dinvK ei = dinvR ei := by
  funext n
  unfold dinvK dinvR
  rw [degK_eq_degR]

/-- On the padding the edge weight is zero: the mask is a factor. -/
theorem normK_pad (e : Fin nP) (he : ¬ e.val < nE) : normK ei e = 0 := by
  unfold normK valid
  rw [if_neg he, mul_zero]

/-- On a true edge whose target word reads as node n the two edge weights agree. -/
theorem normK_eq_normR (hcl : ∀ w : BitVec 32, ∀ h : w.toNat < nN, cl w = ⟨w.toNat, h⟩)
    (hsrc : ∀ e : Fin nE0, (ei 0 e).toNat < nN) (n : Fin nN) (e : Fin nE)
    (he : (dstR ei e).toInt = (n.val : Int)) :
    normK ei ⟨e.val, lt_nP_of_lt_nE e.isLt⟩ = normR ei cl e := by
  unfold normK normR
  rw [srcP_cast, dstP_cast, dinvK_eq_dinvR,
    gsel_eq_of_lt cl hcl _ _ (srcR_lt ei hsrc e),
    gsel_eq_of_lt cl hcl _ _ (toNat_lt_of_toInt_eq _ n he)]
  unfold valid
  rw [if_pos e.isLt, mul_one, mul_one, mul_one]

/-- The first aggregation agrees. -/
theorem agg1K_eq_agg1R (hcl : ∀ w : BitVec 32, ∀ h : w.toNat < nN, cl w = ⟨w.toNat, h⟩)
    (hsrc : ∀ e : Fin nE0, (ei 0 e).toNat < nN) (n : Fin nN) (f : Fin 16) :
    agg1K x W1 ei n f = agg1R x W1 ei cl n f := by
  unfold agg1K agg1R
  rw [zero_add]
  unfold dstP dstR
  refine ssum_padW _ _ _ n ?_ ?_
  · intro e he
    show msg1K x W1 ei e f = 0
    unfold msg1K
    rw [normK_pad ei e he, mul_zero]
  · intro e he
    show msg1K x W1 ei ⟨e.val, lt_nP_of_lt_nE e.isLt⟩ f = msg1R x W1 ei cl e f
    unfold msg1K msg1R
    rw [normK_eq_normR ei cl hcl hsrc n e he, srcP_cast,
      gsel_eq_of_lt cl hcl _ _ (srcR_lt ei hsrc e), mul_comm]

/-- The hidden layer agrees. -/
theorem hidK_eq_hidR (hcl : ∀ w : BitVec 32, ∀ h : w.toNat < nN, cl w = ⟨w.toNat, h⟩)
    (hsrc : ∀ e : Fin nE0, (ei 0 e).toNat < nN) (n : Fin nN) (f : Fin 16) :
    hidK x W1 b1 ei n f = hidR x W1 b1 ei cl n f := by
  unfold hidK hidR
  rw [agg1K_eq_agg1R x W1 ei cl hcl hsrc]

/-- The second linear layer agrees. -/
theorem h2K_eq_h2R (hcl : ∀ w : BitVec 32, ∀ h : w.toNat < nN, cl w = ⟨w.toNat, h⟩)
    (hsrc : ∀ e : Fin nE0, (ei 0 e).toNat < nN) :
    h2K x W1 b1 W2 ei = h2R x W1 b1 W2 ei cl := by
  funext n
  unfold h2K h2R
  refine Finset.sum_congr rfl (fun f _ => ?_)
  rw [hidK_eq_hidR x W1 b1 ei cl hcl hsrc]

/-- The second aggregation agrees. -/
theorem agg2K_eq_agg2R (hcl : ∀ w : BitVec 32, ∀ h : w.toNat < nN, cl w = ⟨w.toNat, h⟩)
    (hsrc : ∀ e : Fin nE0, (ei 0 e).toNat < nN) (n : Fin nN) :
    agg2K x W1 b1 W2 ei n = agg2R x W1 b1 W2 ei cl n := by
  unfold agg2K agg2R
  rw [zero_add]
  unfold dstP dstR
  refine ssum_padW _ _ _ n ?_ ?_
  · intro e he
    unfold msg2K
    rw [normK_pad ei e he, mul_zero]
  · intro e he
    unfold msg2K msg2R
    rw [normK_eq_normR ei cl hcl hsrc n e he, srcP_cast,
      gsel_eq_of_lt cl hcl _ _ (srcR_lt ei hsrc e), h2K_eq_h2R x W1 b1 W2 ei cl hcl hsrc, mul_comm]

/-- THE BRIDGE: when cl fixes every word below N and every source word names a node, the two arrangements agree. -/
theorem outK_eq_outR (hcl : ∀ w : BitVec 32, ∀ h : w.toNat < nN, cl w = ⟨w.toNat, h⟩)
    (hsrc : ∀ e : Fin nE0, (ei 0 e).toNat < nN) (n : Fin nN) :
    outK x W1 b1 W2 b2 ei n = outR x W1 b1 W2 b2 ei cl n := by
  unfold outK outR
  rw [agg2K_eq_agg2R x W1 b1 W2 ei cl hcl hsrc]

end K

end Cert.Spec

end
-- ==== Proof.PreDecode.lean ====
import proofs.«401816_j90890097918492_1_alg».proof.Pre_finite_inputs
import Idealize.ShloMosaic.Lib.ReduceAll
import Idealize.ShloMosaic.Lib.ValueIdx

noncomputable section

namespace Cert.PreDecode

open Idealize.ShloMosaic
open Cert.Pre_finite_inputs

instance subsingletonScalarIdx : Subsingleton S_.Idx := ⟨fun a b => funext fun d => d.elim0⟩

theorem toNat_lt_of_sge_slt (w : BitVec 32) (h0 : IntOp.cmpi .sge w 0#32 = 1#1) (h1 : IntOp.cmpi .slt w 100000#32 = 1#1) :
    w.toNat < 100000 := by
  have hw := w.isLt
  have e0 : (0#32 : BitVec 32).toInt = 0 := by decide
  have e1 : (100000#32 : BitVec 32).toInt = 100000 := by decide
  have a0 : (0 : Int) ≤ w.toInt := by
    have := h0
    simp only [IntOp.cmpi, BitVec.sle, e0] at this
    by_contra hc
    rw [decide_eq_false hc] at this
    exact absurd this (by decide)
  have a1 : w.toInt < 100000 := by
    have := h1
    simp only [IntOp.cmpi, BitVec.slt, e1] at this
    by_contra hc
    rw [decide_eq_false hc] at this
    exact absurd this (by decide)
  rw [BitVec.toInt_eq_toNat_cond] at a0 a1
  split at a0 <;> omega

theorem slice_row0 (x5 : IVec S2x3200000 32) (hs : S2x3200000.Slices ![0, 0] S1x3200000) (e : Fin 3200000) :
    extractStridedSlice S1x3200000 ![0, 0] x5 hs (ValueIdx.ix2 (0 : Fin 1) e) = x5 (ValueIdx.ix2 (0 : Fin 2) e) := by
  unfold extractStridedSlice
  refine congrArg x5 (funext fun a => ?_)
  match a with
  | ⟨0, _⟩ => exact Fin.ext (by show 0 + 0 = 0; rfl)
  | ⟨1, _⟩ => exact Fin.ext (by show 0 + e.val = e.val; omega)

theorem row0_lt_of_all (x5 : IVec S2x3200000 32) (hs : S2x3200000.Slices ![0, 0] S1x3200000)
    (hb : S_.BroadcastsInDim S1x3200000 (![] : Fin 0 → Fin S1x3200000.rank)) (hr : S1x3200000.ReducesTo [0, 1] S_)
    (hS : 0 < S_.numel) (j : S_.Idx)
    (h : Host.reduce IntOp.andi
        (andi (cmpi .sge (extractStridedSlice S1x3200000 ![0, 0] x5 hs) (broadcastInDim S1x3200000 ![] hb (constantI S_ 32 0#32)))
              (cmpi .slt (extractStridedSlice S1x3200000 ![0, 0] x5 hs) (broadcastInDim S1x3200000 ![] hb (constantI S_ 32 100000#32))))
        (constantI S_ 1 1#1) hr hS j = 1#1) (e : Fin 3200000) :
    (x5 (ValueIdx.ix2 (0 : Fin 2) e)).toNat < 100000 := by
  have h2 := Host.reduce_andi_all _ _ hr hS j h (ValueIdx.ix2 (0 : Fin 1) e)
  obtain ⟨ha, hb'⟩ := IntOp.andi_eq_one.1 h2
  rw [← slice_row0 x5 hs e]
  exact toNat_lt_of_sge_slt _ ha hb'

theorem src_lt_of_pre {F : FTy → Type} [FloatOps F] [Cert.Pre_finite_inputs.Facts]
    (x0 : FVec F S100000x1 .f32) (x1 : FVec F S1x16 .f32) (x2 : FVec F S16 .f32) (x3 : FVec F S16x1 .f32)
    (x4 : FVec F S1 .f32) (x5 : IVec S2x3200000 32)
    (h : Cert.Pre_finite_inputs.fn (F := F) x0 x1 x2 x3 x4 x5 = fun _ => 1#1) (e : Fin 3200000) :
    (x5 (ValueIdx.ix2 (0 : Fin 2) e)).toNat < 100000 := by
  have h0 := congrFun h (fun d => d.elim0)
  dsimp only [fn, fn_part1] at h0
  exact row0_lt_of_all x5 _ _ _ _ _ (IntOp.andi_eq_one.1 h0).2 e

end Cert.PreDecode

end
-- ==== Proof.LibScatterGather.lean ====
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- At (n, h): the operand's entry plus the entries (e, h) of the update rows whose start index, read signed, is n. -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- At n: the operand's entry plus the updates whose start index, read signed, is n. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

end Cert.LibSG

end
-- ==== Proof.RefValue.lean ====
import proofs.«401816_j90890097918492_1_alg».proof.Proof.RefRun
import proofs.«401816_j90890097918492_1_alg».proof.Proof.RefRead
import proofs.«401816_j90890097918492_1_alg».proof.Proof.Spec
import proofs.«401816_j90890097918492_1_alg».proof.Proof.LibScatterGather
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Spec

abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem vecGather_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N M wf).start (ix1 e) idx 0 + (vecGather N M wf).batchCoord (ix1 e) 0
    + (vecGather N M wf).offCoord (ix1 e) 0 = _
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gather_vec_apply {α : Type} {N M w : Nat} (hN : 0 < N)
    (d : GatherDims ⟨1, ![N]⟩ ⟨2, ![M, 1]⟩ ⟨1, ![M]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e)
      = x (ix1 ⟨min (idx (ix2 e (0 : Fin 1))).toInt.toNat (N - 1), by omega⟩) := by
  obtain ⟨od, cd, ob, sb, sm, iv, ss, wf⟩ := d
  simp only at hod hcd hob hsb hsm hiv hss
  subst hod hcd hob hsb hsm hiv hss
  exact vecGather_apply hN wf x idx e

def wrapW (w : BitVec 32) : BitVec 32 :=
  Scalar.select (IntOp.cmpi .slt w 0#32) (IntOp.addi w 100000#32) w

def clamp (w : BitVec 32) : Fin 100000 :=
  ⟨min w.toInt.toNat (100000 - 1), Nat.lt_of_le_of_lt (Nat.min_le_right _ _) (by decide)⟩

def cl (w : BitVec 32) : Fin Cert.Spec.nN := clamp (wrapW w)

theorem cl_eq (w : BitVec 32) : cl w = clamp (wrapW w) := rfl

theorem wrapW_of_lt (w : BitVec 32) (h : w.toNat < 100000) : wrapW w = w := by
  unfold wrapW
  have hs : w.slt 0#32 = false := by
    simp only [BitVec.slt, BitVec.toInt_zero, decide_eq_false_iff_not, Int.not_lt]
    rw [BitVec.toInt_eq_toNat_of_lt (by omega)]
    exact Int.natCast_nonneg _
  show (if BitVec.ofBool (w.slt 0#32) = 1 then _ else _) = _
  rw [hs]
  exact if_neg (by decide)

theorem cl_of_lt (w : BitVec 32) (h : w.toNat < Cert.Spec.nN) : cl w = ⟨w.toNat, h⟩ := by
  have h' : w.toNat < 100000 := h
  refine Fin.ext ?_
  show min (wrapW w).toInt.toNat (100000 - 1) = w.toNat
  rw [wrapW_of_lt w h', BitVec.toInt_eq_toNat_of_lt (by omega), Int.toNat_natCast]
  omega

theorem gatherVec_at {α : Type} (x : S100000.Idx → α) (idx : IVec S3300000x1 32) (e : Fin 3300000) :
    Host.gather gather_S100000_S3300000x1_S3300000_n_0_n_n_0_1_1 x idx (ix1 e)
      = x (ix1 (clamp (idx (ix2 e (0 : Fin 1))))) :=
  gather_vec_apply (by decide) gather_S100000_S3300000x1_S3300000_n_0_n_n_0_1_1 rfl rfl rfl rfl rfl rfl rfl x idx e

theorem gatherRow16_at {α : Type} (x : S100000x16.Idx → α) (idx : IVec S3300000x1 32) (e : Fin 3300000) (f : Fin 16) :
    Host.gather gather_S100000x16_S3300000x1_S3300000x16_1_0_n_n_0_1_116 x idx (ix2 e f)
      = x (ix2 (clamp (idx (ix2 e (0 : Fin 1)))) f) :=
  Cert.LibSG.gather_row_apply (by decide) gather_S100000x16_S3300000x1_S3300000x16_1_0_n_n_0_1_116
    rfl rfl rfl rfl rfl rfl rfl x idx e f

theorem gatherRow1_at {α : Type} (x : S100000x1.Idx → α) (idx : IVec S3300000x1 32) (e : Fin 3300000) (f : Fin 1) :
    Host.gather gather_S100000x1_S3300000x1_S3300000x1_1_0_n_n_0_1_11 x idx (ix2 e f)
      = x (ix2 (clamp (idx (ix2 e (0 : Fin 1)))) f) :=
  Cert.LibSG.gather_row_apply (by decide) gather_S100000x1_S3300000x1_S3300000x1_1_0_n_n_0_1_11
    rfl rfl rfl rfl rfl rfl rfl x idx e f

theorem idx_col {M : Nat} (g : (⟨2, ![M, 1]⟩ : Shape).Idx → (⟨1, ![M]⟩ : Shape).Idx)
    (hg : ∀ i, (g i 0).val = (i 0).val) (e : Fin M) : g (ix2 e (0 : Fin 1)) = ix1 e :=
  funext fun a => Fin.ext (by
    match a with
    | ⟨0, _⟩ => exact hg _)

section Stages

variable (x0 : (⟨S100000x1, .f32⟩ : BufTy).Contents (Elt Ideal)) (x1 : (⟨S1x16, .f32⟩ : BufTy).Contents (Elt Ideal))
  (x2 : (⟨S16, .f32⟩ : BufTy).Contents (Elt Ideal)) (x3 : (⟨S16x1, .f32⟩ : BufTy).Contents (Elt Ideal))
  (x4 : (⟨S1, .f32⟩ : BufTy).Contents (Elt Ideal)) (x5 : (⟨S2x3200000, .i32⟩ : BufTy).Contents (Elt Ideal))

abbrev xOf : Fin nN → Fin 1 → EReal := fun n k => x0 (ix2 n k)

abbrev w1Of : Fin 1 → Fin 16 → EReal := fun k f => x1 (ix2 k f)

abbrev b1Of : Fin 16 → EReal := fun f => x2 (ix1 f)

abbrev w2Of : Fin 16 → Fin 1 → EReal := fun f k => x3 (ix2 f k)

abbrev b2Of : Fin 1 → EReal := fun k => x4 (ix1 k)

abbrev eiOf : Fin 2 → Fin nE0 → BitVec 32 := fun r e => x5 (ix2 r e)

theorem v3_at (e : Fin 3300000) : val_main_v3 (F := Ideal) x5 (ix1 e) = srcR (eiOf x5) e := by
  unfold val_main_v3 srcR edgeW
  by_cases h : e.val < 3200000
  · rw [dif_pos h]
    refine (concatenate_pair_apply_left (t := S3300000) (s₁ := S3200000) (s₂ := S100000) 0
      (val_main_v2 (F := Ideal) x5) (val_main_v0 (F := Ideal)) _ (ix1 e) rfl (ix1 ⟨e.val, h⟩) (fun b => by
        match b with
        | ⟨0, _⟩ => rfl)).trans ?_
    rw [val_main_v2_apply, val_main_v1_apply]
    exact congrArg x5 (funext fun a => Fin.ext (by
      match a with
      | ⟨0, _⟩ => rfl
      | ⟨1, _⟩ => exact Nat.mod_eq_of_lt h))
  · rw [dif_neg h]
    have h2 : e.val - 3200000 < 100000 := by have := e.isLt; omega
    refine (concatenate_pair_apply_right (t := S3300000) (s₁ := S3200000) (s₂ := S100000) 0
      (val_main_v2 (F := Ideal) x5) (val_main_v0 (F := Ideal)) _ (ix1 e) rfl rfl (ix1 ⟨e.val - 3200000, h2⟩)
      (fun b hb => absurd (Subsingleton.elim (α := Fin 1) _ _) hb)
      (by show e.val - 3200000 + 3200000 = e.val; omega)).trans ?_
    exact val_main_v0_apply _

theorem v6_at (e : Fin 3300000) : val_main_v6 (F := Ideal) x5 (ix1 e) = dstR (eiOf x5) e := by
  unfold val_main_v6 dstR edgeW
  by_cases h : e.val < 3200000
  · rw [dif_pos h]
    refine (concatenate_pair_apply_left (t := S3300000) (s₁ := S3200000) (s₂ := S100000) 0
      (val_main_v5 (F := Ideal) x5) (val_main_v0 (F := Ideal)) _ (ix1 e) rfl (ix1 ⟨e.val, h⟩) (fun b => by
        match b with
        | ⟨0, _⟩ => rfl)).trans ?_
    rw [val_main_v5_apply, val_main_v4_apply]
    exact congrArg x5 (funext fun a => Fin.ext (by
      match a with
      | ⟨0, _⟩ => rfl
      | ⟨1, _⟩ => exact Nat.mod_eq_of_lt h))
  · rw [dif_neg h]
    have h2 : e.val - 3200000 < 100000 := by have := e.isLt; omega
    refine (concatenate_pair_apply_right (t := S3300000) (s₁ := S3200000) (s₂ := S100000) 0
      (val_main_v5 (F := Ideal) x5) (val_main_v0 (F := Ideal)) _ (ix1 e) rfl rfl (ix1 ⟨e.val - 3200000, h2⟩)
      (fun b hb => absurd (Subsingleton.elim (α := Fin 1) _ _) hb)
      (by show e.val - 3200000 + 3200000 = e.val; omega)).trans ?_
    exact val_main_v0_apply _

theorem v21_at (e : Fin 3300000) :
    val_main_v21 (F := Ideal) x5 (ix2 e (0 : Fin 1)) = wrapW (srcR (eiOf x5) e) := by
  rw [val_main_v21_apply, idx_col idx_main_v21 (fun _ => rfl) e, val_main_v20_apply, val_main_v17_apply,
    val_main_v19_apply, val_main_v16_apply, val_main_c_apply, val_main_v18_apply, val_main_c_3_apply, v3_at]
  rfl

theorem v28_at (e : Fin 3300000) :
    val_main_v28 (F := Ideal) x5 (ix2 e (0 : Fin 1)) = wrapW (dstR (eiOf x5) e) := by
  rw [val_main_v28_apply, idx_col idx_main_v28 (fun _ => rfl) e, val_main_v27_apply, val_main_v24_apply,
    val_main_v26_apply, val_main_v23_apply, val_main_c_4_apply, val_main_v25_apply, val_main_c_5_apply, v6_at]
  rfl

theorem v37_at (e : Fin 3300000) :
    val_main_v37 (F := Ideal) x5 (ix2 e (0 : Fin 1)) = wrapW (srcR (eiOf x5) e) := by
  rw [val_main_v37_apply, idx_col idx_main_v37 (fun _ => rfl) e, val_main_v36_apply, val_main_v33_apply,
    val_main_v35_apply, val_main_v32_apply, val_main_c_6_apply, val_main_v34_apply, val_main_c_7_apply, v3_at]
  rfl

theorem v62_at (e : Fin 3300000) :
    val_main_v62 (F := Ideal) x5 (ix2 e (0 : Fin 1)) = wrapW (srcR (eiOf x5) e) := by
  rw [val_main_v62_apply, idx_col idx_main_v62 (fun _ => rfl) e, val_main_v61_apply, val_main_v58_apply,
    val_main_v60_apply, val_main_v57_apply, val_main_c_13_apply, val_main_v59_apply, val_main_c_14_apply, v3_at]
  rfl

theorem v69_at (e : Fin 3300000) :
    val_main_v69 (F := Ideal) x5 (ix2 e (0 : Fin 1)) = wrapW (dstR (eiOf x5) e) := by
  rw [val_main_v69_apply, idx_col idx_main_v69 (fun _ => rfl) e, val_main_v68_apply, val_main_v65_apply,
    val_main_v67_apply, val_main_v64_apply, val_main_c_15_apply, val_main_v66_apply, val_main_c_16_apply, v6_at]
  rfl

theorem v78_at (e : Fin 3300000) :
    val_main_v78 (F := Ideal) x5 (ix2 e (0 : Fin 1)) = wrapW (srcR (eiOf x5) e) := by
  rw [val_main_v78_apply, idx_col idx_main_v78 (fun _ => rfl) e, val_main_v77_apply, val_main_v74_apply,
    val_main_v76_apply, val_main_v73_apply, val_main_c_17_apply, val_main_v75_apply, val_main_c_18_apply, v3_at]
  rfl

theorem v10_at (e : Fin 3300000) : val_main_v10 (F := Ideal) x5 (ix2 e (0 : Fin 1)) = dstR (eiOf x5) e := by
  rw [val_main_v10_apply, idx_col idx_main_v10 (fun _ => rfl) e, v6_at]

theorem v42_at (e : Fin 3300000) : val_main_v42 (F := Ideal) x5 (ix2 e (0 : Fin 1)) = dstR (eiOf x5) e := by
  rw [val_main_v42_apply, idx_col idx_main_v42 (fun _ => rfl) e, v6_at]

theorem v51_at (e : Fin 3300000) : val_main_v51 (F := Ideal) x5 (ix2 e (0 : Fin 1)) = dstR (eiOf x5) e := by
  rw [val_main_v51_apply, idx_col idx_main_v51 (fun _ => rfl) e, v6_at]

theorem v82_at (e : Fin 3300000) : val_main_v82 (F := Ideal) x5 (ix2 e (0 : Fin 1)) = dstR (eiOf x5) e := by
  rw [val_main_v82_apply, idx_col idx_main_v82 (fun _ => rfl) e, v6_at]

theorem deg_of (x : FVec Ideal S100000 .f32) (idx : IVec S3300000x1 32) (u : FVec Ideal S3300000 .f32)
    (hx : ∀ n, x (ix1 n) = FloatOps.ofBits (F := Ideal) .f32 0x00000000#32)
    (hidx : ∀ e : Fin 3300000, idx (ix2 e (0 : Fin 1)) = dstR (eiOf x5) e)
    (hu : ∀ e : Fin 3300000, u (ix1 e) = FloatOps.ofBits (F := Ideal) .f32 0x3F800000#32) (n : Fin 100000) :
    Host.scatterAdd scatter_S100000_S3300000x1_S3300000_n_0_0_1 x idx u (ix1 n) = degR (eiOf x5) n := by
  refine (Cert.LibSG.scatterAdd_vec_apply scatter_S100000_S3300000x1_S3300000_n_0_0_1 rfl rfl rfl rfl x idx u n).trans ?_
  unfold degR ssum
  simp only [hx, hidx, hu, Ideal.ofBits_def, Ideal.ofBits_zero_f32, Ideal.ofBits_one_f32]

theorem v11_at (n : Fin 100000) : val_main_v11 (F := Ideal) x5 (ix1 n) = degR (eiOf x5) n := by
  unfold val_main_v11
  exact deg_of x5 _ _ _ (fun n => by rw [val_main_v9_apply, val_main_cst_0_apply]) (v10_at x5)
    (fun e => by rw [val_main_v8_apply, val_main_cst_apply]) n

theorem v52_at (n : Fin 100000) : val_main_v52 (F := Ideal) x5 (ix1 n) = degR (eiOf x5) n := by
  unfold val_main_v52
  exact deg_of x5 _ _ _ (fun n => by rw [val_main_v50_apply, val_main_cst_10_apply]) (v51_at x5)
    (fun e => by rw [val_main_v49_apply, val_main_cst_9_apply]) n

theorem v15_at (n : Fin 100000) : val_main_v15 (F := Ideal) x5 (ix1 n) = dinvR (eiOf x5) n := by
  rw [val_main_v15_apply, val_main_v13_apply, val_main_v14_apply, val_main_call0_v1_apply, val_main_call0_v0_apply,
    val_main_cst_2_apply, val_main_v12_apply, val_main_cst_1_apply, v11_at]
  rfl

theorem v56_at (n : Fin 100000) : val_main_v56 (F := Ideal) x5 (ix1 n) = dinvR (eiOf x5) n := by
  rw [val_main_v56_apply, val_main_v54_apply, val_main_v55_apply, val_main_call2_v1_apply, val_main_call2_v0_apply,
    val_main_cst_12_apply, val_main_v53_apply, val_main_cst_11_apply, v52_at]
  rfl

theorem v22_at (e : Fin 3300000) :
    val_main_v22 (F := Ideal) x5 (ix1 e) = dinvR (eiOf x5) (cl (srcR (eiOf x5) e)) := by
  unfold val_main_v22
  rw [gatherVec_at, v21_at, ← cl_eq, v15_at]

theorem v29_at (e : Fin 3300000) :
    val_main_v29 (F := Ideal) x5 (ix1 e) = dinvR (eiOf x5) (cl (dstR (eiOf x5) e)) := by
  unfold val_main_v29
  rw [gatherVec_at, v28_at, ← cl_eq, v15_at]

theorem v30_at (e : Fin 3300000) : val_main_v30 (F := Ideal) x5 (ix1 e) = normR (eiOf x5) cl e := by
  rw [val_main_v30_apply, v22_at, v29_at]
  rfl

theorem v63_at (e : Fin 3300000) :
    val_main_v63 (F := Ideal) x5 (ix1 e) = dinvR (eiOf x5) (cl (srcR (eiOf x5) e)) := by
  unfold val_main_v63
  rw [gatherVec_at, v62_at, ← cl_eq, v56_at]

theorem v70_at (e : Fin 3300000) :
    val_main_v70 (F := Ideal) x5 (ix1 e) = dinvR (eiOf x5) (cl (dstR (eiOf x5) e)) := by
  unfold val_main_v70
  rw [gatherVec_at, v69_at, ← cl_eq, v56_at]

theorem v71_at (e : Fin 3300000) : val_main_v71 (F := Ideal) x5 (ix1 e) = normR (eiOf x5) cl e := by
  rw [val_main_v71_apply, v63_at, v70_at]
  rfl

theorem v7_at (n : Fin 100000) (f : Fin 16) :
    val_main_v7 (F := Ideal) x0 x1 (ix2 n f) = h1 (xOf x0) (w1Of x1) n f := by
  have hl : ∀ k : Fin 1, lidx_main_v7 (ix2 n f) k = ix2 n k := fun k => funext fun a => Fin.ext (by
    match a with
    | ⟨0, _⟩ => rfl
    | ⟨1, _⟩ => rfl)
  have hr : ∀ k : Fin 1, ridx_main_v7 (ix2 n f) k = ix2 k f := fun k => funext fun a => Fin.ext (by
    match a with
    | ⟨0, _⟩ => rfl
    | ⟨1, _⟩ => rfl)
  rw [val_main_v7_apply]
  unfold h1
  exact Finset.sum_congr rfl fun k _ => by rw [hl k, hr k]

theorem v38_at (e : Fin 3300000) (f : Fin 16) :
    val_main_v38 (F := Ideal) x0 x1 x5 (ix2 e f) = h1 (xOf x0) (w1Of x1) (cl (srcR (eiOf x5) e)) f := by
  unfold val_main_v38
  rw [gatherRow16_at, v37_at, ← cl_eq, v7_at]

theorem v39_at (e : Fin 3300000) (f : Fin 16) :
    val_main_v39 (F := Ideal) x5 (ix2 e f) = normR (eiOf x5) cl e := by
  have h39 : idx_main_v39 (ix2 e f) = ix2 e (0 : Fin 1) := funext fun a => Fin.ext (by
    match a with
    | ⟨0, _⟩ => rfl
    | ⟨1, _⟩ => rfl)
  rw [val_main_v39_apply, h39, val_main_v31_apply, idx_col idx_main_v31 (fun _ => rfl) e, v30_at]

theorem v40_at (e : Fin 3300000) (f : Fin 16) :
    val_main_v40 (F := Ideal) x0 x1 x5 (ix2 e f) = msg1R (xOf x0) (w1Of x1) (eiOf x5) cl e f := by
  rw [val_main_v40_apply, v39_at, v38_at]
  rfl

theorem v43_at (n : Fin 100000) (f : Fin 16) :
    val_main_v43 (F := Ideal) x0 x1 x5 (ix2 n f) = agg1R (xOf x0) (w1Of x1) (eiOf x5) cl n f := by
  unfold val_main_v43
  refine (Cert.LibSG.scatterAdd_row_apply scatter_S100000x16_S3300000x1_S3300000x16_1_0_0_1 rfl rfl rfl rfl
    (val_main_v41 (F := Ideal)) (val_main_v42 (F := Ideal) x5) (val_main_v40 (F := Ideal) x0 x1 x5) n f).trans ?_
  unfold agg1R ssum
  simp only [v42_at, v40_at, val_main_v41_apply, val_main_cst_8_apply, Ideal.ofBits_def, Ideal.ofBits_zero_f32]

theorem v47_at (n : Fin 100000) (f : Fin 16) :
    val_main_v47 (F := Ideal) x0 x1 x2 x5 (ix2 n f) = hidR (xOf x0) (w1Of x1) (b1Of x2) (eiOf x5) cl n f := by
  have h45 : idx_main_v44 (idx_main_v45 (ix2 n f)) = ix1 f := funext fun a => Fin.ext (by
    match a with
    | ⟨0, _⟩ => rfl)
  rw [val_main_v47_apply, val_main_v46_apply, v43_at, val_main_v45_apply, val_main_v44_apply, h45,
    val_main_call1_v0_apply, val_main_call1_cst_apply]
  rfl

theorem v48_at (n : Fin 100000) :
    val_main_v48 (F := Ideal) x0 x1 x2 x3 x5 (ix2 n (0 : Fin 1))
      = h2R (xOf x0) (w1Of x1) (b1Of x2) (w2Of x3) (eiOf x5) cl n := by
  have hl : ∀ k : Fin 16, lidx_main_v48 (ix2 n (0 : Fin 1)) k = ix2 n k := fun k => funext fun a => Fin.ext (by
    match a with
    | ⟨0, _⟩ => rfl
    | ⟨1, _⟩ => rfl)
  have hr : ∀ k : Fin 16, ridx_main_v48 (ix2 n (0 : Fin 1)) k = ix2 k (0 : Fin 1) := fun k => funext fun a => Fin.ext (by
    match a with
    | ⟨0, _⟩ => rfl
    | ⟨1, _⟩ => rfl)
  rw [val_main_v48_apply]
  unfold h2R
  exact Finset.sum_congr rfl fun k _ => by rw [hl k, hr k, v47_at]

theorem v72_at (e : Fin 3300000) : val_main_v72 (F := Ideal) x5 (ix2 e (0 : Fin 1)) = normR (eiOf x5) cl e := by
  rw [val_main_v72_apply, idx_col idx_main_v72 (fun _ => rfl) e, v71_at]

theorem v79_at (e : Fin 3300000) :
    val_main_v79 (F := Ideal) x0 x1 x2 x3 x5 (ix2 e (0 : Fin 1))
      = h2R (xOf x0) (w1Of x1) (b1Of x2) (w2Of x3) (eiOf x5) cl (cl (srcR (eiOf x5) e)) := by
  unfold val_main_v79
  rw [gatherRow1_at, v78_at, ← cl_eq, v48_at]

theorem v80_at (e : Fin 3300000) :
    val_main_v80 (F := Ideal) x0 x1 x2 x3 x5 (ix2 e (0 : Fin 1))
      = msg2R (xOf x0) (w1Of x1) (b1Of x2) (w2Of x3) (eiOf x5) cl e := by
  rw [val_main_v80_apply, v72_at, v79_at]
  rfl

theorem v83_at (n : Fin 100000) :
    val_main_v83 (F := Ideal) x0 x1 x2 x3 x5 (ix2 n (0 : Fin 1))
      = agg2R (xOf x0) (w1Of x1) (b1Of x2) (w2Of x3) (eiOf x5) cl n := by
  unfold val_main_v83
  refine (Cert.LibSG.scatterAdd_row_apply scatter_S100000x1_S3300000x1_S3300000x1_1_0_0_1 rfl rfl rfl rfl
    (val_main_v81 (F := Ideal)) (val_main_v82 (F := Ideal) x5) (val_main_v80 (F := Ideal) x0 x1 x2 x3 x5) n
    (0 : Fin 1)).trans ?_
  unfold agg2R ssum
  simp only [v82_at, v80_at, val_main_v81_apply, val_main_cst_19_apply, Ideal.ofBits_def, Ideal.ofBits_zero_f32]

theorem v86_at (n : Fin 100000) :
    val_main_v86 (F := Ideal) x0 x1 x2 x3 x4 x5 (ix2 n (0 : Fin 1))
      = outR (xOf x0) (w1Of x1) (b1Of x2) (w2Of x3) (b2Of x4) (eiOf x5) cl n := by
  have h85 : idx_main_v84 (idx_main_v85 (ix2 n (0 : Fin 1))) = ix1 (0 : Fin 1) := funext fun a => Fin.ext (by
    match a with
    | ⟨0, _⟩ => rfl)
  rw [val_main_v86_apply, v83_at, val_main_v85_apply, val_main_v84_apply, h85]
  rfl

end Stages

theorem ref_out (x0 : (⟨S100000x1, .f32⟩ : BufTy).Contents (Elt Ideal)) (x1 : (⟨S1x16, .f32⟩ : BufTy).Contents (Elt Ideal))
    (x2 : (⟨S16, .f32⟩ : BufTy).Contents (Elt Ideal)) (x3 : (⟨S16x1, .f32⟩ : BufTy).Contents (Elt Ideal))
    (x4 : (⟨S1, .f32⟩ : BufTy).Contents (Elt Ideal)) (x5 : (⟨S2x3200000, .i32⟩ : BufTy).Contents (Elt Ideal))
    (n : Fin 100000) :
    Cert.ReferenceIdeal.ReadP.val_main_v86 (F := Ideal) x0 x1 x2 x3 x4 x5 (ValueIdx.ix2 n (0 : Fin 1))
      = Cert.Spec.outR (fun n k => x0 (ValueIdx.ix2 n k)) (fun k f => x1 (ValueIdx.ix2 k f))
          (fun f => x2 (ValueIdx.ix1 f)) (fun f k => x3 (ValueIdx.ix2 f k)) (fun k => x4 (ValueIdx.ix1 k))
          (fun r e => x5 (ValueIdx.ix2 r e)) cl n :=
  v86_at x0 x1 x2 x3 x4 x5 n

end Cert.RefValue

end
-- ==== Proof.RunCondI.lean ====
import proofs.«401816_j90890097918492_1_alg».proof.Proof.Gen.KernelIdeal.Regions

noncomputable section

namespace Cert.KernelIdeal.RunCond

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V14 m outs c) ∗ E 3 c) ⊢ R3.pre c)
    (hpost3 : ∀ c : Dev nD, R3.post c ⊢ iprop(StableHlo.held (c : Thread nD τ) (Pipeline.ucRefs τ sig) (V15 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V19 m outs c) ∗ E 5 c) ⊢ R5.pre c)
    (hpost5 : ∀ c : Dev nD, R5.post c ⊢ iprop(StableHlo.held (c : Thread nD τ) (Pipeline.ucRefs τ sig) (V20 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V20 m outs c) ∗ E 6 c) ⊢ R6.pre c)
    (hpost6 : ∀ c : Dev nD, R6.post c ⊢ iprop(StableHlo.held (c : Thread nD τ) (Pipeline.ucRefs τ sig) (V21 m outs c) ∗ E 7 c)) :
    θ_run defs (onTc (τ := τ) (main (F := F))) ⟨m, fun _ => 0, ρ⟩ (fun r => ∀ c : Dev nD,
      r.2.mem ((c.tc : Thread nD τ).loc main_v34) = V22 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          Prog.lift (.customCall (Pipeline.entry 4) ()),
          StableHlo.seq hostOps5,
          StableHlo.seq hostOps5_1,
          StableHlo.seq hostOps5_2,
          Prog.lift (.customCall (Pipeline.entry 5) ()),
          Prog.lift (.customCall (Pipeline.entry 6) ()),
          StableHlo.seq hostOps7 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, .rfl, .rfl, .rfl, .rfl, .rfl, .rfl, hpre0 c, hpost0 c, .rfl, hpre1 c, (hpost1 c).trans (hpre2 c), hpost2 c, .rfl, hpre3 c, (hpost3 c).trans (hpre4 c), hpost4 c, .rfl, .rfl, hpre5 c, (hpost5 c).trans (hpre6 c), hpost6 c, sep_mono .rfl (hE7 c)⟩)
    (hinit := ?_) (QY := fun c s => s.mem ((c.tc : Thread nD τ).loc main_v34) = V22 m outs c main_v34 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V22 m outs c) s') $$ [Hh HSI]
    · isplitl [Hh] <;> iassumption
    icases Hr with ⟨%h, HSI⟩
    imodintro
    isplitr
    · ipureintro
      have hh := fun (r : Ref sig .tc) hr => h (Proc.devRef .tc r) (Finset.mem_filter.mpr ⟨StableHlo.devRef_mem_tcRefs r, hr⟩)
      exact ⟨hh main_v34 (by decide), (hh main_arg0 (by decide)).trans (V22_main_arg0 m outs c),
        (hh main_arg1 (by decide)).trans (V22_main_arg1 m outs c), (hh main_arg2 (by decide)).trans (V22_main_arg2 m outs c),
        (hh main_arg3 (by decide)).trans (V22_main_arg3 m outs c), (hh main_arg4 (by decide)).trans (V22_main_arg4 m outs c),
        (hh main_arg5 (by decide)).trans (V22_main_arg5 m outs c)⟩
    · iexact HSI

end Cert.KernelIdeal.RunCond

end
-- ==== Proof.R0Frame.lean ====
import proofs.«401816_j90890097918492_1_alg».proof.Proof.Gen.KernelIdeal.Launch
import proofs.«401816_j90890097918492_1_alg».proof.Proof.Gen.KernelIdeal.Skeleton
import proofs.«401816_j90890097918492_1_alg».proof.Proof.FrameLib

set_option maxRecDepth 16384

noncomputable section

namespace Cert.KernelIdeal.R0

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

/-- The body at a point ≡ 0: the accumulator is zeroed, then updated by the two input blocks. -/
theorem run0_A (c : Dev nD) (i : grid0.Coords) (arg2 : Memref sig .tc .vmem S4096 .i32) (harg2 : arg2.IsWhole) (arg3 : Memref sig .tc .vmem S4096x1 .f32) (harg3 : arg3.IsWhole) (arg4 : Memref sig .tc .vmem S2000x1 .f32) (harg4 : arg4.IsWhole) (arg5 : Memref sig .tc .vmem S2000x1 .f32) (harg5 : arg5.IsWhole)
    (hc0 : cond0_0 i) (hc1 : ¬cond0_1 i)
    (x0 : Vec F S4096 .i32) (x1 : Vec F S4096x1 .f32) (P2 : sProp 𝕄) (E : Set ℕ) (K : PUnit → sProp 𝕄) :
    iprop(hold c arg2 x0 ∗ hold c arg3 x1 ∗ P2 ∗ (∃ d, hold c arg5 d)
        ∗ (iprop(hold c arg2 x0 ∗ hold c arg3 x1 ∗ P2 ∗ hold c arg5 (k0_pay2 i x0 x1 (k0_pay1 (F := F)))) -∗ K ⟨⟩))
      ⊢ wp frame (wpE (defs₀ (F := F)) Variants.none c none) E (cc0__scatter_body i arg2 harg2 arg3 harg3 arg4 harg4 arg5 harg5) K := by
  simp only [cc0__scatter_body_eq_skeleton]; unfold cc0__scatter_body_skel
  unfold hold owns
  iintro ⟨⟨%f0, %hf0, H0⟩, ⟨%f1, %hf1, H1⟩, H2, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  sl_unfold_words
  rw [read_whole _ _ hz2]
  simp only [View.readAt_eq_ld, Memref.IsWhole.read_unread, View.ld_unit_zero (S := S2000x1) hz2, View.ld_unit_zero (S := S4096x1) hz2, View.ld_unit_zero (S := S4096) hz1, View.readCov_unit_zero (S := S2000x1) _ hz2]

/-- At a point ≢ 0, 805: the accumulator is updated; whatever else is held (`P2`) is untouched. -/
theorem run0_B (c : Dev nD) (i : grid0.Coords) (arg2 : Memref sig .tc .vmem S4096 .i32) (harg2 : arg2.IsWhole) (arg3 : Memref sig .tc .vmem S4096x1 .f32) (harg3 : arg3.IsWhole) (arg4 : Memref sig .tc .vmem S2000x1 .f32) (harg4 : arg4.IsWhole) (arg5 : Memref sig .tc .vmem S2000x1 .f32) (harg5 : arg5.IsWhole)
    (hc0 : ¬cond0_0 i) (hc1 : ¬cond0_1 i)
    (x0 : Vec F S4096 .i32) (x1 : Vec F S4096x1 .f32) (xs : Vec F S2000x1 .f32) (P2 : sProp 𝕄) (E : Set ℕ) (K : PUnit → sProp 𝕄) :
    iprop(hold c arg2 x0 ∗ hold c arg3 x1 ∗ P2 ∗ hold c arg5 xs
        ∗ (iprop(hold c arg2 x0 ∗ hold c arg3 x1 ∗ P2 ∗ hold c arg5 (k0_pay2 i x0 x1 xs)) -∗ K ⟨⟩))
      ⊢ wp frame (wpE (defs₀ (F := F)) Variants.none c none) E (cc0__scatter_body i arg2 harg2 arg3 harg3 arg4 harg4 arg5 harg5) K := by
  simp only [cc0__scatter_body_eq_skeleton]; unfold cc0__scatter_body_skel
  unfold hold owns
  iintro ⟨⟨%f0, %hf0, H0⟩, ⟨%f1, %hf1, H1⟩, H2, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  rw [read_whole _ _ hz2]
  simp only [View.readAt_eq_ld, Memref.IsWhole.read_unread, View.ld_unit_zero (S := S2000x1) hz2, View.ld_unit_zero (S := S4096x1) hz2, View.ld_unit_zero (S := S4096) hz1, View.readCov_unit_zero (S := S2000x1) _ hz2]

/-- At a point ≡ 805: the accumulator is updated and copied into the output's block. -/
theorem run0_C (c : Dev nD) (i : grid0.Coords) (arg2 : Memref sig .tc .vmem S4096 .i32) (harg2 : arg2.IsWhole) (arg3 : Memref sig .tc .vmem S4096x1 .f32) (harg3 : arg3.IsWhole) (arg4 : Memref sig .tc .vmem S2000x1 .f32) (harg4 : arg4.IsWhole) (arg5 : Memref sig .tc .vmem S2000x1 .f32) (harg5 : arg5.IsWhole)
    (hc0 : ¬cond0_0 i) (hc1 : cond0_1 i)
    (x0 : Vec F S4096 .i32) (x1 : Vec F S4096x1 .f32) (xs : Vec F S2000x1 .f32) (E : Set ℕ) (K : PUnit → sProp 𝕄) :
    iprop(hold c arg2 x0 ∗ hold c arg3 x1 ∗ (∃ d, hold c arg4 d) ∗ hold c arg5 xs
        ∗ (iprop(hold c arg2 x0 ∗ hold c arg3 x1 ∗ hold c arg4 (k0_pay2 i x0 x1 xs) ∗ hold c arg5 (k0_pay2 i x0 x1 xs)) -∗ K ⟨⟩))
      ⊢ wp frame (wpE (defs₀ (F := F)) Variants.none c none) E (cc0__scatter_body i arg2 harg2 arg3 harg3 arg4 harg4 arg5 harg5) K := by
  simp only [cc0__scatter_body_eq_skeleton]; unfold cc0__scatter_body_skel
  unfold hold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_whole _ _ hz2]
    simp only [View.readAt_eq_ld, Memref.IsWhole.read_unread, View.ld_unit_zero (S := S2000x1) hz2, View.ld_unit_zero (S := S4096x1) hz2, View.ld_unit_zero (S := S4096) hz1, View.readCov_unit_zero (S := S2000x1) _ hz2]
  iexists _; isplitr
  swap; · iexact HS
  ipureintro
  sl_unfold_words
  rw [read_whole _ _ hz2]
  simp only [View.readAt_eq_ld, Memref.IsWhole.read_unread, View.ld_unit_zero (S := S2000x1) hz2, View.ld_unit_zero (S := S4096x1) hz2, View.ld_unit_zero (S := S4096) hz1, View.readCov_unit_zero (S := S2000x1) _ hz2]

theorem coord0_1_val (t : Fin cfg0.N) : ((grid0.coords t) 1).val = t.val % 806 := by
  show t.val / grid0.stride 1 % 806 = t.val % 806
  rw [show grid0.stride 1 = 1 from by decide, Nat.div_one]

/-- A branch that compares the inner coordinate with `k` is taken at the points ≡ k (mod 806). -/
theorem hcond0 (t : Fin cfg0.N) (k : ℕ) (hk : k < 2 ^ 32) :
    (Scalar.cmpi .ne (Scalar.extui (Scalar.cmpi .eq (BitVec.ofNat 32 ((grid0.coords t) 1).val) (BitVec.ofNat 32 k))) 0#32) = 1#1
      ↔ t.val % 806 = k :=
  (cond_iff_nat (Nat.lt_trans ((grid0.coords t) 1).isLt (by decide)) hk).trans (by rw [coord0_1_val])
theorem hcond0_0 (t : Fin cfg0.N) : cond0_0 (grid0.coords t) ↔ t.val % 806 = 0 := hcond0 t 0 (by decide)
theorem hcond0_1 (t : Fin cfg0.N) : cond0_1 (grid0.coords t) ↔ t.val % 806 = 805 := hcond0 t 805 (by decide)

theorem liveAt0_0 (i : grid0.Coords) : cfg0.idle 0 i = false := rfl
theorem liveAt0_1 (i : grid0.Coords) : cfg0.idle 1 i = false := rfl
theorem idleAt0_2 (i : grid0.Coords) (h : ¬cond0_1 i) : cfg0.idle 2 i = true := by
  show (!(k0_cond2 i == 1#1)) = true
  rw [Bool.not_eq_true', beq_eq_false_iff_ne]; exact h
theorem liveAt0_2 (i : grid0.Coords) (h : cond0_1 i) : cfg0.idle 2 i = false := by
  show (!(k0_cond2 i == 1#1)) = false
  rw [Bool.not_eq_false', beq_iff_eq]; exact h

theorem coord0_0_val (t : Fin cfg0.N) : ((grid0.coords t) 0).val = t.val / 806 % 50 := by
  show t.val / grid0.stride 0 % 50 = t.val / 806 % 50
  rw [show grid0.stride 0 = 806 from by decide]

theorem index0_2 (t : Fin cfg0.N) : (cfg0.win 2).index t = ![t.val / 806 % 50, 0] := by
  show cc0_transform_2 (grid0.coords t) = _
  unfold cc0_transform_2
  simp only [BitVec.toNat_ofNat, coord0_0_val]
  have h : t.val / 806 % 50 % 2 ^ 32 = t.val / 806 % 50 := by omega
  rw [h]

theorem flushAt0_2 (t : Fin cfg0.N) : (cfg0.win 2).flush t = true ↔ t.val % 806 = 805 := by
  have hN : cfg0.N = 40300 := N_0
  have hN1 : cfg0.grid.N = 40300 := N_0
  have hN2 : grid0.N = 40300 := N_0
  have ht : t.val < cfg0.N := t.isLt
  unfold Pipeline.Window.flush
  rw [show (cfg0.win 2).isOut = true from rfl, Bool.true_and, Bool.or_eq_true, decide_eq_true_eq, decide_eq_true_eq]
  constructor
  · rintro (h | ⟨h, hne⟩)
    · omega
    · rw [index0_2, index0_2] at hne
      by_contra hcon
      apply hne
      have e : (t.val + 1) / 806 = t.val / 806 := by omega
      show ![(t.val + 1) / 806 % 50, 0] = ![t.val / 806 % 50, 0]
      rw [e]
  · intro h
    by_cases hl : t.val + 1 = grid0.N
    · exact .inl hl
    · refine .inr ⟨by omega, ?_⟩
      rw [index0_2, index0_2]
      intro heq
      have h0' : (t.val + 1) / 806 % 50 = t.val / 806 % 50 := congrFun heq 0
      omega

abbrev stM0_0 (t : Fin cfg0.N) := (cfg0.win 0).stage (cfg0.slots t 0)
abbrev stM0_1 (t : Fin cfg0.N) := (cfg0.win 1).stage (cfg0.slots t 1)
abbrev stM0_2 (t : Fin cfg0.N) := (cfg0.win 2).stage (cfg0.slots t 2)

abbrev bodyOf0 (t : Fin cfg0.N) : Prog (TpuEff nD τ sig (Elt F) Λ₀ .tc) PUnit :=
  cc0__scatter_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `t`: updated by the point's two blocks from what the point before left, from zeros at every 806th point. -/
def acc0 (c : Dev nD) : (t : ℕ) → t < cfg0.N → Vec F S2000x1 .f32 :=
  accum cfg0.N 806 (k0_pay1 (F := F)) fun n h => k0_pay2 (grid0.coords ⟨n, h⟩) (iblk0 V c 0 ⟨n, h⟩) (iblk0 V c 1 ⟨n, h⟩)

theorem acc0_first (c : Dev nD) (t : Fin cfg0.N) (h : t.val % 806 = 0) :
    acc0 V c t.val t.isLt = k0_pay2 (grid0.coords t) (iblk0 V c 0 t) (iblk0 V c 1 t) (k0_pay1 (F := F)) :=
  accum_first _ _ t h

theorem acc0_next (c : Dev nD) (t : Fin cfg0.N) (h : ¬t.val % 806 = 0) :
    acc0 V c t.val t.isLt = k0_pay2 (grid0.coords t) (iblk0 V c 0 t) (iblk0 V c 1 t)
      (acc0 V c (t.val - 1) (Nat.lt_of_le_of_lt (Nat.sub_le _ _) t.isLt)) :=
  accum_next _ _ t h

abbrev scr0 : Memref sig .tc .vmem S2000x1 .f32 := Memref.whole cc0_scratch0

abbrev SR (c : Dev nD) : sProp 𝕄 :=
  Pipeline.scopedRest (Ix := Unit) (Name := ℕ) (U := UR sig nD τ) (Lvl := ℕ) (Val := Elt F) spec0 c
abbrev SRB (c : Dev nD) : sProp 𝕄 :=
  Pipeline.scopedRestBut (Ix := Unit) (Name := ℕ) (U := UR sig nD τ) (Lvl := ℕ) (Val := Elt F) spec0 c [cc0_scratch0]

theorem SR_eq (c : Dev nD) : SR (F := F) c = iprop((∃ d, hold c scr0 d) ∗ SRB c) := by
  unfold SR SRB; rw [scopedRest0_split]; simp only [hold, scr0, owns_whole]; try rfl

/-- The accumulator's part of the invariant before position `n`: at anything before the first point, then at what the point before left. -/
def Acc0 (c : Dev nD) : (n : ℕ) → n ≤ cfg0.N → sProp 𝕄
  | 0, _ => iprop(∃ d, hold c scr0 d)
  | n + 1, hn => hold c scr0 (acc0 V c n hn)

theorem Acc0_any (c : Dev nD) (n : ℕ) (h : n ≤ cfg0.N) : Acc0 V c n h ⊢ iprop(∃ d, hold c scr0 d) := by
  cases n with
  | zero => exact .rfl
  | succ n => show hold c scr0 (acc0 V c n h) ⊢ _; iintro H; iexists _; iexact H

theorem Acc0_pos (c : Dev nD) (n : ℕ) (h : n ≤ cfg0.N) (hz : n ≠ 0) :
    Acc0 V c n h = hold c scr0 (acc0 V c (n - 1) (by omega)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := iprop((∃ r, prngReg c r) ∗ Acc0 V c t.val (Nat.le_of_lt_succ t.isLt) ∗ SRB c)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem q_eq0 (c : Dev nD) (w : Fin cfg0.W) : (dat0 V c).q w = fullShare := rfl
theorem owed_eq0 (c : Dev nD) (t : Fin (cfg0.N + 1)) : (dat0 V c).owed t = 0 := rfl

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, hold c (stM0_0 t) ((dat0 V c).before 0 t d))
    ∗ (∃ d, hold c (stM0_1 t) ((dat0 V c).before 1 t d))
    ∗ (∃ d, hold c (stM0_2 t) ((dat0 V c).before 2 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

theorem leaves0_idle (c : Dev nD) (t : Fin cfg0.N) (h : ¬t.val % 806 = 805) :
    (dat0 V c).leavesExact 2 t = iprop(∃ d, hold c (stM0_2 t) ((dat0 V c).before 2 t d)) :=
  Dat.leavesExact_idle (dat0 V c) 2 t (idleAt0_2 _ fun hc => h ((hcond0_1 t).mp hc))
    (Bool.eq_false_iff.mpr fun hf => h ((flushAt0_2 t).mp hf))

set_option maxHeartbeats 4800000 in
/-- The body at any point: its position mod 806 says which run applies; the invariant lends the accumulator and takes it back at the point's contents. -/
theorem sound_body0 (c : Dev nD) (t : Fin cfg0.N) :
    bodyPre0 V c t ⊢ wp frame (wpE (defs₀ (F := F)) Variants.none c none) Set.univ (bodyOf0 t) (fun _ => bodyPost0 V c t) := by
  unfold bodyPre0 bodyPost0 bodyOf0
  simp only [before0_0, before0_1]
  rw [show (dat0 V c).owesAt () t.succ = (dat0 V c).owesAt () t.castSucc from rfl,
    show (dat0 V c).Φ t.succ = iprop((∃ r, prngReg c r) ∗ hold c scr0 (acc0 V c t.val t.isLt) ∗ SRB c) from rfl,
    show (dat0 V c).Φ t.castSucc = iprop((∃ r, prngReg c r) ∗ Acc0 V c t.val (Nat.le_of_lt t.isLt) ∗ SRB c) from rfl,
    show (dat0 V c).leavesExact 0 t = hold c (stM0_0 t) (iblk0 V c 0 t) from by
      unfold Dat.leavesExact; rw [liveAt0_0, after0_0],
    show (dat0 V c).leavesExact 1 t = hold c (stM0_1 t) (iblk0 V c 1 t) from by
      unfold Dat.leavesExact; rw [liveAt0_1, after0_1]]
  by_cases h0 : t.val % 806 = 0
  · have h1 : ¬t.val % 806 = 805 := by omega
    rw [leaves0_idle V c t h1, acc0_first V c t h0]
    iintro ⟨⟨Hg, HS, HR⟩, Ho, ⟨%d0, H0⟩, ⟨%d1, H1⟩, H2⟩
    ihave HS := (Acc0_any V c _ _) $$ HS
    iapply (run0_A c (grid0.coords t) _ _ _ _ _ _ _ _ ((hcond0_0 t).mpr h0) (fun hc => h1 ((hcond0_1 t).mp hc)) (iblk0 V c 0 t) (iblk0 V c 1 t)
      (iprop(∃ d, hold c (stM0_2 t) ((dat0 V c).before 2 t d))) Set.univ _)
    iframe
    iintro ⟨H0, H1, H2, HS⟩
    iframe
  · rw [Acc0_pos V c _ _ fun e => h0 (by rw [e]), acc0_next V c t h0]
    by_cases h1 : t.val % 806 = 805
    · rw [show (dat0 V c).leavesExact 2 t = hold c (stM0_2 t) ((dat0 V c).after 2 t) from by
        unfold Dat.leavesExact; rw [liveAt0_2 _ ((hcond0_1 t).mpr h1)], after0_2, acc0_next V c t h0]
      iintro ⟨⟨Hg, HS, HR⟩, Ho, ⟨%d0, H0⟩, ⟨%d1, H1⟩, ⟨%d2, H2⟩⟩
      iapply (run0_C c (grid0.coords t) _ _ _ _ _ _ _ _ (fun hc => h0 ((hcond0_0 t).mp hc)) ((hcond0_1 t).mpr h1) (iblk0 V c 0 t) (iblk0 V c 1 t)
        (acc0 V c (t.val - 1) (Nat.lt_of_le_of_lt (Nat.sub_le _ _) t.isLt)) Set.univ _)
      iframe
      isplitl [H2]; · iexists _; iexact H2
      iintro ⟨H0, H1, H2, HS⟩
      iframe
    · rw [leaves0_idle V c t h1]
      iintro ⟨⟨Hg, HS, HR⟩, Ho, ⟨%d0, H0⟩, ⟨%d1, H1⟩, H2⟩
      iapply (run0_B c (grid0.coords t) _ _ _ _ _ _ _ _ (fun hc => h0 ((hcond0_0 t).mp hc)) (fun hc => h1 ((hcond0_1 t).mp hc)) (iblk0 V c 0 t) (iblk0 V c 1 t)
        (acc0 V c (t.val - 1) (Nat.lt_of_le_of_lt (Nat.sub_le _ _) t.isLt))
        (iprop(∃ d, hold c (stM0_2 t) ((dat0 V c).before 2 t d))) Set.univ _)
      iframe
      iintro ⟨H0, H1, H2, HS⟩
      iframe

theorem body_obligation0 (c : Dev nD) : BodyObligation (dat0 (F := F) V c) (defs₀ (F := F)) Variants.none () Set.univ := fun t => by
  rw [bigSep_W0, bigSep_W0]
  exact sound_body0 V c t

theorem hin0 (c : Dev nD) : iprop((∃ r, prngReg c r) ∗ SR c) ⊢ (dat0 V c).Φ 0 := by
  rw [SR_eq]
  show _ ⊢ iprop((∃ r, prngReg c r) ∗ iprop(∃ d, hold c scr0 d) ∗ SRB c)
  iintro ⟨Hg, HS, HR⟩
  iframe

theorem hout0 (c : Dev nD) : (dat0 V c).Φ (Fin.last cfg0.N) ⊢ iprop((∃ r, prngReg c r) ∗ SR c) := by
  rw [SR_eq]
  show iprop((∃ r, prngReg c r) ∗ Acc0 V c cfg0.N (Nat.le_refl _) ∗ SRB c) ⊢ _
  iintro ⟨Hg, HS, HR⟩
  ihave HS := (Acc0_any V c _ _) $$ HS
  iframe

end Region

end Cert.KernelIdeal.R0
end
-- ==== Proof.R1Frame.lean ====
import proofs.«401816_j90890097918492_1_alg».proof.Proof.Gen.KernelIdeal.Launch
import proofs.«401816_j90890097918492_1_alg».proof.Proof.Gen.KernelIdeal.Skeleton
import proofs.«401816_j90890097918492_1_alg».proof.Proof.FrameLib

set_option maxRecDepth 16384

noncomputable section

namespace Cert.KernelIdeal.R1

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scr1 : Memref sig .tc .vmem S4096x1 .f32 := Memref.whole cc1_scratch0

/-- The accumulator after point `t`: the point's product added to what the point before left, from zeros at every 50th point. -/
def acc1 (c : Dev nD) : (t : ℕ) → t < cfg1.N → Vec F S4096x1 .f32 :=
  accum cfg1.N 50 k1_pay1 fun n h => k1_pay2 (grid1.coords ⟨n, h⟩) (iblk1 V c 0 ⟨n, h⟩) (iblk1 V c 1 ⟨n, h⟩)

theorem acc1_first (c : Dev nD) (t : Fin cfg1.N) (h : t.val % 50 = 0) :
    acc1 V c t.val t.isLt = k1_pay2 (grid1.coords t) (iblk1 V c 0 t) (iblk1 V c 1 t) k1_pay1 :=
  accum_first _ _ t h

theorem acc1_next (c : Dev nD) (t : Fin cfg1.N) (h : ¬t.val % 50 = 0) :
    acc1 V c t.val t.isLt = k1_pay2 (grid1.coords t) (iblk1 V c 0 t) (iblk1 V c 1 t)
      (acc1 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec1 c
abbrev SRB (c : Dev nD) : sProp 𝕄 :=
  Pipeline.scopedRestBut (Ix := Unit) (Name := ℕ) (U := UR sig nD τ) (Lvl := ℕ) (Val := Elt F) spec1 c [cc1_scratch0]

theorem SR_eq (c : Dev nD) : SR (F := F) c = iprop(iprop(∃ d, hold c scr1 d) ∗ SRB c) := by
  unfold SR SRB; rw [scopedRest1_split]; simp only [hold, scr1, owns_whole]; try rfl

/-- The accumulator's part of the invariant before position `n`: at anything before the first point, then at what the point before left. -/
def Acc1 (c : Dev nD) : (n : ℕ) → n ≤ cfg1.N → sProp 𝕄
  | 0, _ => iprop(∃ d, hold c scr1 d)
  | n + 1, hn => hold c scr1 (acc1 V c n hn)

theorem Acc1_any (c : Dev nD) (n : ℕ) (h : n ≤ cfg1.N) : Acc1 V c n h ⊢ iprop(∃ d, hold c scr1 d) := by
  cases n with
  | zero => exact .rfl
  | succ n => show hold c scr1 (acc1 V c n h) ⊢ _; iintro H; iexists _; iexact H

theorem Acc1_pos (c : Dev nD) (n : ℕ) (h : n ≤ cfg1.N) (hz : n ≠ 0) :
    Acc1 V c n h = hold c scr1 (acc1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := iprop(Acc1 V c t.val (Nat.le_of_lt_succ t.isLt) ∗ SRB c ∗ (∃ r, prngReg c r))
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

abbrev cond1_0 (i : grid1.Coords) : Prop :=
  (Scalar.cmpi .ne (Scalar.extui (Scalar.cmpi .eq (BitVec.ofNat 32 (i 1).val) 0#32)) 0#32) = 1#1
abbrev cond1_1 (i : grid1.Coords) : Prop := k1_cond2 i = 1#1

theorem coord1_1 (t : Fin cfg1.N) : ((grid1.coords t) 1).val = t.val % 50 := by
  show t.val / grid1.stride 1 % grid1.bound 1 = t.val % 50
  have h : grid1.stride 1 = 1 := by decide
  rw [h, Nat.div_one]; rfl

/-- A branch that compares the inner coordinate with `k` is taken at the points ≡ k (mod 50). -/
theorem hcond1 (t : Fin cfg1.N) (k : ℕ) (hk : k < 2 ^ 32) :
    (Scalar.cmpi .ne (Scalar.extui (Scalar.cmpi .eq (BitVec.ofNat 32 ((grid1.coords t) 1).val) (BitVec.ofNat 32 k))) 0#32) = 1#1
      ↔ t.val % 50 = k :=
  (cond_iff_nat (Nat.lt_trans ((grid1.coords t) 1).isLt (by decide)) hk).trans (by rw [coord1_1])
theorem hcond1_0 (t : Fin cfg1.N) : cond1_0 (grid1.coords t) ↔ t.val % 50 = 0 := hcond1 t 0 (by decide)
theorem hcond1_1 (t : Fin cfg1.N) : cond1_1 (grid1.coords t) ↔ t.val % 50 = 49 := hcond1 t 49 (by decide)

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem idleAt1_3 (t : Fin cfg1.N) (h : ¬cond1_1 (grid1.coords t)) : cfg1.idle 3 (grid1.coords t) = true := by
  show (!(k1_cond2 (grid1.coords t) == 1#1)) = true
  simp only [Bool.not_eq_true', beq_eq_false_iff_ne, ne_eq]; exact h
theorem liveAt1_3 (t : Fin cfg1.N) (h : cond1_1 (grid1.coords t)) : cfg1.idle 3 (grid1.coords t) = false := by
  show (!(k1_cond2 (grid1.coords t) == 1#1)) = false
  simp only [Bool.not_eq_false', beq_iff_eq]; exact h

theorem coord1_0 (n : ℕ) (h : n < cfg1.N) : ((grid1.coords ⟨n, h⟩) 0).val = n / 50 % 806 := by
  show n / grid1.stride 0 % grid1.bound 0 = n / 50 % 806
  have hs : grid1.stride 0 = 50 := by decide
  rw [hs]; rfl

theorem noFlush1_3 (t : Fin cfg1.N) (h : ¬t.val % 50 = 49) : (cfg1.win 3).flush t = false := by
  have ht : t.val < 40300 := lt_of_lt_of_eq t.isLt N_1
  have h1 : ¬(t.val + 1 = grid1.N) := by rw [N_1]; omega
  have h2 : ¬∃ hlt : t.val + 1 < grid1.N, cc1_transform_3 (grid1.coords ⟨t.val + 1, hlt⟩) ≠ cc1_transform_3 (grid1.coords t) := by
    rintro ⟨hlt, hne⟩
    refine hne (hreads1_3 _ _ fun a ha => ?_)
    match a, ha with
    | ⟨0, _⟩, _ =>
      refine Fin.ext ((coord1_0 (t.val + 1) hlt).trans (Eq.trans ?_ (coord1_0 t.val t.isLt).symm))
      omega
    | ⟨1, _⟩, ha => exact absurd (show false = true from ha) Bool.false_ne_true
  rw [Pipeline.Window.flush_eq_flushOf]
  show (true && (decide (t.val + 1 = grid1.N) || decide (∃ hlt : t.val + 1 < grid1.N, cc1_transform_3 (grid1.coords ⟨t.val + 1, hlt⟩) ≠ cc1_transform_3 (grid1.coords t)))) = false
  rw [decide_eq_false h1, decide_eq_false h2]; rfl

/-- The body at a point ≡ 0: the accumulator is zeroed, then the point's product is added. -/
theorem run1_A (c : Dev nD) (E : Set ℕ) (i : grid1.Coords)
    (arg2 : Memref sig .tc .vmem S4096 .i32) (harg2 : arg2.IsWhole) (arg3 : Memref sig .tc .vmem S2000x1 .f32) (harg3 : arg3.IsWhole)
    (arg4 : Memref sig .tc .vmem S4096x1 .f32) (harg4 : arg4.IsWhole) (arg5 : Memref sig .tc .vmem S4096x1 .f32) (harg5 : arg5.IsWhole)
    (arg6 : Memref sig .tc .vmem S4096x1 .f32) (harg6 : arg6.IsWhole) (hc0 : cond1_0 i) (hc1 : ¬cond1_1 i)
    (x0 : Vec F S4096 .i32) (x1 : Vec F S2000x1 .f32) (K : PUnit → sProp 𝕄) :
    iprop(hold c arg2 x0 ∗ hold c arg3 x1 ∗ (∃ d, hold c arg6 d)
        ∗ (iprop(hold c arg2 x0 ∗ hold c arg3 x1
            ∗ hold c arg6 (k1_pay2 i x0 x1 k1_pay1)) -∗ K ⟨⟩))
      ⊢ wp frame (wpE (defs₀ (F := F)) Variants.none c none) E (cc1__gather_body i arg2 harg2 arg3 harg3 arg4 harg4 arg5 harg5 arg6 harg6) K := by
  simp only [cc1__gather_body_eq_skeleton]; unfold cc1__gather_body_skel
  unfold hold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_whole _ _ hz2 _ _ _).trans ?_
  exact congr (congr (congrArg (k1_pay2 i) (View.ld_unit_zero hz1 _ _)) (View.ld_unit_zero hz2 _ _))
    (View.readCov_unit_zero _ hz2 _ _)

/-- At a point ≢ 0, 49: the point's product is added to the accumulator. -/
theorem run1_B (c : Dev nD) (E : Set ℕ) (i : grid1.Coords)
    (arg2 : Memref sig .tc .vmem S4096 .i32) (harg2 : arg2.IsWhole) (arg3 : Memref sig .tc .vmem S2000x1 .f32) (harg3 : arg3.IsWhole)
    (arg4 : Memref sig .tc .vmem S4096x1 .f32) (harg4 : arg4.IsWhole) (arg5 : Memref sig .tc .vmem S4096x1 .f32) (harg5 : arg5.IsWhole)
    (arg6 : Memref sig .tc .vmem S4096x1 .f32) (harg6 : arg6.IsWhole) (hc0 : ¬cond1_0 i) (hc1 : ¬cond1_1 i)
    (x0 : Vec F S4096 .i32) (x1 : Vec F S2000x1 .f32) (xs : Vec F S4096x1 .f32) (K : PUnit → sProp 𝕄) :
    iprop(hold c arg2 x0 ∗ hold c arg3 x1 ∗ hold c arg6 xs
        ∗ (iprop(hold c arg2 x0 ∗ hold c arg3 x1
            ∗ hold c arg6 (k1_pay2 i x0 x1 xs)) -∗ K ⟨⟩))
      ⊢ wp frame (wpE (defs₀ (F := F)) Variants.none c none) E (cc1__gather_body i arg2 harg2 arg3 harg3 arg4 harg4 arg5 harg5 arg6 harg6) K := by
  simp only [cc1__gather_body_eq_skeleton]; unfold cc1__gather_body_skel
  unfold hold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_whole _ _ hz2 _ _ _).trans ?_
  exact congr (congr (congrArg (k1_pay2 i) (View.ld_unit_zero hz1 _ _)) (View.ld_unit_zero hz2 _ _))
    (View.ld_unit_zero hz2 _ _)

/-- At a point ≡ 49: the product is added, then the accumulator scaled is stored into the output's block. -/
theorem run1_C (c : Dev nD) (E : Set ℕ) (i : grid1.Coords)
    (arg2 : Memref sig .tc .vmem S4096 .i32) (harg2 : arg2.IsWhole) (arg3 : Memref sig .tc .vmem S2000x1 .f32) (harg3 : arg3.IsWhole)
    (arg4 : Memref sig .tc .vmem S4096x1 .f32) (harg4 : arg4.IsWhole) (arg5 : Memref sig .tc .vmem S4096x1 .f32) (harg5 : arg5.IsWhole)
    (arg6 : Memref sig .tc .vmem S4096x1 .f32) (harg6 : arg6.IsWhole) (hc0 : ¬cond1_0 i) (hc1 : cond1_1 i)
    (x0 : Vec F S4096 .i32) (x1 : Vec F S2000x1 .f32) (x2 : Vec F S4096x1 .f32) (xs : Vec F S4096x1 .f32) (K : PUnit → sProp 𝕄) :
    iprop(hold c arg2 x0 ∗ hold c arg3 x1 ∗ hold c arg4 x2
        ∗ (∃ d, hold c arg5 d) ∗ hold c arg6 xs
        ∗ (iprop(hold c arg2 x0 ∗ hold c arg3 x1 ∗ hold c arg4 x2
            ∗ hold c arg5 (k1_pay3 (k1_pay2 i x0 x1 xs) x2)
            ∗ hold c arg6 (k1_pay2 i x0 x1 xs)) -∗ K ⟨⟩))
      ⊢ wp frame (wpE (defs₀ (F := F)) Variants.none c none) E (cc1__gather_body i arg2 harg2 arg3 harg3 arg4 harg4 arg5 harg5 arg6 harg6) K := by
  simp only [cc1__gather_body_eq_skeleton]; unfold cc1__gather_body_skel
  unfold hold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_whole _ _ hz2 _ _ _).trans ?_
    exact congr (congrArg k1_pay3 ((View.readCov_unit_zero _ hz2 _ _).trans
      (congr (congr (congrArg (k1_pay2 i) (View.ld_unit_zero hz1 _ _)) (View.ld_unit_zero hz2 _ _)) (View.ld_unit_zero hz2 _ _))))
      (View.ld_unit_zero hz2 _ _)
  iexists _; isplitr
  swap; · iexact HS
  ipureintro
  refine (read_whole _ _ hz2 _ _ _).trans ?_
  exact congr (congr (congrArg (k1_pay2 i) (View.ld_unit_zero hz1 _ _)) (View.ld_unit_zero hz2 _ _))
    (View.ld_unit_zero hz2 _ _)

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

abbrev sg1_0 (t : Fin cfg1.N) := (cfg1.win 0).stage (cfg1.slots t 0)
abbrev sg1_1 (t : Fin cfg1.N) := (cfg1.win 1).stage (cfg1.slots t 1)
abbrev sg1_2 (t : Fin cfg1.N) := (cfg1.win 2).stage (cfg1.slots t 2)
abbrev sg1_3 (t : Fin cfg1.N) := (cfg1.win 3).stage (cfg1.slots t 3)

abbrev body1At (t : Fin cfg1.N) : Prog (TpuEff nD τ sig (Elt F) Λ₀ .tc) PUnit :=
  cc1__gather_body (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scr1 (Memref.isWhole_whole _)

def bodyPre1 (c : Dev nD) (t : Fin cfg1.N) : sProp 𝕄 :=
  iprop((dat1 V c).Φ t.castSucc ∗ (dat1 V c).owesAt () t.castSucc
    ∗ (∃ d, hold c (sg1_0 t) ((dat1 V c).before 0 t d))
    ∗ (∃ d, hold c (sg1_1 t) ((dat1 V c).before 1 t d))
    ∗ (∃ d, hold c (sg1_2 t) ((dat1 V c).before 2 t d))
    ∗ (∃ d, hold c (sg1_3 t) ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) :
    (dat1 V c).leavesExact 0 t = hold c (sg1_0 t) (iblk1 V c 0 t) := by
  unfold Dat.leavesExact; rw [liveAt1_0 t, after1_0]
theorem leaves1_1 (c : Dev nD) (t : Fin cfg1.N) :
    (dat1 V c).leavesExact 1 t = hold c (sg1_1 t) (iblk1 V c 1 t) := by
  unfold Dat.leavesExact; rw [liveAt1_1 t, after1_1]
theorem leaves1_2 (c : Dev nD) (t : Fin cfg1.N) :
    (dat1 V c).leavesExact 2 t = hold c (sg1_2 t) (iblk1 V c 2 t) := by
  unfold Dat.leavesExact; rw [liveAt1_2 t, after1_2]
theorem leaves1_3_idle (c : Dev nD) (t : Fin cfg1.N) (h : ¬t.val % 50 = 49) :
    (dat1 V c).leavesExact 3 t = iprop(∃ d, hold c (sg1_3 t) ((dat1 V c).before 3 t d)) :=
  Dat.leavesExact_idle (dat1 V c) 3 t (idleAt1_3 t fun hc => h ((hcond1_1 t).mp hc)) (noFlush1_3 t h)
theorem leaves1_3_live (c : Dev nD) (t : Fin cfg1.N) (h : t.val % 50 = 49) :
    (dat1 V c).leavesExact 3 t = hold c (sg1_3 t) (k1_pay3 (acc1 V c t.val t.isLt) (iblk1 V c 2 t)) := by
  unfold Dat.leavesExact; rw [liveAt1_3 t ((hcond1_1 t).mpr h), after1_3]

set_option maxHeartbeats 2000000 in
/-- The body at any point: its position mod 50 says which run applies; the invariant lends the accumulator and takes it back at the point's contents. -/
theorem sound_body1 (c : Dev nD) (t : Fin cfg1.N) :
    bodyPre1 V c t ⊢ wp frame (wpE (defs₀ (F := F)) Variants.none c none) Set.univ (body1At t) (fun _ => bodyPost1 V c t) := by
  unfold bodyPre1 bodyPost1 body1At
  simp only [before1_0, before1_1, before1_2]
  rw [show (dat1 V c).owesAt () t.succ = (dat1 V c).owesAt () t.castSucc from rfl,
    show (dat1 V c).Φ t.succ = iprop(hold c scr1 (acc1 V c t.val t.isLt) ∗ SRB c ∗ (∃ r, prngReg c r)) from rfl,
    show (dat1 V c).Φ t.castSucc = iprop(Acc1 V c t.val (Nat.le_of_lt t.isLt) ∗ SRB c ∗ (∃ r, prngReg c r)) from rfl,
    leaves1_0, leaves1_1, leaves1_2]
  by_cases h0 : t.val % 50 = 0
  · have h1 : ¬t.val % 50 = 49 := by omega
    rw [leaves1_3_idle V c t h1, acc1_first V c t h0]
    iintro ⟨⟨HS, HR, Hg⟩, Ho, ⟨%d0, H0⟩, ⟨%d1, H1⟩, ⟨%d2, H2⟩, H3⟩
    ihave HS := (Acc1_any V c _ _) $$ HS
    iapply (run1_A c Set.univ (grid1.coords t) _ _ _ _ _ _ _ _ _ _ ((hcond1_0 t).mpr h0) (fun hc => h1 ((hcond1_1 t).mp hc)) (iblk1 V c 0 t) (iblk1 V c 1 t) _)
    iframe
    iintro ⟨H0, H1, HS⟩
    iframe
  · rw [Acc1_pos V c _ _ fun e => h0 (by rw [e]), acc1_next V c t h0]
    by_cases h1 : t.val % 50 = 49
    · rw [leaves1_3_live V c t h1, acc1_next V c t h0]
      iintro ⟨⟨HS, HR, Hg⟩, Ho, ⟨%d0, H0⟩, ⟨%d1, H1⟩, ⟨%d2, H2⟩, ⟨%d3, H3⟩⟩
      iapply (run1_C c Set.univ (grid1.coords t) _ _ _ _ _ _ _ _ _ _ (fun hc => h0 ((hcond1_0 t).mp hc)) ((hcond1_1 t).mpr h1) (iblk1 V c 0 t) (iblk1 V c 1 t) (iblk1 V c 2 t) _ _)
      iframe
      isplitl [H3]; · iexists _; iexact H3
      iintro ⟨H0, H1, H2, H3, HS⟩
      iframe
    · rw [leaves1_3_idle V c t h1]
      iintro ⟨⟨HS, HR, Hg⟩, Ho, ⟨%d0, H0⟩, ⟨%d1, H1⟩, ⟨%d2, H2⟩, H3⟩
      iapply (run1_B c Set.univ (grid1.coords t) _ _ _ _ _ _ _ _ _ _ (fun hc => h0 ((hcond1_0 t).mp hc)) (fun hc => h1 ((hcond1_1 t).mp hc)) (iblk1 V c 0 t) (iblk1 V c 1 t) _ _)
      iframe
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ SR c) ⊢ (dat1 V c).Φ 0 := by
  rw [SR_eq]
  show _ ⊢ iprop(iprop(∃ d, hold c scr1 d) ∗ SRB c ∗ (∃ r, prngReg c r))
  iintro ⟨Hg, HS, HR⟩
  iframe

theorem hout1 (c : Dev nD) : (dat1 V c).Φ (Fin.last cfg1.N) ⊢ iprop((∃ r, prngReg c r) ∗ SR c) := by
  rw [SR_eq]
  show iprop(Acc1 V c cfg1.N (Nat.le_refl _) ∗ SRB c ∗ (∃ r, prngReg c r)) ⊢ _
  iintro ⟨HS, HR, Hg⟩
  ihave HS := (Acc1_any V c _ _) $$ HS
  iframe

end Cert.KernelIdeal.R1

end
-- ==== Proof.R2Frame.lean ====
import proofs.«401816_j90890097918492_1_alg».proof.Proof.Gen.KernelIdeal.Launch
import proofs.«401816_j90890097918492_1_alg».proof.Proof.Gen.KernelIdeal.Skeleton
import proofs.«401816_j90890097918492_1_alg».proof.Proof.FrameLib
import proofs.«401816_j90890097918492_1_alg».proof.Proof.R1Frame

set_option maxRecDepth 16384

noncomputable section

namespace Cert.KernelIdeal.R2

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scr2 : Memref sig .tc .vmem S4096x1 .f32 := Memref.whole cc2_scratch0

/-- The accumulator after point `t`: the point's product added to what the point before left, from zeros at every 50th point. -/
def acc2 (c : Dev nD) : (t : ℕ) → t < cfg2.N → Vec F S4096x1 .f32 :=
  accum cfg2.N 50 k2_pay1 fun n h => k2_pay2 (grid2.coords ⟨n, h⟩) (iblk2 V c 0 ⟨n, h⟩) (iblk2 V c 1 ⟨n, h⟩)

theorem acc2_first (c : Dev nD) (t : Fin cfg2.N) (h : t.val % 50 = 0) :
    acc2 V c t.val t.isLt = k2_pay2 (grid2.coords t) (iblk2 V c 0 t) (iblk2 V c 1 t) k2_pay1 :=
  accum_first _ _ t h

theorem acc2_next (c : Dev nD) (t : Fin cfg2.N) (h : ¬t.val % 50 = 0) :
    acc2 V c t.val t.isLt = k2_pay2 (grid2.coords t) (iblk2 V c 0 t) (iblk2 V c 1 t)
      (acc2 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec2 c
abbrev SRB (c : Dev nD) : sProp 𝕄 :=
  Pipeline.scopedRestBut (Ix := Unit) (Name := ℕ) (U := UR sig nD τ) (Lvl := ℕ) (Val := Elt F) spec2 c [cc2_scratch0]

theorem SR_eq (c : Dev nD) : SR (F := F) c = iprop(iprop(∃ d, hold c scr2 d) ∗ SRB c) := by
  unfold SR SRB; rw [scopedRest2_split]; simp only [hold, scr2, owns_whole]; try rfl

/-- The accumulator's part of the invariant before position `n`: at anything before the first point, then at what the point before left. -/
def Acc2 (c : Dev nD) : (n : ℕ) → n ≤ cfg2.N → sProp 𝕄
  | 0, _ => iprop(∃ d, hold c scr2 d)
  | n + 1, hn => hold c scr2 (acc2 V c n hn)

theorem Acc2_any (c : Dev nD) (n : ℕ) (h : n ≤ cfg2.N) : Acc2 V c n h ⊢ iprop(∃ d, hold c scr2 d) := by
  cases n with
  | zero => exact .rfl
  | succ n => show hold c scr2 (acc2 V c n h) ⊢ _; iintro H; iexists _; iexact H

theorem Acc2_pos (c : Dev nD) (n : ℕ) (h : n ≤ cfg2.N) (hz : n ≠ 0) :
    Acc2 V c n h = hold c scr2 (acc2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := iprop(Acc2 V c t.val (Nat.le_of_lt_succ t.isLt) ∗ SRB c ∗ (∃ r, prngReg c r))
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

abbrev cond2_0 (i : grid2.Coords) : Prop :=
  (Scalar.cmpi .ne (Scalar.extui (Scalar.cmpi .eq (BitVec.ofNat 32 (i 1).val) 0#32)) 0#32) = 1#1
abbrev cond2_1 (i : grid2.Coords) : Prop := k2_cond2 i = 1#1

theorem coord2_1 (t : Fin cfg2.N) : ((grid2.coords t) 1).val = t.val % 50 := by
  show t.val / grid2.stride 1 % grid2.bound 1 = t.val % 50
  have h : grid2.stride 1 = 1 := by decide
  rw [h, Nat.div_one]; rfl

/-- A branch that compares the inner coordinate with `k` is taken at the points ≡ k (mod 50). -/
theorem hcond2 (t : Fin cfg2.N) (k : ℕ) (hk : k < 2 ^ 32) :
    (Scalar.cmpi .ne (Scalar.extui (Scalar.cmpi .eq (BitVec.ofNat 32 ((grid2.coords t) 1).val) (BitVec.ofNat 32 k))) 0#32) = 1#1
      ↔ t.val % 50 = k :=
  (cond_iff_nat (Nat.lt_trans ((grid2.coords t) 1).isLt (by decide)) hk).trans (by rw [coord2_1])
theorem hcond2_0 (t : Fin cfg2.N) : cond2_0 (grid2.coords t) ↔ t.val % 50 = 0 := hcond2 t 0 (by decide)
theorem hcond2_1 (t : Fin cfg2.N) : cond2_1 (grid2.coords t) ↔ t.val % 50 = 49 := hcond2 t 49 (by decide)

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem idleAt2_3 (t : Fin cfg2.N) (h : ¬cond2_1 (grid2.coords t)) : cfg2.idle 3 (grid2.coords t) = true := by
  show (!(k2_cond2 (grid2.coords t) == 1#1)) = true
  simp only [Bool.not_eq_true', beq_eq_false_iff_ne, ne_eq]; exact h
theorem liveAt2_3 (t : Fin cfg2.N) (h : cond2_1 (grid2.coords t)) : cfg2.idle 3 (grid2.coords t) = false := by
  show (!(k2_cond2 (grid2.coords t) == 1#1)) = false
  simp only [Bool.not_eq_false', beq_iff_eq]; exact h

theorem coord2_0 (n : ℕ) (h : n < cfg2.N) : ((grid2.coords ⟨n, h⟩) 0).val = n / 50 % 806 := by
  show n / grid2.stride 0 % grid2.bound 0 = n / 50 % 806
  have hs : grid2.stride 0 = 50 := by decide
  rw [hs]; rfl

theorem noFlush2_3 (t : Fin cfg2.N) (h : ¬t.val % 50 = 49) : (cfg2.win 3).flush t = false := by
  have ht : t.val < 40300 := lt_of_lt_of_eq t.isLt N_2
  have h1 : ¬(t.val + 1 = grid2.N) := by rw [N_2]; omega
  have h2 : ¬∃ hlt : t.val + 1 < grid2.N, cc2_transform_3 (grid2.coords ⟨t.val + 1, hlt⟩) ≠ cc2_transform_3 (grid2.coords t) := by
    rintro ⟨hlt, hne⟩
    refine hne (hreads2_3 _ _ fun a ha => ?_)
    match a, ha with
    | ⟨0, _⟩, _ =>
      refine Fin.ext ((coord2_0 (t.val + 1) hlt).trans (Eq.trans ?_ (coord2_0 t.val t.isLt).symm))
      omega
    | ⟨1, _⟩, ha => exact absurd (show false = true from ha) Bool.false_ne_true
  rw [Pipeline.Window.flush_eq_flushOf]
  show (true && (decide (t.val + 1 = grid2.N) || decide (∃ hlt : t.val + 1 < grid2.N, cc2_transform_3 (grid2.coords ⟨t.val + 1, hlt⟩) ≠ cc2_transform_3 (grid2.coords t)))) = false
  rw [decide_eq_false h1, decide_eq_false h2]; rfl

/-- Regions 1 and 2 launch one and the same body, with the same payloads. -/
theorem body2_eq : cc2__gather_body (F := F) = cc1__gather_body := rfl
theorem pay2_eq1 : k2_pay1 (F := F) = k1_pay1 := rfl
theorem pay2_eq2 : k2_pay2 (F := F) = k1_pay2 := rfl
theorem pay2_eq3 : k2_pay3 (F := F) = k1_pay3 := rfl

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

abbrev sg2_0 (t : Fin cfg2.N) := (cfg2.win 0).stage (cfg2.slots t 0)
abbrev sg2_1 (t : Fin cfg2.N) := (cfg2.win 1).stage (cfg2.slots t 1)
abbrev sg2_2 (t : Fin cfg2.N) := (cfg2.win 2).stage (cfg2.slots t 2)
abbrev sg2_3 (t : Fin cfg2.N) := (cfg2.win 3).stage (cfg2.slots t 3)

abbrev body2At (t : Fin cfg2.N) : Prog (TpuEff nD τ sig (Elt F) Λ₀ .tc) PUnit :=
  cc2__gather_body (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) scr2 (Memref.isWhole_whole _)

def bodyPre2 (c : Dev nD) (t : Fin cfg2.N) : sProp 𝕄 :=
  iprop((dat2 V c).Φ t.castSucc ∗ (dat2 V c).owesAt () t.castSucc
    ∗ (∃ d, hold c (sg2_0 t) ((dat2 V c).before 0 t d))
    ∗ (∃ d, hold c (sg2_1 t) ((dat2 V c).before 1 t d))
    ∗ (∃ d, hold c (sg2_2 t) ((dat2 V c).before 2 t d))
    ∗ (∃ d, hold c (sg2_3 t) ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) :
    (dat2 V c).leavesExact 0 t = hold c (sg2_0 t) (iblk2 V c 0 t) := by
  unfold Dat.leavesExact; rw [liveAt2_0 t, after2_0]
theorem leaves2_1 (c : Dev nD) (t : Fin cfg2.N) :
    (dat2 V c).leavesExact 1 t = hold c (sg2_1 t) (iblk2 V c 1 t) := by
  unfold Dat.leavesExact; rw [liveAt2_1 t, after2_1]
theorem leaves2_2 (c : Dev nD) (t : Fin cfg2.N) :
    (dat2 V c).leavesExact 2 t = hold c (sg2_2 t) (iblk2 V c 2 t) := by
  unfold Dat.leavesExact; rw [liveAt2_2 t, after2_2]
theorem leaves2_3_idle (c : Dev nD) (t : Fin cfg2.N) (h : ¬t.val % 50 = 49) :
    (dat2 V c).leavesExact 3 t = iprop(∃ d, hold c (sg2_3 t) ((dat2 V c).before 3 t d)) :=
  Dat.leavesExact_idle (dat2 V c) 3 t (idleAt2_3 t fun hc => h ((hcond2_1 t).mp hc)) (noFlush2_3 t h)
theorem leaves2_3_live (c : Dev nD) (t : Fin cfg2.N) (h : t.val % 50 = 49) :
    (dat2 V c).leavesExact 3 t = hold c (sg2_3 t) (k2_pay3 (acc2 V c t.val t.isLt) (iblk2 V c 2 t)) := by
  unfold Dat.leavesExact; rw [liveAt2_3 t ((hcond2_1 t).mpr h), after2_3]

set_option maxHeartbeats 2000000 in
/-- The body at any point: its position mod 50 says which run applies; the invariant lends the accumulator and takes it back at the point's contents. -/
theorem sound_body2 (c : Dev nD) (t : Fin cfg2.N) :
    bodyPre2 V c t ⊢ wp frame (wpE (defs₀ (F := F)) Variants.none c none) Set.univ (body2At t) (fun _ => bodyPost2 V c t) := by
  unfold bodyPre2 bodyPost2 body2At
  rw [body2_eq]
  simp only [before2_0, before2_1, before2_2]
  rw [show (dat2 V c).owesAt () t.succ = (dat2 V c).owesAt () t.castSucc from rfl,
    show (dat2 V c).Φ t.succ = iprop(hold c scr2 (acc2 V c t.val t.isLt) ∗ SRB c ∗ (∃ r, prngReg c r)) from rfl,
    show (dat2 V c).Φ t.castSucc = iprop(Acc2 V c t.val (Nat.le_of_lt t.isLt) ∗ SRB c ∗ (∃ r, prngReg c r)) from rfl,
    leaves2_0, leaves2_1, leaves2_2]
  by_cases h0 : t.val % 50 = 0
  · have h1 : ¬t.val % 50 = 49 := by omega
    rw [leaves2_3_idle V c t h1, acc2_first V c t h0, pay2_eq2, pay2_eq1]
    iintro ⟨⟨HS, HR, Hg⟩, Ho, ⟨%d0, H0⟩, ⟨%d1, H1⟩, ⟨%d2, H2⟩, H3⟩
    ihave HS := (Acc2_any V c _ _) $$ HS
    iapply (R1.run1_A c Set.univ (grid2.coords t) _ _ _ _ _ _ _ _ _ _ ((hcond2_0 t).mpr h0) (fun hc => h1 ((hcond2_1 t).mp hc)) (iblk2 V c 0 t) (iblk2 V c 1 t) _)
    iframe
    iintro ⟨H0, H1, HS⟩
    iframe
  · rw [Acc2_pos V c _ _ fun e => h0 (by rw [e]), acc2_next V c t h0, pay2_eq2]
    by_cases h1 : t.val % 50 = 49
    · rw [leaves2_3_live V c t h1, acc2_next V c t h0, pay2_eq2, pay2_eq3]
      iintro ⟨⟨HS, HR, Hg⟩, Ho, ⟨%d0, H0⟩, ⟨%d1, H1⟩, ⟨%d2, H2⟩, ⟨%d3, H3⟩⟩
      iapply (R1.run1_C c Set.univ (grid2.coords t) _ _ _ _ _ _ _ _ _ _ (fun hc => h0 ((hcond2_0 t).mp hc)) ((hcond2_1 t).mpr h1) (iblk2 V c 0 t) (iblk2 V c 1 t) (iblk2 V c 2 t) _ _)
      iframe
      isplitl [H3]; · iexists _; iexact H3
      iintro ⟨H0, H1, H2, H3, HS⟩
      iframe
    · rw [leaves2_3_idle V c t h1]
      iintro ⟨⟨HS, HR, Hg⟩, Ho, ⟨%d0, H0⟩, ⟨%d1, H1⟩, ⟨%d2, H2⟩, H3⟩
      iapply (R1.run1_B c Set.univ (grid2.coords t) _ _ _ _ _ _ _ _ _ _ (fun hc => h0 ((hcond2_0 t).mp hc)) (fun hc => h1 ((hcond2_1 t).mp hc)) (iblk2 V c 0 t) (iblk2 V c 1 t) _ _)
      iframe
      iintro ⟨H0, H1, HS⟩
      iframe

theorem body_obligation2 (c : Dev nD) : BodyObligation (dat2 (F := F) V c) (defs₀ (F := F)) Variants.none () Set.univ := fun t => by
  rw [bigSep_W2, bigSep_W2]
  exact sound_body2 V c t

theorem hin2 (c : Dev nD) : iprop((∃ r, prngReg c r) ∗ SR c) ⊢ (dat2 V c).Φ 0 := by
  rw [SR_eq]
  show _ ⊢ iprop(iprop(∃ d, hold c scr2 d) ∗ SRB c ∗ (∃ r, prngReg c r))
  iintro ⟨Hg, HS, HR⟩
  iframe

theorem hout2 (c : Dev nD) : (dat2 V c).Φ (Fin.last cfg2.N) ⊢ iprop((∃ r, prngReg c r) ∗ SR c) := by
  rw [SR_eq]
  show iprop(Acc2 V c cfg2.N (Nat.le_refl _) ∗ SRB c ∗ (∃ r, prngReg c r)) ⊢ _
  iintro ⟨HS, HR, Hg⟩
  ihave HS := (Acc2_any V c _ _) $$ HS
  iframe

end Cert.KernelIdeal.R2

end
-- ==== Proof.R3Frame.lean ====
import proofs.«401816_j90890097918492_1_alg».proof.Proof.Gen.KernelIdeal.Launch
import proofs.«401816_j90890097918492_1_alg».proof.Proof.Gen.KernelIdeal.Skeleton
import proofs.«401816_j90890097918492_1_alg».proof.Proof.FrameLib

set_option maxRecDepth 16384

noncomputable section

namespace Cert.KernelIdeal.R3

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scr3 : Memref sig .tc .vmem S4096x16 .f32 := Memref.whole cc3_scratch0

/-- The accumulator after point `t`: the point's product added to what the point before left, from zeros at every 50th point. -/
def acc3 (c : Dev nD) : (t : ℕ) → t < cfg3.N → Vec F S4096x16 .f32 :=
  accum cfg3.N 50 k3_pay1 fun n h => k3_pay2 (grid3.coords ⟨n, h⟩) (iblk3 V c 0 ⟨n, h⟩) (iblk3 V c 1 ⟨n, h⟩)

theorem acc3_first (c : Dev nD) (t : Fin cfg3.N) (h : t.val % 50 = 0) :
    acc3 V c t.val t.isLt = k3_pay2 (grid3.coords t) (iblk3 V c 0 t) (iblk3 V c 1 t) k3_pay1 :=
  accum_first _ _ t h

theorem acc3_next (c : Dev nD) (t : Fin cfg3.N) (h : ¬t.val % 50 = 0) :
    acc3 V c t.val t.isLt = k3_pay2 (grid3.coords t) (iblk3 V c 0 t) (iblk3 V c 1 t)
      (acc3 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec3 c
abbrev SRB (c : Dev nD) : sProp 𝕄 :=
  Pipeline.scopedRestBut (Ix := Unit) (Name := ℕ) (U := UR sig nD τ) (Lvl := ℕ) (Val := Elt F) spec3 c [cc3_scratch0]

theorem SR_eq (c : Dev nD) : SR (F := F) c = iprop(iprop(∃ d, hold c scr3 d) ∗ SRB c) := by
  unfold SR SRB; rw [scopedRest3_split]; simp only [hold, scr3, owns_whole]; try rfl

/-- The accumulator's part of the invariant before position `n`: at anything before the first point, then at what the point before left. -/
def Acc3 (c : Dev nD) : (n : ℕ) → n ≤ cfg3.N → sProp 𝕄
  | 0, _ => iprop(∃ d, hold c scr3 d)
  | n + 1, hn => hold c scr3 (acc3 V c n hn)

theorem Acc3_any (c : Dev nD) (n : ℕ) (h : n ≤ cfg3.N) : Acc3 V c n h ⊢ iprop(∃ d, hold c scr3 d) := by
  cases n with
  | zero => exact .rfl
  | succ n => show hold c scr3 (acc3 V c n h) ⊢ _; iintro H; iexists _; iexact H

theorem Acc3_pos (c : Dev nD) (n : ℕ) (h : n ≤ cfg3.N) (hz : n ≠ 0) :
    Acc3 V c n h = hold c scr3 (acc3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := iprop(Acc3 V c t.val (Nat.le_of_lt_succ t.isLt) ∗ SRB c ∗ (∃ r, prngReg c r))
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

abbrev cond3_0 (i : grid3.Coords) : Prop :=
  (Scalar.cmpi .ne (Scalar.extui (Scalar.cmpi .eq (BitVec.ofNat 32 (i 1).val) 0#32)) 0#32) = 1#1
abbrev cond3_1 (i : grid3.Coords) : Prop := k3_cond2 i = 1#1

theorem coord3_1 (t : Fin cfg3.N) : ((grid3.coords t) 1).val = t.val % 50 := by
  show t.val / grid3.stride 1 % grid3.bound 1 = t.val % 50
  have h : grid3.stride 1 = 1 := by decide
  rw [h, Nat.div_one]; rfl

/-- A branch that compares the inner coordinate with `k` is taken at the points ≡ k (mod 50). -/
theorem hcond3 (t : Fin cfg3.N) (k : ℕ) (hk : k < 2 ^ 32) :
    (Scalar.cmpi .ne (Scalar.extui (Scalar.cmpi .eq (BitVec.ofNat 32 ((grid3.coords t) 1).val) (BitVec.ofNat 32 k))) 0#32) = 1#1
      ↔ t.val % 50 = k :=
  (cond_iff_nat (Nat.lt_trans ((grid3.coords t) 1).isLt (by decide)) hk).trans (by rw [coord3_1])
theorem hcond3_0 (t : Fin cfg3.N) : cond3_0 (grid3.coords t) ↔ t.val % 50 = 0 := hcond3 t 0 (by decide)
theorem hcond3_1 (t : Fin cfg3.N) : cond3_1 (grid3.coords t) ↔ t.val % 50 = 49 := hcond3 t 49 (by decide)

theorem liveAt3_0 (t : Fin cfg3.N) : cfg3.idle 0 (grid3.coords t) = false := rfl
theorem liveAt3_1 (t : Fin cfg3.N) : cfg3.idle 1 (grid3.coords t) = false := rfl
theorem liveAt3_2 (t : Fin cfg3.N) : cfg3.idle 2 (grid3.coords t) = false := rfl
theorem idleAt3_3 (t : Fin cfg3.N) (h : ¬cond3_1 (grid3.coords t)) : cfg3.idle 3 (grid3.coords t) = true := by
  show (!(k3_cond2 (grid3.coords t) == 1#1)) = true
  simp only [Bool.not_eq_true', beq_eq_false_iff_ne, ne_eq]; exact h
theorem liveAt3_3 (t : Fin cfg3.N) (h : cond3_1 (grid3.coords t)) : cfg3.idle 3 (grid3.coords t) = false := by
  show (!(k3_cond2 (grid3.coords t) == 1#1)) = false
  simp only [Bool.not_eq_false', beq_iff_eq]; exact h

theorem coord3_0 (n : ℕ) (h : n < cfg3.N) : ((grid3.coords ⟨n, h⟩) 0).val = n / 50 % 806 := by
  show n / grid3.stride 0 % grid3.bound 0 = n / 50 % 806
  have hs : grid3.stride 0 = 50 := by decide
  rw [hs]; rfl

theorem noFlush3_3 (t : Fin cfg3.N) (h : ¬t.val % 50 = 49) : (cfg3.win 3).flush t = false := by
  have ht : t.val < 40300 := lt_of_lt_of_eq t.isLt N_3
  have h1 : ¬(t.val + 1 = grid3.N) := by rw [N_3]; omega
  have h2 : ¬∃ hlt : t.val + 1 < grid3.N, cc3_transform_3 (grid3.coords ⟨t.val + 1, hlt⟩) ≠ cc3_transform_3 (grid3.coords t) := by
    rintro ⟨hlt, hne⟩
    refine hne (hreads3_3 _ _ fun a ha => ?_)
    match a, ha with
    | ⟨0, _⟩, _ =>
      refine Fin.ext ((coord3_0 (t.val + 1) hlt).trans (Eq.trans ?_ (coord3_0 t.val t.isLt).symm))
      omega
    | ⟨1, _⟩, ha => exact absurd (show false = true from ha) Bool.false_ne_true
  rw [Pipeline.Window.flush_eq_flushOf]
  show (true && (decide (t.val + 1 = grid3.N) || decide (∃ hlt : t.val + 1 < grid3.N, cc3_transform_3 (grid3.coords ⟨t.val + 1, hlt⟩) ≠ cc3_transform_3 (grid3.coords t)))) = false
  rw [decide_eq_false h1, decide_eq_false h2]; rfl

/-- The body at a point ≡ 0: the accumulator is zeroed, then the point's product is added. -/
theorem run3_A (c : Dev nD) (E : Set ℕ) (i : grid3.Coords)
    (arg2 : Memref sig .tc .vmem S4096 .i32) (harg2 : arg2.IsWhole) (arg3 : Memref sig .tc .vmem S2000x16 .f32) (harg3 : arg3.IsWhole)
    (arg4 : Memref sig .tc .vmem S4096x1 .f32) (harg4 : arg4.IsWhole) (arg5 : Memref sig .tc .vmem S4096x16 .f32) (harg5 : arg5.IsWhole)
    (arg6 : Memref sig .tc .vmem S4096x16 .f32) (harg6 : arg6.IsWhole) (hc0 : cond3_0 i) (hc1 : ¬cond3_1 i)
    (x0 : Vec F S4096 .i32) (x1 : Vec F S2000x16 .f32) (K : PUnit → sProp 𝕄) :
    iprop(hold c arg2 x0 ∗ hold c arg3 x1 ∗ (∃ d, hold c arg6 d)
        ∗ (iprop(hold c arg2 x0 ∗ hold c arg3 x1
            ∗ hold c arg6 (k3_pay2 i x0 x1 k3_pay1)) -∗ K ⟨⟩))
      ⊢ wp frame (wpE (defs₀ (F := F)) Variants.none c none) E (cc3__gather_body i arg2 harg2 arg3 harg3 arg4 harg4 arg5 harg5 arg6 harg6) K := by
  simp only [cc3__gather_body_eq_skeleton]; unfold cc3__gather_body_skel
  unfold hold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_whole _ _ hz2 _ _ _).trans ?_
  exact congr (congr (congrArg (k3_pay2 i) (View.ld_unit_zero hz1 _ _)) (View.ld_unit_zero hz2 _ _))
    (View.readCov_unit_zero _ hz2 _ _)

/-- At a point ≢ 0, 49: the point's product is added to the accumulator. -/
theorem run3_B (c : Dev nD) (E : Set ℕ) (i : grid3.Coords)
    (arg2 : Memref sig .tc .vmem S4096 .i32) (harg2 : arg2.IsWhole) (arg3 : Memref sig .tc .vmem S2000x16 .f32) (harg3 : arg3.IsWhole)
    (arg4 : Memref sig .tc .vmem S4096x1 .f32) (harg4 : arg4.IsWhole) (arg5 : Memref sig .tc .vmem S4096x16 .f32) (harg5 : arg5.IsWhole)
    (arg6 : Memref sig .tc .vmem S4096x16 .f32) (harg6 : arg6.IsWhole) (hc0 : ¬cond3_0 i) (hc1 : ¬cond3_1 i)
    (x0 : Vec F S4096 .i32) (x1 : Vec F S2000x16 .f32) (xs : Vec F S4096x16 .f32) (K : PUnit → sProp 𝕄) :
    iprop(hold c arg2 x0 ∗ hold c arg3 x1 ∗ hold c arg6 xs
        ∗ (iprop(hold c arg2 x0 ∗ hold c arg3 x1
            ∗ hold c arg6 (k3_pay2 i x0 x1 xs)) -∗ K ⟨⟩))
      ⊢ wp frame (wpE (defs₀ (F := F)) Variants.none c none) E (cc3__gather_body i arg2 harg2 arg3 harg3 arg4 harg4 arg5 harg5 arg6 harg6) K := by
  simp only [cc3__gather_body_eq_skeleton]; unfold cc3__gather_body_skel
  unfold hold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_whole _ _ hz2 _ _ _).trans ?_
  exact congr (congr (congrArg (k3_pay2 i) (View.ld_unit_zero hz1 _ _)) (View.ld_unit_zero hz2 _ _))
    (View.ld_unit_zero hz2 _ _)

/-- At a point ≡ 49: the product is added, then the accumulator scaled is stored into the output's block. -/
theorem run3_C (c : Dev nD) (E : Set ℕ) (i : grid3.Coords)
    (arg2 : Memref sig .tc .vmem S4096 .i32) (harg2 : arg2.IsWhole) (arg3 : Memref sig .tc .vmem S2000x16 .f32) (harg3 : arg3.IsWhole)
    (arg4 : Memref sig .tc .vmem S4096x1 .f32) (harg4 : arg4.IsWhole) (arg5 : Memref sig .tc .vmem S4096x16 .f32) (harg5 : arg5.IsWhole)
    (arg6 : Memref sig .tc .vmem S4096x16 .f32) (harg6 : arg6.IsWhole) (hc0 : ¬cond3_0 i) (hc1 : cond3_1 i)
    (x0 : Vec F S4096 .i32) (x1 : Vec F S2000x16 .f32) (x2 : Vec F S4096x1 .f32) (xs : Vec F S4096x16 .f32) (K : PUnit → sProp 𝕄) :
    iprop(hold c arg2 x0 ∗ hold c arg3 x1 ∗ hold c arg4 x2
        ∗ (∃ d, hold c arg5 d) ∗ hold c arg6 xs
        ∗ (iprop(hold c arg2 x0 ∗ hold c arg3 x1 ∗ hold c arg4 x2
            ∗ hold c arg5 (k3_pay3 (k3_pay2 i x0 x1 xs) x2)
            ∗ hold c arg6 (k3_pay2 i x0 x1 xs)) -∗ K ⟨⟩))
      ⊢ wp frame (wpE (defs₀ (F := F)) Variants.none c none) E (cc3__gather_body i arg2 harg2 arg3 harg3 arg4 harg4 arg5 harg5 arg6 harg6) K := by
  simp only [cc3__gather_body_eq_skeleton]; unfold cc3__gather_body_skel
  unfold hold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_whole _ _ hz2 _ _ _).trans ?_
    exact congr (congrArg k3_pay3 ((View.readCov_unit_zero _ hz2 _ _).trans
      (congr (congr (congrArg (k3_pay2 i) (View.ld_unit_zero hz1 _ _)) (View.ld_unit_zero hz2 _ _)) (View.ld_unit_zero hz2 _ _))))
      (View.ld_unit_zero hz2 _ _)
  iexists _; isplitr
  swap; · iexact HS
  ipureintro
  refine (read_whole _ _ hz2 _ _ _).trans ?_
  exact congr (congr (congrArg (k3_pay2 i) (View.ld_unit_zero hz1 _ _)) (View.ld_unit_zero hz2 _ _))
    (View.ld_unit_zero hz2 _ _)

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

abbrev sg3_0 (t : Fin cfg3.N) := (cfg3.win 0).stage (cfg3.slots t 0)
abbrev sg3_1 (t : Fin cfg3.N) := (cfg3.win 1).stage (cfg3.slots t 1)
abbrev sg3_2 (t : Fin cfg3.N) := (cfg3.win 2).stage (cfg3.slots t 2)
abbrev sg3_3 (t : Fin cfg3.N) := (cfg3.win 3).stage (cfg3.slots t 3)

abbrev body3At (t : Fin cfg3.N) : Prog (TpuEff nD τ sig (Elt F) Λ₀ .tc) PUnit :=
  cc3__gather_body (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) scr3 (Memref.isWhole_whole _)

def bodyPre3 (c : Dev nD) (t : Fin cfg3.N) : sProp 𝕄 :=
  iprop((dat3 V c).Φ t.castSucc ∗ (dat3 V c).owesAt () t.castSucc
    ∗ (∃ d, hold c (sg3_0 t) ((dat3 V c).before 0 t d))
    ∗ (∃ d, hold c (sg3_1 t) ((dat3 V c).before 1 t d))
    ∗ (∃ d, hold c (sg3_2 t) ((dat3 V c).before 2 t d))
    ∗ (∃ d, hold c (sg3_3 t) ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3_0 (c : Dev nD) (t : Fin cfg3.N) :
    (dat3 V c).leavesExact 0 t = hold c (sg3_0 t) (iblk3 V c 0 t) := by
  unfold Dat.leavesExact; rw [liveAt3_0 t, after3_0]
theorem leaves3_1 (c : Dev nD) (t : Fin cfg3.N) :
    (dat3 V c).leavesExact 1 t = hold c (sg3_1 t) (iblk3 V c 1 t) := by
  unfold Dat.leavesExact; rw [liveAt3_1 t, after3_1]
theorem leaves3_2 (c : Dev nD) (t : Fin cfg3.N) :
    (dat3 V c).leavesExact 2 t = hold c (sg3_2 t) (iblk3 V c 2 t) := by
  unfold Dat.leavesExact; rw [liveAt3_2 t, after3_2]
theorem leaves3_3_idle (c : Dev nD) (t : Fin cfg3.N) (h : ¬t.val % 50 = 49) :
    (dat3 V c).leavesExact 3 t = iprop(∃ d, hold c (sg3_3 t) ((dat3 V c).before 3 t d)) :=
  Dat.leavesExact_idle (dat3 V c) 3 t (idleAt3_3 t fun hc => h ((hcond3_1 t).mp hc)) (noFlush3_3 t h)
theorem leaves3_3_live (c : Dev nD) (t : Fin cfg3.N) (h : t.val % 50 = 49) :
    (dat3 V c).leavesExact 3 t = hold c (sg3_3 t) (k3_pay3 (acc3 V c t.val t.isLt) (iblk3 V c 2 t)) := by
  unfold Dat.leavesExact; rw [liveAt3_3 t ((hcond3_1 t).mpr h), after3_3]

set_option maxHeartbeats 2000000 in
/-- The body at any point: its position mod 50 says which run applies; the invariant lends the accumulator and takes it back at the point's contents. -/
theorem sound_body3 (c : Dev nD) (t : Fin cfg3.N) :
    bodyPre3 V c t ⊢ wp frame (wpE (defs₀ (F := F)) Variants.none c none) Set.univ (body3At t) (fun _ => bodyPost3 V c t) := by
  unfold bodyPre3 bodyPost3 body3At
  simp only [before3_0, before3_1, before3_2]
  rw [show (dat3 V c).owesAt () t.succ = (dat3 V c).owesAt () t.castSucc from rfl,
    show (dat3 V c).Φ t.succ = iprop(hold c scr3 (acc3 V c t.val t.isLt) ∗ SRB c ∗ (∃ r, prngReg c r)) from rfl,
    show (dat3 V c).Φ t.castSucc = iprop(Acc3 V c t.val (Nat.le_of_lt t.isLt) ∗ SRB c ∗ (∃ r, prngReg c r)) from rfl,
    leaves3_0, leaves3_1, leaves3_2]
  by_cases h0 : t.val % 50 = 0
  · have h1 : ¬t.val % 50 = 49 := by omega
    rw [leaves3_3_idle V c t h1, acc3_first V c t h0]
    iintro ⟨⟨HS, HR, Hg⟩, Ho, ⟨%d0, H0⟩, ⟨%d1, H1⟩, ⟨%d2, H2⟩, H3⟩
    ihave HS := (Acc3_any V c _ _) $$ HS
    iapply (run3_A c Set.univ (grid3.coords t) _ _ _ _ _ _ _ _ _ _ ((hcond3_0 t).mpr h0) (fun hc => h1 ((hcond3_1 t).mp hc)) (iblk3 V c 0 t) (iblk3 V c 1 t) _)
    iframe
    iintro ⟨H0, H1, HS⟩
    iframe
  · rw [Acc3_pos V c _ _ fun e => h0 (by rw [e]), acc3_next V c t h0]
    by_cases h1 : t.val % 50 = 49
    · rw [leaves3_3_live V c t h1, acc3_next V c t h0]
      iintro ⟨⟨HS, HR, Hg⟩, Ho, ⟨%d0, H0⟩, ⟨%d1, H1⟩, ⟨%d2, H2⟩, ⟨%d3, H3⟩⟩
      iapply (run3_C c Set.univ (grid3.coords t) _ _ _ _ _ _ _ _ _ _ (fun hc => h0 ((hcond3_0 t).mp hc)) ((hcond3_1 t).mpr h1) (iblk3 V c 0 t) (iblk3 V c 1 t) (iblk3 V c 2 t) _ _)
      iframe
      isplitl [H3]; · iexists _; iexact H3
      iintro ⟨H0, H1, H2, H3, HS⟩
      iframe
    · rw [leaves3_3_idle V c t h1]
      iintro ⟨⟨HS, HR, Hg⟩, Ho, ⟨%d0, H0⟩, ⟨%d1, H1⟩, ⟨%d2, H2⟩, H3⟩
      iapply (run3_B c Set.univ (grid3.coords t) _ _ _ _ _ _ _ _ _ _ (fun hc => h0 ((hcond3_0 t).mp hc)) (fun hc => h1 ((hcond3_1 t).mp hc)) (iblk3 V c 0 t) (iblk3 V c 1 t) _ _)
      iframe
      iintro ⟨H0, H1, HS⟩
      iframe

theorem body_obligation3 (c : Dev nD) : BodyObligation (dat3 (F := F) V c) (defs₀ (F := F)) Variants.none () Set.univ := fun t => by
  rw [bigSep_W3, bigSep_W3]
  exact sound_body3 V c t

theorem hin3 (c : Dev nD) : iprop((∃ r, prngReg c r) ∗ SR c) ⊢ (dat3 V c).Φ 0 := by
  rw [SR_eq]
  show _ ⊢ iprop(iprop(∃ d, hold c scr3 d) ∗ SRB c ∗ (∃ r, prngReg c r))
  iintro ⟨Hg, HS, HR⟩
  iframe

theorem hout3 (c : Dev nD) : (dat3 V c).Φ (Fin.last cfg3.N) ⊢ iprop((∃ r, prngReg c r) ∗ SR c) := by
  rw [SR_eq]
  show iprop(Acc3 V c cfg3.N (Nat.le_refl _) ∗ SRB c ∗ (∃ r, prngReg c r)) ⊢ _
  iintro ⟨HS, HR, Hg⟩
  ihave HS := (Acc3_any V c _ _) $$ HS
  iframe

end Cert.KernelIdeal.R3

end
-- ==== Proof.R4Frame.lean ====
import proofs.«401816_j90890097918492_1_alg».proof.Proof.Gen.KernelIdeal.Launch
import proofs.«401816_j90890097918492_1_alg».proof.Proof.Gen.KernelIdeal.Skeleton
import proofs.«401816_j90890097918492_1_alg».proof.Proof.FrameLib

set_option maxRecDepth 16384

noncomputable section

namespace Cert.KernelIdeal.R4

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1

/-- The body at a point ≡ 0: the accumulator is zeroed, then updated by the two input blocks. -/
theorem run4_A (c : Dev nD) (i : grid4.Coords) (arg2 : Memref sig .tc .vmem S4096 .i32) (harg2 : arg2.IsWhole) (arg3 : Memref sig .tc .vmem S4096x16 .f32) (harg3 : arg3.IsWhole) (arg4 : Memref sig .tc .vmem S2000x16 .f32) (harg4 : arg4.IsWhole) (arg5 : Memref sig .tc .vmem S2000x16 .f32) (harg5 : arg5.IsWhole)
    (hc0 : cond4_0 i) (hc1 : ¬cond4_1 i)
    (x0 : Vec F S4096 .i32) (x1 : Vec F S4096x16 .f32) (P2 : sProp 𝕄) (E : Set ℕ) (K : PUnit → sProp 𝕄) :
    iprop(hold c arg2 x0 ∗ hold c arg3 x1 ∗ P2 ∗ (∃ d, hold c arg5 d)
        ∗ (iprop(hold c arg2 x0 ∗ hold c arg3 x1 ∗ P2 ∗ hold c arg5 (k4_pay2 i x0 x1 (k4_pay1 (F := F)))) -∗ K ⟨⟩))
      ⊢ wp frame (wpE (defs₀ (F := F)) Variants.none c none) E (cc4__scatter_body i arg2 harg2 arg3 harg3 arg4 harg4 arg5 harg5) K := by
  simp only [cc4__scatter_body_eq_skeleton]; unfold cc4__scatter_body_skel
  unfold hold owns
  iintro ⟨⟨%f0, %hf0, H0⟩, ⟨%f1, %hf1, H1⟩, H2, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  sl_unfold_words
  rw [read_whole _ _ hz2]
  simp only [View.readAt_eq_ld, Memref.IsWhole.read_unread, View.ld_unit_zero (S := S2000x16) hz2, View.ld_unit_zero (S := S4096x16) hz2, View.ld_unit_zero (S := S4096) hz1, View.readCov_unit_zero (S := S2000x16) _ hz2]

/-- At a point ≢ 0, 805: the accumulator is updated; whatever else is held (`P2`) is untouched. -/
theorem run4_B (c : Dev nD) (i : grid4.Coords) (arg2 : Memref sig .tc .vmem S4096 .i32) (harg2 : arg2.IsWhole) (arg3 : Memref sig .tc .vmem S4096x16 .f32) (harg3 : arg3.IsWhole) (arg4 : Memref sig .tc .vmem S2000x16 .f32) (harg4 : arg4.IsWhole) (arg5 : Memref sig .tc .vmem S2000x16 .f32) (harg5 : arg5.IsWhole)
    (hc0 : ¬cond4_0 i) (hc1 : ¬cond4_1 i)
    (x0 : Vec F S4096 .i32) (x1 : Vec F S4096x16 .f32) (xs : Vec F S2000x16 .f32) (P2 : sProp 𝕄) (E : Set ℕ) (K : PUnit → sProp 𝕄) :
    iprop(hold c arg2 x0 ∗ hold c arg3 x1 ∗ P2 ∗ hold c arg5 xs
        ∗ (iprop(hold c arg2 x0 ∗ hold c arg3 x1 ∗ P2 ∗ hold c arg5 (k4_pay2 i x0 x1 xs)) -∗ K ⟨⟩))
      ⊢ wp frame (wpE (defs₀ (F := F)) Variants.none c none) E (cc4__scatter_body i arg2 harg2 arg3 harg3 arg4 harg4 arg5 harg5) K := by
  simp only [cc4__scatter_body_eq_skeleton]; unfold cc4__scatter_body_skel
  unfold hold owns
  iintro ⟨⟨%f0, %hf0, H0⟩, ⟨%f1, %hf1, H1⟩, H2, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]; · iexact H2
  iexists _; isplitr
  swap; · iexact HS
  ipureintro
  rw [read_whole _ _ hz2]
  simp only [View.readAt_eq_ld, Memref.IsWhole.read_unread, View.ld_unit_zero (S := S2000x16) hz2, View.ld_unit_zero (S := S4096x16) hz2, View.ld_unit_zero (S := S4096) hz1, View.readCov_unit_zero (S := S2000x16) _ hz2]

/-- At a point ≡ 805: the accumulator is updated and copied into the output's block. -/
theorem run4_C (c : Dev nD) (i : grid4.Coords) (arg2 : Memref sig .tc .vmem S4096 .i32) (harg2 : arg2.IsWhole) (arg3 : Memref sig .tc .vmem S4096x16 .f32) (harg3 : arg3.IsWhole) (arg4 : Memref sig .tc .vmem S2000x16 .f32) (harg4 : arg4.IsWhole) (arg5 : Memref sig .tc .vmem S2000x16 .f32) (harg5 : arg5.IsWhole)
    (hc0 : ¬cond4_0 i) (hc1 : cond4_1 i)
    (x0 : Vec F S4096 .i32) (x1 : Vec F S4096x16 .f32) (xs : Vec F S2000x16 .f32) (E : Set ℕ) (K : PUnit → sProp 𝕄) :
    iprop(hold c arg2 x0 ∗ hold c arg3 x1 ∗ (∃ d, hold c arg4 d) ∗ hold c arg5 xs
        ∗ (iprop(hold c arg2 x0 ∗ hold c arg3 x1 ∗ hold c arg4 (k4_pay2 i x0 x1 xs) ∗ hold c arg5 (k4_pay2 i x0 x1 xs)) -∗ K ⟨⟩))
      ⊢ wp frame (wpE (defs₀ (F := F)) Variants.none c none) E (cc4__scatter_body i arg2 harg2 arg3 harg3 arg4 harg4 arg5 harg5) K := by
  simp only [cc4__scatter_body_eq_skeleton]; unfold cc4__scatter_body_skel
  unfold hold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_whole _ _ hz2]
    simp only [View.readAt_eq_ld, Memref.IsWhole.read_unread, View.ld_unit_zero (S := S2000x16) hz2, View.ld_unit_zero (S := S4096x16) hz2, View.ld_unit_zero (S := S4096) hz1, View.readCov_unit_zero (S := S2000x16) _ hz2]
  iexists _; isplitr
  swap; · iexact HS
  ipureintro
  sl_unfold_words
  rw [read_whole _ _ hz2]
  simp only [View.readAt_eq_ld, Memref.IsWhole.read_unread, View.ld_unit_zero (S := S2000x16) hz2, View.ld_unit_zero (S := S4096x16) hz2, View.ld_unit_zero (S := S4096) hz1, View.readCov_unit_zero (S := S2000x16) _ hz2]

theorem coord4_1_val (t : Fin cfg4.N) : ((grid4.coords t) 1).val = t.val % 806 := by
  show t.val / grid4.stride 1 % 806 = t.val % 806
  rw [show grid4.stride 1 = 1 from by decide, Nat.div_one]

/-- A branch that compares the inner coordinate with `k` is taken at the points ≡ k (mod 806). -/
theorem hcond4 (t : Fin cfg4.N) (k : ℕ) (hk : k < 2 ^ 32) :
    (Scalar.cmpi .ne (Scalar.extui (Scalar.cmpi .eq (BitVec.ofNat 32 ((grid4.coords t) 1).val) (BitVec.ofNat 32 k))) 0#32) = 1#1
      ↔ t.val % 806 = k :=
  (cond_iff_nat (Nat.lt_trans ((grid4.coords t) 1).isLt (by decide)) hk).trans (by rw [coord4_1_val])
theorem hcond4_0 (t : Fin cfg4.N) : cond4_0 (grid4.coords t) ↔ t.val % 806 = 0 := hcond4 t 0 (by decide)
theorem hcond4_1 (t : Fin cfg4.N) : cond4_1 (grid4.coords t) ↔ t.val % 806 = 805 := hcond4 t 805 (by decide)

theorem liveAt4_0 (i : grid4.Coords) : cfg4.idle 0 i = false := rfl
theorem liveAt4_1 (i : grid4.Coords) : cfg4.idle 1 i = false := rfl
theorem idleAt4_2 (i : grid4.Coords) (h : ¬cond4_1 i) : cfg4.idle 2 i = true := by
  show (!(k4_cond2 i == 1#1)) = true
  rw [Bool.not_eq_true', beq_eq_false_iff_ne]; exact h
theorem liveAt4_2 (i : grid4.Coords) (h : cond4_1 i) : cfg4.idle 2 i = false := by
  show (!(k4_cond2 i == 1#1)) = false
  rw [Bool.not_eq_false', beq_iff_eq]; exact h

theorem coord4_0_val (t : Fin cfg4.N) : ((grid4.coords t) 0).val = t.val / 806 % 50 := by
  show t.val / grid4.stride 0 % 50 = t.val / 806 % 50
  rw [show grid4.stride 0 = 806 from by decide]

theorem index4_2 (t : Fin cfg4.N) : (cfg4.win 2).index t = ![t.val / 806 % 50, 0] := by
  show cc4_transform_2 (grid4.coords t) = _
  unfold cc4_transform_2
  simp only [BitVec.toNat_ofNat, coord4_0_val]
  have h : t.val / 806 % 50 % 2 ^ 32 = t.val / 806 % 50 := by omega
  rw [h]

theorem flushAt4_2 (t : Fin cfg4.N) : (cfg4.win 2).flush t = true ↔ t.val % 806 = 805 := by
  have hN : cfg4.N = 40300 := N_4
  have hN1 : cfg4.grid.N = 40300 := N_4
  have hN2 : grid4.N = 40300 := N_4
  have ht : t.val < cfg4.N := t.isLt
  unfold Pipeline.Window.flush
  rw [show (cfg4.win 2).isOut = true from rfl, Bool.true_and, Bool.or_eq_true, decide_eq_true_eq, decide_eq_true_eq]
  constructor
  · rintro (h | ⟨h, hne⟩)
    · omega
    · rw [index4_2, index4_2] at hne
      by_contra hcon
      apply hne
      have e : (t.val + 1) / 806 = t.val / 806 := by omega
      show ![(t.val + 1) / 806 % 50, 0] = ![t.val / 806 % 50, 0]
      rw [e]
  · intro h
    by_cases hl : t.val + 1 = grid4.N
    · exact .inl hl
    · refine .inr ⟨by omega, ?_⟩
      rw [index4_2, index4_2]
      intro heq
      have h0' : (t.val + 1) / 806 % 50 = t.val / 806 % 50 := congrFun heq 0
      omega

abbrev stM4_0 (t : Fin cfg4.N) := (cfg4.win 0).stage (cfg4.slots t 0)
abbrev stM4_1 (t : Fin cfg4.N) := (cfg4.win 1).stage (cfg4.slots t 1)
abbrev stM4_2 (t : Fin cfg4.N) := (cfg4.win 2).stage (cfg4.slots t 2)

abbrev bodyOf4 (t : Fin cfg4.N) : Prog (TpuEff nD τ sig (Elt F) Λ₀ .tc) PUnit :=
  cc4__scatter_body (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (Memref.whole cc4_scratch0) (Memref.isWhole_whole _)

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after point `t`: updated by the point's two blocks from what the point before left, from zeros at every 806th point. -/
def acc4 (c : Dev nD) : (t : ℕ) → t < cfg4.N → Vec F S2000x16 .f32 :=
  accum cfg4.N 806 (k4_pay1 (F := F)) fun n h => k4_pay2 (grid4.coords ⟨n, h⟩) (iblk4 V c 0 ⟨n, h⟩) (iblk4 V c 1 ⟨n, h⟩)

theorem acc4_first (c : Dev nD) (t : Fin cfg4.N) (h : t.val % 806 = 0) :
    acc4 V c t.val t.isLt = k4_pay2 (grid4.coords t) (iblk4 V c 0 t) (iblk4 V c 1 t) (k4_pay1 (F := F)) :=
  accum_first _ _ t h

theorem acc4_next (c : Dev nD) (t : Fin cfg4.N) (h : ¬t.val % 806 = 0) :
    acc4 V c t.val t.isLt = k4_pay2 (grid4.coords t) (iblk4 V c 0 t) (iblk4 V c 1 t)
      (acc4 V c (t.val - 1) (Nat.lt_of_le_of_lt (Nat.sub_le _ _) t.isLt)) :=
  accum_next _ _ t h

abbrev scr4 : Memref sig .tc .vmem S2000x16 .f32 := Memref.whole cc4_scratch0

abbrev SR (c : Dev nD) : sProp 𝕄 :=
  Pipeline.scopedRest (Ix := Unit) (Name := ℕ) (U := UR sig nD τ) (Lvl := ℕ) (Val := Elt F) spec4 c
abbrev SRB (c : Dev nD) : sProp 𝕄 :=
  Pipeline.scopedRestBut (Ix := Unit) (Name := ℕ) (U := UR sig nD τ) (Lvl := ℕ) (Val := Elt F) spec4 c [cc4_scratch0]

theorem SR_eq (c : Dev nD) : SR (F := F) c = iprop((∃ d, hold c scr4 d) ∗ SRB c) := by
  unfold SR SRB; rw [scopedRest4_split]; simp only [hold, scr4, owns_whole]; try rfl

/-- The accumulator's part of the invariant before position `n`: at anything before the first point, then at what the point before left. -/
def Acc4 (c : Dev nD) : (n : ℕ) → n ≤ cfg4.N → sProp 𝕄
  | 0, _ => iprop(∃ d, hold c scr4 d)
  | n + 1, hn => hold c scr4 (acc4 V c n hn)

theorem Acc4_any (c : Dev nD) (n : ℕ) (h : n ≤ cfg4.N) : Acc4 V c n h ⊢ iprop(∃ d, hold c scr4 d) := by
  cases n with
  | zero => exact .rfl
  | succ n => show hold c scr4 (acc4 V c n h) ⊢ _; iintro H; iexists _; iexact H

theorem Acc4_pos (c : Dev nD) (n : ℕ) (h : n ≤ cfg4.N) (hz : n ≠ 0) :
    Acc4 V c n h = hold c scr4 (acc4 V c (n - 1) (by omega)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := iprop((∃ r, prngReg c r) ∗ Acc4 V c t.val (Nat.le_of_lt_succ t.isLt) ∗ SRB c)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]
theorem q_eq4 (c : Dev nD) (w : Fin cfg4.W) : (dat4 V c).q w = fullShare := rfl
theorem owed_eq4 (c : Dev nD) (t : Fin (cfg4.N + 1)) : (dat4 V c).owed t = 0 := rfl

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, hold c (stM4_0 t) ((dat4 V c).before 0 t d))
    ∗ (∃ d, hold c (stM4_1 t) ((dat4 V c).before 1 t d))
    ∗ (∃ d, hold c (stM4_2 t) ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

theorem leaves4_idle (c : Dev nD) (t : Fin cfg4.N) (h : ¬t.val % 806 = 805) :
    (dat4 V c).leavesExact 2 t = iprop(∃ d, hold c (stM4_2 t) ((dat4 V c).before 2 t d)) :=
  Dat.leavesExact_idle (dat4 V c) 2 t (idleAt4_2 _ fun hc => h ((hcond4_1 t).mp hc))
    (Bool.eq_false_iff.mpr fun hf => h ((flushAt4_2 t).mp hf))

set_option maxHeartbeats 4800000 in
/-- The body at any point: its position mod 806 says which run applies; the invariant lends the accumulator and takes it back at the point's contents. -/
theorem sound_body4 (c : Dev nD) (t : Fin cfg4.N) :
    bodyPre4 V c t ⊢ wp frame (wpE (defs₀ (F := F)) Variants.none c none) Set.univ (bodyOf4 t) (fun _ => bodyPost4 V c t) := by
  unfold bodyPre4 bodyPost4 bodyOf4
  simp only [before4_0, before4_1]
  rw [show (dat4 V c).owesAt () t.succ = (dat4 V c).owesAt () t.castSucc from rfl,
    show (dat4 V c).Φ t.succ = iprop((∃ r, prngReg c r) ∗ hold c scr4 (acc4 V c t.val t.isLt) ∗ SRB c) from rfl,
    show (dat4 V c).Φ t.castSucc = iprop((∃ r, prngReg c r) ∗ Acc4 V c t.val (Nat.le_of_lt t.isLt) ∗ SRB c) from rfl,
    show (dat4 V c).leavesExact 0 t = hold c (stM4_0 t) (iblk4 V c 0 t) from by
      unfold Dat.leavesExact; rw [liveAt4_0, after4_0],
    show (dat4 V c).leavesExact 1 t = hold c (stM4_1 t) (iblk4 V c 1 t) from by
      unfold Dat.leavesExact; rw [liveAt4_1, after4_1]]
  by_cases h0 : t.val % 806 = 0
  · have h1 : ¬t.val % 806 = 805 := by omega
    rw [leaves4_idle V c t h1, acc4_first V c t h0]
    iintro ⟨⟨Hg, HS, HR⟩, Ho, ⟨%d0, H0⟩, ⟨%d1, H1⟩, H2⟩
    ihave HS := (Acc4_any V c _ _) $$ HS
    iapply (run4_A c (grid4.coords t) _ _ _ _ _ _ _ _ ((hcond4_0 t).mpr h0) (fun hc => h1 ((hcond4_1 t).mp hc)) (iblk4 V c 0 t) (iblk4 V c 1 t)
      (iprop(∃ d, hold c (stM4_2 t) ((dat4 V c).before 2 t d))) Set.univ _)
    iframe
    iintro ⟨H0, H1, H2, HS⟩
    iframe
  · rw [Acc4_pos V c _ _ fun e => h0 (by rw [e]), acc4_next V c t h0]
    by_cases h1 : t.val % 806 = 805
    · rw [show (dat4 V c).leavesExact 2 t = hold c (stM4_2 t) ((dat4 V c).after 2 t) from by
        unfold Dat.leavesExact; rw [liveAt4_2 _ ((hcond4_1 t).mpr h1)], after4_2, acc4_next V c t h0]
      iintro ⟨⟨Hg, HS, HR⟩, Ho, ⟨%d0, H0⟩, ⟨%d1, H1⟩, ⟨%d2, H2⟩⟩
      iapply (run4_C c (grid4.coords t) _ _ _ _ _ _ _ _ (fun hc => h0 ((hcond4_0 t).mp hc)) ((hcond4_1 t).mpr h1) (iblk4 V c 0 t) (iblk4 V c 1 t)
        (acc4 V c (t.val - 1) (Nat.lt_of_le_of_lt (Nat.sub_le _ _) t.isLt)) Set.univ _)
      iframe
      isplitl [H2]; · iexists _; iexact H2
      iintro ⟨H0, H1, H2, HS⟩
      iframe
    · rw [leaves4_idle V c t h1]
      iintro ⟨⟨Hg, HS, HR⟩, Ho, ⟨%d0, H0⟩, ⟨%d1, H1⟩, H2⟩
      iapply (run4_B c (grid4.coords t) _ _ _ _ _ _ _ _ (fun hc => h0 ((hcond4_0 t).mp hc)) (fun hc => h1 ((hcond4_1 t).mp hc)) (iblk4 V c 0 t) (iblk4 V c 1 t)
        (acc4 V c (t.val - 1) (Nat.lt_of_le_of_lt (Nat.sub_le _ _) t.isLt))
        (iprop(∃ d, hold c (stM4_2 t) ((dat4 V c).before 2 t d))) Set.univ _)
      iframe
      iintro ⟨H0, H1, H2, HS⟩
      iframe

theorem body_obligation4 (c : Dev nD) : BodyObligation (dat4 (F := F) V c) (defs₀ (F := F)) Variants.none () Set.univ := fun t => by
  rw [bigSep_W4, bigSep_W4]
  exact sound_body4 V c t

theorem hin4 (c : Dev nD) : iprop((∃ r, prngReg c r) ∗ SR c) ⊢ (dat4 V c).Φ 0 := by
  rw [SR_eq]
  show _ ⊢ iprop((∃ r, prngReg c r) ∗ iprop(∃ d, hold c scr4 d) ∗ SRB c)
  iintro ⟨Hg, HS, HR⟩
  iframe

theorem hout4 (c : Dev nD) : (dat4 V c).Φ (Fin.last cfg4.N) ⊢ iprop((∃ r, prngReg c r) ∗ SR c) := by
  rw [SR_eq]
  show iprop((∃ r, prngReg c r) ∗ Acc4 V c cfg4.N (Nat.le_refl _) ∗ SRB c) ⊢ _
  iintro ⟨Hg, HS, HR⟩
  ihave HS := (Acc4_any V c _ _) $$ HS
  iframe

end Region

end Cert.KernelIdeal.R4
end
-- ==== Proof.R5Frame.lean ====
import proofs.«401816_j90890097918492_1_alg».proof.Proof.Gen.KernelIdeal.Launch
import proofs.«401816_j90890097918492_1_alg».proof.Proof.Gen.KernelIdeal.Skeleton
import proofs.«401816_j90890097918492_1_alg».proof.Proof.FrameLib
import proofs.«401816_j90890097918492_1_alg».proof.Proof.R1Frame

set_option maxRecDepth 16384

noncomputable section

namespace Cert.KernelIdeal.R5

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scr5 : Memref sig .tc .vmem S4096x1 .f32 := Memref.whole cc5_scratch0

/-- The accumulator after point `t`: the point's product added to what the point before left, from zeros at every 50th point. -/
def acc5 (c : Dev nD) : (t : ℕ) → t < cfg5.N → Vec F S4096x1 .f32 :=
  accum cfg5.N 50 k5_pay1 fun n h => k5_pay2 (grid5.coords ⟨n, h⟩) (iblk5 V c 0 ⟨n, h⟩) (iblk5 V c 1 ⟨n, h⟩)

theorem acc5_first (c : Dev nD) (t : Fin cfg5.N) (h : t.val % 50 = 0) :
    acc5 V c t.val t.isLt = k5_pay2 (grid5.coords t) (iblk5 V c 0 t) (iblk5 V c 1 t) k5_pay1 :=
  accum_first _ _ t h

theorem acc5_next (c : Dev nD) (t : Fin cfg5.N) (h : ¬t.val % 50 = 0) :
    acc5 V c t.val t.isLt = k5_pay2 (grid5.coords t) (iblk5 V c 0 t) (iblk5 V c 1 t)
      (acc5 V c (t.val - 1) (Nat.lt_of_le_of_lt (Nat.sub_le _ _) t.isLt)) :=
  accum_next _ _ t h

abbrev SR (c : Dev nD) : sProp 𝕄 :=
  Pipeline.scopedRest (Ix := Unit) (Name := ℕ) (U := UR sig nD τ) (Lvl := ℕ) (Val := Elt F) spec5 c
abbrev SRB (c : Dev nD) : sProp 𝕄 :=
  Pipeline.scopedRestBut (Ix := Unit) (Name := ℕ) (U := UR sig nD τ) (Lvl := ℕ) (Val := Elt F) spec5 c [cc5_scratch0]

theorem SR_eq (c : Dev nD) : SR (F := F) c = iprop(iprop(∃ d, hold c scr5 d) ∗ SRB c) := by
  unfold SR SRB; rw [scopedRest5_split]; simp only [hold, scr5, owns_whole]; try rfl

/-- The accumulator's part of the invariant before position `n`: at anything before the first point, then at what the point before left. -/
def Acc5 (c : Dev nD) : (n : ℕ) → n ≤ cfg5.N → sProp 𝕄
  | 0, _ => iprop(∃ d, hold c scr5 d)
  | n + 1, hn => hold c scr5 (acc5 V c n hn)

theorem Acc5_any (c : Dev nD) (n : ℕ) (h : n ≤ cfg5.N) : Acc5 V c n h ⊢ iprop(∃ d, hold c scr5 d) := by
  cases n with
  | zero => exact .rfl
  | succ n => show hold c scr5 (acc5 V c n h) ⊢ _; iintro H; iexists _; iexact H

theorem Acc5_pos (c : Dev nD) (n : ℕ) (h : n ≤ cfg5.N) (hz : n ≠ 0) :
    Acc5 V c n h = hold c scr5 (acc5 V c (n - 1) (by omega)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := iprop(Acc5 V c t.val (Nat.le_of_lt_succ t.isLt) ∗ SRB c ∗ (∃ r, prngReg c r))
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := rfl
theorem owed_eq5 (c : Dev nD) (t : Fin (cfg5.N + 1)) : (dat5 V c).owed t = 0 := rfl
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay3 (acc5 V c t.val t.isLt) (iblk5 V c 2 t) := by dsimp only [dat5]

abbrev cond5_0 (i : grid5.Coords) : Prop :=
  (Scalar.cmpi .ne (Scalar.extui (Scalar.cmpi .eq (BitVec.ofNat 32 (i 1).val) 0#32)) 0#32) = 1#1
abbrev cond5_1 (i : grid5.Coords) : Prop := k5_cond2 i = 1#1

theorem coord5_1 (t : Fin cfg5.N) : ((grid5.coords t) 1).val = t.val % 50 := by
  show t.val / grid5.stride 1 % grid5.bound 1 = t.val % 50
  have h : grid5.stride 1 = 1 := by decide
  rw [h, Nat.div_one]; rfl

/-- A branch that compares the inner coordinate with `k` is taken at the points ≡ k (mod 50). -/
theorem hcond5 (t : Fin cfg5.N) (k : ℕ) (hk : k < 2 ^ 32) :
    (Scalar.cmpi .ne (Scalar.extui (Scalar.cmpi .eq (BitVec.ofNat 32 ((grid5.coords t) 1).val) (BitVec.ofNat 32 k))) 0#32) = 1#1
      ↔ t.val % 50 = k :=
  (cond_iff_nat (Nat.lt_trans ((grid5.coords t) 1).isLt (by decide)) hk).trans (by rw [coord5_1])
theorem hcond5_0 (t : Fin cfg5.N) : cond5_0 (grid5.coords t) ↔ t.val % 50 = 0 := hcond5 t 0 (by decide)
theorem hcond5_1 (t : Fin cfg5.N) : cond5_1 (grid5.coords t) ↔ t.val % 50 = 49 := hcond5 t 49 (by decide)

theorem liveAt5_0 (t : Fin cfg5.N) : cfg5.idle 0 (grid5.coords t) = false := rfl
theorem liveAt5_1 (t : Fin cfg5.N) : cfg5.idle 1 (grid5.coords t) = false := rfl
theorem liveAt5_2 (t : Fin cfg5.N) : cfg5.idle 2 (grid5.coords t) = false := rfl
theorem idleAt5_3 (t : Fin cfg5.N) (h : ¬cond5_1 (grid5.coords t)) : cfg5.idle 3 (grid5.coords t) = true := by
  show (!(k5_cond2 (grid5.coords t) == 1#1)) = true
  simp only [Bool.not_eq_true', beq_eq_false_iff_ne, ne_eq]; exact h
theorem liveAt5_3 (t : Fin cfg5.N) (h : cond5_1 (grid5.coords t)) : cfg5.idle 3 (grid5.coords t) = false := by
  show (!(k5_cond2 (grid5.coords t) == 1#1)) = false
  simp only [Bool.not_eq_false', beq_iff_eq]; exact h

theorem coord5_0 (n : ℕ) (h : n < cfg5.N) : ((grid5.coords ⟨n, h⟩) 0).val = n / 50 % 806 := by
  show n / grid5.stride 0 % grid5.bound 0 = n / 50 % 806
  have hs : grid5.stride 0 = 50 := by decide
  rw [hs]; rfl

theorem noFlush5_3 (t : Fin cfg5.N) (h : ¬t.val % 50 = 49) : (cfg5.win 3).flush t = false := by
  have ht : t.val < 40300 := lt_of_lt_of_eq t.isLt N_5
  have h1 : ¬(t.val + 1 = grid5.N) := by rw [N_5]; omega
  have h2 : ¬∃ hlt : t.val + 1 < grid5.N, cc5_transform_3 (grid5.coords ⟨t.val + 1, hlt⟩) ≠ cc5_transform_3 (grid5.coords t) := by
    rintro ⟨hlt, hne⟩
    refine hne (hreads5_3 _ _ fun a ha => ?_)
    match a, ha with
    | ⟨0, _⟩, _ =>
      refine Fin.ext ((coord5_0 (t.val + 1) hlt).trans (Eq.trans ?_ (coord5_0 t.val t.isLt).symm))
      omega
    | ⟨1, _⟩, ha => exact absurd (show false = true from ha) Bool.false_ne_true
  rw [Pipeline.Window.flush_eq_flushOf]
  show (true && (decide (t.val + 1 = grid5.N) || decide (∃ hlt : t.val + 1 < grid5.N, cc5_transform_3 (grid5.coords ⟨t.val + 1, hlt⟩) ≠ cc5_transform_3 (grid5.coords t)))) = false
  rw [decide_eq_false h1, decide_eq_false h2]; rfl

/-- Regions 1 and 5 launch one and the same body, with the same payloads. -/
theorem body5_eq : cc5__gather_body (F := F) = cc1__gather_body := rfl
theorem pay5_eq1 : k5_pay1 (F := F) = k1_pay1 := rfl
theorem pay5_eq2 : k5_pay2 (F := F) = k1_pay2 := rfl
theorem pay5_eq3 : k5_pay3 (F := F) = k1_pay3 := rfl

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

abbrev sg5_0 (t : Fin cfg5.N) := (cfg5.win 0).stage (cfg5.slots t 0)
abbrev sg5_1 (t : Fin cfg5.N) := (cfg5.win 1).stage (cfg5.slots t 1)
abbrev sg5_2 (t : Fin cfg5.N) := (cfg5.win 2).stage (cfg5.slots t 2)
abbrev sg5_3 (t : Fin cfg5.N) := (cfg5.win 3).stage (cfg5.slots t 3)

abbrev body5At (t : Fin cfg5.N) : Prog (TpuEff nD τ sig (Elt F) Λ₀ .tc) PUnit :=
  cc5__gather_body (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) scr5 (Memref.isWhole_whole _)

def bodyPre5 (c : Dev nD) (t : Fin cfg5.N) : sProp 𝕄 :=
  iprop((dat5 V c).Φ t.castSucc ∗ (dat5 V c).owesAt () t.castSucc
    ∗ (∃ d, hold c (sg5_0 t) ((dat5 V c).before 0 t d))
    ∗ (∃ d, hold c (sg5_1 t) ((dat5 V c).before 1 t d))
    ∗ (∃ d, hold c (sg5_2 t) ((dat5 V c).before 2 t d))
    ∗ (∃ d, hold c (sg5_3 t) ((dat5 V c).before 3 t d)))

def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

theorem leaves5_0 (c : Dev nD) (t : Fin cfg5.N) :
    (dat5 V c).leavesExact 0 t = hold c (sg5_0 t) (iblk5 V c 0 t) := by
  unfold Dat.leavesExact; rw [liveAt5_0 t, after5_0]
theorem leaves5_1 (c : Dev nD) (t : Fin cfg5.N) :
    (dat5 V c).leavesExact 1 t = hold c (sg5_1 t) (iblk5 V c 1 t) := by
  unfold Dat.leavesExact; rw [liveAt5_1 t, after5_1]
theorem leaves5_2 (c : Dev nD) (t : Fin cfg5.N) :
    (dat5 V c).leavesExact 2 t = hold c (sg5_2 t) (iblk5 V c 2 t) := by
  unfold Dat.leavesExact; rw [liveAt5_2 t, after5_2]
theorem leaves5_3_idle (c : Dev nD) (t : Fin cfg5.N) (h : ¬t.val % 50 = 49) :
    (dat5 V c).leavesExact 3 t = iprop(∃ d, hold c (sg5_3 t) ((dat5 V c).before 3 t d)) :=
  Dat.leavesExact_idle (dat5 V c) 3 t (idleAt5_3 t fun hc => h ((hcond5_1 t).mp hc)) (noFlush5_3 t h)
theorem leaves5_3_live (c : Dev nD) (t : Fin cfg5.N) (h : t.val % 50 = 49) :
    (dat5 V c).leavesExact 3 t = hold c (sg5_3 t) (k5_pay3 (acc5 V c t.val t.isLt) (iblk5 V c 2 t)) := by
  unfold Dat.leavesExact; rw [liveAt5_3 t ((hcond5_1 t).mpr h), after5_3]

set_option maxHeartbeats 2000000 in
/-- The body at any point: its position mod 50 says which run applies; the invariant lends the accumulator and takes it back at the point's contents. -/
theorem sound_body5 (c : Dev nD) (t : Fin cfg5.N) :
    bodyPre5 V c t ⊢ wp frame (wpE (defs₀ (F := F)) Variants.none c none) Set.univ (body5At t) (fun _ => bodyPost5 V c t) := by
  unfold bodyPre5 bodyPost5 body5At
  rw [body5_eq]
  simp only [before5_0, before5_1, before5_2]
  rw [show (dat5 V c).owesAt () t.succ = (dat5 V c).owesAt () t.castSucc from rfl,
    show (dat5 V c).Φ t.succ = iprop(hold c scr5 (acc5 V c t.val t.isLt) ∗ SRB c ∗ (∃ r, prngReg c r)) from rfl,
    show (dat5 V c).Φ t.castSucc = iprop(Acc5 V c t.val (Nat.le_of_lt t.isLt) ∗ SRB c ∗ (∃ r, prngReg c r)) from rfl,
    leaves5_0, leaves5_1, leaves5_2]
  by_cases h0 : t.val % 50 = 0
  · have h1 : ¬t.val % 50 = 49 := by omega
    rw [leaves5_3_idle V c t h1, acc5_first V c t h0, pay5_eq2, pay5_eq1]
    iintro ⟨⟨HS, HR, Hg⟩, Ho, ⟨%d0, H0⟩, ⟨%d1, H1⟩, ⟨%d2, H2⟩, H3⟩
    ihave HS := (Acc5_any V c _ _) $$ HS
    iapply (R1.run1_A c Set.univ (grid5.coords t) _ _ _ _ _ _ _ _ _ _ ((hcond5_0 t).mpr h0) (fun hc => h1 ((hcond5_1 t).mp hc)) (iblk5 V c 0 t) (iblk5 V c 1 t) _)
    iframe
    iintro ⟨H0, H1, HS⟩
    iframe
  · rw [Acc5_pos V c _ _ fun e => h0 (by rw [e]), acc5_next V c t h0, pay5_eq2]
    by_cases h1 : t.val % 50 = 49
    · rw [leaves5_3_live V c t h1, acc5_next V c t h0, pay5_eq2, pay5_eq3]
      iintro ⟨⟨HS, HR, Hg⟩, Ho, ⟨%d0, H0⟩, ⟨%d1, H1⟩, ⟨%d2, H2⟩, ⟨%d3, H3⟩⟩
      iapply (R1.run1_C c Set.univ (grid5.coords t) _ _ _ _ _ _ _ _ _ _ (fun hc => h0 ((hcond5_0 t).mp hc)) ((hcond5_1 t).mpr h1) (iblk5 V c 0 t) (iblk5 V c 1 t) (iblk5 V c 2 t) _ _)
      iframe
      isplitl [H3]; · iexists _; iexact H3
      iintro ⟨H0, H1, H2, H3, HS⟩
      iframe
    · rw [leaves5_3_idle V c t h1]
      iintro ⟨⟨HS, HR, Hg⟩, Ho, ⟨%d0, H0⟩, ⟨%d1, H1⟩, ⟨%d2, H2⟩, H3⟩
      iapply (R1.run1_B c Set.univ (grid5.coords t) _ _ _ _ _ _ _ _ _ _ (fun hc => h0 ((hcond5_0 t).mp hc)) (fun hc => h1 ((hcond5_1 t).mp hc)) (iblk5 V c 0 t) (iblk5 V c 1 t) _ _)
      iframe
      iintro ⟨H0, H1, HS⟩
      iframe

theorem body_obligation5 (c : Dev nD) : BodyObligation (dat5 (F := F) V c) (defs₀ (F := F)) Variants.none () Set.univ := fun t => by
  rw [bigSep_W5, bigSep_W5]
  exact sound_body5 V c t

theorem hin5 (c : Dev nD) : iprop((∃ r, prngReg c r) ∗ SR c) ⊢ (dat5 V c).Φ 0 := by
  rw [SR_eq]
  show _ ⊢ iprop(iprop(∃ d, hold c scr5 d) ∗ SRB c ∗ (∃ r, prngReg c r))
  iintro ⟨Hg, HS, HR⟩
  iframe

theorem hout5 (c : Dev nD) : (dat5 V c).Φ (Fin.last cfg5.N) ⊢ iprop((∃ r, prngReg c r) ∗ SR c) := by
  rw [SR_eq]
  show iprop(Acc5 V c cfg5.N (Nat.le_refl _) ∗ SRB c ∗ (∃ r, prngReg c r)) ⊢ _
  iintro ⟨HS, HR, Hg⟩
  ihave HS := (Acc5_any V c _ _) $$ HS
  iframe

end Cert.KernelIdeal.R5

end
-- ==== Proof.R6Frame.lean ====
import proofs.«401816_j90890097918492_1_alg».proof.Proof.Gen.KernelIdeal.Launch
import proofs.«401816_j90890097918492_1_alg».proof.Proof.Gen.KernelIdeal.Skeleton
import proofs.«401816_j90890097918492_1_alg».proof.Proof.FrameLib
import proofs.«401816_j90890097918492_1_alg».proof.Proof.R0Frame

set_option maxRecDepth 16384

noncomputable section

namespace Cert.KernelIdeal.R6

open Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c` owns the memref, whole, at contents `x`. -/
abbrev hold (c : Dev nD) {sp : Space} {S : Shape} {e : EltTy} (m : Memref sig .tc sp S e) (x : S.Idx → Elt F e) : sProp 𝕄 :=
  owns (c : Thread nD τ) m fullShare x

abbrev cond6_0 (i : grid6.Coords) : Prop := (Scalar.cmpi .ne (Scalar.extui (Scalar.cmpi .eq (BitVec.ofNat 32 (i 1).val) 0#32)) 0#32) = 1#1
abbrev cond6_1 (i : grid6.Coords) : Prop := k6_cond2 i = 1#1

/-- Regions 0 and 6 launch one and the same body, with the same payloads. -/
theorem body6_eq : cc6__scatter_body (F := F) = cc0__scatter_body := rfl
theorem pay6_eq1 : k6_pay1 (F := F) = k0_pay1 := rfl
theorem pay6_eq2 : k6_pay2 (F := F) = k0_pay2 := rfl

theorem coord6_1_val (t : Fin cfg6.N) : ((grid6.coords t) 1).val = t.val % 806 := by
  show t.val / grid6.stride 1 % 806 = t.val % 806
  rw [show grid6.stride 1 = 1 from by decide, Nat.div_one]

/-- A branch that compares the inner coordinate with `k` is taken at the points ≡ k (mod 806). -/
theorem hcond6 (t : Fin cfg6.N) (k : ℕ) (hk : k < 2 ^ 32) :
    (Scalar.cmpi .ne (Scalar.extui (Scalar.cmpi .eq (BitVec.ofNat 32 ((grid6.coords t) 1).val) (BitVec.ofNat 32 k))) 0#32) = 1#1
      ↔ t.val % 806 = k :=
  (cond_iff_nat (Nat.lt_trans ((grid6.coords t) 1).isLt (by decide)) hk).trans (by rw [coord6_1_val])
theorem hcond6_0 (t : Fin cfg6.N) : cond6_0 (grid6.coords t) ↔ t.val % 806 = 0 := hcond6 t 0 (by decide)
theorem hcond6_1 (t : Fin cfg6.N) : cond6_1 (grid6.coords t) ↔ t.val % 806 = 805 := hcond6 t 805 (by decide)

theorem liveAt6_0 (i : grid6.Coords) : cfg6.idle 0 i = false := rfl
theorem liveAt6_1 (i : grid6.Coords) : cfg6.idle 1 i = false := rfl
theorem idleAt6_2 (i : grid6.Coords) (h : ¬cond6_1 i) : cfg6.idle 2 i = true := by
  show (!(k6_cond2 i == 1#1)) = true
  rw [Bool.not_eq_true', beq_eq_false_iff_ne]; exact h
theorem liveAt6_2 (i : grid6.Coords) (h : cond6_1 i) : cfg6.idle 2 i = false := by
  show (!(k6_cond2 i == 1#1)) = false
  rw [Bool.not_eq_false', beq_iff_eq]; exact h

theorem coord6_0_val (t : Fin cfg6.N) : ((grid6.coords t) 0).val = t.val / 806 % 50 := by
  show t.val / grid6.stride 0 % 50 = t.val / 806 % 50
  rw [show grid6.stride 0 = 806 from by decide]

theorem index6_2 (t : Fin cfg6.N) : (cfg6.win 2).index t = ![t.val / 806 % 50, 0] := by
  show cc6_transform_2 (grid6.coords t) = _
  unfold cc6_transform_2
  simp only [BitVec.toNat_ofNat, coord6_0_val]
  have h : t.val / 806 % 50 % 2 ^ 32 = t.val / 806 % 50 := by omega
  rw [h]

theorem flushAt6_2 (t : Fin cfg6.N) : (cfg6.win 2).flush t = true ↔ t.val % 806 = 805 := by
  have hN : cfg6.N = 40300 := N_6
  have hN1 : cfg6.grid.N = 40300 := N_6
  have hN2 : grid6.N = 40300 := N_6
  have ht : t.val < cfg6.N := t.isLt
  unfold Pipeline.Window.flush
  rw [show (cfg6.win 2).isOut = true from rfl, Bool.true_and, Bool.or_eq_true, decide_eq_true_eq, decide_eq_true_eq]
  constructor
  · rintro (h | ⟨h, hne⟩)
    · omega
    · rw [index6_2, index6_2] at hne
      by_contra hcon
      apply hne
      have e : (t.val + 1) / 806 = t.val / 806 := by omega
      show ![(t.val + 1) / 806 % 50, 0] = ![t.val / 806 % 50, 0]
      rw [e]
  · intro h
    by_cases hl : t.val + 1 = grid6.N
    · exact .inl hl
    · refine .inr ⟨by omega, ?_⟩
      rw [index6_2, index6_2]
      intro heq
      have h0' : (t.val + 1) / 806 % 50 = t.val / 806 % 50 := congrFun heq 0
      omega

abbrev stM6_0 (t : Fin cfg6.N) := (cfg6.win 0).stage (cfg6.slots t 0)
abbrev stM6_1 (t : Fin cfg6.N) := (cfg6.win 1).stage (cfg6.slots t 1)
abbrev stM6_2 (t : Fin cfg6.N) := (cfg6.win 2).stage (cfg6.slots t 2)

abbrev bodyOf6 (t : Fin cfg6.N) : Prog (TpuEff nD τ sig (Elt F) Λ₀ .tc) PUnit :=
  cc6__scatter_body (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (Memref.whole cc6_scratch0) (Memref.isWhole_whole _)

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after point `t`: updated by the point's two blocks from what the point before left, from zeros at every 806th point. -/
def acc6 (c : Dev nD) : (t : ℕ) → t < cfg6.N → Vec F S2000x1 .f32 :=
  accum cfg6.N 806 (k6_pay1 (F := F)) fun n h => k6_pay2 (grid6.coords ⟨n, h⟩) (iblk6 V c 0 ⟨n, h⟩) (iblk6 V c 1 ⟨n, h⟩)

theorem acc6_first (c : Dev nD) (t : Fin cfg6.N) (h : t.val % 806 = 0) :
    acc6 V c t.val t.isLt = k6_pay2 (grid6.coords t) (iblk6 V c 0 t) (iblk6 V c 1 t) (k6_pay1 (F := F)) :=
  accum_first _ _ t h

theorem acc6_next (c : Dev nD) (t : Fin cfg6.N) (h : ¬t.val % 806 = 0) :
    acc6 V c t.val t.isLt = k6_pay2 (grid6.coords t) (iblk6 V c 0 t) (iblk6 V c 1 t)
      (acc6 V c (t.val - 1) (Nat.lt_of_le_of_lt (Nat.sub_le _ _) t.isLt)) :=
  accum_next _ _ t h

abbrev scr6 : Memref sig .tc .vmem S2000x1 .f32 := Memref.whole cc6_scratch0

abbrev SR (c : Dev nD) : sProp 𝕄 :=
  Pipeline.scopedRest (Ix := Unit) (Name := ℕ) (U := UR sig nD τ) (Lvl := ℕ) (Val := Elt F) spec6 c
abbrev SRB (c : Dev nD) : sProp 𝕄 :=
  Pipeline.scopedRestBut (Ix := Unit) (Name := ℕ) (U := UR sig nD τ) (Lvl := ℕ) (Val := Elt F) spec6 c [cc6_scratch0]

theorem SR_eq (c : Dev nD) : SR (F := F) c = iprop((∃ d, hold c scr6 d) ∗ SRB c) := by
  unfold SR SRB; rw [scopedRest6_split]; simp only [hold, scr6, owns_whole]; try rfl

/-- The accumulator's part of the invariant before position `n`: at anything before the first point, then at what the point before left. -/
def Acc6 (c : Dev nD) : (n : ℕ) → n ≤ cfg6.N → sProp 𝕄
  | 0, _ => iprop(∃ d, hold c scr6 d)
  | n + 1, hn => hold c scr6 (acc6 V c n hn)

theorem Acc6_any (c : Dev nD) (n : ℕ) (h : n ≤ cfg6.N) : Acc6 V c n h ⊢ iprop(∃ d, hold c scr6 d) := by
  cases n with
  | zero => exact .rfl
  | succ n => show hold c scr6 (acc6 V c n h) ⊢ _; iintro H; iexists _; iexact H

theorem Acc6_pos (c : Dev nD) (n : ℕ) (h : n ≤ cfg6.N) (hz : n ≠ 0) :
    Acc6 V c n h = hold c scr6 (acc6 V c (n - 1) (by omega)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := iprop((∃ r, prngReg c r) ∗ Acc6 V c t.val (Nat.le_of_lt_succ t.isLt) ∗ SRB c)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]
theorem q_eq6 (c : Dev nD) (w : Fin cfg6.W) : (dat6 V c).q w = fullShare := rfl
theorem owed_eq6 (c : Dev nD) (t : Fin (cfg6.N + 1)) : (dat6 V c).owed t = 0 := rfl

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, hold c (stM6_0 t) ((dat6 V c).before 0 t d))
    ∗ (∃ d, hold c (stM6_1 t) ((dat6 V c).before 1 t d))
    ∗ (∃ d, hold c (stM6_2 t) ((dat6 V c).before 2 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

theorem leaves6_idle (c : Dev nD) (t : Fin cfg6.N) (h : ¬t.val % 806 = 805) :
    (dat6 V c).leavesExact 2 t = iprop(∃ d, hold c (stM6_2 t) ((dat6 V c).before 2 t d)) :=
  Dat.leavesExact_idle (dat6 V c) 2 t (idleAt6_2 _ fun hc => h ((hcond6_1 t).mp hc))
    (Bool.eq_false_iff.mpr fun hf => h ((flushAt6_2 t).mp hf))

set_option maxHeartbeats 4800000 in
/-- The body at any point: its position mod 806 says which run applies; the invariant lends the accumulator and takes it back at the point's contents. -/
theorem sound_body6 (c : Dev nD) (t : Fin cfg6.N) :
    bodyPre6 V c t ⊢ wp frame (wpE (defs₀ (F := F)) Variants.none c none) Set.univ (bodyOf6 t) (fun _ => bodyPost6 V c t) := by
  unfold bodyPre6 bodyPost6 bodyOf6
  rw [body6_eq]
  simp only [before6_0, before6_1]
  rw [show (dat6 V c).owesAt () t.succ = (dat6 V c).owesAt () t.castSucc from rfl,
    show (dat6 V c).Φ t.succ = iprop((∃ r, prngReg c r) ∗ hold c scr6 (acc6 V c t.val t.isLt) ∗ SRB c) from rfl,
    show (dat6 V c).Φ t.castSucc = iprop((∃ r, prngReg c r) ∗ Acc6 V c t.val (Nat.le_of_lt t.isLt) ∗ SRB c) from rfl,
    show (dat6 V c).leavesExact 0 t = hold c (stM6_0 t) (iblk6 V c 0 t) from by
      unfold Dat.leavesExact; rw [liveAt6_0, after6_0],
    show (dat6 V c).leavesExact 1 t = hold c (stM6_1 t) (iblk6 V c 1 t) from by
      unfold Dat.leavesExact; rw [liveAt6_1, after6_1]]
  by_cases h0 : t.val % 806 = 0
  · have h1 : ¬t.val % 806 = 805 := by omega
    rw [leaves6_idle V c t h1, acc6_first V c t h0, pay6_eq2, pay6_eq1]
    iintro ⟨⟨Hg, HS, HR⟩, Ho, ⟨%d0, H0⟩, ⟨%d1, H1⟩, H2⟩
    ihave HS := (Acc6_any V c _ _) $$ HS
    iapply (R0.run0_A c (grid6.coords t) _ _ _ _ _ _ _ _ ((hcond6_0 t).mpr h0) (fun hc => h1 ((hcond6_1 t).mp hc)) (iblk6 V c 0 t) (iblk6 V c 1 t)
      (iprop(∃ d, hold c (stM6_2 t) ((dat6 V c).before 2 t d))) Set.univ _)
    iframe
    iintro ⟨H0, H1, H2, HS⟩
    iframe
  · rw [Acc6_pos V c _ _ fun e => h0 (by rw [e]), acc6_next V c t h0, pay6_eq2]
    by_cases h1 : t.val % 806 = 805
    · rw [show (dat6 V c).leavesExact 2 t = hold c (stM6_2 t) ((dat6 V c).after 2 t) from by
        unfold Dat.leavesExact; rw [liveAt6_2 _ ((hcond6_1 t).mpr h1)], after6_2, acc6_next V c t h0, pay6_eq2]
      iintro ⟨⟨Hg, HS, HR⟩, Ho, ⟨%d0, H0⟩, ⟨%d1, H1⟩, ⟨%d2, H2⟩⟩
      iapply (R0.run0_C c (grid6.coords t) _ _ _ _ _ _ _ _ (fun hc => h0 ((hcond6_0 t).mp hc)) ((hcond6_1 t).mpr h1) (iblk6 V c 0 t) (iblk6 V c 1 t)
        (acc6 V c (t.val - 1) (Nat.lt_of_le_of_lt (Nat.sub_le _ _) t.isLt)) Set.univ _)
      iframe
      isplitl [H2]; · iexists _; iexact H2
      iintro ⟨H0, H1, H2, HS⟩
      iframe
    · rw [leaves6_idle V c t h1]
      iintro ⟨⟨Hg, HS, HR⟩, Ho, ⟨%d0, H0⟩, ⟨%d1, H1⟩, H2⟩
      iapply (R0.run0_B c (grid6.coords t) _ _ _ _ _ _ _ _ (fun hc => h0 ((hcond6_0 t).mp hc)) (fun hc => h1 ((hcond6_1 t).mp hc)) (iblk6 V c 0 t) (iblk6 V c 1 t)
        (acc6 V c (t.val - 1) (Nat.lt_of_le_of_lt (Nat.sub_le _ _) t.isLt))
        (iprop(∃ d, hold c (stM6_2 t) ((dat6 V c).before 2 t d))) Set.univ _)
      iframe
      iintro ⟨H0, H1, H2, HS⟩
      iframe

theorem body_obligation6 (c : Dev nD) : BodyObligation (dat6 (F := F) V c) (defs₀ (F := F)) Variants.none () Set.univ := fun t => by
  rw [bigSep_W6, bigSep_W6]
  exact sound_body6 V c t

theorem hin6 (c : Dev nD) : iprop((∃ r, prngReg c r) ∗ SR c) ⊢ (dat6 V c).Φ 0 := by
  rw [SR_eq]
  show _ ⊢ iprop((∃ r, prngReg c r) ∗ iprop(∃ d, hold c scr6 d) ∗ SRB c)
  iintro ⟨Hg, HS, HR⟩
  iframe

theorem hout6 (c : Dev nD) : (dat6 V c).Φ (Fin.last cfg6.N) ⊢ iprop((∃ r, prngReg c r) ∗ SR c) := by
  rw [SR_eq]
  show iprop((∃ r, prngReg c r) ∗ Acc6 V c cfg6.N (Nat.le_refl _) ∗ SRB c) ⊢ _
  iintro ⟨Hg, HS, HR⟩
  ihave HS := (Acc6_any V c _ _) $$ HS
  iframe

end Region

end Cert.KernelIdeal.R6
end
-- ==== Proof.KChainI.lean ====
import proofs.«401816_j90890097918492_1_alg».proof.Proof.RunCondI
import proofs.«401816_j90890097918492_1_alg».proof.Proof.R0Frame
import proofs.«401816_j90890097918492_1_alg».proof.Proof.R1Frame
import proofs.«401816_j90890097918492_1_alg».proof.Proof.R2Frame
import proofs.«401816_j90890097918492_1_alg».proof.Proof.R3Frame
import proofs.«401816_j90890097918492_1_alg».proof.Proof.R4Frame
import proofs.«401816_j90890097918492_1_alg».proof.Proof.R5Frame
import proofs.«401816_j90890097918492_1_alg».proof.Proof.R6Frame

noncomputable section

namespace Cert.KernelIdeal.KChain

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev asV (W : Dev nD → Valuation τ sig (Elt F)) : (c : Dev nD) → (b : Ref sig .tc) → Buf (Elt F) ((c : Thread nD τ).loc b) :=
  fun c b => W c b

def o0 (c : Dev nD) : (r : Ref sig .tc) → Buf (Elt F) ((c : Thread nD τ).loc r) := fun r => m ((c : Thread nD τ).loc r)

def O8 (c : Dev nD) : Buf (Elt F) ((c : Thread nD τ).loc main_v12) := (R0.dat0 (asV (V7 m)) c).arrAt 2 cfg0.N
def o1 (c : Dev nD) : (r : Ref sig .tc) → Buf (Elt F) ((c : Thread nD τ).loc r) := Function.update (o0 m c) main_v12 (O8 m c)
def outs1 : Outs (F := F) := fun _ r c => o1 m c r

def O11 (c : Dev nD) : Buf (Elt F) ((c : Thread nD τ).loc main_v17) := (R1.dat1 (asV (V10 m (outs1 m))) c).arrAt 3 cfg1.N
def o2 (c : Dev nD) : (r : Ref sig .tc) → Buf (Elt F) ((c : Thread nD τ).loc r) := Function.update (o1 m c) main_v17 (O11 m c)
def outs2 : Outs (F := F) := fun _ r c => o2 m c r

def O12 (c : Dev nD) : Buf (Elt F) ((c : Thread nD τ).loc main_v18) := (R2.dat2 (asV (V11 m (outs2 m))) c).arrAt 3 cfg2.N
def o3 (c : Dev nD) : (r : Ref sig .tc) → Buf (Elt F) ((c : Thread nD τ).loc r) := Function.update (o2 m c) main_v18 (O12 m c)
def outs3 : Outs (F := F) := fun _ r c => o3 m c r

def O15 (c : Dev nD) : Buf (Elt F) ((c : Thread nD τ).loc main_v23) := (R3.dat3 (asV (V14 m (outs3 m))) c).arrAt 3 cfg3.N
def o4 (c : Dev nD) : (r : Ref sig .tc) → Buf (Elt F) ((c : Thread nD τ).loc r) := Function.update (o3 m c) main_v23 (O15 m c)
def outs4 : Outs (F := F) := fun _ r c => o4 m c r

def O16 (c : Dev nD) : Buf (Elt F) ((c : Thread nD τ).loc main_v24) := (R4.dat4 (asV (V15 m (outs4 m))) c).arrAt 2 cfg4.N
def o5 (c : Dev nD) : (r : Ref sig .tc) → Buf (Elt F) ((c : Thread nD τ).loc r) := Function.update (o4 m c) main_v24 (O16 m c)
def outs5 : Outs (F := F) := fun _ r c => o5 m c r

def O20 (c : Dev nD) : Buf (Elt F) ((c : Thread nD τ).loc main_v30) := (R5.dat5 (asV (V19 m (outs5 m))) c).arrAt 3 cfg5.N
def o6 (c : Dev nD) : (r : Ref sig .tc) → Buf (Elt F) ((c : Thread nD τ).loc r) := Function.update (o5 m c) main_v30 (O20 m c)
def outs6 : Outs (F := F) := fun _ r c => o6 m c r

def O21 (c : Dev nD) : Buf (Elt F) ((c : Thread nD τ).loc main_v31) := (R6.dat6 (asV (V20 m (outs6 m))) c).arrAt 2 cfg6.N
def o7 (c : Dev nD) : (r : Ref sig .tc) → Buf (Elt F) ((c : Thread nD τ).loc r) := Function.update (o6 m c) main_v31 (O21 m c)
def outs : Outs (F := F) := fun _ r c => o7 m c r

section Agree
variable (c : Dev nD) (r : Ref sig .tc) (J : ℕ)

/-- Each later choice updates one other reference, so off those references the final choice is the earlier one. -/
theorem agree6 (h : r ∉ [main_v31]) : outs m J r c = outs6 m J r c :=
  Function.update_of_ne (List.ne_of_not_mem_cons h) _ _
theorem agree5 (h : r ∉ [main_v30, main_v31]) : outs m J r c = outs5 m J r c :=
  (agree6 m c r J (List.not_mem_of_not_mem_cons h)).trans (Function.update_of_ne (List.ne_of_not_mem_cons h) _ _)
theorem agree4 (h : r ∉ [main_v24, main_v30, main_v31]) : outs m J r c = outs4 m J r c :=
  (agree5 m c r J (List.not_mem_of_not_mem_cons h)).trans (Function.update_of_ne (List.ne_of_not_mem_cons h) _ _)
theorem agree3 (h : r ∉ [main_v23, main_v24, main_v30, main_v31]) : outs m J r c = outs3 m J r c :=
  (agree4 m c r J (List.not_mem_of_not_mem_cons h)).trans (Function.update_of_ne (List.ne_of_not_mem_cons h) _ _)
theorem agree2 (h : r ∉ [main_v18, main_v23, main_v24, main_v30, main_v31]) : outs m J r c = outs2 m J r c :=
  (agree3 m c r J (List.not_mem_of_not_mem_cons h)).trans (Function.update_of_ne (List.ne_of_not_mem_cons h) _ _)
theorem agree1 (h : r ∉ [main_v17, main_v18, main_v23, main_v24, main_v30, main_v31]) : outs m J r c = outs1 m J r c :=
  (agree2 m c r J (List.not_mem_of_not_mem_cons h)).trans (Function.update_of_ne (List.ne_of_not_mem_cons h) _ _)

end Agree

theorem outs_v12 (J : ℕ) (c : Dev nD) : outs m J main_v12 c = O8 m c :=
  (agree1 m c _ J (by decide)).trans (by unfold outs1 o1; exact Function.update_self ..)
theorem outs_v17 (J : ℕ) (c : Dev nD) : outs m J main_v17 c = O11 m c :=
  (agree2 m c _ J (by decide)).trans (by unfold outs2 o2; exact Function.update_self ..)
theorem outs_v18 (J : ℕ) (c : Dev nD) : outs m J main_v18 c = O12 m c :=
  (agree3 m c _ J (by decide)).trans (by unfold outs3 o3; exact Function.update_self ..)
theorem outs_v23 (J : ℕ) (c : Dev nD) : outs m J main_v23 c = O15 m c :=
  (agree4 m c _ J (by decide)).trans (by unfold outs4 o4; exact Function.update_self ..)
theorem outs_v24 (J : ℕ) (c : Dev nD) : outs m J main_v24 c = O16 m c :=
  (agree5 m c _ J (by decide)).trans (by unfold outs5 o5; exact Function.update_self ..)
theorem outs_v30 (J : ℕ) (c : Dev nD) : outs m J main_v30 c = O20 m c :=
  (agree6 m c _ J (by decide)).trans (by unfold outs6 o6; exact Function.update_self ..)
theorem outs_v31 (J : ℕ) (c : Dev nD) : outs m J main_v31 c = O21 m c := by
  unfold outs o7; exact Function.update_self ..

section Congr
variable (o o' : Outs (F := F)) (c : Dev nD) (L : List (Ref sig .tc)) (h : ∀ r J, r ∉ L → o J r c = o' J r c)
include h

/-- A valuation reads the choice only at the result arrays of the regions before it. -/
theorem V10_congr (hL : ∀ r ∈ [main_v12], r ∉ L) : V10 m o c = V10 m o' c := by
  unfold V10 V9 V8
  rw [h _ 8 (hL _ (.head _))]
theorem V11_congr (hL : ∀ r ∈ [main_v17, main_v12], r ∉ L) : V11 m o c = V11 m o' c := by
  unfold V11
  rw [V10_congr m o o' c L h fun r hr => hL r (.tail _ hr), h _ 11 (hL _ (.head _))]
theorem V14_congr (hL : ∀ r ∈ [main_v18, main_v17, main_v12], r ∉ L) : V14 m o c = V14 m o' c := by
  unfold V14 V13 V12
  rw [V11_congr m o o' c L h fun r hr => hL r (.tail _ hr), h _ 12 (hL _ (.head _))]
theorem V15_congr (hL : ∀ r ∈ [main_v23, main_v18, main_v17, main_v12], r ∉ L) : V15 m o c = V15 m o' c := by
  unfold V15
  rw [V14_congr m o o' c L h fun r hr => hL r (.tail _ hr), h _ 15 (hL _ (.head _))]
theorem V19_congr (hL : ∀ r ∈ [main_v24, main_v23, main_v18, main_v17, main_v12], r ∉ L) : V19 m o c = V19 m o' c := by
  unfold V19 V18 V17 V16
  rw [V15_congr m o o' c L h fun r hr => hL r (.tail _ hr), h _ 16 (hL _ (.head _))]
theorem V20_congr (hL : ∀ r ∈ [main_v30, main_v24, main_v23, main_v18, main_v17, main_v12], r ∉ L) : V20 m o c = V20 m o' c := by
  unfold V20
  rw [V19_congr m o o' c L h fun r hr => hL r (.tail _ hr), h _ 20 (hL _ (.head _))]

end Congr

theorem V10_outs (c : Dev nD) : V10 m (outs m) c = V10 m (outs1 m) c :=
  V10_congr m _ _ c _ (fun r J => agree1 m c r J) (by decide)
theorem V11_outs (c : Dev nD) : V11 m (outs m) c = V11 m (outs2 m) c :=
  V11_congr m _ _ c _ (fun r J => agree2 m c r J) (by decide)
theorem V14_outs (c : Dev nD) : V14 m (outs m) c = V14 m (outs3 m) c :=
  V14_congr m _ _ c _ (fun r J => agree3 m c r J) (by decide)
theorem V15_outs (c : Dev nD) : V15 m (outs m) c = V15 m (outs4 m) c :=
  V15_congr m _ _ c _ (fun r J => agree4 m c r J) (by decide)
theorem V19_outs (c : Dev nD) : V19 m (outs m) c = V19 m (outs5 m) c :=
  V19_congr m _ _ c _ (fun r J => agree5 m c r J) (by decide)
theorem V20_outs (c : Dev nD) : V20 m (outs m) c = V20 m (outs6 m) c :=
  V20_congr m _ _ c _ (fun r J => agree6 m c r J) (by decide)

end Cert.KernelIdeal.KChain

end
-- ==== Proof.PDatsI.lean ====
import proofs.«401816_j90890097918492_1_alg».proof.Proof.KChainI
import Idealize.ShloMosaic.Lib.Pipeline.RegionsLoop

noncomputable section

namespace Cert.KernelIdeal.KChain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (cfgs p) c
  | ⟨0, _⟩ => fun c => R0.dat0 (asV (V7 m)) c
  | ⟨1, _⟩ => fun c => R1.dat1 (asV (V10 m (outs1 m))) c
  | ⟨2, _⟩ => fun c => R2.dat2 (asV (V11 m (outs2 m))) c
  | ⟨3, _⟩ => fun c => R3.dat3 (asV (V14 m (outs3 m))) c
  | ⟨4, _⟩ => fun c => R4.dat4 (asV (V15 m (outs4 m))) c
  | ⟨5, _⟩ => fun c => R5.dat5 (asV (V19 m (outs5 m))) c
  | ⟨6, _⟩ => fun c => R6.dat6 (asV (V20 m (outs6 m))) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.KChain

end
-- ==== Proof.RegsI.lean ====
import proofs.«401816_j90890097918492_1_alg».proof.Proof.PDatsI
import proofs.«401816_j90890097918492_1_alg».proof.Proof.RegLib

noncomputable section

namespace Cert.KernelIdeal.KChain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

def reg0 : Pipeline.RegionSeg (pcfgs (F := F)) adm (pdats m) () defs₀ 𝒱₀ L lv 0 :=
  .ofHeld launch0 (fun c => iprop(∃ r, prngReg c r)) (V7 m) (V7 m) (V8 m (outs m)) (fun _ => rfl) 2 (by decide)
    (R0.q_eq0 _) (R0.owed_eq0 _) (fun _ _ => .inl trivial) (R0.body_obligation0 _)
    (R0.hin0 _) (R0.hout0 _) (R0.A_eq0 _)
    fun c => congrArg (Function.update (V7 m c) main_v12) (outs_v12 m _ c)

def reg1 : Pipeline.RegionSeg (pcfgs (F := F)) adm (pdats m) () defs₀ 𝒱₀ L lv 1 :=
  .ofHeld launch1 (fun c => iprop(∃ r, prngReg c r)) (V10 m (outs m)) (V10 m (outs1 m)) (V11 m (outs m)) (V10_outs m) 3 (by decide)
    (R1.q_eq1 _) (R1.owed_eq1 _) (fun _ _ => .inl trivial) (R1.body_obligation1 _)
    (R1.hin1 _) (R1.hout1 _) (R1.A_eq1 _)
    fun c => congrArg (Function.update (V10 m (outs m) c) main_v17) (outs_v17 m _ c)

def reg2 : Pipeline.RegionSeg (pcfgs (F := F)) adm (pdats m) () defs₀ 𝒱₀ L lv 2 :=
  .ofHeld launch2 (fun c => iprop(∃ r, prngReg c r)) (V11 m (outs m)) (V11 m (outs2 m)) (V12 m (outs m)) (V11_outs m) 3 (by decide)
    (R2.q_eq2 _) (R2.owed_eq2 _) (fun _ _ => .inl trivial) (R2.body_obligation2 _)
    (R2.hin2 _) (R2.hout2 _) (R2.A_eq2 _)
    fun c => congrArg (Function.update (V11 m (outs m) c) main_v18) (outs_v18 m _ c)

def reg3 : Pipeline.RegionSeg (pcfgs (F := F)) adm (pdats m) () defs₀ 𝒱₀ L lv 3 :=
  .ofHeld launch3 (fun c => iprop(∃ r, prngReg c r)) (V14 m (outs m)) (V14 m (outs3 m)) (V15 m (outs m)) (V14_outs m) 3 (by decide)
    (R3.q_eq3 _) (R3.owed_eq3 _) (fun _ _ => .inl trivial) (R3.body_obligation3 _)
    (R3.hin3 _) (R3.hout3 _) (R3.A_eq3 _)
    fun c => congrArg (Function.update (V14 m (outs m) c) main_v23) (outs_v23 m _ c)

def reg4 : Pipeline.RegionSeg (pcfgs (F := F)) adm (pdats m) () defs₀ 𝒱₀ L lv 4 :=
  .ofHeld launch4 (fun c => iprop(∃ r, prngReg c r)) (V15 m (outs m)) (V15 m (outs4 m)) (V16 m (outs m)) (V15_outs m) 2 (by decide)
    (R4.q_eq4 _) (R4.owed_eq4 _) (fun _ _ => .inl trivial) (R4.body_obligation4 _)
    (R4.hin4 _) (R4.hout4 _) (R4.A_eq4 _)
    fun c => congrArg (Function.update (V15 m (outs m) c) main_v24) (outs_v24 m _ c)

def reg5 : Pipeline.RegionSeg (pcfgs (F := F)) adm (pdats m) () defs₀ 𝒱₀ L lv 5 :=
  .ofHeld launch5 (fun c => iprop(∃ r, prngReg c r)) (V19 m (outs m)) (V19 m (outs5 m)) (V20 m (outs m)) (V19_outs m) 3 (by decide)
    (R5.q_eq5 _) (R5.owed_eq5 _) (fun _ _ => .inl trivial) (R5.body_obligation5 _)
    (R5.hin5 _) (R5.hout5 _) (R5.A_eq5 _)
    fun c => congrArg (Function.update (V19 m (outs m) c) main_v30) (outs_v30 m _ c)

def reg6 : Pipeline.RegionSeg (pcfgs (F := F)) adm (pdats m) () defs₀ 𝒱₀ L lv 6 :=
  .ofHeld launch6 (fun c => iprop(∃ r, prngReg c r)) (V20 m (outs m)) (V20 m (outs6 m)) (V21 m (outs m)) (V20_outs m) 2 (by decide)
    (R6.q_eq6 _) (R6.owed_eq6 _) (fun _ _ => .inl trivial) (R6.body_obligation6 _)
    (R6.hin6 _) (R6.hout6 _) (R6.A_eq6 _)
    fun c => congrArg (Function.update (V20 m (outs m) c) main_v31) (outs_v31 m _ c)

end Cert.KernelIdeal.KChain

end
-- ==== Proof.KRunI.lean ====
import proofs.«401816_j90890097918492_1_alg».proof.Proof.RegsI

noncomputable section

namespace Cert.KernelIdeal.KChain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v34) = V22 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  RunCond.run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)

end Cert.KernelIdeal.KChain

end
-- ==== Proof.KValue.lean ====
import proofs.«401816_j90890097918492_1_alg».proof.Proof.Gen.KernelIdeal.Regions
import proofs.«401816_j90890097918492_1_alg».proof.Proof.Spec
import Idealize.ShloMosaic.Lib.StableHlo.Run
import Idealize.ShloMosaic.Lib.ValueIdx
import Idealize.ShloMosaic.Lib.Pipeline.Value
import Idealize.ShloMosaic.Lib.KernelVsHost
import Idealize.ShloMosaic.PureOps.Ideal.Laws
import Idealize.ShloMosaic.Lib.IdealHost

noncomputable section

open scoped BigOperators

namespace Cert.KernelIdeal.KValue

open Idealize.ShloMosaic Idealize.ShloMosaic.TcCoe Idealize.ShloMosaic.ValueIdx
open Idealize.ShloMosaic.StableHlo (after_cons after_nil)
open Cert.KernelIdeal

variable (m : (ℓ : Loc nD τ sig) → Buf (Elt Ideal) ℓ) (outs : Gen.Outs (F := Ideal)) (c : Dev nD)

abbrev args : List (Ref sig .tc) := [main_arg0, main_arg1, main_arg2, main_arg3, main_arg4, main_arg5]

abbrev kept : List (Ref sig .tc) :=
  [main_arg0, main_arg1, main_arg2, main_arg3, main_arg4, main_arg5, main_v7, main_v8, main_v10, main_v11]

theorem arg_V7 (r : Ref sig .tc) (hr : r ∈ args) : Gen.V7 m c r = Gen.V0 m c r := by
  rw [Gen.V7_of, Gen.V6_of, Gen.V5_of, Gen.V4_of, Gen.V3_of, Gen.V2_of, Gen.V1_of] <;> (revert r; decide)
theorem arg_of_V7 (r : Ref sig .tc) (hr : r ∈ args) : Gen.V7 m c r = m ((c.tc : Thread nD τ).loc r) := arg_V7 m c r hr

theorem kept_V10 (r : Ref sig .tc) (hr : r ∈ kept) : Gen.V10 m outs c r = Gen.V7 m c r := by
  rw [Gen.V10_of, Gen.V9_of, Gen.V8_of] <;> (revert r; decide)
theorem kept_V11 (r : Ref sig .tc) (hr : r ∈ kept) : Gen.V11 m outs c r = Gen.V7 m c r := by
  rw [Gen.V11_of, kept_V10 m outs c r hr]; revert r; decide
theorem kept_V12 (r : Ref sig .tc) (hr : r ∈ kept) : Gen.V12 m outs c r = Gen.V7 m c r := by
  rw [Gen.V12_of, kept_V11 m outs c r hr]; revert r; decide
theorem kept_V14 (r : Ref sig .tc) (hr : r ∈ kept) : Gen.V14 m outs c r = Gen.V7 m c r := by
  rw [Gen.V14_of, Gen.V13_of, kept_V12 m outs c r hr] <;> (revert r; decide)
theorem kept_V15 (r : Ref sig .tc) (hr : r ∈ kept) : Gen.V15 m outs c r = Gen.V7 m c r := by
  rw [Gen.V15_of, kept_V14 m outs c r hr]; revert r; decide
theorem kept_V16 (r : Ref sig .tc) (hr : r ∈ kept) : Gen.V16 m outs c r = Gen.V7 m c r := by
  rw [Gen.V16_of, kept_V15 m outs c r hr]; revert r; decide
theorem kept_V18 (r : Ref sig .tc) (hr : r ∈ kept) : Gen.V18 m outs c r = Gen.V7 m c r := by
  rw [Gen.V18_of, Gen.V17_of, kept_V16 m outs c r hr] <;> (revert r; decide)
theorem kept_V19 (r : Ref sig .tc) (hr : r ∈ kept) : Gen.V19 m outs c r = Gen.V7 m c r := by
  rw [Gen.V19_of, kept_V18 m outs c r hr]; revert r; decide
theorem kept_V20 (r : Ref sig .tc) (hr : r ∈ kept) : Gen.V20 m outs c r = Gen.V7 m c r := by
  rw [Gen.V20_of, kept_V19 m outs c r hr]; revert r; decide
theorem kept_V21 (r : Ref sig .tc) (hr : r ∈ kept) : Gen.V21 m outs c r = Gen.V7 m c r := by
  rw [Gen.V21_of, kept_V20 m outs c r hr]; revert r; decide

abbrev xA : Fin 100000 → Fin 1 → EReal := fun n k => m ((c.tc : Thread nD τ).loc main_arg0) (ix2 n k)

abbrev W1A : Fin 1 → Fin 16 → EReal := fun k f => m ((c.tc : Thread nD τ).loc main_arg1) (ix2 k f)

abbrev b1A : Fin 16 → EReal := fun f => m ((c.tc : Thread nD τ).loc main_arg2) (ix1 f)

abbrev W2A : Fin 16 → Fin 1 → EReal := fun f k => m ((c.tc : Thread nD τ).loc main_arg3) (ix2 f k)

abbrev b2A : Fin 1 → EReal := fun k => m ((c.tc : Thread nD τ).loc main_arg4) (ix1 k)

abbrev eiA : Fin 2 → Fin 3200000 → BitVec 32 := fun r e => m ((c.tc : Thread nD τ).loc main_arg5) (ix2 r e)

theorem first_eq_ix0 (hu : 0 < S_.numel) : Shape.Idx.first hu = (ix0 : S_.Idx) := funext fun a => a.elim0

theorem edge_words (a5 : S2x3200000.Idx → BitVec 32) (r : Fin 2) (off : Fin 2 → Nat) (h0 : off 0 = r.val) (h1 : off 1 = 0)
    (hs : S2x3200000.Slices off S1x3200000) (hc : S1x3200000.ShapeCasts S3200000)
    (hcat : Shape.Concatenates [S3200000, S100000] S3300000 0) (e : Fin 3300000) :
    concatenate S3300000 0 [⟨S3200000, shapeCast S3200000 (extractStridedSlice S1x3200000 off a5 hs) hc⟩,
        ⟨S100000, iotaInDim S100000 32 0⟩] hcat (ix1 e)
      = Spec.edgeW (fun r e => a5 (ix2 r e)) r e := by
  unfold Spec.edgeW
  by_cases h : e.val < 3200000
  · rw [dif_pos h]
    refine (concatenate_pair_apply_left (t := S3300000) (s₁ := S3200000) (s₂ := S100000) 0 _ _ hcat (ix1 e) rfl
      (ix1 (⟨e.val, h⟩ : Fin 3200000)) (fun b => ?_)).trans ?_
    · match b with | ⟨0, _⟩ => rfl
    refine (shapeCast_apply _ hc _ (ix2 (0 : Fin 1) (⟨e.val, h⟩ : Fin 3200000)) ?_).trans ?_
    · rw [Shape.rowMajor_val_two, Shape.rowMajor_val_one]
      show 0 * 3200000 + e.val = e.val
      omega
    refine extractStridedSlice_apply off a5 hs _ (ix2 r (⟨e.val, h⟩ : Fin 3200000)) (fun a => ?_)
    match a with
    | ⟨0, _⟩ => show r.val = off 0 + 0; omega
    | ⟨1, _⟩ => show e.val = off 1 + e.val; omega
  · rw [dif_neg h]
    have hlt := e.isLt
    refine (concatenate_pair_apply_right (t := S3300000) (s₁ := S3200000) (s₂ := S100000) 0 _ _ hcat (ix1 e) rfl rfl
      (ix1 (⟨e.val - 3200000, by omega⟩ : Fin 100000)) (fun b hb => ?_) ?_).trans ?_
    · exact absurd (Subsingleton.elim _ _) hb
    · show (e.val - 3200000) + 3200000 = e.val
      omega
    · rfl

theorem pad_words (w : S3300000.Idx → BitVec 32) (z : S_.Idx → BitVec 32) (hz : z ix0 = 0#32)
    (hp : S3300000.Pads (![0] : Fin 1 → Nat) ![1376] ![0] S3301376) (hu : 0 < S_.numel) (e : Fin 3301376) :
    pad S3301376 ![0] ![1376] ![0] w z hp hu (ix1 e) = Spec.padW (fun e => w (ix1 e)) e := by
  unfold Spec.padW
  by_cases h : e.val < 3300000
  · rw [dif_pos h]
    exact pad_apply_of_inside _ _ _ w z hp hu (ix1 e) (ix1 (⟨e.val, h⟩ : Fin 3300000)) (fun a => by
      match a with
      | ⟨0, _⟩ => show e.val = 0 + e.val * (0 + 1); omega)
  · rw [dif_neg h]
    refine (pad_apply_of_not_inside _ _ _ w z hp hu (ix1 e) (0 : Fin 1) (fun hh => h ?_)).trans ?_
    · have h3 : (e.val - 0) / (0 + 1) < 3300000 := hh.2.2
      omega
    · rw [first_eq_ix0, hz]

theorem c_at : Gen.V1 m c main_c ix0 = 0#32 := by
  delta Gen.V1
  generalize Gen.V0 m c = W
  after_results
  all_goals rfl

theorem v3_at (e : Fin 3300000) : Gen.V1 m c main_v3 (ix1 e) = Spec.edgeW (eiA m c) 0 e := by
  delta Gen.V1
  generalize hW : Gen.V0 m c = W
  after_results
  subst hW
  exact edge_words (Gen.V0 m c main_arg5) 0 ![0, 0] rfl rfl _ _ _ e

theorem v6_at (e : Fin 3300000) : Gen.V1 m c main_v6 (ix1 e) = Spec.edgeW (eiA m c) 1 e := by
  delta Gen.V1
  generalize hW : Gen.V0 m c = W
  after_results
  subst hW
  exact edge_words (Gen.V0 m c main_arg5) 1 ![1, 0] rfl rfl _ _ _ e

theorem v7_at (e : Fin 3301376) : Gen.V2 m c main_v7 (ix1 e) = Spec.srcP (eiA m c) e := by
  delta Gen.V2
  generalize hW : Gen.V1 m c = W
  after_results
  subst hW
  show pad S3301376 ![0] ![1376] ![0] (Gen.V1 m c main_v3) (Gen.V1 m c main_c) Gen.pads_S3300000_S3301376_013760 Gen.h_S_ (ix1 e) = _
  refine (pad_words (Gen.V1 m c main_v3) (Gen.V1 m c main_c) (c_at m c) Gen.pads_S3300000_S3301376_013760 Gen.h_S_ e).trans ?_
  unfold Spec.srcP Spec.padW
  by_cases h : e.val < 3300000
  · rw [dif_pos h, dif_pos h]; exact v3_at m c ⟨e.val, h⟩
  · rw [dif_neg h, dif_neg h]

theorem c0_at : Gen.V3 m c main_c_0 ix0 = 0#32 := by
  delta Gen.V3
  generalize Gen.V2 m c = W
  after_results
  all_goals rfl

theorem v8_at (e : Fin 3301376) : Gen.V4 m c main_v8 (ix1 e) = Spec.dstP (eiA m c) e := by
  delta Gen.V4
  generalize hW : Gen.V3 m c = W
  after_results
  subst hW
  show pad S3301376 ![0] ![1376] ![0] (Gen.V3 m c main_v6) (Gen.V3 m c main_c_0) Gen.pads_S3300000_S3301376_013760 Gen.h_S_ (ix1 e) = _
  refine (pad_words (Gen.V3 m c main_v6) (Gen.V3 m c main_c_0) (c0_at m c) Gen.pads_S3300000_S3301376_013760 Gen.h_S_ e).trans ?_
  unfold Spec.dstP Spec.padW
  by_cases h : e.val < 3300000
  · rw [dif_pos h, dif_pos h]
    rw [Gen.V3_of m c main_v6 (by decide), Gen.V2_of m c main_v6 (by decide)]
    exact v6_at m c ⟨e.val, h⟩
  · rw [dif_neg h, dif_neg h]

theorem v9_at (j : S3300000x1.Idx) : Gen.V5 m c main_v9 j = (1 : EReal) := by
  delta Gen.V5
  generalize Gen.V4 m c = W
  after_results
  rw [broadcastInDim_scalar_apply]
  exact Ideal.ofBits_one_f32

theorem c1_at : Gen.V5 m c main_c_1 ix0 = 0#32 := by
  delta Gen.V5
  generalize Gen.V4 m c = W
  after_results
  all_goals rfl

theorem v10_at (e : Fin 3301376) : Gen.V6 m c main_v10 (ix2 e (0 : Fin 1)) = Spec.valid e := by
  delta Gen.V6
  generalize hW : Gen.V5 m c = W
  after_results
  subst hW
  show pad S3301376x1 ![0, 0] ![1376, 0] ![0, 0] (Gen.V5 m c main_v9) (sitofp (F := Ideal) .f32 (Gen.V5 m c main_c_1))
    Gen.pads_S3300000x1_S3301376x1_013760_000 Gen.h_S_ (ix2 e (0 : Fin 1)) = _
  unfold Spec.valid
  by_cases h : e.val < 3300000
  · rw [if_pos h]
    refine (pad_apply_of_inside _ _ _ _ _ _ _ (ix2 e (0 : Fin 1)) (ix2 (⟨e.val, h⟩ : Fin 3300000) (0 : Fin 1))
      (fun a => ?_)).trans (v9_at m c _)
    match a with
    | ⟨0, _⟩ => show e.val = 0 + e.val * (0 + 1); omega
    | ⟨1, _⟩ => show 0 = 0 + 0 * (0 + 1); omega
  · rw [if_neg h]
    refine (pad_apply_of_not_inside _ _ _ _ _ _ _ (ix2 e (0 : Fin 1)) (0 : Fin 2) (fun hh => h ?_)).trans ?_
    · have h3 : (e.val - 0) / (0 + 1) < 3300000 := hh.2.2
      omega
    · rw [first_eq_ix0, sitofp_apply, c1_at]
      show (((0#32 : BitVec 32).toInt : ℝ) : EReal) = 0
      simp

theorem v11_at (j : S3301376x1.Idx) : Gen.V7 m c main_v11 j = (1 : EReal) := by
  delta Gen.V7
  generalize Gen.V6 m c = W
  after_results
  rw [broadcastInDim_scalar_apply]
  exact Ideal.ofBits_one_f32

theorem src_of_V7 (e : Fin 3301376) : Gen.V7 m c main_v7 (ix1 e) = Spec.srcP (eiA m c) e := by
  rw [Gen.V7_of, Gen.V6_of, Gen.V5_of, Gen.V4_of, Gen.V3_of, v7_at] <;> decide
theorem dst_of_V7 (e : Fin 3301376) : Gen.V7 m c main_v8 (ix1 e) = Spec.dstP (eiA m c) e := by
  rw [Gen.V7_of, Gen.V6_of, Gen.V5_of, v8_at] <;> decide
theorem valid_of_V7 (e : Fin 3301376) : Gen.V7 m c main_v10 (ix2 e (0 : Fin 1)) = Spec.valid e := by
  rw [Gen.V7_of, v10_at]; decide

theorem V8_v12 : Gen.V8 m outs c main_v12 = outs 8 main_v12 c := Function.update_self _ _ _
theorem V11_v17 : Gen.V11 m outs c main_v17 = outs 11 main_v17 c := Function.update_self _ _ _
theorem V12_v18 : Gen.V12 m outs c main_v18 = outs 12 main_v18 c := Function.update_self _ _ _
theorem V15_v23 : Gen.V15 m outs c main_v23 = outs 15 main_v23 c := Function.update_self _ _ _
theorem V16_v24 : Gen.V16 m outs c main_v24 = outs 16 main_v24 c := Function.update_self _ _ _
theorem V20_v30 : Gen.V20 m outs c main_v30 = outs 20 main_v30 c := Function.update_self _ _ _
theorem V21_v31 : Gen.V21 m outs c main_v31 = outs 21 main_v31 c := Function.update_self _ _ _

theorem v14_at (n : Fin 100000) : Gen.V9 m outs c main_v14 (ix2 n (0 : Fin 1))
    = FloatOps.cmpf (F := Ideal) (φ := .f32) .ogt (Gen.V8 m outs c main_v12 (ix2 n (0 : Fin 1))) Spec.z32 := by
  delta Gen.V9
  generalize Gen.V8 m outs c = W
  after_results
  all_goals rfl

theorem v15_at (n : Fin 100000) : Gen.V9 m outs c main_v15 (ix2 n (0 : Fin 1))
    = FloatOps.hostUnary (F := Ideal) (φ := .f32) .rsqrt (Gen.V8 m outs c main_v12 (ix2 n (0 : Fin 1))) := by
  delta Gen.V9
  generalize Gen.V8 m outs c = W
  after_results
  all_goals rfl

theorem cst4_at : Gen.V9 m outs c main_cst_4 ix0 = Spec.z32 := by
  delta Gen.V9
  generalize Gen.V8 m outs c = W
  after_results
  all_goals rfl

theorem v16_at (n : Fin 100000) : Gen.V10 m outs c main_v16 (ix2 n (0 : Fin 1))
    = Spec.dinvOf (Gen.V8 m outs c main_v12 (ix2 n (0 : Fin 1))) := by
  delta Gen.V10
  generalize hW : Gen.V9 m outs c = W
  after_results
  subst hW
  show select (Gen.V9 m outs c main_v14) (Gen.V9 m outs c main_v15)
    (broadcastInDim S100000x1 ![] Gen.bcast_S_S100000x1 (Gen.V9 m outs c main_cst_4)) (ix2 n (0 : Fin 1)) = _
  rw [select_apply, broadcastInDim_scalar_apply, v14_at, v15_at, cst4_at]
  rfl

theorem v20_at (e : Fin 3301376) : Gen.V13 m outs c main_v20 (ix2 e (0 : Fin 1))
    = FloatOps.mulf (F := Ideal) (φ := .f32)
        (FloatOps.mulf (F := Ideal) (φ := .f32) (Gen.V12 m outs c main_v17 (ix2 e (0 : Fin 1)))
          (Gen.V12 m outs c main_v18 (ix2 e (0 : Fin 1))))
        (Gen.V12 m outs c main_v10 (ix2 e (0 : Fin 1))) := by
  delta Gen.V13
  generalize Gen.V12 m outs c = W
  after_results
  all_goals rfl

theorem dot1_apply (l : FVec Ideal S100000x1 .f32) (r : FVec Ideal S1x16 .f32) (n : Fin 100000) (f : Fin 16) :
    Host.dotGeneral (F := Ideal) dot_S100000x1_S1x16_S100000x16_1_0_0_1_n_n none l r (ix2 n f)
      = ∑ k : Fin 1, l (ix2 n k) * r (ix2 k f) := by
  show FloatOps.dotGeneral (F := Ideal) dot_S100000x1_S1x16_S100000x16_1_0_0_1_n_n none .single l r (ix2 n f) = _
  rw [Ideal.dotGeneral_apply]
  rw [← Equiv.sum_comp (contrEquiv1 dot_S100000x1_S1x16_S100000x16_1_0_0_1_n_n 1 rfl rfl).symm]
  refine Finset.sum_congr rfl fun k _ => ?_
  have hk := contrEquiv1_symm_val dot_S100000x1_S1x16_S100000x16_1_0_0_1_n_n 1 rfl rfl k
  congr 1
  · refine congrArg l (funext fun a => Fin.ext ?_)
    match a with
    | ⟨0, _⟩ => rfl
    | ⟨1, _⟩ => exact hk
  · refine congrArg r (funext fun a => Fin.ext ?_)
    match a with
    | ⟨0, _⟩ => exact hk
    | ⟨1, _⟩ => rfl

theorem dot2_apply (l : FVec Ideal S100000x16 .f32) (r : FVec Ideal S16x1 .f32) (n : Fin 100000) :
    Host.dotGeneral (F := Ideal) dot_S100000x16_S16x1_S100000x1_1_0_0_1_n_n none l r (ix2 n (0 : Fin 1))
      = ∑ f : Fin 16, l (ix2 n f) * r (ix2 f (0 : Fin 1)) := by
  show FloatOps.dotGeneral (F := Ideal) dot_S100000x16_S16x1_S100000x1_1_0_0_1_n_n none .single l r (ix2 n (0 : Fin 1)) = _
  rw [Ideal.dotGeneral_apply]
  rw [← Equiv.sum_comp (contrEquiv1 dot_S100000x16_S16x1_S100000x1_1_0_0_1_n_n 16 rfl rfl).symm]
  refine Finset.sum_congr rfl fun k _ => ?_
  have hk := contrEquiv1_symm_val dot_S100000x16_S16x1_S100000x1_1_0_0_1_n_n 16 rfl rfl k
  congr 1
  · refine congrArg l (funext fun a => Fin.ext ?_)
    match a with
    | ⟨0, _⟩ => rfl
    | ⟨1, _⟩ => exact hk
  · refine congrArg r (funext fun a => Fin.ext ?_)
    match a with
    | ⟨0, _⟩ => exact hk
    | ⟨1, _⟩ => rfl

theorem v21_at (n : Fin 100000) (f : Fin 16) : Gen.V13 m outs c main_v21 (ix2 n f) = Spec.h1 (xA m c) (W1A m c) n f := by
  delta Gen.V13
  generalize hW : Gen.V12 m outs c = W
  after_results
  subst hW
  show Host.dotGeneral (F := Ideal) (φ₁ := .f32) (φ₂ := .f32) dot_S100000x1_S1x16_S100000x16_1_0_0_1_n_n none
    (Gen.V12 m outs c main_arg0) (Gen.V12 m outs c main_arg1) (ix2 n f) = _
  rw [kept_V12 m outs c main_arg0 (by decide), kept_V12 m outs c main_arg1 (by decide),
    arg_of_V7 m c main_arg0 (by decide), arg_of_V7 m c main_arg1 (by decide)]
  exact dot1_apply _ _ n f

theorem v22_at (n : Fin 100000) (f : Fin 16) : Gen.V14 m outs c main_v22 (ix2 n f) = Gen.V13 m outs c main_v21 (ix2 n f) := by
  delta Gen.V14
  generalize Gen.V13 m outs c = W
  after_results
  show pad S100000x16 ![0, 0] ![0, 0] ![0, 0] (W main_v21) (sitofp (F := Ideal) .f32 (W main_c_5))
    Gen.pads_S100000x16_S100000x16_000_000 Gen.h_S_ (ix2 n f) = _
  exact pad_apply_of_inside _ _ _ _ _ _ _ (ix2 n f) (ix2 n f) (fun a => by
    match a with
    | ⟨0, _⟩ => show n.val = 0 + n.val * (0 + 1); omega
    | ⟨1, _⟩ => show f.val = 0 + f.val * (0 + 1); omega)

theorem v27_at (n : Fin 100000) (f : Fin 16) : Gen.V17 m outs c main_v27 (ix2 n f)
    = FloatOps.addf (F := Ideal) (φ := .f32) (Gen.V16 m outs c main_v24 (ix2 n f)) (Gen.V16 m outs c main_arg2 (ix1 f)) := by
  delta Gen.V17
  generalize Gen.V16 m outs c = W
  after_results
  show FloatOps.addf (F := Ideal) (φ := .f32) (W main_v24 (ix2 n f)) (broadcastInDim S100000x16 ![0, 1]
    Gen.bcast_S1x16_S100000x16_0_1 (broadcastInDim S1x16 ![1] Gen.bcast_S16_S1x16_1 (W main_arg2)) (ix2 n f)) = _
  refine congrArg _ ?_
  refine (broadcastInDim_apply _ _ _ (ix2 n f) (ix2 (0 : Fin 1) f) (fun a => ?_)).trans ?_
  · match a with
    | ⟨0, _⟩ => rfl
    | ⟨1, _⟩ => rfl
  · exact broadcastInDim_apply _ _ _ (ix2 (0 : Fin 1) f) (ix1 f) (fun a => by
      match a with
      | ⟨0, _⟩ => rfl)

theorem v28_at (n : Fin 100000) (f : Fin 16) : Gen.V18 m outs c main_v28 (ix2 n f)
    = Spec.reluOf (Gen.V17 m outs c main_v27 (ix2 n f)) := by
  delta Gen.V18
  generalize Gen.V17 m outs c = W
  after_results
  all_goals rfl

theorem v29_at (n : Fin 100000) : Gen.V19 m outs c main_v29 (ix2 n (0 : Fin 1))
    = ∑ f : Fin 16, FloatOps.mulf (F := Ideal) (φ := .f32) (Gen.V18 m outs c main_v28 (ix2 n f)) (W2A m c f 0) := by
  delta Gen.V19
  generalize hW : Gen.V18 m outs c = W
  after_results
  subst hW
  show Host.dotGeneral (F := Ideal) (φ₁ := .f32) (φ₂ := .f32) dot_S100000x16_S16x1_S100000x1_1_0_0_1_n_n none
    (Gen.V18 m outs c main_v28) (Gen.V18 m outs c main_arg3) (ix2 n (0 : Fin 1)) = _
  rw [kept_V18 m outs c main_arg3 (by decide), arg_of_V7 m c main_arg3 (by decide)]
  exact dot2_apply _ _ n

theorem v34_at (n : Fin 100000) : Gen.V22 m outs c main_v34 (ix2 n (0 : Fin 1))
    = FloatOps.addf (F := Ideal) (φ := .f32) (Gen.V21 m outs c main_v31 (ix2 n (0 : Fin 1)))
        (Gen.V21 m outs c main_arg4 (ix1 (0 : Fin 1))) := by
  delta Gen.V22
  generalize Gen.V21 m outs c = W
  after_results
  show FloatOps.addf (F := Ideal) (φ := .f32) (W main_v31 (ix2 n (0 : Fin 1))) (broadcastInDim S100000x1 ![0, 1]
    Gen.bcast_S1x1_S100000x1_0_1 (broadcastInDim S1x1 ![1] Gen.bcast_S1_S1x1_1 (W main_arg4)) (ix2 n (0 : Fin 1))) = _
  refine congrArg _ ?_
  refine (broadcastInDim_apply _ _ _ (ix2 n (0 : Fin 1)) (ix2 (0 : Fin 1) (0 : Fin 1)) (fun a => ?_)).trans ?_
  · match a with
    | ⟨0, _⟩ => rfl
    | ⟨1, _⟩ => rfl
  · exact broadcastInDim_apply _ _ _ (ix2 (0 : Fin 1) (0 : Fin 1)) (ix1 (0 : Fin 1)) (fun a => by
      match a with
      | ⟨0, _⟩ => rfl)

theorem gsel_mul_congr {t t' : Fin Spec.nN → EReal} {w w' : BitVec 32} {v v' : EReal} (ht : t = t') (hw : w = w')
    (hv : v = v') : Spec.gsel t w * v = Spec.gsel t' w' * v' := by
  subst ht hw hv; rfl

theorem ssum_congr {M : Nat} {i i' : Fin M → BitVec 32} {u u' : Fin M → EReal} (hi : i = i') (hu : u = u')
    (n : Fin Spec.nN) : Spec.ssum i u n = Spec.ssum i' u' n := by
  subst hi hu; rfl

section Stages

variable (H0 : ∀ n : Fin 100000, outs 8 main_v12 c (ix2 n (0 : Fin 1))
      = Spec.ssum (fun e : Fin 3301376 => Gen.V7 m c main_v8 (ix1 e)) (fun e => Gen.V7 m c main_v10 (ix2 e (0 : Fin 1))) n)
include H0

theorem deg_eq (n : Fin 100000) : Gen.V8 m outs c main_v12 (ix2 n (0 : Fin 1)) = Spec.degK (eiA m c) n := by
  rw [V8_v12]
  exact (H0 n).trans (ssum_congr (funext (dst_of_V7 m c)) (funext (valid_of_V7 m c)) n)

theorem dinv_eq (n : Fin 100000) : Gen.V10 m outs c main_v16 (ix2 n (0 : Fin 1)) = Spec.dinvK (eiA m c) n := by
  rw [v16_at, deg_eq m outs c H0 n]
  rfl

variable (H1 : ∀ e : Fin 3301376, outs 11 main_v17 c (ix2 e (0 : Fin 1))
      = Spec.gsel (fun n => Gen.V10 m outs c main_v16 (ix2 n (0 : Fin 1))) (Gen.V10 m outs c main_v7 (ix1 e))
        * Gen.V10 m outs c main_v11 (ix2 e (0 : Fin 1)))
include H1

theorem v17_eq (e : Fin 3301376) : Gen.V11 m outs c main_v17 (ix2 e (0 : Fin 1))
    = Spec.gsel (Spec.dinvK (eiA m c)) (Spec.srcP (eiA m c) e) * 1 := by
  rw [V11_v17]
  refine (H1 e).trans (gsel_mul_congr (funext (dinv_eq m outs c H0)) ?_ ?_)
  · rw [kept_V10 m outs c main_v7 (by decide)]; exact src_of_V7 m c e
  · rw [kept_V10 m outs c main_v11 (by decide)]; exact v11_at m c _

variable (H2 : ∀ e : Fin 3301376, outs 12 main_v18 c (ix2 e (0 : Fin 1))
      = Spec.gsel (fun n => Gen.V11 m outs c main_v16 (ix2 n (0 : Fin 1))) (Gen.V11 m outs c main_v8 (ix1 e))
        * Gen.V11 m outs c main_v11 (ix2 e (0 : Fin 1)))
include H2

theorem v18_eq (e : Fin 3301376) : Gen.V12 m outs c main_v18 (ix2 e (0 : Fin 1))
    = Spec.gsel (Spec.dinvK (eiA m c)) (Spec.dstP (eiA m c) e) * 1 := by
  rw [V12_v18]
  refine (H2 e).trans (gsel_mul_congr (funext fun n => ?_) ?_ ?_)
  · rw [Gen.V11_of m outs c main_v16 (by decide)]; exact dinv_eq m outs c H0 n
  · rw [kept_V11 m outs c main_v8 (by decide)]; exact dst_of_V7 m c e
  · rw [kept_V11 m outs c main_v11 (by decide)]; exact v11_at m c _

theorem norm_eq (e : Fin 3301376) : Gen.V13 m outs c main_v20 (ix2 e (0 : Fin 1)) = Spec.normK (eiA m c) e := by
  rw [v20_at, Gen.V12_of m outs c main_v17 (by decide), v17_eq m outs c H0 H1 e, v18_eq m outs c H0 H1 H2 e,
    kept_V12 m outs c main_v10 (by decide), valid_of_V7]
  rfl

variable (H3 : ∀ (e : Fin 3301376) (f : Fin 16), outs 15 main_v23 c (ix2 e f)
      = Spec.gsel (fun n => Gen.V14 m outs c main_v22 (ix2 n f)) (Gen.V14 m outs c main_v7 (ix1 e))
        * Gen.V14 m outs c main_v20 (ix2 e (0 : Fin 1)))
include H3

theorem msg1_eq (e : Fin 3301376) (f : Fin 16) : Gen.V15 m outs c main_v23 (ix2 e f)
    = Spec.msg1K (xA m c) (W1A m c) (eiA m c) e f := by
  rw [V15_v23]
  refine (H3 e f).trans (gsel_mul_congr (funext fun n => ?_) ?_ ?_)
  · exact (v22_at m outs c n f).trans (v21_at m outs c n f)
  · rw [kept_V14 m outs c main_v7 (by decide)]; exact src_of_V7 m c e
  · rw [Gen.V14_of m outs c main_v20 (by decide)]; exact norm_eq m outs c H0 H1 H2 e

variable (H4 : ∀ (n : Fin 100000) (f : Fin 16), outs 16 main_v24 c (ix2 n f)
      = Spec.ssum (fun e : Fin 3301376 => Gen.V15 m outs c main_v8 (ix1 e)) (fun e => Gen.V15 m outs c main_v23 (ix2 e f)) n)
include H4

theorem agg1_eq (n : Fin 100000) (f : Fin 16) : Gen.V16 m outs c main_v24 (ix2 n f)
    = Spec.agg1K (xA m c) (W1A m c) (eiA m c) n f := by
  rw [V16_v24]
  refine (H4 n f).trans (ssum_congr (funext fun e => ?_) (funext fun e => ?_) n)
  · rw [kept_V15 m outs c main_v8 (by decide)]; exact dst_of_V7 m c e
  · exact msg1_eq m outs c H0 H1 H2 H3 e f

theorem hid_eq (n : Fin 100000) (f : Fin 16) : Gen.V18 m outs c main_v28 (ix2 n f)
    = Spec.hidK (xA m c) (W1A m c) (b1A m c) (eiA m c) n f := by
  rw [v28_at, v27_at, agg1_eq m outs c H0 H1 H2 H3 H4 n f, kept_V16 m outs c main_arg2 (by decide),
    arg_of_V7 m c main_arg2 (by decide)]
  rfl

theorem h2_eq (n : Fin 100000) : Gen.V19 m outs c main_v29 (ix2 n (0 : Fin 1))
    = Spec.h2K (xA m c) (W1A m c) (b1A m c) (W2A m c) (eiA m c) n := by
  rw [v29_at]
  unfold Spec.h2K
  exact Finset.sum_congr (M := EReal) rfl fun f _ =>
    congrArg (fun t : EReal => t * W2A m c f 0) (hid_eq m outs c H0 H1 H2 H3 H4 n f)

variable (H5 : ∀ e : Fin 3301376, outs 20 main_v30 c (ix2 e (0 : Fin 1))
      = Spec.gsel (fun n => Gen.V19 m outs c main_v29 (ix2 n (0 : Fin 1))) (Gen.V19 m outs c main_v7 (ix1 e))
        * Gen.V19 m outs c main_v20 (ix2 e (0 : Fin 1)))
include H5

theorem msg2_eq (e : Fin 3301376) : Gen.V20 m outs c main_v30 (ix2 e (0 : Fin 1))
    = Spec.msg2K (xA m c) (W1A m c) (b1A m c) (W2A m c) (eiA m c) e := by
  rw [V20_v30]
  refine (H5 e).trans (gsel_mul_congr (funext (h2_eq m outs c H0 H1 H2 H3 H4)) ?_ ?_)
  · rw [kept_V19 m outs c main_v7 (by decide)]; exact src_of_V7 m c e
  · rw [Gen.V19_of m outs c main_v20 (by decide), Gen.V18_of m outs c main_v20 (by decide),
      Gen.V17_of m outs c main_v20 (by decide), Gen.V16_of m outs c main_v20 (by decide),
      Gen.V15_of m outs c main_v20 (by decide), Gen.V14_of m outs c main_v20 (by decide)]
    exact norm_eq m outs c H0 H1 H2 e

variable (H6 : ∀ n : Fin 100000, outs 21 main_v31 c (ix2 n (0 : Fin 1))
      = Spec.ssum (fun e : Fin 3301376 => Gen.V20 m outs c main_v8 (ix1 e)) (fun e => Gen.V20 m outs c main_v30 (ix2 e (0 : Fin 1))) n)
include H6

theorem agg2_eq (n : Fin 100000) : Gen.V21 m outs c main_v31 (ix2 n (0 : Fin 1))
    = Spec.agg2K (xA m c) (W1A m c) (b1A m c) (W2A m c) (eiA m c) n := by
  rw [V21_v31]
  refine (H6 n).trans (ssum_congr (funext fun e => ?_) (funext (msg2_eq m outs c H0 H1 H2 H3 H4 H5)) n)
  rw [kept_V20 m outs c main_v8 (by decide)]; exact dst_of_V7 m c e

theorem kernel_out (n : Fin 100000) :
    Gen.V22 m outs c main_v34 (ix2 n (0 : Fin 1))
      = Spec.outK (fun n k => m ((c.tc : Thread nD τ).loc main_arg0) (ix2 n k))
          (fun k f => m ((c.tc : Thread nD τ).loc main_arg1) (ix2 k f))
          (fun f => m ((c.tc : Thread nD τ).loc main_arg2) (ix1 f))
          (fun f k => m ((c.tc : Thread nD τ).loc main_arg3) (ix2 f k))
          (fun k => m ((c.tc : Thread nD τ).loc main_arg4) (ix1 k))
          (fun r e => m ((c.tc : Thread nD τ).loc main_arg5) (ix2 r e)) n := by
  rw [v34_at, agg2_eq m outs c H0 H1 H2 H3 H4 H5 H6 n, kept_V21 m outs c main_arg4 (by decide),
    arg_of_V7 m c main_arg4 (by decide)]
  rfl

end Stages

end Cert.KernelIdeal.KValue

end
-- ==== Proof.PayLib.lean ====
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayLib

open Idealize.ShloMosaic Idealize.ShloMosaic.ValueIdx

/-- An index of rank one or two is named by its coordinates. -/
theorem ix1_eq {n : ℕ} (j : (⟨1, ![n]⟩ : Shape).Idx) (a : Fin n) (h : (j 0).val = a.val) : j = ix1 a :=
  (eq_ix1 j).trans (congrArg ix1 (Fin.ext h))
theorem ix2_eq {n0 n1 : ℕ} (j : (⟨2, ![n0, n1]⟩ : Shape).Idx) (a : Fin n0) (b : Fin n1)
    (h0 : (j 0).val = a.val) (h1 : (j 1).val = b.val) : j = ix2 a b :=
  (eq_ix2 j).trans (congrArg₂ ix2 (Fin.ext h0) (Fin.ext h1))

/-- On an axis where the block number is zero an element of the block keeps its coordinate. -/
theorem col_eq (S f : ℕ) : 0 * S + 1 * f = f := by omega

/-- A column broadcast along the rows' width reads the column at the row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An array cast to a column reads the array at the row. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An equality test of two words, widened and converted signed, is the indicator of their equality. -/
theorem onehot_word {φ : FTy} (a b : BitVec 32) :
    (FloatOps.sitofp (F := Ideal) φ ((IntOp.cmpi .eq a b).setWidth 32) : EReal) = if a = b then (1 : EReal) else 0 := by
  show ((((IntOp.cmpi .eq a b).setWidth 32).toInt : ℝ) : EReal) = _
  by_cases h : a = b
  · have hc : IntOp.cmpi .eq a b = 1#1 := by simp [IntOp.cmpi, h]
    rw [hc, if_pos h]
    norm_num
  · have hc : IntOp.cmpi .eq a b = 0#1 := by
      show BitVec.ofBool (a == b) = 0#1
      rw [show (a == b) = false from beq_eq_false_iff_ne.mpr h]
      rfl
    rw [hc, if_neg h]
    norm_num

/-- Block number times block height plus the row does not wrap while it stays below 2^32. -/
theorem toNat_rowid (g H r : Nat) (hg : g < 2 ^ 32) (hH : H < 2 ^ 32) (h : g * H + r < 2 ^ 32) :
    (BitVec.ofNat 32 g * BitVec.ofNat 32 H + BitVec.ofNat 32 r).toNat = g * H + r := by
  rw [BitVec.toNat_add, BitVec.toNat_mul, BitVec.toNat_ofNat, BitVec.toNat_ofNat, BitVec.toNat_ofNat,
    Nat.mod_eq_of_lt hg, Nat.mod_eq_of_lt hH]
  omega

/-- Below 2^31 a word is the row-id word exactly when its signed reading is the row number. -/
theorem rowid_eq_iff (g H r : Nat) (hg : g < 2 ^ 32) (hH : H < 2 ^ 32) (h : g * H + r < 2 ^ 31) (w : BitVec 32) :
    BitVec.ofNat 32 g * BitVec.ofNat 32 H + BitVec.ofNat 32 r = w ↔ w.toInt = ((g * H + r : ℕ) : Int) := by
  have hn := toNat_rowid g H r hg hH (by omega)
  have hw := w.isLt
  rw [BitVec.toInt_eq_toNat_cond, ← BitVec.toNat_inj, hn]
  split <;> omega

theorem eq_rowid_iff (g H r : Nat) (hg : g < 2 ^ 32) (hH : H < 2 ^ 32) (h : g * H + r < 2 ^ 31) (w : BitVec 32) :
    w = BitVec.ofNat 32 g * BitVec.ofNat 32 H + BitVec.ofNat 32 r ↔ w.toInt = ((g * H + r : ℕ) : Int) :=
  eq_comm.trans (rowid_eq_iff g H r hg hH h w)

end Cert.PayLib

end
-- ==== Proof.R0Pay.lean ====
import proofs.«401816_j90890097918492_1_alg».proof.Proof.Gen.KernelIdeal.Skeleton
import proofs.«401816_j90890097918492_1_alg».proof.Proof.PayLib
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.R0Pay

open Cert.KernelIdeal Cert.KernelIdeal.Gen Idealize.ShloMosaic Idealize.ShloMosaic.ValueIdx Idealize.SL.Sem Cert.PayLib

theorem pay1_apply (r : Fin 2000) (f : Fin 1) : k0_pay1 (F := Ideal) (ix2 r f) = 0 := by
  unfold k0_pay1
  rw [shapeCast_self]
  exact Ideal.ofBits_zero_f32

/-- The accumulator plus, over the tile's edges, the one-hot entry "the edge's word is this row's id" times the edge's
    message; inside the 50 blocks the row id does not wrap, so the test reads on the word's signed value. -/
theorem pay2_apply_toInt (i : grid0.Coords) (hi : (i 0).val < 50) (v7 : Vec Ideal S4096 .i32) (v16 : Vec Ideal S4096x1 .f32)
    (v20 : Vec Ideal S2000x1 .f32) (r : Fin 2000) (f : Fin 1) :
    k0_pay2 i v7 v16 v20 (ix2 r f) = v20 (ix2 r f) + ∑ j : Fin 4096,
      (if (v7 (ix1 j)).toInt = (((i 0).val * 2000 + r.val : ℕ) : Int) then (1 : EReal) else 0) * v16 (ix2 j f) := by
  unfold k0_pay2
  dsimp only
  simp only [shapeCast_self]
  rw [addf_apply]
  congr 1
  simp only [matmul]
  rw [Ideal.matmul_constant_zero_apply, ← Equiv.sum_comp (contrEquiv1 dot_S2000x4096_S4096x1_S2000x1_1_0_0_1_n_n 4096 rfl rfl).symm]
  refine Finset.sum_congr rfl fun k _ => ?_
  have hk := contrEquiv1_symm_val dot_S2000x4096_S4096x1_S2000x1_1_0_0_1_n_n 4096 rfl rfl k
  generalize (contrEquiv1 dot_S2000x4096_S4096x1_S2000x1_1_0_0_1_n_n 4096 rfl rfl).symm k = q at hk ⊢
  rw [show dot_S2000x4096_S4096x1_S2000x1_1_0_0_1_n_n.lhsIdx (ix2 r f) q = ix2 r k from ix2_eq _ _ _ rfl hk,
    show dot_S2000x4096_S4096x1_S2000x1_1_0_0_1_n_n.rhsIdx (ix2 r f) q = ix2 k f from ix2_eq _ _ _ hk rfl]
  rw [truncf_apply, truncf_apply, sitofp_apply, extui_apply]
  show FloatOps.sitofp (F := Ideal) .f32 ((IntOp.cmpi .eq (broadcastTo S2000x4096 _ _ (ix2 r k)) (broadcastTo S2000x4096 _ _ (ix2 r k))).setWidth 32) * v16 (ix2 k f) = _
  rw [onehot_word, broadcastTo_a1_ab_apply, broadcastTo_1b_ab_apply, shapeCast_a_1a_apply]
  show (if IntOp.addi (Scalar.muli (BitVec.ofNat 32 (i 0).val) 2000#32) (iota .tc S2000x1 32 [0] _ (ix2 r (0 : Fin 1))) = v7 (ix1 k) then (1 : EReal) else 0) * v16 (ix2 k f) = _
  rw [iota_single_apply]
  have hr := r.isLt
  exact congrArg (· * v16 (ix2 k f))
    (if_congr (rowid_eq_iff (i 0).val 2000 r.val (by omega) (by norm_num) (by omega) (v7 (ix1 k))) rfl rfl)

end Cert.KernelIdeal.R0Pay

end
-- ==== Proof.ValueLib.lean ====
import proofs.«401816_j90890097918492_1_alg».proof.Proof.Spec
import Idealize.ShloMosaic.Lib.ValueIdx
import Idealize.ShloMosaic.Lib.Pipeline.Value

noncomputable section

namespace Cert.ValueLib

open Idealize.ShloMosaic Idealize.ShloMosaic.ValueIdx
open scoped BigOperators

/-- An array read at a natural number, with a default past its end. -/
def atD {α : Type} [Inhabited α] {M : ℕ} (g : Fin M → α) (e : ℕ) : α := if h : e < M then g ⟨e, h⟩ else default

theorem atD_lt {α : Type} [Inhabited α] {M : ℕ} (g : Fin M → α) {e : ℕ} (h : e < M) : atD g e = g ⟨e, h⟩ := dif_pos h

/-- A sum over a consecutive runs of length b is the sum over the first a · b naturals. -/
theorem sum_runs (g : ℕ → EReal) (b : ℕ) : ∀ a : ℕ,
    ∑ s ∈ Finset.range a, ∑ j : Fin b, g (s * b + j.val) = ∑ e ∈ Finset.range (a * b), g e
  | 0 => by rw [Nat.zero_mul, Finset.sum_range_zero, Finset.sum_range_zero]
  | a + 1 => by
    rw [Finset.sum_range_succ, sum_runs g b a, Nat.succ_mul, Finset.sum_range_add, Finset.sum_range (fun x => g (a * b + x))]

/-- One keeps the term and zero annihilates it, at the infinities too. -/
theorem onehot_mul (p : Prop) [Decidable p] (x : EReal) : (if p then (1 : EReal) else 0) * x = if p then x else 0 := by
  split
  · rw [one_mul]
  · rw [zero_mul]

/-- A word's signed reading is a node number exactly when its unsigned value is. -/
theorem toInt_eq_iff (w : BitVec 32) (n : ℕ) (hn : n < 100000) : w.toInt = (n : Int) ↔ w.toNat = n := by
  have hw := w.isLt
  rw [BitVec.toInt_eq_toNat_cond]
  split <;> omega

/-- Node tile k's share of the one-hot gather at the word w. -/
def hit (tbl : Fin 100000 → EReal) (w : BitVec 32) (k : ℕ) : EReal :=
  ∑ r : Fin 2000, (if w.toInt = ((k * 2000 + r.val : ℕ) : Int) then (1 : EReal) else 0) * atD tbl (k * 2000 + r.val)

/-- The word names at most one of the 100000 nodes the 50 tiles run through. -/
theorem sum_hit (tbl : Fin 100000 → EReal) (w : BitVec 32) : ∑ k ∈ Finset.range 50, hit tbl w k = Spec.gsel tbl w := by
  unfold hit
  rw [sum_runs (fun e => (if w.toInt = (e : Int) then (1 : EReal) else 0) * atD tbl e) 2000 50]
  show ∑ e ∈ Finset.range 100000, _ = _
  rw [Finset.sum_range]
  unfold Spec.gsel
  split
  · rename_i h
    rw [Finset.sum_eq_single_of_mem (⟨w.toNat, h⟩ : Fin 100000) (Finset.mem_univ _) fun e _ he => by
      rw [if_neg fun hc => he (Fin.ext ((toInt_eq_iff w _ e.isLt).mp hc).symm), zero_mul]]
    rw [if_pos ((toInt_eq_iff w _ h).mpr rfl), one_mul]
    exact atD_lt tbl h
  · rename_i h
    exact Finset.sum_eq_zero fun e _ => by
      rw [if_neg fun hc => h (lt_of_eq_of_lt ((toInt_eq_iff w _ e.isLt).mp hc) e.isLt), zero_mul]

/-- The 806 tiles of 4096 one-hot terms are the scatter sum at node m. -/
theorem sum_tiles (idx : Fin 3301376 → BitVec 32) (u : Fin 3301376 → EReal) (m : Fin 100000) :
    ∑ s ∈ Finset.range 806, ∑ j : Fin 4096,
        (if (atD idx (s * 4096 + j.val)).toInt = (m.val : Int) then (1 : EReal) else 0) * atD u (s * 4096 + j.val)
      = Spec.ssum idx u m := by
  rw [sum_runs (fun e => (if (atD idx e).toInt = (m.val : Int) then (1 : EReal) else 0) * atD u e) 4096 806]
  show ∑ e ∈ Finset.range 3301376, _ = _
  rw [Finset.sum_range]
  unfold Spec.ssum
  rw [Finset.sum_filter]
  refine Finset.sum_congr rfl fun e _ => ?_
  rw [onehot_mul, atD_lt idx e.isLt, atD_lt u e.isLt]

/-- A quantity that restarts at every multiple of J with its run's first term and otherwise adds the run's next term
    holds the run's partial sums. -/
theorem run_sum {N : ℕ} (J : ℕ) (hJ : ∀ n, ¬(n + 1) % J = 0 → (n + 1) / J = n / J ∧ (n + 1) % J = n % J + 1)
    (a : (n : ℕ) → n < N → EReal) (s : ℕ → ℕ → EReal)
    (h0 : ∀ n h, n % J = 0 → a n h = s (n / J) 0)
    (hs : ∀ n (h : n + 1 < N), ¬(n + 1) % J = 0 →
      a (n + 1) h = a n (Nat.lt_of_succ_lt h) + s ((n + 1) / J) ((n + 1) % J)) :
    ∀ n h, a n h = ∑ k ∈ Finset.range (n % J + 1), s (n / J) k := by
  intro n
  induction n with
  | zero => intro h; rw [h0 0 h (Nat.zero_mod J), Nat.zero_mod, Finset.sum_range_one]
  | succ n ih =>
    intro h
    by_cases hm : (n + 1) % J = 0
    · rw [h0 _ h hm, hm, Finset.sum_range_one]
    · obtain ⟨e1, e2⟩ := hJ n hm
      rw [hs n h hm, ih, e1, e2, Finset.sum_range_succ _ (n % J + 1)]

end Cert.ValueLib

end
-- ==== Proof.R0Value.lean ====
import proofs.«401816_j90890097918492_1_alg».proof.Proof.R0Frame
import proofs.«401816_j90890097918492_1_alg».proof.Proof.R0Pay
import proofs.«401816_j90890097918492_1_alg».proof.Proof.ValueLib
import Idealize.ShloMosaic.Lib.Pipeline.Value
import Idealize.ShloMosaic.Lib.ValueIdx
import Idealize.ShloMosaic.PureOps.Ideal.Laws

noncomputable section

namespace Cert.KernelIdeal.R0Value

open Cert.KernelIdeal Cert.KernelIdeal.Gen Cert.ValueLib Cert.PayLib
open Idealize.ShloMosaic Idealize.ShloMosaic.TcCoe Idealize.ShloMosaic.ValueIdx Idealize.SL.Sem
open Idealize.ShloMosaic.Pipeline (Dat)
open scoped BigOperators

/-- Point t is in node tile t / 806, at edge tile t mod 806; both block numbers are below 2^32. -/
theorem coords0_0 (t : Fin cfg0.N) : (grid0.coords t 0).val = t.val / 806 := by
  have ht : t.val < 40300 := lt_of_lt_of_eq t.isLt N_0
  show t.val / grid0.stride 0 % 50 = _
  rw [show grid0.stride 0 = 806 from by decide]
  omega
theorem coords0_1 (t : Fin cfg0.N) : (grid0.coords t 1).val = t.val % 806 := by
  show t.val / grid0.stride 1 % 806 = _
  rw [show grid0.stride 1 = 1 from by decide, Nat.div_one]
theorem word0_0 (t : Fin cfg0.N) : (BitVec.ofNat 32 (grid0.coords t 0).val).toNat = t.val / 806 := by
  have ht : t.val < 40300 := lt_of_lt_of_eq t.isLt N_0
  rw [coords0_0, BitVec.toNat_ofNat]
  omega
theorem word0_1 (t : Fin cfg0.N) : (BitVec.ofNat 32 (grid0.coords t 1).val).toNat = t.val % 806 := by
  rw [coords0_1, BitVec.toNat_ofNat]
  omega

def node0 (t : Fin cfg0.N) (r : Fin 2000) : Fin 100000 :=
  ⟨t.val / 806 * 2000 + r.val, by
    have ht : t.val < 40300 := lt_of_lt_of_eq t.isLt N_0
    have hr := r.isLt
    omega⟩

/-- Row j of a block numbered by the edge tile is edge position 4096 (t mod 806) + j. -/
theorem row0 (t : Fin cfg0.N) (j : ℕ) :
    (BitVec.ofNat 32 (grid0.coords t 1).val).toNat * 4096 + 1 * j = t.val % 806 * 4096 + j := by
  rw [word0_1]
  omega

variable (V : (c : Dev nD) → (b : Ref sig .tc) → Buf (Elt Ideal) ((c : Thread nD τ).loc b))

abbrev idx0 (c : Dev nD) : Fin 3301376 → BitVec 32 := fun e => V c main_v8 (ix1 e)
abbrev upd0 (c : Dev nD) (f : Fin 1) : Fin 3301376 → EReal := fun e => V c main_v10 (ix2 e f)

theorem idxBlk0_apply (c : Dev nD) (t : Fin cfg0.N) (j : Fin 4096) :
    (R0.iblk0 V c 0 t : Vec Ideal S4096 .i32) (ix1 j) = atD (idx0 V c) (t.val % 806 * 4096 + j.val) := by
  have hlt : t.val % 806 * 4096 + j.val < 3301376 := by have := j.isLt; omega
  rw [atD_lt _ hlt]
  unfold R0.iblk0
  rw [View.read_apply]
  show V c main_v8 _ = V c main_v8 _
  exact congrArg (V c main_v8) (ix1_eq _ ⟨_, hlt⟩ (row0 t j.val))

theorem updBlk0_apply (c : Dev nD) (t : Fin cfg0.N) (j : Fin 4096) (f : Fin 1) :
    (R0.iblk0 V c 1 t : Vec Ideal S4096x1 .f32) (ix2 j f) = atD (upd0 V c f) (t.val % 806 * 4096 + j.val) := by
  have hlt : t.val % 806 * 4096 + j.val < 3301376 := by have := j.isLt; omega
  rw [atD_lt _ hlt]
  unfold R0.iblk0
  rw [View.read_apply]
  show V c main_v10 _ = V c main_v10 _
  exact congrArg (V c main_v10) (ix2_eq _ ⟨_, hlt⟩ _ (row0 t j.val) (col_eq _ _))

/-- What edge tile s adds to row r of node tile n: over the tile's edges, the one-hot entry "the edge's word reads as
    node 2000 n + r" times the edge's message. -/
def tile0 (c : Dev nD) (f : Fin 1) (n : ℕ) (r : Fin 2000) (s : ℕ) : EReal :=
  ∑ j : Fin 4096, (if (atD (idx0 V c) (s * 4096 + j.val)).toInt = ((n * 2000 + r.val : ℕ) : Int) then (1 : EReal) else 0)
    * atD (upd0 V c f) (s * 4096 + j.val)

theorem step0 (c : Dev nD) (t : Fin cfg0.N) (v20 : Vec Ideal S2000x1 .f32) (r : Fin 2000) (f : Fin 1) :
    k0_pay2 (grid0.coords t) (R0.iblk0 V c 0 t) (R0.iblk0 V c 1 t) v20 (ix2 r f)
      = v20 (ix2 r f) + tile0 V c f (t.val / 806) r (t.val % 806) := by
  have ht : t.val < 40300 := lt_of_lt_of_eq t.isLt N_0
  refine (R0Pay.pay2_apply_toInt (grid0.coords t) (by rw [coords0_0]; omega) (R0.iblk0 V c 0 t) (R0.iblk0 V c 1 t) v20 r f).trans
    (congrArg (fun x => v20 (ix2 r f) + x) ?_)
  unfold tile0
  refine Finset.sum_congr rfl fun j _ => ?_
  rw [coords0_0 t, idxBlk0_apply V c t j, updBlk0_apply V c t j f]

/-- After point t the accumulator holds the shares of edge tiles 0 … t mod 806 for node tile t / 806. -/
theorem acc0_apply (c : Dev nD) (f : Fin 1) (r : Fin 2000) : ∀ (t : ℕ) (ht : t < cfg0.N),
    R0.acc0 V c t ht (ix2 r f) = ∑ s ∈ Finset.range (t % 806 + 1), tile0 V c f (t / 806) r s :=
  run_sum 806 (fun n h => by omega) (fun t ht => R0.acc0 V c t ht (ix2 r f)) (fun q s => tile0 V c f q r s)
    (fun n h h0 => by
      refine (congrFun (R0.acc0_first V c ⟨n, h⟩ h0) (ix2 r f)).trans ((step0 V c ⟨n, h⟩ _ r f).trans ?_)
      rw [R0Pay.pay1_apply, zero_add]
      show tile0 V c f (n / 806) r (n % 806) = _
      rw [h0])
    (fun n h hne => (congrFun (R0.acc0_next V c ⟨n + 1, h⟩ hne) (ix2 r f)).trans (step0 V c ⟨n + 1, h⟩ _ r f))

/-- The result array: at (n, f) the scatter sum of the messages' column f at node n. -/
def res0 (c : Dev nD) : Buf (Elt Ideal) ((c : Thread nD τ).loc main_v12) := fun i =>
  Spec.ssum (fun e : Fin 3301376 => V c main_v8 (ix1 e)) (fun e => V c main_v10 (ix2 e (i 1))) (i 0)

theorem res0_apply (c : Dev nD) (n : Fin 100000) (f : Fin 1) :
    res0 V c (ix2 n f) = Spec.ssum (fun e : Fin 3301376 => V c main_v8 (ix1 e)) (fun e => V c main_v10 (ix2 e f)) n := rfl

theorem emb0_2 (t : Fin cfg0.N) (r : Fin 2000) (f : Fin 1) :
    ((cfg0.win 2).blk t).view.emb (ix2 r f) = (ix2 (node0 t r) f : S100000x1.Idx) :=
  ix2_eq _ _ _ (by
    show (BitVec.ofNat 32 (grid0.coords t 0).val).toNat * 2000 + 1 * r.val = t.val / 806 * 2000 + r.val
    rw [word0_0]
    omega) (col_eq _ _)

theorem flushed0_eq (c : Dev nD) (t : Fin cfg0.N) (hf : (cfg0.win 2).flush t = true) :
    (R0.dat0 V c).flushed 2 t = ((cfg0.win 2).blk t).view.read (Elt Ideal) (res0 V c) := by
  have h805 : t.val % 806 = 805 := (R0.flushAt0_2 t).mp hf
  show (cfg0.win 2).cut (grid0.coords t) ((R0.dat0 V c).after 2 t) = _
  rw [R0.after0_2]
  refine funext fun (j : S2000x1.Idx) => ?_
  obtain ⟨r, f, rfl⟩ : ∃ (r : Fin 2000) (f : Fin 1), j = ix2 r f := ⟨j 0, j 1, eq_ix2 j⟩
  refine (acc0_apply V c f r t.val t.isLt).trans ?_
  rw [View.read_apply, cast_eq, emb0_2 t r f, show t.val % 806 + 1 = 806 by omega, res0_apply V c (node0 t r) f]
  exact sum_tiles (idx0 V c) (upd0 V c f) (node0 t r)

/-- Node n is row n mod 2000 of the block of its node tile's last point. -/
theorem cover0 (i : S100000x1.Idx) :
    ∃ t : Fin cfg0.N, (cfg0.win 2).flush t = true ∧ i ∈ ((cfg0.win 2).blk t).view.set := by
  obtain ⟨n, f, rfl⟩ : ∃ (n : Fin 100000) (f : Fin 1), i = ix2 n f := ⟨i 0, i 1, eq_ix2 i⟩
  have hn := n.isLt
  have hN : cfg0.N = 40300 := N_0
  have hT : n.val / 2000 * 806 + 805 < cfg0.N := by omega
  refine ⟨⟨_, hT⟩, (R0.flushAt0_2 _).mpr (by show (n.val / 2000 * 806 + 805) % 806 = 805; omega), ?_⟩
  have h := View.emb_mem_set ((cfg0.win 2).blk ⟨_, hT⟩).view (ix2 (⟨n.val % 2000, Nat.mod_lt _ (by norm_num)⟩ : Fin 2000) f)
  rwa [emb0_2, show node0 ⟨_, hT⟩ ⟨n.val % 2000, Nat.mod_lt _ (by norm_num)⟩ = n from
    Fin.ext (by show (n.val / 2000 * 806 + 805) / 806 * 2000 + n.val % 2000 = n.val; omega)] at h

theorem final0_arr (c : Dev nD) : (R0.dat0 V c).arrAt 2 cfg0.N = res0 V c :=
  (R0.dat0 V c).arrAt_eq_of_cover 2 (res0 V c) (flushed0_eq V c) (cover0)

/-- The result of region 0 at node n, column f: the sum of the messages of the edges whose index word reads as n. -/
theorem final0 (c : Dev nD) (n : Fin 100000) (f : Fin 1) :
    (R0.dat0 V c).arrAt 2 cfg0.N (ix2 n f)
      = Spec.ssum (fun e : Fin 3301376 => V c main_v8 (ix1 e)) (fun e => V c main_v10 (ix2 e f)) n := by
  rw [final0_arr]
  exact res0_apply V c n f

end Cert.KernelIdeal.R0Value
end
-- ==== Proof.R1Pay.lean ====
import proofs.«401816_j90890097918492_1_alg».proof.Proof.Gen.KernelIdeal.Skeleton
import proofs.«401816_j90890097918492_1_alg».proof.Proof.PayLib
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.R1Pay

open Cert.KernelIdeal Cert.KernelIdeal.Gen Idealize.ShloMosaic Idealize.ShloMosaic.ValueIdx Idealize.SL.Sem Cert.PayLib

theorem pay1_apply (e : Fin 4096) (f : Fin 1) : k1_pay1 (F := Ideal) (ix2 e f) = 0 := by
  unfold k1_pay1
  rw [shapeCast_self]
  exact Ideal.ofBits_zero_f32

/-- The accumulator plus, over the table block's rows, the one-hot entry "the edge's word is the row's id" times the
    row's table entry; inside the 50 blocks the row id does not wrap, so the test reads on the word's signed value. -/
theorem pay2_apply_toInt (i : grid1.Coords) (hi : (i 1).val < 50) (v7 : Vec Ideal S4096 .i32) (v16 : Vec Ideal S2000x1 .f32)
    (v20 : Vec Ideal S4096x1 .f32) (e : Fin 4096) (f : Fin 1) :
    k1_pay2 i v7 v16 v20 (ix2 e f) = v20 (ix2 e f) + ∑ r : Fin 2000,
      (if (v7 (ix1 e)).toInt = (((i 1).val * 2000 + r.val : ℕ) : Int) then (1 : EReal) else 0) * v16 (ix2 r f) := by
  unfold k1_pay2
  dsimp only
  simp only [shapeCast_self]
  rw [addf_apply]
  congr 1
  simp only [matmul]
  rw [Ideal.matmul_constant_zero_apply, ← Equiv.sum_comp (contrEquiv1 dot_S4096x2000_S2000x1_S4096x1_1_0_0_1_n_n 2000 rfl rfl).symm]
  refine Finset.sum_congr rfl fun k _ => ?_
  have hk := contrEquiv1_symm_val dot_S4096x2000_S2000x1_S4096x1_1_0_0_1_n_n 2000 rfl rfl k
  generalize (contrEquiv1 dot_S4096x2000_S2000x1_S4096x1_1_0_0_1_n_n 2000 rfl rfl).symm k = q at hk ⊢
  rw [show dot_S4096x2000_S2000x1_S4096x1_1_0_0_1_n_n.lhsIdx (ix2 e f) q = ix2 e k from ix2_eq _ _ _ rfl hk,
    show dot_S4096x2000_S2000x1_S4096x1_1_0_0_1_n_n.rhsIdx (ix2 e f) q = ix2 k f from ix2_eq _ _ _ hk rfl]
  rw [truncf_apply, truncf_apply, sitofp_apply, extui_apply]
  show FloatOps.sitofp (F := Ideal) .f32 ((IntOp.cmpi .eq (broadcastTo S4096x2000 _ _ (ix2 e k)) (broadcastTo S4096x2000 _ _ (ix2 e k))).setWidth 32) * v16 (ix2 k f) = _
  rw [onehot_word, broadcastTo_a1_ab_apply, broadcastTo_1b_ab_apply, shapeCast_a_a1_apply]
  show (if v7 (ix1 e) = IntOp.addi (Scalar.muli (BitVec.ofNat 32 (i 1).val) 2000#32) (iota .tc S1x2000 32 [1] _ (ix2 (0 : Fin 1) k)) then (1 : EReal) else 0) * v16 (ix2 k f) = _
  rw [iota_single_apply]
  have hr := k.isLt
  exact congrArg (· * v16 (ix2 k f))
    (if_congr (eq_rowid_iff (i 1).val 2000 k.val (by omega) (by norm_num) (by omega) (v7 (ix1 e))) rfl rfl)

theorem pay3_apply (v28 : Vec Ideal S4096x1 .f32) (v29 : Vec Ideal S4096x1 .f32) (e : Fin 4096) (f : Fin 1) :
    k1_pay3 v28 v29 (ix2 e f) = v28 (ix2 e f) * v29 (ix2 e f) := by
  unfold k1_pay3
  simp only [shapeCast_self]
  rw [mulf_apply]
  all_goals rw [broadcastTo_a1_ab_apply]

end Cert.KernelIdeal.R1Pay

end
-- ==== Proof.R1Value.lean ====
import proofs.«401816_j90890097918492_1_alg».proof.Proof.R1Frame
import proofs.«401816_j90890097918492_1_alg».proof.Proof.R1Pay
import proofs.«401816_j90890097918492_1_alg».proof.Proof.ValueLib
import Idealize.ShloMosaic.Lib.Pipeline.Value
import Idealize.ShloMosaic.Lib.Pipeline.Kit
import Idealize.ShloMosaic.Lib.ValueIdx

noncomputable section

namespace Cert.KernelIdeal.R1Value

open Cert.KernelIdeal Cert.KernelIdeal.Gen Cert.ValueLib Cert.PayLib
open Idealize.ShloMosaic Idealize.ShloMosaic.TcCoe Idealize.ShloMosaic.ValueIdx Idealize.SL.Sem
open Idealize.ShloMosaic.Pipeline (Dat)
open scoped BigOperators

/-- The block numbers at point t: the edge tile t / 50 and the node tile t mod 50, both below 2^32. -/
theorem word1_0 (t : Fin cfg1.N) : (BitVec.ofNat 32 ((grid1.coords t) 0).val).toNat = t.val / 50 := by
  have ht : t.val < 40300 := lt_of_lt_of_eq t.isLt N_1
  have h : ((grid1.coords t) 0).val = t.val / 50 % 806 := R1.coord1_0 t.val t.isLt
  rw [BitVec.toNat_ofNat, h]
  omega
theorem word1_1 (t : Fin cfg1.N) : (BitVec.ofNat 32 ((grid1.coords t) 1).val).toNat = t.val % 50 := by
  rw [BitVec.toNat_ofNat, R1.coord1_1]
  omega

theorem flushAt1_3 (t : Fin cfg1.N) : (cfg1.win 3).flush t = true ↔ t.val % 50 = 49 := by
  have ht : t.val < 40300 := lt_of_lt_of_eq t.isLt N_1
  refine ⟨fun hf => by_contra fun h => Bool.false_ne_true ((R1.noFlush1_3 t h).symm.trans hf), fun h =>
    ((cfg1.win 3).flush_out rfl t).mpr ?_⟩
  by_cases h1 : t.val + 1 = grid1.N
  · exact Or.inl h1
  · have hlt : t.val + 1 < grid1.N := by rw [N_1] at h1 ⊢; omega
    refine Or.inr ⟨hlt, fun he => ?_⟩
    have e0 : (BitVec.ofNat 32 ((grid1.coords ⟨t.val + 1, hlt⟩) 0).val).toNat
        = (BitVec.ofNat 32 ((grid1.coords t) 0).val).toNat := congrFun he 0
    rw [word1_0, word1_0] at e0
    have e1 : (t.val + 1) / 50 = t.val / 50 := e0
    omega

def edge1 (t : Fin cfg1.N) (r : Fin 4096) : Fin 3301376 :=
  ⟨4096 * (t.val / 50) + r.val, by
    have ht : t.val < 40300 := lt_of_lt_of_eq t.isLt N_1
    have hr := r.isLt
    omega⟩

def node1 (t : Fin cfg1.N) (r : Fin 2000) : Fin 100000 :=
  ⟨t.val % 50 * 2000 + r.val, by have hr := r.isLt; omega⟩

/-- Row r of a block numbered by the edge tile is edge 4096 (t / 50) + r; numbered by the node tile, node 2000 (t mod 50) + r. -/
theorem row1_0 (t : Fin cfg1.N) (r : Fin 4096) :
    (BitVec.ofNat 32 ((grid1.coords t) 0).val).toNat * 4096 + 1 * r.val = (edge1 t r).val := by
  rw [word1_0]
  show _ = 4096 * (t.val / 50) + r.val
  omega
theorem row1_1 (t : Fin cfg1.N) (r : Fin 2000) :
    (BitVec.ofNat 32 ((grid1.coords t) 1).val).toNat * 2000 + 1 * r.val = (node1 t r).val := by
  rw [word1_1]
  show _ = t.val % 50 * 2000 + r.val
  omega

variable (V : (c : Dev nD) → (b : Ref sig .tc) → Buf (Elt Ideal) ((c : Thread nD τ).loc b))

theorem iblk1_0_apply (c : Dev nD) (t : Fin cfg1.N) (r : Fin 4096) :
    (R1.iblk1 V c 0 t : Vec Ideal S4096 .i32) (ix1 r) = V c main_v7 (ix1 (edge1 t r)) := by
  unfold R1.iblk1
  rw [View.read_apply]
  show V c main_v7 _ = V c main_v7 _
  exact congrArg (V c main_v7) (ix1_eq _ _ (row1_0 t r))

theorem iblk1_1_apply (c : Dev nD) (t : Fin cfg1.N) (r : Fin 2000) (f : Fin 1) :
    (R1.iblk1 V c 1 t : Vec Ideal S2000x1 .f32) (ix2 r f) = V c main_v16 (ix2 (node1 t r) f) := by
  unfold R1.iblk1
  rw [View.read_apply]
  show V c main_v16 _ = V c main_v16 _
  exact congrArg (V c main_v16) (ix2_eq _ _ _ (row1_1 t r) (col_eq _ _))

theorem iblk1_2_apply (c : Dev nD) (t : Fin cfg1.N) (r : Fin 4096) (g : Fin 1) :
    R1.iblk1 V c 2 t (ix2 r g) = V c main_v11 (ix2 (edge1 t r) (0 : Fin 1)) := by
  obtain rfl : g = 0 := Subsingleton.elim _ _
  unfold R1.iblk1
  rw [View.read_apply]
  show V c main_v11 _ = V c main_v11 _
  exact congrArg (V c main_v11) (ix2_eq _ _ _ (row1_0 t r) (col_eq _ _))

abbrev tbl1 (c : Dev nD) (f : Fin 1) : Fin 100000 → EReal := fun n => V c main_v16 (ix2 n f)

/-- One point adds, at row r, its node tile's share of the gather for the row's edge. -/
theorem step1 (c : Dev nD) (t : Fin cfg1.N) (v20 : Vec Ideal S4096x1 .f32) (r : Fin 4096) (f : Fin 1) :
    k1_pay2 (grid1.coords t) (R1.iblk1 V c 0 t) (R1.iblk1 V c 1 t) v20 (ix2 r f)
      = v20 (ix2 r f) + hit (tbl1 V c f) (V c main_v7 (ix1 (edge1 t r))) (t.val % 50) := by
  refine (R1Pay.pay2_apply_toInt (grid1.coords t) ((grid1.coords t) 1).isLt (R1.iblk1 V c 0 t) (R1.iblk1 V c 1 t) v20 r f).trans ?_
  refine congrArg (fun s : EReal => v20 (ix2 r f) + s) ?_
  unfold hit
  refine Finset.sum_congr rfl fun r' _ => ?_
  have hr' := r'.isLt
  rw [iblk1_0_apply V c t r, iblk1_1_apply V c t r' f, R1.coord1_1 t,
    atD_lt (tbl1 V c f) (show t.val % 50 * 2000 + r'.val < 100000 by omega)]
  rfl

/-- After node tile j of an edge tile the accumulator holds the shares of node tiles 0 … j. -/
theorem acc1_apply (c : Dev nD) (f : Fin 1) : ∀ (j : ℕ) (t : Fin cfg1.N), t.val % 50 = j → ∀ r : Fin 4096,
    R1.acc1 V c t.val t.isLt (ix2 r f)
      = ∑ k ∈ Finset.range (j + 1), hit (tbl1 V c f) (V c main_v7 (ix1 (edge1 t r))) k
  | 0, t, ht, r => by
    rw [R1.acc1_first V c t ht]
    refine (step1 V c t _ r f).trans ?_
    rw [R1Pay.pay1_apply, zero_add, Finset.sum_range_one, ht]
  | j + 1, t, ht, r => by
    have hne : ¬ t.val % 50 = 0 := by omega
    have hlt : t.val - 1 < cfg1.N := Nat.lt_of_le_of_lt (Nat.sub_le _ _) t.isLt
    rw [R1.acc1_next V c t hne]
    refine (step1 V c t _ r f).trans ?_
    have ih := acc1_apply c f j ⟨t.val - 1, hlt⟩ (by show (t.val - 1) % 50 = j; omega) r
    have he : edge1 ⟨t.val - 1, hlt⟩ r = edge1 t r :=
      Fin.ext (by show 4096 * ((t.val - 1) / 50) + r.val = 4096 * (t.val / 50) + r.val; omega)
    rw [he] at ih
    rw [Finset.sum_range_succ _ (j + 1), ← ih, ht]

/-- The result at edge e: the one-hot gather of the table at the edge's index word, times the edge's scale entry. -/
def out1 (c : Dev nD) (e : Fin 3301376) (f : Fin 1) : EReal :=
  Spec.gsel (fun n => V c main_v16 (ix2 n f)) (V c main_v7 (ix1 e)) * V c main_v11 (ix2 e (0 : Fin 1))

def G1 (c : Dev nD) : Buf (Elt Ideal) ((c : Thread nD τ).loc main_v17) := fun i => out1 V c (i 0) (i 1)

theorem stored1_apply (c : Dev nD) (t : Fin cfg1.N) (h49 : t.val % 50 = 49) (r : Fin 4096) (f : Fin 1) :
    k1_pay3 (R1.acc1 V c t.val t.isLt) (R1.iblk1 V c 2 t) (ix2 r f) = out1 V c (edge1 t r) f := by
  refine (R1Pay.pay3_apply (R1.acc1 V c t.val t.isLt) (R1.iblk1 V c 2 t) r f).trans ?_
  rw [acc1_apply V c f 49 t h49 r, sum_hit]
  exact congrArg (fun s : EReal => Spec.gsel (fun n => V c main_v16 (ix2 n f)) (V c main_v7 (ix1 (edge1 t r))) * s)
    (iblk1_2_apply V c t r _)

theorem emb1_3 (t : Fin cfg1.N) (r : Fin 4096) (f : Fin 1) :
    ((cfg1.win 3).blk t).view.emb (ix2 r f) = ix2 (edge1 t r) f :=
  ix2_eq _ _ _ (row1_0 t r) (col_eq _ _)

theorem flushed1_eq (c : Dev nD) (t : Fin cfg1.N) (hf : (cfg1.win 3).flush t = true) :
    (R1.dat1 V c).flushed 3 t = ((cfg1.win 3).blk t).view.read (Elt Ideal) (G1 V c) := by
  have h49 : t.val % 50 = 49 := (flushAt1_3 t).mp hf
  show (cfg1.win 3).cut (grid1.coords t) ((R1.dat1 V c).after 3 t) = _
  rw [R1.after1_3]
  funext y
  obtain ⟨r, f, rfl⟩ : ∃ (r : Fin 4096) (f : Fin 1), y = ix2 r f := ⟨y 0, y 1, eq_ix2 y⟩
  show k1_pay3 (R1.acc1 V c t.val t.isLt) (R1.iblk1 V c 2 t) (ix2 r f) = G1 V c (((cfg1.win 3).blk t).view.emb (ix2 r f))
  rw [stored1_apply V c t h49 r f, emb1_3 t r f]
  rfl

/-- Every edge is row e mod 4096 of the block of its edge tile's last point. -/
theorem cover1 (i : S3301376x1.Idx) :
    ∃ t : Fin cfg1.N, (cfg1.win 3).flush t = true ∧ i ∈ ((cfg1.win 3).blk t).view.set := by
  obtain ⟨e, f, rfl⟩ : ∃ (e : Fin 3301376) (f : Fin 1), i = ix2 e f := ⟨i 0, i 1, eq_ix2 i⟩
  have he := e.isLt
  have hN : cfg1.N = 40300 := N_1
  have hT : 50 * (e.val / 4096) + 49 < cfg1.N := by omega
  refine ⟨⟨_, hT⟩, (flushAt1_3 _).mpr (by show (50 * (e.val / 4096) + 49) % 50 = 49; omega), ?_⟩
  have h := View.emb_mem_set ((cfg1.win 3).blk ⟨_, hT⟩).view (ix2 (⟨e.val % 4096, Nat.mod_lt _ (by norm_num)⟩ : Fin 4096) f)
  rwa [emb1_3, show edge1 ⟨_, hT⟩ ⟨e.val % 4096, Nat.mod_lt _ (by norm_num)⟩ = e from
    Fin.ext (by show 4096 * ((50 * (e.val / 4096) + 49) / 50) + e.val % 4096 = e.val; omega)] at h

theorem final1_arr (c : Dev nD) : (R1.dat1 V c).arrAt 3 cfg1.N = G1 V c :=
  (R1.dat1 V c).arrAt_eq_of_cover 3 (G1 V c) (flushed1_eq V c) cover1

/-- The result of region 1 at edge e: the one-hot gather of the table at the edge's index word, times the edge's scale. -/
theorem final1 (c : Dev nD) (e : Fin 3301376) (f : Fin 1) :
    (R1.dat1 V c).arrAt 3 cfg1.N (ix2 e f)
      = Spec.gsel (fun n => V c main_v16 (ix2 n f)) (V c main_v7 (ix1 e)) * V c main_v11 (ix2 e (0 : Fin 1)) :=
  congrFun (final1_arr V c) (ix2 e f)

end Cert.KernelIdeal.R1Value

end
-- ==== Proof.R2Pay.lean ====
import proofs.«401816_j90890097918492_1_alg».proof.Proof.R1Pay

noncomputable section

namespace Cert.KernelIdeal.R2Pay

open Cert.KernelIdeal Cert.KernelIdeal.Gen Idealize.ShloMosaic Idealize.ShloMosaic.ValueIdx

/-- Region 2's three payloads are region 1's, term for term. -/
theorem k2_pay1_eq : @k2_pay1 Ideal _ = @k1_pay1 Ideal _ := rfl
theorem k2_pay2_eq : @k2_pay2 Ideal _ = @k1_pay2 Ideal _ := rfl
theorem k2_pay3_eq : @k2_pay3 Ideal _ = @k1_pay3 Ideal _ := rfl

theorem pay1_apply (e : Fin 4096) (f : Fin 1) : k2_pay1 (F := Ideal) (ix2 e f) = 0 := by
  rw [k2_pay1_eq]
  exact R1Pay.pay1_apply e f

theorem pay2_apply_toInt (i : grid2.Coords) (hi : (i 1).val < 50) (v7 : Vec Ideal S4096 .i32) (v16 : Vec Ideal S2000x1 .f32)
    (v20 : Vec Ideal S4096x1 .f32) (e : Fin 4096) (f : Fin 1) :
    k2_pay2 i v7 v16 v20 (ix2 e f) = v20 (ix2 e f) + ∑ r : Fin 2000,
      (if (v7 (ix1 e)).toInt = (((i 1).val * 2000 + r.val : ℕ) : Int) then (1 : EReal) else 0) * v16 (ix2 r f) := by
  rw [k2_pay2_eq]
  exact R1Pay.pay2_apply_toInt i hi v7 v16 v20 e f

theorem pay3_apply (v28 : Vec Ideal S4096x1 .f32) (v29 : Vec Ideal S4096x1 .f32) (e : Fin 4096) (f : Fin 1) :
    k2_pay3 v28 v29 (ix2 e f) = v28 (ix2 e f) * v29 (ix2 e f) := by
  rw [k2_pay3_eq]
  exact R1Pay.pay3_apply v28 v29 e f

end Cert.KernelIdeal.R2Pay

end
-- ==== Proof.R2Value.lean ====
import proofs.«401816_j90890097918492_1_alg».proof.Proof.R2Frame
import proofs.«401816_j90890097918492_1_alg».proof.Proof.R2Pay
import proofs.«401816_j90890097918492_1_alg».proof.Proof.ValueLib
import Idealize.ShloMosaic.Lib.Pipeline.Value
import Idealize.ShloMosaic.Lib.Pipeline.Kit
import Idealize.ShloMosaic.Lib.ValueIdx

noncomputable section

namespace Cert.KernelIdeal.R2Value

open Cert.KernelIdeal Cert.KernelIdeal.Gen Cert.ValueLib Cert.PayLib
open Idealize.ShloMosaic Idealize.ShloMosaic.TcCoe Idealize.ShloMosaic.ValueIdx Idealize.SL.Sem
open Idealize.ShloMosaic.Pipeline (Dat)
open scoped BigOperators

/-- The block numbers at point t: the edge tile t / 50 and the node tile t mod 50, both below 2^32. -/
theorem word2_0 (t : Fin cfg2.N) : (BitVec.ofNat 32 ((grid2.coords t) 0).val).toNat = t.val / 50 := by
  have ht : t.val < 40300 := lt_of_lt_of_eq t.isLt N_2
  have h : ((grid2.coords t) 0).val = t.val / 50 % 806 := R2.coord2_0 t.val t.isLt
  rw [BitVec.toNat_ofNat, h]
  omega
theorem word2_1 (t : Fin cfg2.N) : (BitVec.ofNat 32 ((grid2.coords t) 1).val).toNat = t.val % 50 := by
  rw [BitVec.toNat_ofNat, R2.coord2_1]
  omega

theorem flushAt2_3 (t : Fin cfg2.N) : (cfg2.win 3).flush t = true ↔ t.val % 50 = 49 := by
  have ht : t.val < 40300 := lt_of_lt_of_eq t.isLt N_2
  refine ⟨fun hf => by_contra fun h => Bool.false_ne_true ((R2.noFlush2_3 t h).symm.trans hf), fun h =>
    ((cfg2.win 3).flush_out rfl t).mpr ?_⟩
  by_cases h1 : t.val + 1 = grid2.N
  · exact Or.inl h1
  · have hlt : t.val + 1 < grid2.N := by rw [N_2] at h1 ⊢; omega
    refine Or.inr ⟨hlt, fun he => ?_⟩
    have e0 : (BitVec.ofNat 32 ((grid2.coords ⟨t.val + 1, hlt⟩) 0).val).toNat
        = (BitVec.ofNat 32 ((grid2.coords t) 0).val).toNat := congrFun he 0
    rw [word2_0, word2_0] at e0
    have e1 : (t.val + 1) / 50 = t.val / 50 := e0
    omega

def edge2 (t : Fin cfg2.N) (r : Fin 4096) : Fin 3301376 :=
  ⟨4096 * (t.val / 50) + r.val, by
    have ht : t.val < 40300 := lt_of_lt_of_eq t.isLt N_2
    have hr := r.isLt
    omega⟩

def node2 (t : Fin cfg2.N) (r : Fin 2000) : Fin 100000 :=
  ⟨t.val % 50 * 2000 + r.val, by have hr := r.isLt; omega⟩

/-- Row r of a block numbered by the edge tile is edge 4096 (t / 50) + r; numbered by the node tile, node 2000 (t mod 50) + r. -/
theorem row2_0 (t : Fin cfg2.N) (r : Fin 4096) :
    (BitVec.ofNat 32 ((grid2.coords t) 0).val).toNat * 4096 + 1 * r.val = (edge2 t r).val := by
  rw [word2_0]
  show _ = 4096 * (t.val / 50) + r.val
  omega
theorem row2_1 (t : Fin cfg2.N) (r : Fin 2000) :
    (BitVec.ofNat 32 ((grid2.coords t) 1).val).toNat * 2000 + 1 * r.val = (node2 t r).val := by
  rw [word2_1]
  show _ = t.val % 50 * 2000 + r.val
  omega

variable (V : (c : Dev nD) → (b : Ref sig .tc) → Buf (Elt Ideal) ((c : Thread nD τ).loc b))

theorem iblk2_0_apply (c : Dev nD) (t : Fin cfg2.N) (r : Fin 4096) :
    (R2.iblk2 V c 0 t : Vec Ideal S4096 .i32) (ix1 r) = V c main_v8 (ix1 (edge2 t r)) := by
  unfold R2.iblk2
  rw [View.read_apply]
  show V c main_v8 _ = V c main_v8 _
  exact congrArg (V c main_v8) (ix1_eq _ _ (row2_0 t r))

theorem iblk2_1_apply (c : Dev nD) (t : Fin cfg2.N) (r : Fin 2000) (f : Fin 1) :
    (R2.iblk2 V c 1 t : Vec Ideal S2000x1 .f32) (ix2 r f) = V c main_v16 (ix2 (node2 t r) f) := by
  unfold R2.iblk2
  rw [View.read_apply]
  show V c main_v16 _ = V c main_v16 _
  exact congrArg (V c main_v16) (ix2_eq _ _ _ (row2_1 t r) (col_eq _ _))

theorem iblk2_2_apply (c : Dev nD) (t : Fin cfg2.N) (r : Fin 4096) (g : Fin 1) :
    R2.iblk2 V c 2 t (ix2 r g) = V c main_v11 (ix2 (edge2 t r) (0 : Fin 1)) := by
  obtain rfl : g = 0 := Subsingleton.elim _ _
  unfold R2.iblk2
  rw [View.read_apply]
  show V c main_v11 _ = V c main_v11 _
  exact congrArg (V c main_v11) (ix2_eq _ _ _ (row2_0 t r) (col_eq _ _))

abbrev tbl2 (c : Dev nD) (f : Fin 1) : Fin 100000 → EReal := fun n => V c main_v16 (ix2 n f)

/-- One point adds, at row r, its node tile's share of the gather for the row's edge. -/
theorem step2 (c : Dev nD) (t : Fin cfg2.N) (v20 : Vec Ideal S4096x1 .f32) (r : Fin 4096) (f : Fin 1) :
    k2_pay2 (grid2.coords t) (R2.iblk2 V c 0 t) (R2.iblk2 V c 1 t) v20 (ix2 r f)
      = v20 (ix2 r f) + hit (tbl2 V c f) (V c main_v8 (ix1 (edge2 t r))) (t.val % 50) := by
  refine (R2Pay.pay2_apply_toInt (grid2.coords t) ((grid2.coords t) 1).isLt (R2.iblk2 V c 0 t) (R2.iblk2 V c 1 t) v20 r f).trans ?_
  refine congrArg (fun s : EReal => v20 (ix2 r f) + s) ?_
  unfold hit
  refine Finset.sum_congr rfl fun r' _ => ?_
  have hr' := r'.isLt
  rw [iblk2_0_apply V c t r, iblk2_1_apply V c t r' f, R2.coord2_1 t,
    atD_lt (tbl2 V c f) (show t.val % 50 * 2000 + r'.val < 100000 by omega)]
  rfl

/-- After node tile j of an edge tile the accumulator holds the shares of node tiles 0 … j. -/
theorem acc2_apply (c : Dev nD) (f : Fin 1) : ∀ (j : ℕ) (t : Fin cfg2.N), t.val % 50 = j → ∀ r : Fin 4096,
    R2.acc2 V c t.val t.isLt (ix2 r f)
      = ∑ k ∈ Finset.range (j + 1), hit (tbl2 V c f) (V c main_v8 (ix1 (edge2 t r))) k
  | 0, t, ht, r => by
    rw [R2.acc2_first V c t ht]
    refine (step2 V c t _ r f).trans ?_
    rw [R2Pay.pay1_apply, zero_add, Finset.sum_range_one, ht]
  | j + 1, t, ht, r => by
    have hne : ¬ t.val % 50 = 0 := by omega
    have hlt : t.val - 1 < cfg2.N := Nat.lt_of_le_of_lt (Nat.sub_le _ _) t.isLt
    rw [R2.acc2_next V c t hne]
    refine (step2 V c t _ r f).trans ?_
    have ih := acc2_apply c f j ⟨t.val - 1, hlt⟩ (by show (t.val - 1) % 50 = j; omega) r
    have he : edge2 ⟨t.val - 1, hlt⟩ r = edge2 t r :=
      Fin.ext (by show 4096 * ((t.val - 1) / 50) + r.val = 4096 * (t.val / 50) + r.val; omega)
    rw [he] at ih
    rw [Finset.sum_range_succ _ (j + 1), ← ih, ht]

/-- The result at edge e: the one-hot gather of the table at the edge's index word, times the edge's scale entry. -/
def out2 (c : Dev nD) (e : Fin 3301376) (f : Fin 1) : EReal :=
  Spec.gsel (fun n => V c main_v16 (ix2 n f)) (V c main_v8 (ix1 e)) * V c main_v11 (ix2 e (0 : Fin 1))

def G2 (c : Dev nD) : Buf (Elt Ideal) ((c : Thread nD τ).loc main_v18) := fun i => out2 V c (i 0) (i 1)

theorem stored2_apply (c : Dev nD) (t : Fin cfg2.N) (h49 : t.val % 50 = 49) (r : Fin 4096) (f : Fin 1) :
    k2_pay3 (R2.acc2 V c t.val t.isLt) (R2.iblk2 V c 2 t) (ix2 r f) = out2 V c (edge2 t r) f := by
  refine (R2Pay.pay3_apply (R2.acc2 V c t.val t.isLt) (R2.iblk2 V c 2 t) r f).trans ?_
  rw [acc2_apply V c f 49 t h49 r, sum_hit]
  exact congrArg (fun s : EReal => Spec.gsel (fun n => V c main_v16 (ix2 n f)) (V c main_v8 (ix1 (edge2 t r))) * s)
    (iblk2_2_apply V c t r _)

theorem emb2_3 (t : Fin cfg2.N) (r : Fin 4096) (f : Fin 1) :
    ((cfg2.win 3).blk t).view.emb (ix2 r f) = ix2 (edge2 t r) f :=
  ix2_eq _ _ _ (row2_0 t r) (col_eq _ _)

theorem flushed2_eq (c : Dev nD) (t : Fin cfg2.N) (hf : (cfg2.win 3).flush t = true) :
    (R2.dat2 V c).flushed 3 t = ((cfg2.win 3).blk t).view.read (Elt Ideal) (G2 V c) := by
  have h49 : t.val % 50 = 49 := (flushAt2_3 t).mp hf
  show (cfg2.win 3).cut (grid2.coords t) ((R2.dat2 V c).after 3 t) = _
  rw [R2.after2_3]
  funext y
  obtain ⟨r, f, rfl⟩ : ∃ (r : Fin 4096) (f : Fin 1), y = ix2 r f := ⟨y 0, y 1, eq_ix2 y⟩
  show k2_pay3 (R2.acc2 V c t.val t.isLt) (R2.iblk2 V c 2 t) (ix2 r f) = G2 V c (((cfg2.win 3).blk t).view.emb (ix2 r f))
  rw [stored2_apply V c t h49 r f, emb2_3 t r f]
  rfl

/-- Every edge is row e mod 4096 of the block of its edge tile's last point. -/
theorem cover2 (i : S3301376x1.Idx) :
    ∃ t : Fin cfg2.N, (cfg2.win 3).flush t = true ∧ i ∈ ((cfg2.win 3).blk t).view.set := by
  obtain ⟨e, f, rfl⟩ : ∃ (e : Fin 3301376) (f : Fin 1), i = ix2 e f := ⟨i 0, i 1, eq_ix2 i⟩
  have he := e.isLt
  have hN : cfg2.N = 40300 := N_2
  have hT : 50 * (e.val / 4096) + 49 < cfg2.N := by omega
  refine ⟨⟨_, hT⟩, (flushAt2_3 _).mpr (by show (50 * (e.val / 4096) + 49) % 50 = 49; omega), ?_⟩
  have h := View.emb_mem_set ((cfg2.win 3).blk ⟨_, hT⟩).view (ix2 (⟨e.val % 4096, Nat.mod_lt _ (by norm_num)⟩ : Fin 4096) f)
  rwa [emb2_3, show edge2 ⟨_, hT⟩ ⟨e.val % 4096, Nat.mod_lt _ (by norm_num)⟩ = e from
    Fin.ext (by show 4096 * ((50 * (e.val / 4096) + 49) / 50) + e.val % 4096 = e.val; omega)] at h

theorem final2_arr (c : Dev nD) : (R2.dat2 V c).arrAt 3 cfg2.N = G2 V c :=
  (R2.dat2 V c).arrAt_eq_of_cover 3 (G2 V c) (flushed2_eq V c) cover2

/-- The result of region 2 at edge e: the one-hot gather of the table at the edge's index word, times the edge's scale. -/
theorem final2 (c : Dev nD) (e : Fin 3301376) (f : Fin 1) :
    (R2.dat2 V c).arrAt 3 cfg2.N (ix2 e f)
      = Spec.gsel (fun n => V c main_v16 (ix2 n f)) (V c main_v8 (ix1 e)) * V c main_v11 (ix2 e (0 : Fin 1)) :=
  congrFun (final2_arr V c) (ix2 e f)

end Cert.KernelIdeal.R2Value

end
-- ==== Proof.R3Pay.lean ====
import proofs.«401816_j90890097918492_1_alg».proof.Proof.Gen.KernelIdeal.Skeleton
import proofs.«401816_j90890097918492_1_alg».proof.Proof.PayLib
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.R3Pay

open Cert.KernelIdeal Cert.KernelIdeal.Gen Idealize.ShloMosaic Idealize.ShloMosaic.ValueIdx Idealize.SL.Sem Cert.PayLib

theorem pay1_apply (e : Fin 4096) (f : Fin 16) : k3_pay1 (F := Ideal) (ix2 e f) = 0 := by
  unfold k3_pay1
  rw [shapeCast_self]
  exact Ideal.ofBits_zero_f32

/-- The accumulator plus, over the table block's rows, the one-hot entry "the edge's word is the row's id" times the
    row's table entry; inside the 50 blocks the row id does not wrap, so the test reads on the word's signed value. -/
theorem pay2_apply_toInt (i : grid3.Coords) (hi : (i 1).val < 50) (v7 : Vec Ideal S4096 .i32) (v16 : Vec Ideal S2000x16 .f32)
    (v20 : Vec Ideal S4096x16 .f32) (e : Fin 4096) (f : Fin 16) :
    k3_pay2 i v7 v16 v20 (ix2 e f) = v20 (ix2 e f) + ∑ r : Fin 2000,
      (if (v7 (ix1 e)).toInt = (((i 1).val * 2000 + r.val : ℕ) : Int) then (1 : EReal) else 0) * v16 (ix2 r f) := by
  unfold k3_pay2
  dsimp only
  simp only [shapeCast_self]
  rw [addf_apply]
  congr 1
  simp only [matmul]
  rw [Ideal.matmul_constant_zero_apply, ← Equiv.sum_comp (contrEquiv1 dot_S4096x2000_S2000x16_S4096x16_1_0_0_1_n_n 2000 rfl rfl).symm]
  refine Finset.sum_congr rfl fun k _ => ?_
  have hk := contrEquiv1_symm_val dot_S4096x2000_S2000x16_S4096x16_1_0_0_1_n_n 2000 rfl rfl k
  generalize (contrEquiv1 dot_S4096x2000_S2000x16_S4096x16_1_0_0_1_n_n 2000 rfl rfl).symm k = q at hk ⊢
  rw [show dot_S4096x2000_S2000x16_S4096x16_1_0_0_1_n_n.lhsIdx (ix2 e f) q = ix2 e k from ix2_eq _ _ _ rfl hk,
    show dot_S4096x2000_S2000x16_S4096x16_1_0_0_1_n_n.rhsIdx (ix2 e f) q = ix2 k f from ix2_eq _ _ _ hk rfl]
  rw [truncf_apply, truncf_apply, sitofp_apply, extui_apply]
  show FloatOps.sitofp (F := Ideal) .f32 ((IntOp.cmpi .eq (broadcastTo S4096x2000 _ _ (ix2 e k)) (broadcastTo S4096x2000 _ _ (ix2 e k))).setWidth 32) * v16 (ix2 k f) = _
  rw [onehot_word, broadcastTo_a1_ab_apply, broadcastTo_1b_ab_apply, shapeCast_a_a1_apply]
  show (if v7 (ix1 e) = IntOp.addi (Scalar.muli (BitVec.ofNat 32 (i 1).val) 2000#32) (iota .tc S1x2000 32 [1] _ (ix2 (0 : Fin 1) k)) then (1 : EReal) else 0) * v16 (ix2 k f) = _
  rw [iota_single_apply]
  have hr := k.isLt
  exact congrArg (· * v16 (ix2 k f))
    (if_congr (eq_rowid_iff (i 1).val 2000 k.val (by omega) (by norm_num) (by omega) (v7 (ix1 e))) rfl rfl)

theorem pay3_apply (v28 : Vec Ideal S4096x16 .f32) (v29 : Vec Ideal S4096x1 .f32) (e : Fin 4096) (f : Fin 16) :
    k3_pay3 v28 v29 (ix2 e f) = v28 (ix2 e f) * v29 (ix2 e (0 : Fin 1)) := by
  unfold k3_pay3
  simp only [shapeCast_self]
  rw [mulf_apply]
  all_goals rw [broadcastTo_a1_ab_apply]

end Cert.KernelIdeal.R3Pay

end
-- ==== Proof.R3Value.lean ====
import proofs.«401816_j90890097918492_1_alg».proof.Proof.R3Frame
import proofs.«401816_j90890097918492_1_alg».proof.Proof.R3Pay
import proofs.«401816_j90890097918492_1_alg».proof.Proof.ValueLib
import Idealize.ShloMosaic.Lib.Pipeline.Value
import Idealize.ShloMosaic.Lib.Pipeline.Kit
import Idealize.ShloMosaic.Lib.ValueIdx

noncomputable section

namespace Cert.KernelIdeal.R3Value

open Cert.KernelIdeal Cert.KernelIdeal.Gen Cert.ValueLib Cert.PayLib
open Idealize.ShloMosaic Idealize.ShloMosaic.TcCoe Idealize.ShloMosaic.ValueIdx Idealize.SL.Sem
open Idealize.ShloMosaic.Pipeline (Dat)
open scoped BigOperators

/-- The block numbers at point t: the edge tile t / 50 and the node tile t mod 50, both below 2^32. -/
theorem word3_0 (t : Fin cfg3.N) : (BitVec.ofNat 32 ((grid3.coords t) 0).val).toNat = t.val / 50 := by
  have ht : t.val < 40300 := lt_of_lt_of_eq t.isLt N_3
  have h : ((grid3.coords t) 0).val = t.val / 50 % 806 := R3.coord3_0 t.val t.isLt
  rw [BitVec.toNat_ofNat, h]
  omega
theorem word3_1 (t : Fin cfg3.N) : (BitVec.ofNat 32 ((grid3.coords t) 1).val).toNat = t.val % 50 := by
  rw [BitVec.toNat_ofNat, R3.coord3_1]
  omega

theorem flushAt3_3 (t : Fin cfg3.N) : (cfg3.win 3).flush t = true ↔ t.val % 50 = 49 := by
  have ht : t.val < 40300 := lt_of_lt_of_eq t.isLt N_3
  refine ⟨fun hf => by_contra fun h => Bool.false_ne_true ((R3.noFlush3_3 t h).symm.trans hf), fun h =>
    ((cfg3.win 3).flush_out rfl t).mpr ?_⟩
  by_cases h1 : t.val + 1 = grid3.N
  · exact Or.inl h1
  · have hlt : t.val + 1 < grid3.N := by rw [N_3] at h1 ⊢; omega
    refine Or.inr ⟨hlt, fun he => ?_⟩
    have e0 : (BitVec.ofNat 32 ((grid3.coords ⟨t.val + 1, hlt⟩) 0).val).toNat
        = (BitVec.ofNat 32 ((grid3.coords t) 0).val).toNat := congrFun he 0
    rw [word3_0, word3_0] at e0
    have e1 : (t.val + 1) / 50 = t.val / 50 := e0
    omega

def edge3 (t : Fin cfg3.N) (r : Fin 4096) : Fin 3301376 :=
  ⟨4096 * (t.val / 50) + r.val, by
    have ht : t.val < 40300 := lt_of_lt_of_eq t.isLt N_3
    have hr := r.isLt
    omega⟩

def node3 (t : Fin cfg3.N) (r : Fin 2000) : Fin 100000 :=
  ⟨t.val % 50 * 2000 + r.val, by have hr := r.isLt; omega⟩

/-- Row r of a block numbered by the edge tile is edge 4096 (t / 50) + r; numbered by the node tile, node 2000 (t mod 50) + r. -/
theorem row3_0 (t : Fin cfg3.N) (r : Fin 4096) :
    (BitVec.ofNat 32 ((grid3.coords t) 0).val).toNat * 4096 + 1 * r.val = (edge3 t r).val := by
  rw [word3_0]
  show _ = 4096 * (t.val / 50) + r.val
  omega
theorem row3_1 (t : Fin cfg3.N) (r : Fin 2000) :
    (BitVec.ofNat 32 ((grid3.coords t) 1).val).toNat * 2000 + 1 * r.val = (node3 t r).val := by
  rw [word3_1]
  show _ = t.val % 50 * 2000 + r.val
  omega

variable (V : (c : Dev nD) → (b : Ref sig .tc) → Buf (Elt Ideal) ((c : Thread nD τ).loc b))

theorem iblk3_0_apply (c : Dev nD) (t : Fin cfg3.N) (r : Fin 4096) :
    (R3.iblk3 V c 0 t : Vec Ideal S4096 .i32) (ix1 r) = V c main_v7 (ix1 (edge3 t r)) := by
  unfold R3.iblk3
  rw [View.read_apply]
  show V c main_v7 _ = V c main_v7 _
  exact congrArg (V c main_v7) (ix1_eq _ _ (row3_0 t r))

theorem iblk3_1_apply (c : Dev nD) (t : Fin cfg3.N) (r : Fin 2000) (f : Fin 16) :
    (R3.iblk3 V c 1 t : Vec Ideal S2000x16 .f32) (ix2 r f) = V c main_v22 (ix2 (node3 t r) f) := by
  unfold R3.iblk3
  rw [View.read_apply]
  show V c main_v22 _ = V c main_v22 _
  exact congrArg (V c main_v22) (ix2_eq _ _ _ (row3_1 t r) (col_eq _ _))

theorem iblk3_2_apply (c : Dev nD) (t : Fin cfg3.N) (r : Fin 4096) (g : Fin 1) :
    R3.iblk3 V c 2 t (ix2 r g) = V c main_v20 (ix2 (edge3 t r) (0 : Fin 1)) := by
  obtain rfl : g = 0 := Subsingleton.elim _ _
  unfold R3.iblk3
  rw [View.read_apply]
  show V c main_v20 _ = V c main_v20 _
  exact congrArg (V c main_v20) (ix2_eq _ _ _ (row3_0 t r) (col_eq _ _))

abbrev tbl3 (c : Dev nD) (f : Fin 16) : Fin 100000 → EReal := fun n => V c main_v22 (ix2 n f)

/-- One point adds, at row r, its node tile's share of the gather for the row's edge. -/
theorem step3 (c : Dev nD) (t : Fin cfg3.N) (v20 : Vec Ideal S4096x16 .f32) (r : Fin 4096) (f : Fin 16) :
    k3_pay2 (grid3.coords t) (R3.iblk3 V c 0 t) (R3.iblk3 V c 1 t) v20 (ix2 r f)
      = v20 (ix2 r f) + hit (tbl3 V c f) (V c main_v7 (ix1 (edge3 t r))) (t.val % 50) := by
  refine (R3Pay.pay2_apply_toInt (grid3.coords t) ((grid3.coords t) 1).isLt (R3.iblk3 V c 0 t) (R3.iblk3 V c 1 t) v20 r f).trans ?_
  refine congrArg (fun s : EReal => v20 (ix2 r f) + s) ?_
  unfold hit
  refine Finset.sum_congr rfl fun r' _ => ?_
  have hr' := r'.isLt
  rw [iblk3_0_apply V c t r, iblk3_1_apply V c t r' f, R3.coord3_1 t,
    atD_lt (tbl3 V c f) (show t.val % 50 * 2000 + r'.val < 100000 by omega)]
  rfl

/-- After node tile j of an edge tile the accumulator holds the shares of node tiles 0 … j. -/
theorem acc3_apply (c : Dev nD) (f : Fin 16) : ∀ (j : ℕ) (t : Fin cfg3.N), t.val % 50 = j → ∀ r : Fin 4096,
    R3.acc3 V c t.val t.isLt (ix2 r f)
      = ∑ k ∈ Finset.range (j + 1), hit (tbl3 V c f) (V c main_v7 (ix1 (edge3 t r))) k
  | 0, t, ht, r => by
    rw [R3.acc3_first V c t ht]
    refine (step3 V c t _ r f).trans ?_
    rw [R3Pay.pay1_apply, zero_add, Finset.sum_range_one, ht]
  | j + 1, t, ht, r => by
    have hne : ¬ t.val % 50 = 0 := by omega
    have hlt : t.val - 1 < cfg3.N := Nat.lt_of_le_of_lt (Nat.sub_le _ _) t.isLt
    rw [R3.acc3_next V c t hne]
    refine (step3 V c t _ r f).trans ?_
    have ih := acc3_apply c f j ⟨t.val - 1, hlt⟩ (by show (t.val - 1) % 50 = j; omega) r
    have he : edge3 ⟨t.val - 1, hlt⟩ r = edge3 t r :=
      Fin.ext (by show 4096 * ((t.val - 1) / 50) + r.val = 4096 * (t.val / 50) + r.val; omega)
    rw [he] at ih
    rw [Finset.sum_range_succ _ (j + 1), ← ih, ht]

/-- The result at edge e: the one-hot gather of the table at the edge's index word, times the edge's scale entry. -/
def out3 (c : Dev nD) (e : Fin 3301376) (f : Fin 16) : EReal :=
  Spec.gsel (fun n => V c main_v22 (ix2 n f)) (V c main_v7 (ix1 e)) * V c main_v20 (ix2 e (0 : Fin 1))

def G3 (c : Dev nD) : Buf (Elt Ideal) ((c : Thread nD τ).loc main_v23) := fun i => out3 V c (i 0) (i 1)

theorem stored3_apply (c : Dev nD) (t : Fin cfg3.N) (h49 : t.val % 50 = 49) (r : Fin 4096) (f : Fin 16) :
    k3_pay3 (R3.acc3 V c t.val t.isLt) (R3.iblk3 V c 2 t) (ix2 r f) = out3 V c (edge3 t r) f := by
  refine (R3Pay.pay3_apply (R3.acc3 V c t.val t.isLt) (R3.iblk3 V c 2 t) r f).trans ?_
  rw [acc3_apply V c f 49 t h49 r, sum_hit]
  exact congrArg (fun s : EReal => Spec.gsel (fun n => V c main_v22 (ix2 n f)) (V c main_v7 (ix1 (edge3 t r))) * s)
    (iblk3_2_apply V c t r _)

theorem emb3_3 (t : Fin cfg3.N) (r : Fin 4096) (f : Fin 16) :
    ((cfg3.win 3).blk t).view.emb (ix2 r f) = ix2 (edge3 t r) f :=
  ix2_eq _ _ _ (row3_0 t r) (col_eq _ _)

theorem flushed3_eq (c : Dev nD) (t : Fin cfg3.N) (hf : (cfg3.win 3).flush t = true) :
    (R3.dat3 V c).flushed 3 t = ((cfg3.win 3).blk t).view.read (Elt Ideal) (G3 V c) := by
  have h49 : t.val % 50 = 49 := (flushAt3_3 t).mp hf
  show (cfg3.win 3).cut (grid3.coords t) ((R3.dat3 V c).after 3 t) = _
  rw [R3.after3_3]
  funext y
  obtain ⟨r, f, rfl⟩ : ∃ (r : Fin 4096) (f : Fin 16), y = ix2 r f := ⟨y 0, y 1, eq_ix2 y⟩
  show k3_pay3 (R3.acc3 V c t.val t.isLt) (R3.iblk3 V c 2 t) (ix2 r f) = G3 V c (((cfg3.win 3).blk t).view.emb (ix2 r f))
  rw [stored3_apply V c t h49 r f, emb3_3 t r f]
  rfl

/-- Every edge is row e mod 4096 of the block of its edge tile's last point. -/
theorem cover3 (i : S3301376x16.Idx) :
    ∃ t : Fin cfg3.N, (cfg3.win 3).flush t = true ∧ i ∈ ((cfg3.win 3).blk t).view.set := by
  obtain ⟨e, f, rfl⟩ : ∃ (e : Fin 3301376) (f : Fin 16), i = ix2 e f := ⟨i 0, i 1, eq_ix2 i⟩
  have he := e.isLt
  have hN : cfg3.N = 40300 := N_3
  have hT : 50 * (e.val / 4096) + 49 < cfg3.N := by omega
  refine ⟨⟨_, hT⟩, (flushAt3_3 _).mpr (by show (50 * (e.val / 4096) + 49) % 50 = 49; omega), ?_⟩
  have h := View.emb_mem_set ((cfg3.win 3).blk ⟨_, hT⟩).view (ix2 (⟨e.val % 4096, Nat.mod_lt _ (by norm_num)⟩ : Fin 4096) f)
  rwa [emb3_3, show edge3 ⟨_, hT⟩ ⟨e.val % 4096, Nat.mod_lt _ (by norm_num)⟩ = e from
    Fin.ext (by show 4096 * ((50 * (e.val / 4096) + 49) / 50) + e.val % 4096 = e.val; omega)] at h

theorem final3_arr (c : Dev nD) : (R3.dat3 V c).arrAt 3 cfg3.N = G3 V c :=
  (R3.dat3 V c).arrAt_eq_of_cover 3 (G3 V c) (flushed3_eq V c) cover3

/-- The result of region 3 at edge e: the one-hot gather of the table at the edge's index word, times the edge's scale. -/
theorem final3 (c : Dev nD) (e : Fin 3301376) (f : Fin 16) :
    (R3.dat3 V c).arrAt 3 cfg3.N (ix2 e f)
      = Spec.gsel (fun n => V c main_v22 (ix2 n f)) (V c main_v7 (ix1 e)) * V c main_v20 (ix2 e (0 : Fin 1)) :=
  congrFun (final3_arr V c) (ix2 e f)

end Cert.KernelIdeal.R3Value

end
-- ==== Proof.R4Pay.lean ====
import proofs.«401816_j90890097918492_1_alg».proof.Proof.Gen.KernelIdeal.Skeleton
import proofs.«401816_j90890097918492_1_alg».proof.Proof.PayLib
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.R4Pay

open Cert.KernelIdeal Cert.KernelIdeal.Gen Idealize.ShloMosaic Idealize.ShloMosaic.ValueIdx Idealize.SL.Sem Cert.PayLib

theorem pay1_apply (r : Fin 2000) (f : Fin 16) : k4_pay1 (F := Ideal) (ix2 r f) = 0 := by
  unfold k4_pay1
  rw [shapeCast_self]
  exact Ideal.ofBits_zero_f32

/-- The accumulator plus, over the tile's edges, the one-hot entry "the edge's word is this row's id" times the edge's
    message; inside the 50 blocks the row id does not wrap, so the test reads on the word's signed value. -/
theorem pay2_apply_toInt (i : grid4.Coords) (hi : (i 0).val < 50) (v7 : Vec Ideal S4096 .i32) (v16 : Vec Ideal S4096x16 .f32)
    (v20 : Vec Ideal S2000x16 .f32) (r : Fin 2000) (f : Fin 16) :
    k4_pay2 i v7 v16 v20 (ix2 r f) = v20 (ix2 r f) + ∑ j : Fin 4096,
      (if (v7 (ix1 j)).toInt = (((i 0).val * 2000 + r.val : ℕ) : Int) then (1 : EReal) else 0) * v16 (ix2 j f) := by
  unfold k4_pay2
  dsimp only
  simp only [shapeCast_self]
  rw [addf_apply]
  congr 1
  simp only [matmul]
  rw [Ideal.matmul_constant_zero_apply, ← Equiv.sum_comp (contrEquiv1 dot_S2000x4096_S4096x16_S2000x16_1_0_0_1_n_n 4096 rfl rfl).symm]
  refine Finset.sum_congr rfl fun k _ => ?_
  have hk := contrEquiv1_symm_val dot_S2000x4096_S4096x16_S2000x16_1_0_0_1_n_n 4096 rfl rfl k
  generalize (contrEquiv1 dot_S2000x4096_S4096x16_S2000x16_1_0_0_1_n_n 4096 rfl rfl).symm k = q at hk ⊢
  rw [show dot_S2000x4096_S4096x16_S2000x16_1_0_0_1_n_n.lhsIdx (ix2 r f) q = ix2 r k from ix2_eq _ _ _ rfl hk,
    show dot_S2000x4096_S4096x16_S2000x16_1_0_0_1_n_n.rhsIdx (ix2 r f) q = ix2 k f from ix2_eq _ _ _ hk rfl]
  rw [truncf_apply, truncf_apply, sitofp_apply, extui_apply]
  show FloatOps.sitofp (F := Ideal) .f32 ((IntOp.cmpi .eq (broadcastTo S2000x4096 _ _ (ix2 r k)) (broadcastTo S2000x4096 _ _ (ix2 r k))).setWidth 32) * v16 (ix2 k f) = _
  rw [onehot_word, broadcastTo_a1_ab_apply, broadcastTo_1b_ab_apply, shapeCast_a_1a_apply]
  show (if IntOp.addi (Scalar.muli (BitVec.ofNat 32 (i 0).val) 2000#32) (iota .tc S2000x1 32 [0] _ (ix2 r (0 : Fin 1))) = v7 (ix1 k) then (1 : EReal) else 0) * v16 (ix2 k f) = _
  rw [iota_single_apply]
  have hr := r.isLt
  exact congrArg (· * v16 (ix2 k f))
    (if_congr (rowid_eq_iff (i 0).val 2000 r.val (by omega) (by norm_num) (by omega) (v7 (ix1 k))) rfl rfl)

end Cert.KernelIdeal.R4Pay

end
-- ==== Proof.R4Value.lean ====
import proofs.«401816_j90890097918492_1_alg».proof.Proof.R4Frame
import proofs.«401816_j90890097918492_1_alg».proof.Proof.R4Pay
import proofs.«401816_j90890097918492_1_alg».proof.Proof.ValueLib
import Idealize.ShloMosaic.Lib.Pipeline.Value
import Idealize.ShloMosaic.Lib.ValueIdx
import Idealize.ShloMosaic.PureOps.Ideal.Laws

noncomputable section

namespace Cert.KernelIdeal.R4Value

open Cert.KernelIdeal Cert.KernelIdeal.Gen Cert.ValueLib Cert.PayLib
open Idealize.ShloMosaic Idealize.ShloMosaic.TcCoe Idealize.ShloMosaic.ValueIdx Idealize.SL.Sem
open Idealize.ShloMosaic.Pipeline (Dat)
open scoped BigOperators

/-- Point t is in node tile t / 806, at edge tile t mod 806; both block numbers are below 2^32. -/
theorem coords4_0 (t : Fin cfg4.N) : (grid4.coords t 0).val = t.val / 806 := by
  have ht : t.val < 40300 := lt_of_lt_of_eq t.isLt N_4
  show t.val / grid4.stride 0 % 50 = _
  rw [show grid4.stride 0 = 806 from by decide]
  omega
theorem coords4_1 (t : Fin cfg4.N) : (grid4.coords t 1).val = t.val % 806 := by
  show t.val / grid4.stride 1 % 806 = _
  rw [show grid4.stride 1 = 1 from by decide, Nat.div_one]
theorem word4_0 (t : Fin cfg4.N) : (BitVec.ofNat 32 (grid4.coords t 0).val).toNat = t.val / 806 := by
  have ht : t.val < 40300 := lt_of_lt_of_eq t.isLt N_4
  rw [coords4_0, BitVec.toNat_ofNat]
  omega
theorem word4_1 (t : Fin cfg4.N) : (BitVec.ofNat 32 (grid4.coords t 1).val).toNat = t.val % 806 := by
  rw [coords4_1, BitVec.toNat_ofNat]
  omega

def node4 (t : Fin cfg4.N) (r : Fin 2000) : Fin 100000 :=
  ⟨t.val / 806 * 2000 + r.val, by
    have ht : t.val < 40300 := lt_of_lt_of_eq t.isLt N_4
    have hr := r.isLt
    omega⟩

/-- Row j of a block numbered by the edge tile is edge position 4096 (t mod 806) + j. -/
theorem row4 (t : Fin cfg4.N) (j : ℕ) :
    (BitVec.ofNat 32 (grid4.coords t 1).val).toNat * 4096 + 1 * j = t.val % 806 * 4096 + j := by
  rw [word4_1]
  omega

variable (V : (c : Dev nD) → (b : Ref sig .tc) → Buf (Elt Ideal) ((c : Thread nD τ).loc b))

abbrev idx4 (c : Dev nD) : Fin 3301376 → BitVec 32 := fun e => V c main_v8 (ix1 e)
abbrev upd4 (c : Dev nD) (f : Fin 16) : Fin 3301376 → EReal := fun e => V c main_v23 (ix2 e f)

theorem idxBlk4_apply (c : Dev nD) (t : Fin cfg4.N) (j : Fin 4096) :
    (R4.iblk4 V c 0 t : Vec Ideal S4096 .i32) (ix1 j) = atD (idx4 V c) (t.val % 806 * 4096 + j.val) := by
  have hlt : t.val % 806 * 4096 + j.val < 3301376 := by have := j.isLt; omega
  rw [atD_lt _ hlt]
  unfold R4.iblk4
  rw [View.read_apply]
  show V c main_v8 _ = V c main_v8 _
  exact congrArg (V c main_v8) (ix1_eq _ ⟨_, hlt⟩ (row4 t j.val))

theorem updBlk4_apply (c : Dev nD) (t : Fin cfg4.N) (j : Fin 4096) (f : Fin 16) :
    (R4.iblk4 V c 1 t : Vec Ideal S4096x16 .f32) (ix2 j f) = atD (upd4 V c f) (t.val % 806 * 4096 + j.val) := by
  have hlt : t.val % 806 * 4096 + j.val < 3301376 := by have := j.isLt; omega
  rw [atD_lt _ hlt]
  unfold R4.iblk4
  rw [View.read_apply]
  show V c main_v23 _ = V c main_v23 _
  exact congrArg (V c main_v23) (ix2_eq _ ⟨_, hlt⟩ _ (row4 t j.val) (col_eq _ _))

/-- What edge tile s adds to row r of node tile n: over the tile's edges, the one-hot entry "the edge's word reads as
    node 2000 n + r" times the edge's message. -/
def tile4 (c : Dev nD) (f : Fin 16) (n : ℕ) (r : Fin 2000) (s : ℕ) : EReal :=
  ∑ j : Fin 4096, (if (atD (idx4 V c) (s * 4096 + j.val)).toInt = ((n * 2000 + r.val : ℕ) : Int) then (1 : EReal) else 0)
    * atD (upd4 V c f) (s * 4096 + j.val)

theorem step4 (c : Dev nD) (t : Fin cfg4.N) (v20 : Vec Ideal S2000x16 .f32) (r : Fin 2000) (f : Fin 16) :
    k4_pay2 (grid4.coords t) (R4.iblk4 V c 0 t) (R4.iblk4 V c 1 t) v20 (ix2 r f)
      = v20 (ix2 r f) + tile4 V c f (t.val / 806) r (t.val % 806) := by
  have ht : t.val < 40300 := lt_of_lt_of_eq t.isLt N_4
  refine (R4Pay.pay2_apply_toInt (grid4.coords t) (by rw [coords4_0]; omega) (R4.iblk4 V c 0 t) (R4.iblk4 V c 1 t) v20 r f).trans
    (congrArg (fun x => v20 (ix2 r f) + x) ?_)
  unfold tile4
  refine Finset.sum_congr rfl fun j _ => ?_
  rw [coords4_0 t, idxBlk4_apply V c t j, updBlk4_apply V c t j f]

/-- After point t the accumulator holds the shares of edge tiles 0 … t mod 806 for node tile t / 806. -/
theorem acc4_apply (c : Dev nD) (f : Fin 16) (r : Fin 2000) : ∀ (t : ℕ) (ht : t < cfg4.N),
    R4.acc4 V c t ht (ix2 r f) = ∑ s ∈ Finset.range (t % 806 + 1), tile4 V c f (t / 806) r s :=
  run_sum 806 (fun n h => by omega) (fun t ht => R4.acc4 V c t ht (ix2 r f)) (fun q s => tile4 V c f q r s)
    (fun n h h0 => by
      refine (congrFun (R4.acc4_first V c ⟨n, h⟩ h0) (ix2 r f)).trans ((step4 V c ⟨n, h⟩ _ r f).trans ?_)
      rw [R4Pay.pay1_apply, zero_add]
      show tile4 V c f (n / 806) r (n % 806) = _
      rw [h0])
    (fun n h hne => (congrFun (R4.acc4_next V c ⟨n + 1, h⟩ hne) (ix2 r f)).trans (step4 V c ⟨n + 1, h⟩ _ r f))

/-- The result array: at (n, f) the scatter sum of the messages' column f at node n. -/
def res4 (c : Dev nD) : Buf (Elt Ideal) ((c : Thread nD τ).loc main_v24) := fun i =>
  Spec.ssum (fun e : Fin 3301376 => V c main_v8 (ix1 e)) (fun e => V c main_v23 (ix2 e (i 1))) (i 0)

theorem res4_apply (c : Dev nD) (n : Fin 100000) (f : Fin 16) :
    res4 V c (ix2 n f) = Spec.ssum (fun e : Fin 3301376 => V c main_v8 (ix1 e)) (fun e => V c main_v23 (ix2 e f)) n := rfl

theorem emb4_2 (t : Fin cfg4.N) (r : Fin 2000) (f : Fin 16) :
    ((cfg4.win 2).blk t).view.emb (ix2 r f) = (ix2 (node4 t r) f : S100000x16.Idx) :=
  ix2_eq _ _ _ (by
    show (BitVec.ofNat 32 (grid4.coords t 0).val).toNat * 2000 + 1 * r.val = t.val / 806 * 2000 + r.val
    rw [word4_0]
    omega) (col_eq _ _)

theorem flushed4_eq (c : Dev nD) (t : Fin cfg4.N) (hf : (cfg4.win 2).flush t = true) :
    (R4.dat4 V c).flushed 2 t = ((cfg4.win 2).blk t).view.read (Elt Ideal) (res4 V c) := by
  have h805 : t.val % 806 = 805 := (R4.flushAt4_2 t).mp hf
  show (cfg4.win 2).cut (grid4.coords t) ((R4.dat4 V c).after 2 t) = _
  rw [R4.after4_2]
  refine funext fun (j : S2000x16.Idx) => ?_
  obtain ⟨r, f, rfl⟩ : ∃ (r : Fin 2000) (f : Fin 16), j = ix2 r f := ⟨j 0, j 1, eq_ix2 j⟩
  refine (acc4_apply V c f r t.val t.isLt).trans ?_
  rw [View.read_apply, cast_eq, emb4_2 t r f, show t.val % 806 + 1 = 806 by omega, res4_apply V c (node4 t r) f]
  exact sum_tiles (idx4 V c) (upd4 V c f) (node4 t r)

/-- Node n is row n mod 2000 of the block of its node tile's last point. -/
theorem cover4 (i : S100000x16.Idx) :
    ∃ t : Fin cfg4.N, (cfg4.win 2).flush t = true ∧ i ∈ ((cfg4.win 2).blk t).view.set := by
  obtain ⟨n, f, rfl⟩ : ∃ (n : Fin 100000) (f : Fin 16), i = ix2 n f := ⟨i 0, i 1, eq_ix2 i⟩
  have hn := n.isLt
  have hN : cfg4.N = 40300 := N_4
  have hT : n.val / 2000 * 806 + 805 < cfg4.N := by omega
  refine ⟨⟨_, hT⟩, (R4.flushAt4_2 _).mpr (by show (n.val / 2000 * 806 + 805) % 806 = 805; omega), ?_⟩
  have h := View.emb_mem_set ((cfg4.win 2).blk ⟨_, hT⟩).view (ix2 (⟨n.val % 2000, Nat.mod_lt _ (by norm_num)⟩ : Fin 2000) f)
  rwa [emb4_2, show node4 ⟨_, hT⟩ ⟨n.val % 2000, Nat.mod_lt _ (by norm_num)⟩ = n from
    Fin.ext (by show (n.val / 2000 * 806 + 805) / 806 * 2000 + n.val % 2000 = n.val; omega)] at h

theorem final4_arr (c : Dev nD) : (R4.dat4 V c).arrAt 2 cfg4.N = res4 V c :=
  (R4.dat4 V c).arrAt_eq_of_cover 2 (res4 V c) (flushed4_eq V c) (cover4)

/-- The result of region 4 at node n, column f: the sum of the messages of the edges whose index word reads as n. -/
theorem final4 (c : Dev nD) (n : Fin 100000) (f : Fin 16) :
    (R4.dat4 V c).arrAt 2 cfg4.N (ix2 n f)
      = Spec.ssum (fun e : Fin 3301376 => V c main_v8 (ix1 e)) (fun e => V c main_v23 (ix2 e f)) n := by
  rw [final4_arr]
  exact res4_apply V c n f

end Cert.KernelIdeal.R4Value
end
-- ==== Proof.R5Pay.lean ====
import proofs.«401816_j90890097918492_1_alg».proof.Proof.R1Pay

noncomputable section

namespace Cert.KernelIdeal.R5Pay

open Cert.KernelIdeal Cert.KernelIdeal.Gen Idealize.ShloMosaic Idealize.ShloMosaic.ValueIdx

/-- Region 5's three payloads are region 1's, term for term. -/
theorem k5_pay1_eq : @k5_pay1 Ideal _ = @k1_pay1 Ideal _ := rfl
theorem k5_pay2_eq : @k5_pay2 Ideal _ = @k1_pay2 Ideal _ := rfl
theorem k5_pay3_eq : @k5_pay3 Ideal _ = @k1_pay3 Ideal _ := rfl

theorem pay1_apply (e : Fin 4096) (f : Fin 1) : k5_pay1 (F := Ideal) (ix2 e f) = 0 := by
  rw [k5_pay1_eq]
  exact R1Pay.pay1_apply e f

theorem pay2_apply_toInt (i : grid5.Coords) (hi : (i 1).val < 50) (v7 : Vec Ideal S4096 .i32) (v16 : Vec Ideal S2000x1 .f32)
    (v20 : Vec Ideal S4096x1 .f32) (e : Fin 4096) (f : Fin 1) :
    k5_pay2 i v7 v16 v20 (ix2 e f) = v20 (ix2 e f) + ∑ r : Fin 2000,
      (if (v7 (ix1 e)).toInt = (((i 1).val * 2000 + r.val : ℕ) : Int) then (1 : EReal) else 0) * v16 (ix2 r f) := by
  rw [k5_pay2_eq]
  exact R1Pay.pay2_apply_toInt i hi v7 v16 v20 e f

theorem pay3_apply (v28 : Vec Ideal S4096x1 .f32) (v29 : Vec Ideal S4096x1 .f32) (e : Fin 4096) (f : Fin 1) :
    k5_pay3 v28 v29 (ix2 e f) = v28 (ix2 e f) * v29 (ix2 e f) := by
  rw [k5_pay3_eq]
  exact R1Pay.pay3_apply v28 v29 e f

end Cert.KernelIdeal.R5Pay

end
-- ==== Proof.R5Value.lean ====
import proofs.«401816_j90890097918492_1_alg».proof.Proof.R5Frame
import proofs.«401816_j90890097918492_1_alg».proof.Proof.R5Pay
import proofs.«401816_j90890097918492_1_alg».proof.Proof.ValueLib
import Idealize.ShloMosaic.Lib.Pipeline.Value
import Idealize.ShloMosaic.Lib.Pipeline.Kit
import Idealize.ShloMosaic.Lib.ValueIdx

noncomputable section

namespace Cert.KernelIdeal.R5Value

open Cert.KernelIdeal Cert.KernelIdeal.Gen Cert.ValueLib Cert.PayLib
open Idealize.ShloMosaic Idealize.ShloMosaic.TcCoe Idealize.ShloMosaic.ValueIdx Idealize.SL.Sem
open Idealize.ShloMosaic.Pipeline (Dat)
open scoped BigOperators

/-- The block numbers at point t: the edge tile t / 50 and the node tile t mod 50, both below 2^32. -/
theorem word5_0 (t : Fin cfg5.N) : (BitVec.ofNat 32 ((grid5.coords t) 0).val).toNat = t.val / 50 := by
  have ht : t.val < 40300 := lt_of_lt_of_eq t.isLt N_5
  have h : ((grid5.coords t) 0).val = t.val / 50 % 806 := R5.coord5_0 t.val t.isLt
  rw [BitVec.toNat_ofNat, h]
  omega
theorem word5_1 (t : Fin cfg5.N) : (BitVec.ofNat 32 ((grid5.coords t) 1).val).toNat = t.val % 50 := by
  rw [BitVec.toNat_ofNat, R5.coord5_1]
  omega

theorem flushAt5_3 (t : Fin cfg5.N) : (cfg5.win 3).flush t = true ↔ t.val % 50 = 49 := by
  have ht : t.val < 40300 := lt_of_lt_of_eq t.isLt N_5
  refine ⟨fun hf => by_contra fun h => Bool.false_ne_true ((R5.noFlush5_3 t h).symm.trans hf), fun h =>
    ((cfg5.win 3).flush_out rfl t).mpr ?_⟩
  by_cases h1 : t.val + 1 = grid5.N
  · exact Or.inl h1
  · have hlt : t.val + 1 < grid5.N := by rw [N_5] at h1 ⊢; omega
    refine Or.inr ⟨hlt, fun he => ?_⟩
    have e0 : (BitVec.ofNat 32 ((grid5.coords ⟨t.val + 1, hlt⟩) 0).val).toNat
        = (BitVec.ofNat 32 ((grid5.coords t) 0).val).toNat := congrFun he 0
    rw [word5_0, word5_0] at e0
    have e1 : (t.val + 1) / 50 = t.val / 50 := e0
    omega

def edge5 (t : Fin cfg5.N) (r : Fin 4096) : Fin 3301376 :=
  ⟨4096 * (t.val / 50) + r.val, by
    have ht : t.val < 40300 := lt_of_lt_of_eq t.isLt N_5
    have hr := r.isLt
    omega⟩

def node5 (t : Fin cfg5.N) (r : Fin 2000) : Fin 100000 :=
  ⟨t.val % 50 * 2000 + r.val, by have hr := r.isLt; omega⟩

/-- Row r of a block numbered by the edge tile is edge 4096 (t / 50) + r; numbered by the node tile, node 2000 (t mod 50) + r. -/
theorem row5_0 (t : Fin cfg5.N) (r : Fin 4096) :
    (BitVec.ofNat 32 ((grid5.coords t) 0).val).toNat * 4096 + 1 * r.val = (edge5 t r).val := by
  rw [word5_0]
  show _ = 4096 * (t.val / 50) + r.val
  omega
theorem row5_1 (t : Fin cfg5.N) (r : Fin 2000) :
    (BitVec.ofNat 32 ((grid5.coords t) 1).val).toNat * 2000 + 1 * r.val = (node5 t r).val := by
  rw [word5_1]
  show _ = t.val % 50 * 2000 + r.val
  omega

variable (V : (c : Dev nD) → (b : Ref sig .tc) → Buf (Elt Ideal) ((c : Thread nD τ).loc b))

theorem iblk5_0_apply (c : Dev nD) (t : Fin cfg5.N) (r : Fin 4096) :
    (R5.iblk5 V c 0 t : Vec Ideal S4096 .i32) (ix1 r) = V c main_v7 (ix1 (edge5 t r)) := by
  unfold R5.iblk5
  rw [View.read_apply]
  show V c main_v7 _ = V c main_v7 _
  exact congrArg (V c main_v7) (ix1_eq _ _ (row5_0 t r))

theorem iblk5_1_apply (c : Dev nD) (t : Fin cfg5.N) (r : Fin 2000) (f : Fin 1) :
    (R5.iblk5 V c 1 t : Vec Ideal S2000x1 .f32) (ix2 r f) = V c main_v29 (ix2 (node5 t r) f) := by
  unfold R5.iblk5
  rw [View.read_apply]
  show V c main_v29 _ = V c main_v29 _
  exact congrArg (V c main_v29) (ix2_eq _ _ _ (row5_1 t r) (col_eq _ _))

theorem iblk5_2_apply (c : Dev nD) (t : Fin cfg5.N) (r : Fin 4096) (g : Fin 1) :
    R5.iblk5 V c 2 t (ix2 r g) = V c main_v20 (ix2 (edge5 t r) (0 : Fin 1)) := by
  obtain rfl : g = 0 := Subsingleton.elim _ _
  unfold R5.iblk5
  rw [View.read_apply]
  show V c main_v20 _ = V c main_v20 _
  exact congrArg (V c main_v20) (ix2_eq _ _ _ (row5_0 t r) (col_eq _ _))

abbrev tbl5 (c : Dev nD) (f : Fin 1) : Fin 100000 → EReal := fun n => V c main_v29 (ix2 n f)

/-- One point adds, at row r, its node tile's share of the gather for the row's edge. -/
theorem step5 (c : Dev nD) (t : Fin cfg5.N) (v20 : Vec Ideal S4096x1 .f32) (r : Fin 4096) (f : Fin 1) :
    k5_pay2 (grid5.coords t) (R5.iblk5 V c 0 t) (R5.iblk5 V c 1 t) v20 (ix2 r f)
      = v20 (ix2 r f) + hit (tbl5 V c f) (V c main_v7 (ix1 (edge5 t r))) (t.val % 50) := by
  refine (R5Pay.pay2_apply_toInt (grid5.coords t) ((grid5.coords t) 1).isLt (R5.iblk5 V c 0 t) (R5.iblk5 V c 1 t) v20 r f).trans ?_
  refine congrArg (fun s : EReal => v20 (ix2 r f) + s) ?_
  unfold hit
  refine Finset.sum_congr rfl fun r' _ => ?_
  have hr' := r'.isLt
  rw [iblk5_0_apply V c t r, iblk5_1_apply V c t r' f, R5.coord5_1 t,
    atD_lt (tbl5 V c f) (show t.val % 50 * 2000 + r'.val < 100000 by omega)]
  rfl

/-- After node tile j of an edge tile the accumulator holds the shares of node tiles 0 … j. -/
theorem acc5_apply (c : Dev nD) (f : Fin 1) : ∀ (j : ℕ) (t : Fin cfg5.N), t.val % 50 = j → ∀ r : Fin 4096,
    R5.acc5 V c t.val t.isLt (ix2 r f)
      = ∑ k ∈ Finset.range (j + 1), hit (tbl5 V c f) (V c main_v7 (ix1 (edge5 t r))) k
  | 0, t, ht, r => by
    rw [R5.acc5_first V c t ht]
    refine (step5 V c t _ r f).trans ?_
    rw [R5Pay.pay1_apply, zero_add, Finset.sum_range_one, ht]
  | j + 1, t, ht, r => by
    have hne : ¬ t.val % 50 = 0 := by omega
    have hlt : t.val - 1 < cfg5.N := Nat.lt_of_le_of_lt (Nat.sub_le _ _) t.isLt
    rw [R5.acc5_next V c t hne]
    refine (step5 V c t _ r f).trans ?_
    have ih := acc5_apply c f j ⟨t.val - 1, hlt⟩ (by show (t.val - 1) % 50 = j; omega) r
    have he : edge5 ⟨t.val - 1, hlt⟩ r = edge5 t r :=
      Fin.ext (by show 4096 * ((t.val - 1) / 50) + r.val = 4096 * (t.val / 50) + r.val; omega)
    rw [he] at ih
    rw [Finset.sum_range_succ _ (j + 1), ← ih, ht]

/-- The result at edge e: the one-hot gather of the table at the edge's index word, times the edge's scale entry. -/
def out5 (c : Dev nD) (e : Fin 3301376) (f : Fin 1) : EReal :=
  Spec.gsel (fun n => V c main_v29 (ix2 n f)) (V c main_v7 (ix1 e)) * V c main_v20 (ix2 e (0 : Fin 1))

def G5 (c : Dev nD) : Buf (Elt Ideal) ((c : Thread nD τ).loc main_v30) := fun i => out5 V c (i 0) (i 1)

theorem stored5_apply (c : Dev nD) (t : Fin cfg5.N) (h49 : t.val % 50 = 49) (r : Fin 4096) (f : Fin 1) :
    k5_pay3 (R5.acc5 V c t.val t.isLt) (R5.iblk5 V c 2 t) (ix2 r f) = out5 V c (edge5 t r) f := by
  refine (R5Pay.pay3_apply (R5.acc5 V c t.val t.isLt) (R5.iblk5 V c 2 t) r f).trans ?_
  rw [acc5_apply V c f 49 t h49 r, sum_hit]
  exact congrArg (fun s : EReal => Spec.gsel (fun n => V c main_v29 (ix2 n f)) (V c main_v7 (ix1 (edge5 t r))) * s)
    (iblk5_2_apply V c t r _)

theorem emb5_3 (t : Fin cfg5.N) (r : Fin 4096) (f : Fin 1) :
    ((cfg5.win 3).blk t).view.emb (ix2 r f) = ix2 (edge5 t r) f :=
  ix2_eq _ _ _ (row5_0 t r) (col_eq _ _)

theorem flushed5_eq (c : Dev nD) (t : Fin cfg5.N) (hf : (cfg5.win 3).flush t = true) :
    (R5.dat5 V c).flushed 3 t = ((cfg5.win 3).blk t).view.read (Elt Ideal) (G5 V c) := by
  have h49 : t.val % 50 = 49 := (flushAt5_3 t).mp hf
  show (cfg5.win 3).cut (grid5.coords t) ((R5.dat5 V c).after 3 t) = _
  rw [R5.after5_3]
  funext y
  obtain ⟨r, f, rfl⟩ : ∃ (r : Fin 4096) (f : Fin 1), y = ix2 r f := ⟨y 0, y 1, eq_ix2 y⟩
  show k5_pay3 (R5.acc5 V c t.val t.isLt) (R5.iblk5 V c 2 t) (ix2 r f) = G5 V c (((cfg5.win 3).blk t).view.emb (ix2 r f))
  rw [stored5_apply V c t h49 r f, emb5_3 t r f]
  rfl

/-- Every edge is row e mod 4096 of the block of its edge tile's last point. -/
theorem cover5 (i : S3301376x1.Idx) :
    ∃ t : Fin cfg5.N, (cfg5.win 3).flush t = true ∧ i ∈ ((cfg5.win 3).blk t).view.set := by
  obtain ⟨e, f, rfl⟩ : ∃ (e : Fin 3301376) (f : Fin 1), i = ix2 e f := ⟨i 0, i 1, eq_ix2 i⟩
  have he := e.isLt
  have hN : cfg5.N = 40300 := N_5
  have hT : 50 * (e.val / 4096) + 49 < cfg5.N := by omega
  refine ⟨⟨_, hT⟩, (flushAt5_3 _).mpr (by show (50 * (e.val / 4096) + 49) % 50 = 49; omega), ?_⟩
  have h := View.emb_mem_set ((cfg5.win 3).blk ⟨_, hT⟩).view (ix2 (⟨e.val % 4096, Nat.mod_lt _ (by norm_num)⟩ : Fin 4096) f)
  rwa [emb5_3, show edge5 ⟨_, hT⟩ ⟨e.val % 4096, Nat.mod_lt _ (by norm_num)⟩ = e from
    Fin.ext (by show 4096 * ((50 * (e.val / 4096) + 49) / 50) + e.val % 4096 = e.val; omega)] at h

theorem final5_arr (c : Dev nD) : (R5.dat5 V c).arrAt 3 cfg5.N = G5 V c :=
  (R5.dat5 V c).arrAt_eq_of_cover 3 (G5 V c) (flushed5_eq V c) cover5

/-- The result of region 5 at edge e: the one-hot gather of the table at the edge's index word, times the edge's scale. -/
theorem final5 (c : Dev nD) (e : Fin 3301376) (f : Fin 1) :
    (R5.dat5 V c).arrAt 3 cfg5.N (ix2 e f)
      = Spec.gsel (fun n => V c main_v29 (ix2 n f)) (V c main_v7 (ix1 e)) * V c main_v20 (ix2 e (0 : Fin 1)) :=
  congrFun (final5_arr V c) (ix2 e f)

end Cert.KernelIdeal.R5Value

end
-- ==== Proof.R6Pay.lean ====
import proofs.«401816_j90890097918492_1_alg».proof.Proof.R0Pay

noncomputable section

namespace Cert.KernelIdeal.R6Pay

open Cert.KernelIdeal Cert.KernelIdeal.Gen Idealize.ShloMosaic Idealize.ShloMosaic.ValueIdx

/-- Region 6's two payloads are region 0's, term for term. -/
theorem k6_pay1_eq : @k6_pay1 Ideal _ = @k0_pay1 Ideal _ := rfl
theorem k6_pay2_eq : @k6_pay2 Ideal _ = @k0_pay2 Ideal _ := rfl

theorem pay1_apply (r : Fin 2000) (f : Fin 1) : k6_pay1 (F := Ideal) (ix2 r f) = 0 := by
  rw [k6_pay1_eq]
  exact R0Pay.pay1_apply r f

theorem pay2_apply_toInt (i : grid6.Coords) (hi : (i 0).val < 50) (v7 : Vec Ideal S4096 .i32) (v16 : Vec Ideal S4096x1 .f32)
    (v20 : Vec Ideal S2000x1 .f32) (r : Fin 2000) (f : Fin 1) :
    k6_pay2 i v7 v16 v20 (ix2 r f) = v20 (ix2 r f) + ∑ j : Fin 4096,
      (if (v7 (ix1 j)).toInt = (((i 0).val * 2000 + r.val : ℕ) : Int) then (1 : EReal) else 0) * v16 (ix2 j f) := by
  rw [k6_pay2_eq]
  exact R0Pay.pay2_apply_toInt i hi v7 v16 v20 r f

end Cert.KernelIdeal.R6Pay

end
-- ==== Proof.R6Value.lean ====
import proofs.«401816_j90890097918492_1_alg».proof.Proof.R6Frame
import proofs.«401816_j90890097918492_1_alg».proof.Proof.R6Pay
import proofs.«401816_j90890097918492_1_alg».proof.Proof.ValueLib
import Idealize.ShloMosaic.Lib.Pipeline.Value
import Idealize.ShloMosaic.Lib.ValueIdx
import Idealize.ShloMosaic.PureOps.Ideal.Laws

noncomputable section

namespace Cert.KernelIdeal.R6Value

open Cert.KernelIdeal Cert.KernelIdeal.Gen Cert.ValueLib Cert.PayLib
open Idealize.ShloMosaic Idealize.ShloMosaic.TcCoe Idealize.ShloMosaic.ValueIdx Idealize.SL.Sem
open Idealize.ShloMosaic.Pipeline (Dat)
open scoped BigOperators

/-- Point t is in node tile t / 806, at edge tile t mod 806; both block numbers are below 2^32. -/
theorem coords6_0 (t : Fin cfg6.N) : (grid6.coords t 0).val = t.val / 806 := by
  have ht : t.val < 40300 := lt_of_lt_of_eq t.isLt N_6
  show t.val / grid6.stride 0 % 50 = _
  rw [show grid6.stride 0 = 806 from by decide]
  omega
theorem coords6_1 (t : Fin cfg6.N) : (grid6.coords t 1).val = t.val % 806 := by
  show t.val / grid6.stride 1 % 806 = _
  rw [show grid6.stride 1 = 1 from by decide, Nat.div_one]
theorem word6_0 (t : Fin cfg6.N) : (BitVec.ofNat 32 (grid6.coords t 0).val).toNat = t.val / 806 := by
  have ht : t.val < 40300 := lt_of_lt_of_eq t.isLt N_6
  rw [coords6_0, BitVec.toNat_ofNat]
  omega
theorem word6_1 (t : Fin cfg6.N) : (BitVec.ofNat 32 (grid6.coords t 1).val).toNat = t.val % 806 := by
  rw [coords6_1, BitVec.toNat_ofNat]
  omega

def node6 (t : Fin cfg6.N) (r : Fin 2000) : Fin 100000 :=
  ⟨t.val / 806 * 2000 + r.val, by
    have ht : t.val < 40300 := lt_of_lt_of_eq t.isLt N_6
    have hr := r.isLt
    omega⟩

/-- Row j of a block numbered by the edge tile is edge position 4096 (t mod 806) + j. -/
theorem row6 (t : Fin cfg6.N) (j : ℕ) :
    (BitVec.ofNat 32 (grid6.coords t 1).val).toNat * 4096 + 1 * j = t.val % 806 * 4096 + j := by
  rw [word6_1]
  omega

variable (V : (c : Dev nD) → (b : Ref sig .tc) → Buf (Elt Ideal) ((c : Thread nD τ).loc b))

abbrev idx6 (c : Dev nD) : Fin 3301376 → BitVec 32 := fun e => V c main_v8 (ix1 e)
abbrev upd6 (c : Dev nD) (f : Fin 1) : Fin 3301376 → EReal := fun e => V c main_v30 (ix2 e f)

theorem idxBlk6_apply (c : Dev nD) (t : Fin cfg6.N) (j : Fin 4096) :
    (R6.iblk6 V c 0 t : Vec Ideal S4096 .i32) (ix1 j) = atD (idx6 V c) (t.val % 806 * 4096 + j.val) := by
  have hlt : t.val % 806 * 4096 + j.val < 3301376 := by have := j.isLt; omega
  rw [atD_lt _ hlt]
  unfold R6.iblk6
  rw [View.read_apply]
  show V c main_v8 _ = V c main_v8 _
  exact congrArg (V c main_v8) (ix1_eq _ ⟨_, hlt⟩ (row6 t j.val))

theorem updBlk6_apply (c : Dev nD) (t : Fin cfg6.N) (j : Fin 4096) (f : Fin 1) :
    (R6.iblk6 V c 1 t : Vec Ideal S4096x1 .f32) (ix2 j f) = atD (upd6 V c f) (t.val % 806 * 4096 + j.val) := by
  have hlt : t.val % 806 * 4096 + j.val < 3301376 := by have := j.isLt; omega
  rw [atD_lt _ hlt]
  unfold R6.iblk6
  rw [View.read_apply]
  show V c main_v30 _ = V c main_v30 _
  exact congrArg (V c main_v30) (ix2_eq _ ⟨_, hlt⟩ _ (row6 t j.val) (col_eq _ _))

/-- What edge tile s adds to row r of node tile n: over the tile's edges, the one-hot entry "the edge's word reads as
    node 2000 n + r" times the edge's message. -/
def tile6 (c : Dev nD) (f : Fin 1) (n : ℕ) (r : Fin 2000) (s : ℕ) : EReal :=
  ∑ j : Fin 4096, (if (atD (idx6 V c) (s * 4096 + j.val)).toInt = ((n * 2000 + r.val : ℕ) : Int) then (1 : EReal) else 0)
    * atD (upd6 V c f) (s * 4096 + j.val)

theorem step6 (c : Dev nD) (t : Fin cfg6.N) (v20 : Vec Ideal S2000x1 .f32) (r : Fin 2000) (f : Fin 1) :
    k6_pay2 (grid6.coords t) (R6.iblk6 V c 0 t) (R6.iblk6 V c 1 t) v20 (ix2 r f)
      = v20 (ix2 r f) + tile6 V c f (t.val / 806) r (t.val % 806) := by
  have ht : t.val < 40300 := lt_of_lt_of_eq t.isLt N_6
  refine (R6Pay.pay2_apply_toInt (grid6.coords t) (by rw [coords6_0]; omega) (R6.iblk6 V c 0 t) (R6.iblk6 V c 1 t) v20 r f).trans
    (congrArg (fun x => v20 (ix2 r f) + x) ?_)
  unfold tile6
  refine Finset.sum_congr rfl fun j _ => ?_
  rw [coords6_0 t, idxBlk6_apply V c t j, updBlk6_apply V c t j f]

/-- After point t the accumulator holds the shares of edge tiles 0 … t mod 806 for node tile t / 806. -/
theorem acc6_apply (c : Dev nD) (f : Fin 1) (r : Fin 2000) : ∀ (t : ℕ) (ht : t < cfg6.N),
    R6.acc6 V c t ht (ix2 r f) = ∑ s ∈ Finset.range (t % 806 + 1), tile6 V c f (t / 806) r s :=
  run_sum 806 (fun n h => by omega) (fun t ht => R6.acc6 V c t ht (ix2 r f)) (fun q s => tile6 V c f q r s)
    (fun n h h0 => by
      refine (congrFun (R6.acc6_first V c ⟨n, h⟩ h0) (ix2 r f)).trans ((step6 V c ⟨n, h⟩ _ r f).trans ?_)
      rw [R6Pay.pay1_apply, zero_add]
      show tile6 V c f (n / 806) r (n % 806) = _
      rw [h0])
    (fun n h hne => (congrFun (R6.acc6_next V c ⟨n + 1, h⟩ hne) (ix2 r f)).trans (step6 V c ⟨n + 1, h⟩ _ r f))

/-- The result array: at (n, f) the scatter sum of the messages' column f at node n. -/
def res6 (c : Dev nD) : Buf (Elt Ideal) ((c : Thread nD τ).loc main_v31) := fun i =>
  Spec.ssum (fun e : Fin 3301376 => V c main_v8 (ix1 e)) (fun e => V c main_v30 (ix2 e (i 1))) (i 0)

theorem res6_apply (c : Dev nD) (n : Fin 100000) (f : Fin 1) :
    res6 V c (ix2 n f) = Spec.ssum (fun e : Fin 3301376 => V c main_v8 (ix1 e)) (fun e => V c main_v30 (ix2 e f)) n := rfl

theorem emb6_2 (t : Fin cfg6.N) (r : Fin 2000) (f : Fin 1) :
    ((cfg6.win 2).blk t).view.emb (ix2 r f) = (ix2 (node6 t r) f : S100000x1.Idx) :=
  ix2_eq _ _ _ (by
    show (BitVec.ofNat 32 (grid6.coords t 0).val).toNat * 2000 + 1 * r.val = t.val / 806 * 2000 + r.val
    rw [word6_0]
    omega) (col_eq _ _)

theorem flushed6_eq (c : Dev nD) (t : Fin cfg6.N) (hf : (cfg6.win 2).flush t = true) :
    (R6.dat6 V c).flushed 2 t = ((cfg6.win 2).blk t).view.read (Elt Ideal) (res6 V c) := by
  have h805 : t.val % 806 = 805 := (R6.flushAt6_2 t).mp hf
  show (cfg6.win 2).cut (grid6.coords t) ((R6.dat6 V c).after 2 t) = _
  rw [R6.after6_2]
  refine funext fun (j : S2000x1.Idx) => ?_
  obtain ⟨r, f, rfl⟩ : ∃ (r : Fin 2000) (f : Fin 1), j = ix2 r f := ⟨j 0, j 1, eq_ix2 j⟩
  refine (acc6_apply V c f r t.val t.isLt).trans ?_
  rw [View.read_apply, cast_eq, emb6_2 t r f, show t.val % 806 + 1 = 806 by omega, res6_apply V c (node6 t r) f]
  exact sum_tiles (idx6 V c) (upd6 V c f) (node6 t r)

/-- Node n is row n mod 2000 of the block of its node tile's last point. -/
theorem cover6 (i : S100000x1.Idx) :
    ∃ t : Fin cfg6.N, (cfg6.win 2).flush t = true ∧ i ∈ ((cfg6.win 2).blk t).view.set := by
  obtain ⟨n, f, rfl⟩ : ∃ (n : Fin 100000) (f : Fin 1), i = ix2 n f := ⟨i 0, i 1, eq_ix2 i⟩
  have hn := n.isLt
  have hN : cfg6.N = 40300 := N_6
  have hT : n.val / 2000 * 806 + 805 < cfg6.N := by omega
  refine ⟨⟨_, hT⟩, (R6.flushAt6_2 _).mpr (by show (n.val / 2000 * 806 + 805) % 806 = 805; omega), ?_⟩
  have h := View.emb_mem_set ((cfg6.win 2).blk ⟨_, hT⟩).view (ix2 (⟨n.val % 2000, Nat.mod_lt _ (by norm_num)⟩ : Fin 2000) f)
  rwa [emb6_2, show node6 ⟨_, hT⟩ ⟨n.val % 2000, Nat.mod_lt _ (by norm_num)⟩ = n from
    Fin.ext (by show (n.val / 2000 * 806 + 805) / 806 * 2000 + n.val % 2000 = n.val; omega)] at h

theorem final6_arr (c : Dev nD) : (R6.dat6 V c).arrAt 2 cfg6.N = res6 V c :=
  (R6.dat6 V c).arrAt_eq_of_cover 2 (res6 V c) (flushed6_eq V c) (cover6)

/-- The result of region 6 at node n, column f: the sum of the messages of the edges whose index word reads as n. -/
theorem final6 (c : Dev nD) (n : Fin 100000) (f : Fin 1) :
    (R6.dat6 V c).arrAt 2 cfg6.N (ix2 n f)
      = Spec.ssum (fun e : Fin 3301376 => V c main_v8 (ix1 e)) (fun e => V c main_v30 (ix2 e f)) n := by
  rw [final6_arr]
  exact res6_apply V c n f

end Cert.KernelIdeal.R6Value
end
-- ==== Proof.KFinalI.lean ====
import proofs.«401816_j90890097918492_1_alg».proof.Proof.KChainI
import proofs.«401816_j90890097918492_1_alg».proof.Proof.KValue
import proofs.«401816_j90890097918492_1_alg».proof.Proof.R0Value
import proofs.«401816_j90890097918492_1_alg».proof.Proof.R1Value
import proofs.«401816_j90890097918492_1_alg».proof.Proof.R2Value
import proofs.«401816_j90890097918492_1_alg».proof.Proof.R3Value
import proofs.«401816_j90890097918492_1_alg».proof.Proof.R4Value
import proofs.«401816_j90890097918492_1_alg».proof.Proof.R5Value
import proofs.«401816_j90890097918492_1_alg».proof.Proof.R6Value
import proofs.«401816_j90890097918492_1_alg».proof.Proof.Spec
import Idealize.ShloMosaic.Lib.ValueIdx

noncomputable section

namespace Cert.KernelIdeal.KFinal

open Cert.KernelIdeal Cert.KernelIdeal.Gen Cert.KernelIdeal.KChain
open Idealize.ShloMosaic Idealize.ShloMosaic.TcCoe Idealize.ShloMosaic.ValueIdx
open Idealize.SL Idealize.SL.Sem

variable (m : (ℓ : Loc nD τ sig) → Buf (Elt Ideal) ℓ)

theorem H0 (c : Dev nD) (n : Fin 100000) :
    outs m 8 main_v12 c (ix2 n (0 : Fin 1))
      = Cert.Spec.ssum (fun e : Fin 3301376 => V7 m c main_v8 (ix1 e)) (fun e => V7 m c main_v10 (ix2 e (0 : Fin 1))) n := by
  rw [outs_v12 m 8 c]
  exact R0Value.final0 (asV (V7 m)) c n 0

theorem H1 (c : Dev nD) (e : Fin 3301376) :
    outs m 11 main_v17 c (ix2 e (0 : Fin 1))
      = Cert.Spec.gsel (fun n => V10 m (outs m) c main_v16 (ix2 n (0 : Fin 1))) (V10 m (outs m) c main_v7 (ix1 e))
          * V10 m (outs m) c main_v11 (ix2 e (0 : Fin 1)) := by
  rw [outs_v17 m 11 c, V10_outs m c]
  exact R1Value.final1 (asV (V10 m (outs1 m))) c e 0

theorem H2 (c : Dev nD) (e : Fin 3301376) :
    outs m 12 main_v18 c (ix2 e (0 : Fin 1))
      = Cert.Spec.gsel (fun n => V11 m (outs m) c main_v16 (ix2 n (0 : Fin 1))) (V11 m (outs m) c main_v8 (ix1 e))
          * V11 m (outs m) c main_v11 (ix2 e (0 : Fin 1)) := by
  rw [outs_v18 m 12 c, V11_outs m c]
  exact R2Value.final2 (asV (V11 m (outs2 m))) c e 0

theorem H3 (c : Dev nD) (e : Fin 3301376) (f : Fin 16) :
    outs m 15 main_v23 c (ix2 e f)
      = Cert.Spec.gsel (fun n => V14 m (outs m) c main_v22 (ix2 n f)) (V14 m (outs m) c main_v7 (ix1 e))
          * V14 m (outs m) c main_v20 (ix2 e (0 : Fin 1)) := by
  rw [outs_v23 m 15 c, V14_outs m c]
  exact R3Value.final3 (asV (V14 m (outs3 m))) c e f

theorem H4 (c : Dev nD) (n : Fin 100000) (f : Fin 16) :
    outs m 16 main_v24 c (ix2 n f)
      = Cert.Spec.ssum (fun e : Fin 3301376 => V15 m (outs m) c main_v8 (ix1 e)) (fun e => V15 m (outs m) c main_v23 (ix2 e f)) n := by
  rw [outs_v24 m 16 c, V15_outs m c]
  exact R4Value.final4 (asV (V15 m (outs4 m))) c n f

theorem H5 (c : Dev nD) (e : Fin 3301376) :
    outs m 20 main_v30 c (ix2 e (0 : Fin 1))
      = Cert.Spec.gsel (fun n => V19 m (outs m) c main_v29 (ix2 n (0 : Fin 1))) (V19 m (outs m) c main_v7 (ix1 e))
          * V19 m (outs m) c main_v20 (ix2 e (0 : Fin 1)) := by
  rw [outs_v30 m 20 c, V19_outs m c]
  exact R5Value.final5 (asV (V19 m (outs5 m))) c e 0

theorem H6 (c : Dev nD) (n : Fin 100000) :
    outs m 21 main_v31 c (ix2 n (0 : Fin 1))
      = Cert.Spec.ssum (fun e : Fin 3301376 => V20 m (outs m) c main_v8 (ix1 e)) (fun e => V20 m (outs m) c main_v30 (ix2 e (0 : Fin 1))) n := by
  rw [outs_v31 m 21 c, V20_outs m c]
  exact R6Value.final6 (asV (V20 m (outs6 m))) c n 0

theorem kernel_value (c : Dev nD) (n : Fin 100000) :
    V22 m (outs m) c main_v34 (ix2 n (0 : Fin 1)) = Cert.Spec.outK (fun n k => m ((c : Thread nD τ).loc main_arg0) (ix2 n k)) (fun k f => m ((c : Thread nD τ).loc main_arg1) (ix2 k f))
      (fun f => m ((c : Thread nD τ).loc main_arg2) (ix1 f)) (fun f k => m ((c : Thread nD τ).loc main_arg3) (ix2 f k))
      (fun k => m ((c : Thread nD τ).loc main_arg4) (ix1 k)) (fun r e => m ((c : Thread nD τ).loc main_arg5) (ix2 r e)) n :=
  KValue.kernel_out m (outs m) c (H0 m c) (H1 m c) (H2 m c) (H3 m c) (H4 m c) (H5 m c) (H6 m c) n

end Cert.KernelIdeal.KFinal

end
-- ==== Proof.Alg.lean ====
import proofs.«401816_j90890097918492_1_alg».proof.Defs
import proofs.«401816_j90890097918492_1_alg».proof.Proof.Gen.Pre_finite_inputs
import proofs.«401816_j90890097918492_1_alg».proof.Proof.Spec
import proofs.«401816_j90890097918492_1_alg».proof.Proof.PreDecode
import proofs.«401816_j90890097918492_1_alg».proof.Proof.RefValue
import proofs.«401816_j90890097918492_1_alg».proof.Proof.KRunI
import proofs.«401816_j90890097918492_1_alg».proof.Proof.KFinalI
import Idealize.ShloMosaic.Lib.ValueIdx

noncomputable section

namespace Cert.Proof.Alg

open Idealize.ShloMosaic Idealize.ShloMosaic.TcCoe Idealize.SL.Sem Idealize.ShloMosaic.ValueIdx

theorem result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) :
    Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.Gen.V22 m (Cert.KernelIdeal.KChain.outs m) c Cert.KernelIdeal.main_v34 := by
  funext i
  obtain ⟨n, k, rfl⟩ : ∃ (n : Fin 100000) (k : Fin 1), i = ix2 n k := ⟨i 0, i 1, eq_ix2 i⟩
  obtain rfl : k = 0 := Subsingleton.elim _ _
  rw [Cert.RefValue.ref_out, Cert.KernelIdeal.KFinal.kernel_value]
  exact (Cert.Spec.outK_eq_outR _ _ _ _ _ _ Cert.RefValue.cl Cert.RefValue.cl_of_lt
    (Cert.PreDecode.src_lt_of_pre _ _ _ _ _ _ hpre) n).symm

theorem frame_ki : Cert.frame_KernelIdeal := fun m ρ _ =>
  (θ_run Cert.KernelIdeal.defs _ _).mono (fun _ h c => (h c).2) (Cert.KernelIdeal.KChain.run (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.V22 m (Cert.KernelIdeal.KChain.outs m) c Cert.KernelIdeal.main_v34, Cert.KernelIdeal.KChain.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v86_eq, (hagree c).1, (hagree c).2.1, (hagree c).2.2.1, (hagree c).2.2.2.1,
    (hagree c).2.2.2.2.1, (hagree c).2.2.2.2.2]
  exact result_eq m c (hpre c)

end Cert.Proof.Alg

end
-- ==== Proof.lean ====
import proofs.«401816_j90890097918492_1_alg».proof.Defs
import proofs.«401816_j90890097918492_1_alg».proof.Proof.Gen.Kernel
import proofs.«401816_j90890097918492_1_alg».proof.Proof.Gen.KernelIdeal
import proofs.«401816_j90890097918492_1_alg».proof.Proof.Gen.ReferenceIdeal
import proofs.«401816_j90890097918492_1_alg».proof.Proof.Gen.Pre_finite_inputs
import proofs.«401816_j90890097918492_1_alg».proof.Proof.KRunB
import proofs.«401816_j90890097918492_1_alg».proof.Proof.Alg

noncomputable section

namespace Cert.Proof

open Idealize.ShloMosaic Idealize.SL.Sem

theorem frame_k : Cert.frame_Kernel := fun m ρ _ =>
  (θ_run Cert.Kernel.defs _ _).mono (fun _ h c => (h c).2) (Cert.Kernel.KChain.run (F := Bits) m ρ)

theorem claim : Cert.Claim :=
  ⟨Cert.Kernel.Gen.facts, Cert.KernelIdeal.Gen.facts, Cert.ReferenceIdeal.Gen.facts, Cert.Pre_finite_inputs.Gen.facts,
    frame_k, Alg.frame_ki, Alg.frame_ri, Alg.preserves, Alg.algebraic⟩

end Cert.Proof

end
